-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S250000x128 : Shape := ⟨2, ![250000, 128]⟩
abbrev S64x64 : Shape := ⟨2, ![64, 64]⟩
abbrev S64 : Shape := ⟨1, ![64]⟩
abbrev S128x64 : Shape := ⟨2, ![128, 64]⟩
abbrev S1500000 : Shape := ⟨1, ![1500000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S250000x128 : S_.BroadcastsInDim S250000x128 (![] : Fin 0 → Fin S250000x128.rank)
  reducesTo_S250000x128_S_d0_1 : S250000x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S1500000 : S_.BroadcastsInDim S1500000 (![] : Fin 0 → Fin S1500000.rank)
  reducesTo_S1500000_S_d0 : S1500000.ReducesTo [0] S_
  bcast_S_S500000 : S_.BroadcastsInDim S500000 (![] : Fin 0 → Fin S500000.rank)
  reducesTo_S500000_S_d0 : S500000.ReducesTo [0] S_

variable [Facts]

def fn_part10 {F : FTy → Type} [FloatOps F] (main_arg33 : IVec S500000 32) (main_v169 : IVec S_ 1) (main_c_67 : IVec S_ 32) : IVec S_ 1 :=
  let main_v170 : IVec S500000 32 := broadcastInDim S500000 ![] bcast_S_S500000 main_c_67
  let main_v171 : IVec S500000 1 := cmpi .sge main_arg33 main_v170
  let main_c_68 : IVec S_ 32 := constantI S_ 32 250000#32
  let main_v172 : IVec S500000 32 := broadcastInDim S500000 ![] bcast_S_S500000 main_c_68
  let main_v173 : IVec S500000 1 := cmpi .slt main_arg33 main_v172
  let main_v174 : IVec S500000 1 := andi main_v171 main_v173
  let main_c_69 : IVec S_ 1 := constantI S_ 1 1#1
  let main_v175 : IVec S_ 1 := (fun x v => Host.reduce IntOp.andi x v reducesTo_S500000_S_d0 h_S_) main_v174 main_c_69
  let main_v176 : IVec S_ 1 := andi main_v169 main_v175
  main_v176

def fn_part9 {F : FTy → Type} [FloatOps F] (main_arg31 : IVec S1500000 32) (main_arg32 : IVec S500000 32) (main_arg33 : IVec S500000 32) (main_v148 : IVec S_ 1) (main_v153 : IVec S1500000 1) : IVec S_ 1 :=
  let main_c_60 : IVec S_ 1 := constantI S_ 1 1#1
  let main_v154 : IVec S_ 1 := (fun x v => Host.reduce IntOp.andi x v reducesTo_S1500000_S_d0 h_S_) main_v153 main_c_60
  let main_v155 : IVec S_ 1 := andi main_v148 main_v154
  let main_c_61 : IVec S_ 32 := constantI S_ 32 0#32
  let main_v156 : IVec S1500000 32 := broadcastInDim S1500000 ![] bcast_S_S1500000 main_c_61
  let main_v157 : IVec S1500000 1 := cmpi .sge main_arg31 main_v156
  let main_c_62 : IVec S_ 32 := constantI S_ 32 250000#32
  let main_v158 : IVec S1500000 32 := broadcastInDim S1500000 ![] bcast_S_S1500000 main_c_62
  let main_v159 : IVec S1500000 1 := cmpi .slt main_arg31 main_v158
  let main_v160 : IVec S1500000 1 := andi main_v157 main_v159
  let main_c_63 : IVec S_ 1 := constantI S_ 1 1#1
  let main_v161 : IVec S_ 1 := (fun x v => Host.reduce IntOp.andi x v reducesTo_S1500000_S_d0 h_S_) main_v160 main_c_63
  let main_v162 : IVec S_ 1 := andi main_v155 main_v161
  let main_c_64 : IVec S_ 32 := constantI S_ 32 0#32
  let main_v163 : IVec S500000 32 := broadcastInDim S500000 ![] bcast_S_S500000 main_c_64
  let main_v164 : IVec S500000 1 := cmpi .sge main_arg32 main_v163
  let main_c_65 : IVec S_ 32 := constantI S_ 32 100000#32
  let main_v165 : IVec S500000 32 := broadcastInDim S500000 ![] bcast_S_S500000 main_c_65
  let main_v166 : IVec S500000 1 := cmpi .slt main_arg32 main_v165
  let main_v167 : IVec S500000 1 := andi main_v164 main_v166
  let main_c_66 : IVec S_ 1 := constantI S_ 1 1#1
  let main_v168 : IVec S_ 1 := (fun x v => Host.reduce IntOp.andi x v reducesTo_S500000_S_d0 h_S_) main_v167 main_c_66
  let main_v169 : IVec S_ 1 := andi main_v162 main_v168
  let main_c_67 : IVec S_ 32 := constantI S_ 32 0#32
  fn_part10 (F := F) main_arg33 main_v169 main_c_67

def fn_part8 {F : FTy → Type} [FloatOps F] (main_arg28 : FVec F S64 .f32) (main_arg29 : FVec F S64 .f32) (main_arg30 : IVec S1500000 32) (main_arg31 : IVec S1500000 32) (main_arg32 : IVec S500000 32) (main_arg33 : IVec S500000 32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg28
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg29
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_c_58 : IVec S_ 32 := constantI S_ 32 0#32
  let main_v149 : IVec S1500000 32 := broadcastInDim S1500000 ![] bcast_S_S1500000 main_c_58
  let main_v150 : IVec S1500000 1 := cmpi .sge main_arg30 main_v149
  let main_c_59 : IVec S_ 32 := constantI S_ 32 100000#32
  let main_v151 : IVec S1500000 32 := broadcastInDim S1500000 ![] bcast_S_S1500000 main_c_59
  let main_v152 : IVec S1500000 1 := cmpi .slt main_arg30 main_v151
  let main_v153 : IVec S1500000 1 := andi main_v150 main_v152
  fn_part9 (F := F) main_arg31 main_arg32 main_arg33 main_v148 main_v153

def fn_part7 {F : FTy → Type} [FloatOps F] (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg25
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg27
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg28 main_arg29 main_arg30 main_arg31 main_arg32 main_arg33 main_v133 main_v136

def fn_part6 {F : FTy → Type} [FloatOps F] (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg22
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64x64 .f32 := Host.absf main_arg23
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg24
  fn_part7 (F := F) main_arg25 main_arg26 main_arg27 main_arg28 main_arg29 main_arg30 main_arg31 main_arg32 main_arg33 main_v118 main_v119

def fn_part5 {F : FTy → Type} [FloatOps F] (main_arg18 : FVec F S64 .f32) (main_arg19 : FVec F S64 .f32) (main_arg20 : FVec F S64x64 .f32) (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_v98 main_v101 main_c_39

def fn_part4 {F : FTy → Type} [FloatOps F] (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64x64 .f32) (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64x64 .f32) (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64x64 .f32) (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg4 : FVec F S128x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64x64 .f32) (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S100000x64 .f32) (main_arg1 : FVec F S250000x128 .f32) (main_arg2 : FVec F S64x64 .f32) (main_arg3 : FVec F S64 .f32) (main_arg4 : FVec F S128x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64x64 .f32) (main_arg21 : FVec F S64 .f32) (main_arg22 : FVec F S64x64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S64 .f32) (main_arg30 : IVec S1500000 32) (main_arg31 : IVec S1500000 32) (main_arg32 : IVec S500000 32) (main_arg33 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S250000x128 .f32 := Host.absf main_arg1
  let main_cst_0 : FVec F S_ .f32 := constant S_ .f32 0x7F800000#32
  let main_v5 : FVec F S250000x128 .f32 := broadcastInDim S250000x128 ![] bcast_S_S250000x128 main_cst_0
  let main_v6 : IVec S250000x128 1 := cmpf .olt main_v4 main_v5
  let main_c_1 : IVec S_ 1 := constantI S_ 1 1#1
  let main_v7 : IVec S_ 1 := (fun x v => Host.reduce IntOp.andi x v reducesTo_S250000x128_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S100000x64 : Shape := ⟨2, ![100000, 64]⟩
abbrev S250000x128 : Shape := ⟨2, ![250000, 128]⟩
abbrev S64x64 : Shape := ⟨2, ![64, 64]⟩
abbrev S64 : Shape := ⟨1, ![64]⟩
abbrev S128x64 : Shape := ⟨2, ![128, 64]⟩
abbrev S1500000 : Shape := ⟨1, ![1500000]⟩
abbrev S500000 : Shape := ⟨1, ![500000]⟩
abbrev S1x64 : Shape := ⟨2, ![1, 64]⟩
abbrev S10x1x64 : Shape := ⟨3, ![10, 1, 64]⟩
abbrev S10000x64 : Shape := ⟨2, ![10000, 64]⟩
abbrev S1x1x64 : Shape := ⟨3, ![1, 1, 64]⟩
abbrev S_ : Shape := ⟨0, ![]⟩
abbrev S250000x64 : Shape := ⟨2, ![250000, 64]⟩
abbrev S25x1x64 : Shape := ⟨3, ![25, 1, 64]⟩
abbrev S10000x128 : Shape := ⟨2, ![10000, 128]⟩
abbrev S1500000x1 : Shape := ⟨2, ![1500000, 1]⟩
abbrev S1 : Shape := ⟨1, ![1]⟩
abbrev S1x1 : Shape := ⟨2, ![1, 1]⟩
abbrev S1500000x64 : Shape := ⟨2, ![1500000, 64]⟩
abbrev S250000x1 : Shape := ⟨2, ![250000, 1]⟩
abbrev S10000x1 : Shape := ⟨2, ![10000, 1]⟩
abbrev S100000x1 : Shape := ⟨2, ![100000, 1]⟩
abbrev S500000x1 : Shape := ⟨2, ![500000, 1]⟩
abbrev S500000x64 : Shape := ⟨2, ![500000, 64]⟩
abbrev S10000 : Shape := ⟨1, ![10000]⟩

abbrev nBuf : Space → Nat
  | .hbm => 320
  | .vmem => 144
  | .smem => 0
  | _ => 0

abbrev hbmTy0_0 (i : Nat) : BufTy := match i % 128 with
  | 0 => ⟨S100000x64, .f32⟩
  | 1 => ⟨S250000x128, .f32⟩
  | 2 => ⟨S64x64, .f32⟩
  | 3 => ⟨S64, .f32⟩
  | 4 => ⟨S128x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64x64, .f32⟩
  | 21 => ⟨S64, .f32⟩
  | 22 => ⟨S64x64, .f32⟩
  | 23 => ⟨S64x64, .f32⟩
  | 24 => ⟨S64, .f32⟩
  | 25 => ⟨S64x64, .f32⟩
  | 26 => ⟨S64, .f32⟩
  | 27 => ⟨S64, .f32⟩
  | 28 => ⟨S64, .f32⟩
  | 29 => ⟨S64, .f32⟩
  | 30 => ⟨S1500000, .i32⟩
  | 31 => ⟨S1500000, .i32⟩
  | 32 => ⟨S500000, .i32⟩
  | 33 => ⟨S500000, .i32⟩
  | 34 => ⟨S1x64, .f32⟩
  | 35 => ⟨S100000x64, .f32⟩
  | 36 => ⟨S10x1x64, .f32⟩
  | 37 => ⟨S_, .f32⟩
  | 38 => ⟨S1x64, .f32⟩
  | 39 => ⟨S_, .f32⟩
  | 40 => ⟨S1x64, .f32⟩
  | 41 => ⟨S1x64, .f32⟩
  | 42 => ⟨S10x1x64, .f32⟩
  | 43 => ⟨S_, .f32⟩
  | 44 => ⟨S1x64, .f32⟩
  | 45 => ⟨S_, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S1x64, .f32⟩
  | 52 => ⟨S1x64, .f32⟩
  | 53 => ⟨S100000x64, .f32⟩
  | 54 => ⟨S1x64, .f32⟩
  | 55 => ⟨S250000x64, .f32⟩
  | 56 => ⟨S25x1x64, .f32⟩
  | 57 => ⟨S_, .f32⟩
  | 58 => ⟨S1x64, .f32⟩
  | 59 => ⟨S_, .f32⟩
  | 60 => ⟨S1x64, .f32⟩
  | 61 => ⟨S1x64, .f32⟩
  | 62 => ⟨S25x1x64, .f32⟩
  | 63 => ⟨S_, .f32⟩
  | 64 => ⟨S1x64, .f32⟩
  | 65 => ⟨S_, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S1x64, .f32⟩
  | 72 => ⟨S1x64, .f32⟩
  | 73 => ⟨S250000x64, .f32⟩
  | 74 => ⟨S_, .i32⟩
  | 75 => ⟨S1500000, .i32⟩
  | 76 => ⟨S1500000, .i1⟩
  | 77 => ⟨S_, .i32⟩
  | 78 => ⟨S1500000, .i32⟩
  | 79 => ⟨S1500000, .i32⟩
  | 80 => ⟨S1500000, .i32⟩
  | 81 => ⟨S1500000x1, .i32⟩
  | 82 => ⟨S1, .i32⟩
  | 83 => ⟨S_, .i32⟩
  | 84 => ⟨S1500000x1, .i32⟩
  | 85 => ⟨S1500000x1, .i1⟩
  | 86 => ⟨S1x1, .i32⟩
  | 87 => ⟨S1500000x1, .i32⟩
  | 88 => ⟨S1500000x1, .i1⟩
  | 89 => ⟨S1500000x1, .i1⟩
  | 90 => ⟨S_, .i1⟩
  | 91 => ⟨S1500000, .i1⟩
  | 92 => ⟨S1500000x64, .f32⟩
  | 93 => ⟨S1500000x64, .i1⟩
  | 94 => ⟨S_, .f32⟩
  | 95 => ⟨S1500000x64, .f32⟩
  | 96 => ⟨S1500000x64, .f32⟩
  | 97 => ⟨S_, .f32⟩
  | 98 => ⟨S250000x64, .f32⟩
  | 99 => ⟨S1500000x1, .i32⟩
  | 100 => ⟨S250000x64, .f32⟩
  | 101 => ⟨S_, .f32⟩
  | 102 => ⟨S1500000x1, .f32⟩
  | 103 => ⟨S_, .f32⟩
  | 104 => ⟨S250000x1, .f32⟩
  | 105 => ⟨S1500000x1, .i32⟩
  | 106 => ⟨S250000x1, .f32⟩
  | 107 => ⟨S1x64, .f32⟩
  | 108 => ⟨S250000x64, .f32⟩
  | 109 => ⟨S25x1x64, .f32⟩
  | 110 => ⟨S_, .f32⟩
  | 111 => ⟨S1x64, .f32⟩
  | 112 => ⟨S_, .f32⟩
  | 113 => ⟨S1x64, .f32⟩
  | 114 => ⟨S1x64, .f32⟩
  | 115 => ⟨S25x1x64, .f32⟩
  | 116 => ⟨S_, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S250000x64, .f32⟩
  | 127 => ⟨S_, .i32⟩
  | _ => ⟨S100000x64, .f32⟩

abbrev hbmTy0_1 (i : Nat) : BufTy := match i % 128 with
  | 0 => ⟨S1500000, .i32⟩
  | 1 => ⟨S1500000, .i1⟩
  | 2 => ⟨S_, .i32⟩
  | 3 => ⟨S1500000, .i32⟩
  | 4 => ⟨S1500000, .i32⟩
  | 5 => ⟨S1500000, .i32⟩
  | 6 => ⟨S1500000x1, .i32⟩
  | 7 => ⟨S1, .i32⟩
  | 8 => ⟨S_, .i32⟩
  | 9 => ⟨S1500000x1, .i32⟩
  | 10 => ⟨S1500000x1, .i1⟩
  | 11 => ⟨S1x1, .i32⟩
  | 12 => ⟨S1500000x1, .i32⟩
  | 13 => ⟨S1500000x1, .i1⟩
  | 14 => ⟨S1500000x1, .i1⟩
  | 15 => ⟨S_, .i1⟩
  | 16 => ⟨S1500000, .i1⟩
  | 17 => ⟨S1500000x64, .f32⟩
  | 18 => ⟨S1500000x64, .i1⟩
  | 19 => ⟨S_, .f32⟩
  | 20 => ⟨S1500000x64, .f32⟩
  | 21 => ⟨S1500000x64, .f32⟩
  | 22 => ⟨S_, .f32⟩
  | 23 => ⟨S100000x64, .f32⟩
  | 24 => ⟨S1500000x1, .i32⟩
  | 25 => ⟨S100000x64, .f32⟩
  | 26 => ⟨S_, .f32⟩
  | 27 => ⟨S1500000x1, .f32⟩
  | 28 => ⟨S_, .f32⟩
  | 29 => ⟨S100000x1, .f32⟩
  | 30 => ⟨S1500000x1, .i32⟩
  | 31 => ⟨S100000x1, .f32⟩
  | 32 => ⟨S1x64, .f32⟩
  | 33 => ⟨S100000x64, .f32⟩
  | 34 => ⟨S10x1x64, .f32⟩
  | 35 => ⟨S_, .f32⟩
  | 36 => ⟨S1x64, .f32⟩
  | 37 => ⟨S_, .f32⟩
  | 38 => ⟨S1x64, .f32⟩
  | 39 => ⟨S1x64, .f32⟩
  | 40 => ⟨S10x1x64, .f32⟩
  | 41 => ⟨S_, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S1x64, .f32⟩
  | 51 => ⟨S100000x64, .f32⟩
  | 52 => ⟨S_, .i32⟩
  | 53 => ⟨S1500000, .i32⟩
  | 54 => ⟨S1500000, .i1⟩
  | 55 => ⟨S_, .i32⟩
  | 56 => ⟨S1500000, .i32⟩
  | 57 => ⟨S1500000, .i32⟩
  | 58 => ⟨S1500000, .i32⟩
  | 59 => ⟨S1500000x1, .i32⟩
  | 60 => ⟨S1, .i32⟩
  | 61 => ⟨S_, .i32⟩
  | 62 => ⟨S1500000x1, .i32⟩
  | 63 => ⟨S1500000x1, .i1⟩
  | 64 => ⟨S1x1, .i32⟩
  | 65 => ⟨S1500000x1, .i32⟩
  | 66 => ⟨S1500000x1, .i1⟩
  | 67 => ⟨S1500000x1, .i1⟩
  | 68 => ⟨S_, .i1⟩
  | 69 => ⟨S1500000, .i1⟩
  | 70 => ⟨S1500000x64, .f32⟩
  | 71 => ⟨S1500000x64, .i1⟩
  | 72 => ⟨S_, .f32⟩
  | 73 => ⟨S1500000x64, .f32⟩
  | 74 => ⟨S1500000x64, .f32⟩
  | 75 => ⟨S_, .f32⟩
  | 76 => ⟨S250000x64, .f32⟩
  | 77 => ⟨S1500000x1, .i32⟩
  | 78 => ⟨S250000x64, .f32⟩
  | 79 => ⟨S1x64, .f32⟩
  | 80 => ⟨S250000x64, .f32⟩
  | 81 => ⟨S25x1x64, .f32⟩
  | 82 => ⟨S_, .f32⟩
  | 83 => ⟨S1x64, .f32⟩
  | 84 => ⟨S_, .f32⟩
  | 85 => ⟨S1x64, .f32⟩
  | 86 => ⟨S1x64, .f32⟩
  | 87 => ⟨S25x1x64, .f32⟩
  | 88 => ⟨S_, .f32⟩
  | 89 => ⟨S1x64, .f32⟩
  | 90 => ⟨S_, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S_, .i32⟩
  | 97 => ⟨S1500000, .i32⟩
  | 98 => ⟨S1500000, .i1⟩
  | 99 => ⟨S_, .i32⟩
  | 100 => ⟨S1500000, .i32⟩
  | 101 => ⟨S1500000, .i32⟩
  | 102 => ⟨S1500000, .i32⟩
  | 103 => ⟨S1500000x1, .i32⟩
  | 104 => ⟨S1, .i32⟩
  | 105 => ⟨S_, .i32⟩
  | 106 => ⟨S1500000x1, .i32⟩
  | 107 => ⟨S1500000x1, .i1⟩
  | 108 => ⟨S1x1, .i32⟩
  | 109 => ⟨S1500000x1, .i32⟩
  | 110 => ⟨S1500000x1, .i1⟩
  | 111 => ⟨S1500000x1, .i1⟩
  | 112 => ⟨S_, .i1⟩
  | 113 => ⟨S1500000, .i1⟩
  | 114 => ⟨S1500000x64, .f32⟩
  | 115 => ⟨S1500000x64, .i1⟩
  | 116 => ⟨S_, .f32⟩
  | 117 => ⟨S1500000x64, .f32⟩
  | 118 => ⟨S1500000x64, .f32⟩
  | 119 => ⟨S_, .f32⟩
  | 120 => ⟨S100000x64, .f32⟩
  | 121 => ⟨S1500000x1, .i32⟩
  | 122 => ⟨S100000x64, .f32⟩
  | 123 => ⟨S1x64, .f32⟩
  | 124 => ⟨S100000x64, .f32⟩
  | 125 => ⟨S10x1x64, .f32⟩
  | 126 => ⟨S_, .f32⟩
  | 127 => ⟨S1x64, .f32⟩
  | _ => ⟨S100000x64, .f32⟩

abbrev hbmTy0_2 (i : Nat) : BufTy := match i % 128 with
  | 0 => ⟨S_, .f32⟩
  | 1 => ⟨S1x64, .f32⟩
  | 2 => ⟨S1x64, .f32⟩
  | 3 => ⟨S10x1x64, .f32⟩
  | 4 => ⟨S_, .f32⟩
  | 5 => ⟨S1x64, .f32⟩
  | 6 => ⟨S_, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S1, .i32⟩
  | 21 => ⟨S_, .i32⟩
  | 22 => ⟨S500000x1, .i32⟩
  | 23 => ⟨S500000x1, .i1⟩
  | 24 => ⟨S1x1, .i32⟩
  | 25 => ⟨S500000x1, .i32⟩
  | 26 => ⟨S500000x1, .i1⟩
  | 27 => ⟨S500000x1, .i1⟩
  | 28 => ⟨S_, .i1⟩
  | 29 => ⟨S500000, .i1⟩
  | 30 => ⟨S500000x64, .f32⟩
  | 31 => ⟨S500000x64, .i1⟩
  | 32 => ⟨S_, .f32⟩
  | 33 => ⟨S500000x64, .f32⟩
  | 34 => ⟨S500000x64, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S1, .i32⟩
  | 44 => ⟨S_, .i32⟩
  | 45 => ⟨S500000x1, .i32⟩
  | 46 => ⟨S500000x1, .i1⟩
  | 47 => ⟨S1x1, .i32⟩
  | 48 => ⟨S500000x1, .i32⟩
  | 49 => ⟨S500000x1, .i1⟩
  | 50 => ⟨S500000x1, .i1⟩
  | 51 => ⟨S_, .i1⟩
  | 52 => ⟨S500000, .i1⟩
  | 53 => ⟨S500000x64, .f32⟩
  | 54 => ⟨S500000x64, .i1⟩
  | 55 => ⟨S_, .f32⟩
  | 56 => ⟨S500000x64, .f32⟩
  | 57 => ⟨S500000x64, .f32⟩
  | 58 => ⟨S1x64, .f32⟩
  | 59 => ⟨S1x64, .f32⟩
  | 60 => ⟨S1x64, .f32⟩
  | 61 => ⟨S1x64, .f32⟩
  | 62 => ⟨S500000x1, .f32⟩
  | 63 => ⟨S500000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev vmemTy0_0 (i : Nat) : BufTy := match i % 128 with
  | 0 => ⟨S10000x64, .f32⟩
  | 1 => ⟨S10000x64, .f32⟩
  | 2 => ⟨S64x64, .f32⟩
  | 3 => ⟨S1x64, .f32⟩
  | 4 => ⟨S10000x64, .f32⟩
  | 5 => ⟨S10000x64, .f32⟩
  | 6 => ⟨S1x1x64, .f32⟩
  | 7 => ⟨S1x1x64, .f32⟩
  | 8 => ⟨S10000x64, .f32⟩
  | 9 => ⟨S10000x64, .f32⟩
  | 10 => ⟨S1x64, .f32⟩
  | 11 => ⟨S1x1x64, .f32⟩
  | 12 => ⟨S1x1x64, .f32⟩
  | 13 => ⟨S10000x64, .f32⟩
  | 14 => ⟨S10000x64, .f32⟩
  | 15 => ⟨S1x64, .f32⟩
  | 16 => ⟨S1x64, .f32⟩
  | 17 => ⟨S1x64, .f32⟩
  | 18 => ⟨S1x64, .f32⟩
  | 19 => ⟨S10000x64, .f32⟩
  | 20 => ⟨S10000x64, .f32⟩
  | 21 => ⟨S10000x128, .f32⟩
  | 22 => ⟨S10000x128, .f32⟩
  | 23 => ⟨S128x64, .f32⟩
  | 24 => ⟨S1x64, .f32⟩
  | 25 => ⟨S10000x64, .f32⟩
  | 26 => ⟨S10000x64, .f32⟩
  | 27 => ⟨S1x1x64, .f32⟩
  | 28 => ⟨S1x1x64, .f32⟩
  | 29 => ⟨S10000x64, .f32⟩
  | 30 => ⟨S10000x64, .f32⟩
  | 31 => ⟨S1x64, .f32⟩
  | 32 => ⟨S1x1x64, .f32⟩
  | 33 => ⟨S1x1x64, .f32⟩
  | 34 => ⟨S10000x64, .f32⟩
  | 35 => ⟨S10000x64, .f32⟩
  | 36 => ⟨S1x64, .f32⟩
  | 37 => ⟨S1x64, .f32⟩
  | 38 => ⟨S1x64, .f32⟩
  | 39 => ⟨S1x64, .f32⟩
  | 40 => ⟨S10000x64, .f32⟩
  | 41 => ⟨S10000x64, .f32⟩
  | 42 => ⟨S10000x64, .f32⟩
  | 43 => ⟨S10000x64, .f32⟩
  | 44 => ⟨S10000x1, .f32⟩
  | 45 => ⟨S10000x1, .f32⟩
  | 46 => ⟨S10000x64, .f32⟩
  | 47 => ⟨S10000x64, .f32⟩
  | 48 => ⟨S64x64, .f32⟩
  | 49 => ⟨S1x64, .f32⟩
  | 50 => ⟨S64x64, .f32⟩
  | 51 => ⟨S10000x64, .f32⟩
  | 52 => ⟨S10000x64, .f32⟩
  | 53 => ⟨S1x1x64, .f32⟩
  | 54 => ⟨S1x1x64, .f32⟩
  | 55 => ⟨S10000x64, .f32⟩
  | 56 => ⟨S10000x64, .f32⟩
  | 57 => ⟨S1x64, .f32⟩
  | 58 => ⟨S1x1x64, .f32⟩
  | 59 => ⟨S1x1x64, .f32⟩
  | 60 => ⟨S10000x64, .f32⟩
  | 61 => ⟨S10000x64, .f32⟩
  | 62 => ⟨S1x64, .f32⟩
  | 63 => ⟨S1x64, .f32⟩
  | 64 => ⟨S1x64, .f32⟩
  | 65 => ⟨S1x64, .f32⟩
  | 66 => ⟨S10000x64, .f32⟩
  | 67 => ⟨S10000x64, .f32⟩
  | 68 => ⟨S10000x64, .f32⟩
  | 69 => ⟨S10000x64, .f32⟩
  | 70 => ⟨S10000x1, .f32⟩
  | 71 => ⟨S10000x1, .f32⟩
  | 72 => ⟨S10000x64, .f32⟩
  | 73 => ⟨S10000x64, .f32⟩
  | 74 => ⟨S64x64, .f32⟩
  | 75 => ⟨S1x64, .f32⟩
  | 76 => ⟨S64x64, .f32⟩
  | 77 => ⟨S10000x64, .f32⟩
  | 78 => ⟨S10000x64, .f32⟩
  | 79 => ⟨S1x1x64, .f32⟩
  | 80 => ⟨S1x1x64, .f32⟩
  | 81 => ⟨S10000x64, .f32⟩
  | 82 => ⟨S10000x64, .f32⟩
  | 83 => ⟨S1x64, .f32⟩
  | 84 => ⟨S1x1x64, .f32⟩
  | 85 => ⟨S1x1x64, .f32⟩
  | 86 => ⟨S10000x64, .f32⟩
  | 87 => ⟨S10000x64, .f32⟩
  | 88 => ⟨S1x64, .f32⟩
  | 89 => ⟨S1x64, .f32⟩
  | 90 => ⟨S1x64, .f32⟩
  | 91 => ⟨S1x64, .f32⟩
  | 92 => ⟨S10000x64, .f32⟩
  | 93 => ⟨S10000x64, .f32⟩
  | 94 => ⟨S10000x64, .f32⟩
  | 95 => ⟨S10000x64, .f32⟩
  | 96 => ⟨S10000x1, .f32⟩
  | 97 => ⟨S10000x1, .f32⟩
  | 98 => ⟨S10000x64, .f32⟩
  | 99 => ⟨S10000x64, .f32⟩
  | 100 => ⟨S64x64, .f32⟩
  | 101 => ⟨S1x64, .f32⟩
  | 102 => ⟨S64x64, .f32⟩
  | 103 => ⟨S10000x64, .f32⟩
  | 104 => ⟨S10000x64, .f32⟩
  | 105 => ⟨S1x1x64, .f32⟩
  | 106 => ⟨S1x1x64, .f32⟩
  | 107 => ⟨S10000x64, .f32⟩
  | 108 => ⟨S10000x64, .f32⟩
  | 109 => ⟨S1x64, .f32⟩
  | 110 => ⟨S1x1x64, .f32⟩
  | 111 => ⟨S1x1x64, .f32⟩
  | 112 => ⟨S10000x64, .f32⟩
  | 113 => ⟨S10000x64, .f32⟩
  | 114 => ⟨S10000x1, .f32⟩
  | 115 => ⟨S10000x1, .f32⟩
  | 116 => ⟨S10000x64, .f32⟩
  | 117 => ⟨S10000x64, .f32⟩
  | 118 => ⟨S64x64, .f32⟩
  | 119 => ⟨S1x64, .f32⟩
  | 120 => ⟨S64x64, .f32⟩
  | 121 => ⟨S10000x64, .f32⟩
  | 122 => ⟨S10000x64, .f32⟩
  | 123 => ⟨S1x1x64, .f32⟩
  | 124 => ⟨S1x1x64, .f32⟩
  | 125 => ⟨S10000x64, .f32⟩
  | 126 => ⟨S10000x64, .f32⟩
  | 127 => ⟨S1x64, .f32⟩
  | _ => ⟨S100000x64, .f32⟩

abbrev vmemTy0_1 (i : Nat) : BufTy := match i % 128 with
  | 0 => ⟨S1x1x64, .f32⟩
  | 1 => ⟨S1x1x64, .f32⟩
  | 2 => ⟨S10000x64, .f32⟩
  | 3 => ⟨S10000x64, .f32⟩
  | 4 => ⟨S10000x64, .f32⟩
  | 5 => ⟨S10000x64, .f32⟩
  | 6 => ⟨S1x64, .f32⟩
  | 7 => ⟨S1x64, .f32⟩
  | 8 => ⟨S1x64, .f32⟩
  | 9 => ⟨S1x64, .f32⟩
  | 10 => ⟨S1x64, .f32⟩
  | 11 => ⟨S1x64, .f32⟩
  | 12 => ⟨S1x64, .f32⟩
  | 13 => ⟨S1x64, .f32⟩
  | 14 => ⟨S10000x1, .f32⟩
  | 15 => ⟨S10000x1, .f32⟩
  | _ => ⟨S100000x64, .f32⟩

abbrev vmemTy (i : Nat) : BufTy := match i / 128 with
  | 0 => vmemTy0_0 i
  | 1 => vmemTy0_1 i
  | _ => ⟨S100000x64, .f32⟩

abbrev bufTy : (tb : Table) → Fin (tcTables nBuf tb) → BufTy
  | .hbm, ⟨i, _⟩ => hbmTy i
  | .local _ .vmem, ⟨i, _⟩ => vmemTy i
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1_0 : Ref sig .tc := ⟨.hbm, 35, rfl⟩
abbrev main_v1_1 : Ref sig .tc := ⟨.hbm, 36, rfl⟩
abbrev main_cst : Ref sig .tc := ⟨.hbm, 37, rfl⟩
abbrev main_v2 : Ref sig .tc := ⟨.hbm, 38, rfl⟩
abbrev main_cst_0 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst_1 : Ref sig .tc := ⟨.hbm, 43, rfl⟩
abbrev main_v6 : Ref sig .tc := ⟨.hbm, 44, rfl⟩
abbrev main_cst_2 : Ref sig .tc := ⟨.hbm, 45, rfl⟩
abbrev main_v7 : Ref sig .tc := ⟨.hbm, 46, rfl⟩
abbrev main_v8 : Ref sig .tc := ⟨.hbm, 47, rfl⟩
abbrev main_cst_3 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15_0 : Ref sig .tc := ⟨.hbm, 55, rfl⟩
abbrev main_v15_1 : Ref sig .tc := ⟨.hbm, 56, rfl⟩
abbrev main_cst_4 : Ref sig .tc := ⟨.hbm, 57, rfl⟩
abbrev main_v16 : Ref sig .tc := ⟨.hbm, 58, rfl⟩
abbrev main_cst_5 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_6 : Ref sig .tc := ⟨.hbm, 63, rfl⟩
abbrev main_v20 : Ref sig .tc := ⟨.hbm, 64, rfl⟩
abbrev main_cst_7 : Ref sig .tc := ⟨.hbm, 65, rfl⟩
abbrev main_v21 : Ref sig .tc := ⟨.hbm, 66, rfl⟩
abbrev main_v22 : Ref sig .tc := ⟨.hbm, 67, rfl⟩
abbrev main_cst_8 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_call0_c : Ref sig .tc := ⟨.hbm, 74, rfl⟩
abbrev main_call0_v0 : Ref sig .tc := ⟨.hbm, 75, rfl⟩
abbrev main_call0_v1 : Ref sig .tc := ⟨.hbm, 76, rfl⟩
abbrev main_call0_c_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_c_1 : Ref sig .tc := ⟨.hbm, 82, rfl⟩
abbrev main_call0_c_2 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_c_3 : Ref sig .tc := ⟨.hbm, 90, rfl⟩
abbrev main_call0_v12 : Ref sig .tc := ⟨.hbm, 91, rfl⟩
abbrev main_call0_v13 : Ref sig .tc := ⟨.hbm, 92, rfl⟩
abbrev main_call0_v14 : Ref sig .tc := ⟨.hbm, 93, rfl⟩
abbrev main_call0_cst : Ref sig .tc := ⟨.hbm, 94, rfl⟩
abbrev main_call0_v15 : Ref sig .tc := ⟨.hbm, 95, rfl⟩
abbrev main_v28 : Ref sig .tc := ⟨.hbm, 96, rfl⟩
abbrev main_cst_9 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_cst_10 : Ref sig .tc := ⟨.hbm, 101, rfl⟩
abbrev main_v32 : Ref sig .tc := ⟨.hbm, 102, rfl⟩
abbrev main_cst_11 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37_0 : Ref sig .tc := ⟨.hbm, 108, rfl⟩
abbrev main_v37_1 : Ref sig .tc := ⟨.hbm, 109, rfl⟩
abbrev main_cst_12 : Ref sig .tc := ⟨.hbm, 110, rfl⟩
abbrev main_v38 : Ref sig .tc := ⟨.hbm, 111, rfl⟩
abbrev main_cst_13 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_cst_14 : Ref sig .tc := ⟨.hbm, 116, rfl⟩
abbrev main_v42 : Ref sig .tc := ⟨.hbm, 117, rfl⟩
abbrev main_cst_15 : Ref sig .tc := ⟨.hbm, 118, rfl⟩
abbrev main_v43 : Ref sig .tc := ⟨.hbm, 119, rfl⟩
abbrev main_v44 : Ref sig .tc := ⟨.hbm, 120, rfl⟩
abbrev main_cst_16 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_call1_c : Ref sig .tc := ⟨.hbm, 127, rfl⟩
abbrev main_call1_v0 : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_c_1 : Ref sig .tc := ⟨.hbm, 135, rfl⟩
abbrev main_call1_c_2 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_c_3 : Ref sig .tc := ⟨.hbm, 143, rfl⟩
abbrev main_call1_v12 : Ref sig .tc := ⟨.hbm, 144, rfl⟩
abbrev main_call1_v13 : Ref sig .tc := ⟨.hbm, 145, rfl⟩
abbrev main_call1_v14 : Ref sig .tc := ⟨.hbm, 146, rfl⟩
abbrev main_call1_cst : Ref sig .tc := ⟨.hbm, 147, rfl⟩
abbrev main_call1_v15 : Ref sig .tc := ⟨.hbm, 148, rfl⟩
abbrev main_v50 : Ref sig .tc := ⟨.hbm, 149, rfl⟩
abbrev main_cst_17 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_cst_18 : Ref sig .tc := ⟨.hbm, 154, rfl⟩
abbrev main_v54 : Ref sig .tc := ⟨.hbm, 155, rfl⟩
abbrev main_cst_19 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59_0 : Ref sig .tc := ⟨.hbm, 161, rfl⟩
abbrev main_v59_1 : Ref sig .tc := ⟨.hbm, 162, rfl⟩
abbrev main_cst_20 : Ref sig .tc := ⟨.hbm, 163, rfl⟩
abbrev main_v60 : Ref sig .tc := ⟨.hbm, 164, rfl⟩
abbrev main_cst_21 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_cst_22 : Ref sig .tc := ⟨.hbm, 169, rfl⟩
abbrev main_v64 : Ref sig .tc := ⟨.hbm, 170, rfl⟩
abbrev main_cst_23 : Ref sig .tc := ⟨.hbm, 171, rfl⟩
abbrev main_v65 : Ref sig .tc := ⟨.hbm, 172, rfl⟩
abbrev main_v66 : Ref sig .tc := ⟨.hbm, 173, rfl⟩
abbrev main_cst_24 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_call2_c : Ref sig .tc := ⟨.hbm, 180, rfl⟩
abbrev main_call2_v0 : Ref sig .tc := ⟨.hbm, 181, rfl⟩
abbrev main_call2_v1 : Ref sig .tc := ⟨.hbm, 182, rfl⟩
abbrev main_call2_c_0 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_c_1 : Ref sig .tc := ⟨.hbm, 188, rfl⟩
abbrev main_call2_c_2 : Ref sig .tc := ⟨.hbm, 189, rfl⟩
abbrev main_call2_v6 : Ref sig .tc := ⟨.hbm, 190, rfl⟩
abbrev main_call2_v7 : Ref sig .tc := ⟨.hbm, 191, rfl⟩
abbrev main_call2_v8 : Ref sig .tc := ⟨.hbm, 192, rfl⟩
abbrev main_call2_v9 : Ref sig .tc := ⟨.hbm, 193, rfl⟩
abbrev main_call2_v10 : Ref sig .tc := ⟨.hbm, 194, rfl⟩
abbrev main_call2_v11 : Ref sig .tc := ⟨.hbm, 195, rfl⟩
abbrev main_call2_c_3 : Ref sig .tc := ⟨.hbm, 196, rfl⟩
abbrev main_call2_v12 : Ref sig .tc := ⟨.hbm, 197, rfl⟩
abbrev main_call2_v13 : Ref sig .tc := ⟨.hbm, 198, rfl⟩
abbrev main_call2_v14 : Ref sig .tc := ⟨.hbm, 199, rfl⟩
abbrev main_call2_cst : Ref sig .tc := ⟨.hbm, 200, rfl⟩
abbrev main_call2_v15 : Ref sig .tc := ⟨.hbm, 201, rfl⟩
abbrev main_v72 : Ref sig .tc := ⟨.hbm, 202, rfl⟩
abbrev main_cst_25 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_v77_0 : Ref sig .tc := ⟨.hbm, 208, rfl⟩
abbrev main_v77_1 : Ref sig .tc := ⟨.hbm, 209, rfl⟩
abbrev main_cst_26 : Ref sig .tc := ⟨.hbm, 210, rfl⟩
abbrev main_v78 : Ref sig .tc := ⟨.hbm, 211, rfl⟩
abbrev main_cst_27 : Ref sig .tc := ⟨.hbm, 212, rfl⟩
abbrev main_v79 : Ref sig .tc := ⟨.hbm, 213, rfl⟩
abbrev main_v80 : Ref sig .tc := ⟨.hbm, 214, rfl⟩
abbrev main_v81 : Ref sig .tc := ⟨.hbm, 215, rfl⟩
abbrev main_cst_28 : Ref sig .tc := ⟨.hbm, 216, rfl⟩
abbrev main_v82 : Ref sig .tc := ⟨.hbm, 217, rfl⟩
abbrev main_cst_29 : Ref sig .tc := ⟨.hbm, 218, rfl⟩
abbrev main_v83 : Ref sig .tc := ⟨.hbm, 219, rfl⟩
abbrev main_v84 : Ref sig .tc := ⟨.hbm, 220, rfl⟩
abbrev main_cst_30 : Ref sig .tc := ⟨.hbm, 221, rfl⟩
abbrev main_v85 : Ref sig .tc := ⟨.hbm, 222, rfl⟩
abbrev main_v86 : Ref sig .tc := ⟨.hbm, 223, rfl⟩
abbrev main_call3_c : Ref sig .tc := ⟨.hbm, 224, rfl⟩
abbrev main_call3_v0 : Ref sig .tc := ⟨.hbm, 225, rfl⟩
abbrev main_call3_v1 : Ref sig .tc := ⟨.hbm, 226, rfl⟩
abbrev main_call3_c_0 : Ref sig .tc := ⟨.hbm, 227, rfl⟩
abbrev main_call3_v2 : Ref sig .tc := ⟨.hbm, 228, rfl⟩
abbrev main_call3_v3 : Ref sig .tc := ⟨.hbm, 229, rfl⟩
abbrev main_call3_v4 : Ref sig .tc := ⟨.hbm, 230, rfl⟩
abbrev main_call3_v5 : Ref sig .tc := ⟨.hbm, 231, rfl⟩
abbrev main_call3_c_1 : Ref sig .tc := ⟨.hbm, 232, rfl⟩
abbrev main_call3_c_2 : Ref sig .tc := ⟨.hbm, 233, rfl⟩
abbrev main_call3_v6 : Ref sig .tc := ⟨.hbm, 234, rfl⟩
abbrev main_call3_v7 : Ref sig .tc := ⟨.hbm, 235, rfl⟩
abbrev main_call3_v8 : Ref sig .tc := ⟨.hbm, 236, rfl⟩
abbrev main_call3_v9 : Ref sig .tc := ⟨.hbm, 237, rfl⟩
abbrev main_call3_v10 : Ref sig .tc := ⟨.hbm, 238, rfl⟩
abbrev main_call3_v11 : Ref sig .tc := ⟨.hbm, 239, rfl⟩
abbrev main_call3_c_3 : Ref sig .tc := ⟨.hbm, 240, rfl⟩
abbrev main_call3_v12 : Ref sig .tc := ⟨.hbm, 241, rfl⟩
abbrev main_call3_v13 : Ref sig .tc := ⟨.hbm, 242, rfl⟩
abbrev main_call3_v14 : Ref sig .tc := ⟨.hbm, 243, rfl⟩
abbrev main_call3_cst : Ref sig .tc := ⟨.hbm, 244, rfl⟩
abbrev main_call3_v15 : Ref sig .tc := ⟨.hbm, 245, rfl⟩
abbrev main_v87 : Ref sig .tc := ⟨.hbm, 246, rfl⟩
abbrev main_cst_31 : Ref sig .tc := ⟨.hbm, 247, rfl⟩
abbrev main_v88 : Ref sig .tc := ⟨.hbm, 248, rfl⟩
abbrev main_v89 : Ref sig .tc := ⟨.hbm, 249, rfl⟩
abbrev main_v90 : Ref sig .tc := ⟨.hbm, 250, rfl⟩
abbrev main_v91 : Ref sig .tc := ⟨.hbm, 251, rfl⟩
abbrev main_v92_0 : Ref sig .tc := ⟨.hbm, 252, rfl⟩
abbrev main_v92_1 : Ref sig .tc := ⟨.hbm, 253, rfl⟩
abbrev main_cst_32 : Ref sig .tc := ⟨.hbm, 254, rfl⟩
abbrev main_v93 : Ref sig .tc := ⟨.hbm, 255, rfl⟩
abbrev main_cst_33 : Ref sig .tc := ⟨.hbm, 256, rfl⟩
abbrev main_v94 : Ref sig .tc := ⟨.hbm, 257, rfl⟩
abbrev main_v95 : Ref sig .tc := ⟨.hbm, 258, rfl⟩
abbrev main_v96 : Ref sig .tc := ⟨.hbm, 259, rfl⟩
abbrev main_cst_34 : Ref sig .tc := ⟨.hbm, 260, rfl⟩
abbrev main_v97 : Ref sig .tc := ⟨.hbm, 261, rfl⟩
abbrev main_cst_35 : Ref sig .tc := ⟨.hbm, 262, rfl⟩
abbrev main_v98 : Ref sig .tc := ⟨.hbm, 263, rfl⟩
abbrev main_v99 : Ref sig .tc := ⟨.hbm, 264, rfl⟩
abbrev main_cst_36 : Ref sig .tc := ⟨.hbm, 265, rfl⟩
abbrev main_v100 : Ref sig .tc := ⟨.hbm, 266, rfl⟩
abbrev main_v101 : Ref sig .tc := ⟨.hbm, 267, rfl⟩
abbrev main_call4_c : Ref sig .tc := ⟨.hbm, 268, rfl⟩
abbrev main_call4_v0 : Ref sig .tc := ⟨.hbm, 269, rfl⟩
abbrev main_call4_v1 : Ref sig .tc := ⟨.hbm, 270, rfl⟩
abbrev main_call4_c_0 : Ref sig .tc := ⟨.hbm, 271, rfl⟩
abbrev main_call4_v2 : Ref sig .tc := ⟨.hbm, 272, rfl⟩
abbrev main_call4_v3 : Ref sig .tc := ⟨.hbm, 273, rfl⟩
abbrev main_call4_v4 : Ref sig .tc := ⟨.hbm, 274, rfl⟩
abbrev main_call4_v5 : Ref sig .tc := ⟨.hbm, 275, rfl⟩
abbrev main_call4_c_1 : Ref sig .tc := ⟨.hbm, 276, rfl⟩
abbrev main_call4_c_2 : Ref sig .tc := ⟨.hbm, 277, rfl⟩
abbrev main_call4_v6 : Ref sig .tc := ⟨.hbm, 278, rfl⟩
abbrev main_call4_v7 : Ref sig .tc := ⟨.hbm, 279, rfl⟩
abbrev main_call4_v8 : Ref sig .tc := ⟨.hbm, 280, rfl⟩
abbrev main_call4_v9 : Ref sig .tc := ⟨.hbm, 281, rfl⟩
abbrev main_call4_v10 : Ref sig .tc := ⟨.hbm, 282, rfl⟩
abbrev main_call4_v11 : Ref sig .tc := ⟨.hbm, 283, rfl⟩
abbrev main_call4_c_3 : Ref sig .tc := ⟨.hbm, 284, rfl⟩
abbrev main_call4_v12 : Ref sig .tc := ⟨.hbm, 285, rfl⟩
abbrev main_call4_v13 : Ref sig .tc := ⟨.hbm, 286, rfl⟩
abbrev main_call4_v14 : Ref sig .tc := ⟨.hbm, 287, rfl⟩
abbrev main_call4_cst : Ref sig .tc := ⟨.hbm, 288, rfl⟩
abbrev main_call4_v15 : Ref sig .tc := ⟨.hbm, 289, rfl⟩
abbrev main_v102 : Ref sig .tc := ⟨.hbm, 290, rfl⟩
abbrev main_call5_c : Ref sig .tc := ⟨.hbm, 291, rfl⟩
abbrev main_call5_v0 : Ref sig .tc := ⟨.hbm, 292, rfl⟩
abbrev main_call5_v1 : Ref sig .tc := ⟨.hbm, 293, rfl⟩
abbrev main_call5_c_0 : Ref sig .tc := ⟨.hbm, 294, rfl⟩
abbrev main_call5_v2 : Ref sig .tc := ⟨.hbm, 295, rfl⟩
abbrev main_call5_v3 : Ref sig .tc := ⟨.hbm, 296, rfl⟩
abbrev main_call5_v4 : Ref sig .tc := ⟨.hbm, 297, rfl⟩
abbrev main_call5_v5 : Ref sig .tc := ⟨.hbm, 298, rfl⟩
abbrev main_call5_c_1 : Ref sig .tc := ⟨.hbm, 299, rfl⟩
abbrev main_call5_c_2 : Ref sig .tc := ⟨.hbm, 300, rfl⟩
abbrev main_call5_v6 : Ref sig .tc := ⟨.hbm, 301, rfl⟩
abbrev main_call5_v7 : Ref sig .tc := ⟨.hbm, 302, rfl⟩
abbrev main_call5_v8 : Ref sig .tc := ⟨.hbm, 303, rfl⟩
abbrev main_call5_v9 : Ref sig .tc := ⟨.hbm, 304, rfl⟩
abbrev main_call5_v10 : Ref sig .tc := ⟨.hbm, 305, rfl⟩
abbrev main_call5_v11 : Ref sig .tc := ⟨.hbm, 306, rfl⟩
abbrev main_call5_c_3 : Ref sig .tc := ⟨.hbm, 307, rfl⟩
abbrev main_call5_v12 : Ref sig .tc := ⟨.hbm, 308, rfl⟩
abbrev main_call5_v13 : Ref sig .tc := ⟨.hbm, 309, rfl⟩
abbrev main_call5_v14 : Ref sig .tc := ⟨.hbm, 310, rfl⟩
abbrev main_call5_cst : Ref sig .tc := ⟨.hbm, 311, rfl⟩
abbrev main_call5_v15 : Ref sig .tc := ⟨.hbm, 312, rfl⟩
abbrev main_v103 : Ref sig .tc := ⟨.hbm, 313, rfl⟩
abbrev main_v104 : Ref sig .tc := ⟨.hbm, 314, rfl⟩
abbrev main_v105 : Ref sig .tc := ⟨.hbm, 315, rfl⟩
abbrev main_v106 : Ref sig .tc := ⟨.hbm, 316, rfl⟩
abbrev main_v107 : Ref sig .tc := ⟨.hbm, 317, rfl⟩
abbrev main_v108 : Ref sig .tc := ⟨.hbm, 318, rfl⟩
abbrev main_v109 : Ref sig .tc := ⟨.hbm, 319, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg6_1 : Ref sig .tc := ⟨.vmem, 52, rfl⟩
abbrev cc6_stg7_0 : Ref sig .tc := ⟨.vmem, 53, rfl⟩
abbrev cc6_stg7_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg5_0 : Ref sig .tc := ⟨.vmem, 66, rfl⟩
abbrev cc8_stg5_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg1_1 : Ref sig .tc := ⟨.vmem, 71, rfl⟩
abbrev cc9_stg2_0 : Ref sig .tc := ⟨.vmem, 72, rfl⟩
abbrev cc9_stg2_1 : Ref sig .tc := ⟨.vmem, 73, rfl⟩
abbrev cc9_stg3_0 : Ref sig .tc := ⟨.vmem, 74, rfl⟩
abbrev cc9_stg4_0 : Ref sig .tc := ⟨.vmem, 75, rfl⟩
abbrev cc9_stg5_0 : Ref sig .tc := ⟨.vmem, 76, rfl⟩
abbrev cc9_stg6_0 : Ref sig .tc := ⟨.vmem, 77, rfl⟩
abbrev cc9_stg6_1 : Ref sig .tc := ⟨.vmem, 78, rfl⟩
abbrev cc9_stg7_0 : Ref sig .tc := ⟨.vmem, 79, rfl⟩
abbrev cc9_stg7_1 : Ref sig .tc := ⟨.vmem, 80, rfl⟩
abbrev cc10_stg0_0 : Ref sig .tc := ⟨.vmem, 81, rfl⟩
abbrev cc10_stg0_1 : Ref sig .tc := ⟨.vmem, 82, rfl⟩
abbrev cc10_stg1_0 : Ref sig .tc := ⟨.vmem, 83, rfl⟩
abbrev cc10_stg2_0 : Ref sig .tc := ⟨.vmem, 84, rfl⟩
abbrev cc10_stg2_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg3_0 : Ref sig .tc := ⟨.vmem, 90, rfl⟩
abbrev cc11_stg4_0 : Ref sig .tc := ⟨.vmem, 91, rfl⟩
abbrev cc11_stg5_0 : Ref sig .tc := ⟨.vmem, 92, rfl⟩
abbrev cc11_stg5_1 : Ref sig .tc := ⟨.vmem, 93, rfl⟩
abbrev cc12_stg0_0 : Ref sig .tc := ⟨.vmem, 94, rfl⟩
abbrev cc12_stg0_1 : Ref sig .tc := ⟨.vmem, 95, rfl⟩
abbrev cc12_stg1_0 : Ref sig .tc := ⟨.vmem, 96, rfl⟩
abbrev cc12_stg1_1 : Ref sig .tc := ⟨.vmem, 97, rfl⟩
abbrev cc12_stg2_0 : Ref sig .tc := ⟨.vmem, 98, rfl⟩
abbrev cc12_stg2_1 : Ref sig .tc := ⟨.vmem, 99, rfl⟩
abbrev cc12_stg3_0 : Ref sig .tc := ⟨.vmem, 100, rfl⟩
abbrev cc12_stg4_0 : Ref sig .tc := ⟨.vmem, 101, rfl⟩
abbrev cc12_stg5_0 : Ref sig .tc := ⟨.vmem, 102, rfl⟩
abbrev cc12_stg6_0 : Ref sig .tc := ⟨.vmem, 103, rfl⟩
abbrev cc12_stg6_1 : Ref sig .tc := ⟨.vmem, 104, rfl⟩
abbrev cc12_stg7_0 : Ref sig .tc := ⟨.vmem, 105, rfl⟩
abbrev cc12_stg7_1 : Ref sig .tc := ⟨.vmem, 106, rfl⟩
abbrev cc13_stg0_0 : Ref sig .tc := ⟨.vmem, 107, rfl⟩
abbrev cc13_stg0_1 : Ref sig .tc := ⟨.vmem, 108, rfl⟩
abbrev cc13_stg1_0 : Ref sig .tc := ⟨.vmem, 109, rfl⟩
abbrev cc13_stg2_0 : Ref sig .tc := ⟨.vmem, 110, rfl⟩
abbrev cc13_stg2_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg1_1 : Ref sig .tc := ⟨.vmem, 115, rfl⟩
abbrev cc14_stg2_0 : Ref sig .tc := ⟨.vmem, 116, rfl⟩
abbrev cc14_stg2_1 : Ref sig .tc := ⟨.vmem, 117, rfl⟩
abbrev cc14_stg3_0 : Ref sig .tc := ⟨.vmem, 118, rfl⟩
abbrev cc14_stg4_0 : Ref sig .tc := ⟨.vmem, 119, rfl⟩
abbrev cc14_stg5_0 : Ref sig .tc := ⟨.vmem, 120, rfl⟩
abbrev cc14_stg6_0 : Ref sig .tc := ⟨.vmem, 121, rfl⟩
abbrev cc14_stg6_1 : Ref sig .tc := ⟨.vmem, 122, rfl⟩
abbrev cc14_stg7_0 : Ref sig .tc := ⟨.vmem, 123, rfl⟩
abbrev cc14_stg7_1 : Ref sig .tc := ⟨.vmem, 124, rfl⟩
abbrev cc15_stg0_0 : Ref sig .tc := ⟨.vmem, 125, rfl⟩
abbrev cc15_stg0_1 : Ref sig .tc := ⟨.vmem, 126, rfl⟩
abbrev cc15_stg1_0 : Ref sig .tc := ⟨.vmem, 127, rfl⟩
abbrev cc15_stg2_0 : Ref sig .tc := ⟨.vmem, 128, rfl⟩
abbrev cc15_stg2_1 : Ref sig .tc := ⟨.vmem, 129, rfl⟩
abbrev cc16_stg0_0 : Ref sig .tc := ⟨.vmem, 130, rfl⟩
abbrev cc16_stg0_1 : Ref sig .tc := ⟨.vmem, 131, rfl⟩
abbrev cc16_stg1_0 : Ref sig .tc := ⟨.vmem, 132, rfl⟩
abbrev cc16_stg1_1 : Ref sig .tc := ⟨.vmem, 133, rfl⟩
abbrev cc16_stg2_0 : Ref sig .tc := ⟨.vmem, 134, rfl⟩
abbrev cc16_stg3_0 : Ref sig .tc := ⟨.vmem, 135, rfl⟩
abbrev cc16_stg4_0 : Ref sig .tc := ⟨.vmem, 136, rfl⟩
abbrev cc16_stg5_0 : Ref sig .tc := ⟨.vmem, 137, rfl⟩
abbrev cc16_stg6_0 : Ref sig .tc := ⟨.vmem, 138, rfl⟩
abbrev cc16_stg7_0 : Ref sig .tc := ⟨.vmem, 139, rfl⟩
abbrev cc16_stg8_0 : Ref sig .tc := ⟨.vmem, 140, rfl⟩
abbrev cc16_stg9_0 : Ref sig .tc := ⟨.vmem, 141, rfl⟩
abbrev cc16_stg10_0 : Ref sig .tc := ⟨.vmem, 142, rfl⟩
abbrev cc16_stg10_1 : Ref sig .tc := ⟨.vmem, 143, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem5_0 : DmaSem sig := 50
abbrev cc6_sem6_0 : DmaSem sig := 51
abbrev cc6_sem6_1 : DmaSem sig := 52
abbrev cc6_sem7_0 : DmaSem sig := 53
abbrev cc6_sem7_1 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem5_1 : DmaSem sig := 67
abbrev cc9_sem0_0 : DmaSem sig := 68
abbrev cc9_sem0_1 : DmaSem sig := 69
abbrev cc9_sem1_0 : DmaSem sig := 70
abbrev cc9_sem1_1 : DmaSem sig := 71
abbrev cc9_sem2_0 : DmaSem sig := 72
abbrev cc9_sem2_1 : DmaSem sig := 73
abbrev cc9_sem3_0 : DmaSem sig := 74
abbrev cc9_sem4_0 : DmaSem sig := 75
abbrev cc9_sem5_0 : DmaSem sig := 76
abbrev cc9_sem6_0 : DmaSem sig := 77
abbrev cc9_sem6_1 : DmaSem sig := 78
abbrev cc9_sem7_0 : DmaSem sig := 79
abbrev cc9_sem7_1 : DmaSem sig := 80
abbrev cc10_sem0_0 : DmaSem sig := 81
abbrev cc10_sem0_1 : DmaSem sig := 82
abbrev cc10_sem1_0 : DmaSem sig := 83
abbrev cc10_sem2_0 : DmaSem sig := 84
abbrev cc10_sem2_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem3_0 : DmaSem sig := 90
abbrev cc11_sem4_0 : DmaSem sig := 91
abbrev cc11_sem5_0 : DmaSem sig := 92
abbrev cc11_sem5_1 : DmaSem sig := 93
abbrev cc12_sem0_0 : DmaSem sig := 94
abbrev cc12_sem0_1 : DmaSem sig := 95
abbrev cc12_sem1_0 : DmaSem sig := 96
abbrev cc12_sem1_1 : DmaSem sig := 97
abbrev cc12_sem2_0 : DmaSem sig := 98
abbrev cc12_sem2_1 : DmaSem sig := 99
abbrev cc12_sem3_0 : DmaSem sig := 100
abbrev cc12_sem4_0 : DmaSem sig := 101
abbrev cc12_sem5_0 : DmaSem sig := 102
abbrev cc12_sem6_0 : DmaSem sig := 103
abbrev cc12_sem6_1 : DmaSem sig := 104
abbrev cc12_sem7_0 : DmaSem sig := 105
abbrev cc12_sem7_1 : DmaSem sig := 106
abbrev cc13_sem0_0 : DmaSem sig := 107
abbrev cc13_sem0_1 : DmaSem sig := 108
abbrev cc13_sem1_0 : DmaSem sig := 109
abbrev cc13_sem2_0 : DmaSem sig := 110
abbrev cc13_sem2_1 : DmaSem sig := 111
abbrev cc14_sem0_0 : DmaSem sig := 112
abbrev cc14_sem0_1 : DmaSem sig := 113
abbrev cc14_sem1_0 : DmaSem sig := 114
abbrev cc14_sem1_1 : DmaSem sig := 115
abbrev cc14_sem2_0 : DmaSem sig := 116
abbrev cc14_sem2_1 : DmaSem sig := 117
abbrev cc14_sem3_0 : DmaSem sig := 118
abbrev cc14_sem4_0 : DmaSem sig := 119
abbrev cc14_sem5_0 : DmaSem sig := 120
abbrev cc14_sem6_0 : DmaSem sig := 121
abbrev cc14_sem6_1 : DmaSem sig := 122
abbrev cc14_sem7_0 : DmaSem sig := 123
abbrev cc14_sem7_1 : DmaSem sig := 124
abbrev cc15_sem0_0 : DmaSem sig := 125
abbrev cc15_sem0_1 : DmaSem sig := 126
abbrev cc15_sem1_0 : DmaSem sig := 127
abbrev cc15_sem2_0 : DmaSem sig := 128
abbrev cc15_sem2_1 : DmaSem sig := 129
abbrev cc16_sem0_0 : DmaSem sig := 130
abbrev cc16_sem0_1 : DmaSem sig := 131
abbrev cc16_sem1_0 : DmaSem sig := 132
abbrev cc16_sem1_1 : DmaSem sig := 133
abbrev cc16_sem2_0 : DmaSem sig := 134
abbrev cc16_sem3_0 : DmaSem sig := 135
abbrev cc16_sem4_0 : DmaSem sig := 136
abbrev cc16_sem5_0 : DmaSem sig := 137
abbrev cc16_sem6_0 : DmaSem sig := 138
abbrev cc16_sem7_0 : DmaSem sig := 139
abbrev cc16_sem8_0 : DmaSem sig := 140
abbrev cc16_sem9_0 : DmaSem sig := 141
abbrev cc16_sem10_0 : DmaSem sig := 142
abbrev cc16_sem10_1 : DmaSem sig := 143

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x1x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1x1x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S10000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S1x1x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1x1x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S64x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S10000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S1x1x64 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S1x1x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_7 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S10000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S64x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S10000x64 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev stage14_7 : Fin 2 → Memref sig .tc .vmem S1x1x64 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S10000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S1x1x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_8 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_9 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_10 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x64 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x64 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x64 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S1x64 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev stage16_8 : Fin 1 → Memref sig .tc .vmem S1x64 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))
abbrev reads16_8 : Fin grid16.rank → Bool := ![false]

abbrev stage16_9 : Fin 1 → Memref sig .tc .vmem S1x64 .f32 := fun | 0 => Memref.whole cc16_stg9_0 | ⟨_ + 1, h⟩ => absurd h (Nat.not_lt.2 (Nat.le_add_left _ _))
abbrev sem16_9 : Fin 1 → DmaSem sig := fun | 0 => cc16_sem9_0 | ⟨_ + 1, h⟩ => absurd h (Nat.not_lt.2 (Nat.le_add_left _ _))
abbrev reads16_9 : Fin grid16.rank → Bool := ![false]

abbrev stage16_10 : Fin 2 → Memref sig .tc .vmem S10000x1 .f32 := fun | 0 => Memref.whole cc16_stg10_0 | 1 => Memref.whole cc16_stg10_1 | ⟨_ + 2, h⟩ => absurd h (Nat.not_lt.2 (Nat.le_add_left _ _))
abbrev sem16_10 : Fin 2 → DmaSem sig := fun | 0 => cc16_sem10_0 | 1 => cc16_sem10_1 | ⟨_ + 2, h⟩ => absurd h (Nat.not_lt.2 (Nat.le_add_left _ _))
abbrev reads16_10 : Fin grid16.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x1x64 : S64.ShapeCasts S1x1x64
  reducesTo_S10x1x64_S1x64_d0 : S10x1x64.ReducesTo [0] S1x64
  h_S_ : 0 < S_.numel
  bcast_S_S1x64 : S_.BroadcastsInDim S1x64 (![] : Fin 0 → Fin S1x64.rank)
  shapeCasts_S10000x64_S10000x64 : S10000x64.ShapeCasts S10000x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  reducesTo_S25x1x64_S1x64_d0 : S25x1x64.ReducesTo [0] S1x64
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S1500000x1 : S_.BroadcastsInDim S1500000x1 (![] : Fin 0 → Fin S1500000x1.rank)
  bcast_S1_S1x1_1 : S1.BroadcastsInDim S1x1 (![1] : Fin 1 → Fin S1x1.rank)
  bcast_S1x1_S1500000x1_0_1 : S1x1.BroadcastsInDim S1500000x1 (![0, 1] : Fin 2 → Fin S1500000x1.rank)
  reducesTo_S1500000x1_S1500000_d1 : S1500000x1.ReducesTo [1] S1500000
  bcast_S1500000_S1500000x64_0 : S1500000.BroadcastsInDim S1500000x64 (![0] : Fin 1 → Fin S1500000x64.rank)
  bcast_S_S1500000x64 : S_.BroadcastsInDim S1500000x64 (![] : Fin 0 → Fin S1500000x64.rank)
  bcast_S_S250000x64 : S_.BroadcastsInDim S250000x64 (![] : Fin 0 → Fin S250000x64.rank)
  bcast_S_S250000x1 : S_.BroadcastsInDim S250000x1 (![] : Fin 0 → Fin S250000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  bcast_S_S100000x1 : S_.BroadcastsInDim S100000x1 (![] : Fin 0 → Fin S100000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x64_0 : S500000.BroadcastsInDim S500000x64 (![0] : Fin 1 → Fin S500000x64.rank)
  bcast_S_S500000x64 : S_.BroadcastsInDim S500000x64 (![] : Fin 0 → Fin S500000x64.rank)
  reduces_S10000x64_S10000 : S10000x64.Reduces [1] S10000
  shapeCasts_S10000_S10000x1 : S10000.ShapeCasts S10000x1
  shapeCasts_S500000x1_S500000 : S500000x1.ShapeCasts S500000
  dot_S10000x64_S64x64_S10000x64_1_0_0_1_n_n_wf : DotDims.WF S10000x64 S64x64 S10000x64 [1] [0] [0] [1] [] []
  dot_S10000x128_S128x64_S10000x64_1_0_0_1_n_n_wf : DotDims.WF S10000x128 S128x64 S10000x64 [1] [0] [0] [1] [] []
  gather_S100000x64_S1500000x1_S1500000x64_1_0_n_n_0_1_164_wf : GatherDims.WF S100000x64 S1500000x1 S1500000x64 [1] [0] [] [0] [] 1 ![1, 64]
  scatter_S250000x64_S1500000x1_S1500000x64_1_0_0_1_wf : ScatterDims.WF S250000x64 S1500000x1 S1500000x64 [1] [0] [0] 1
  scatter_S250000x1_S1500000x1_S1500000x1_1_0_0_1_wf : ScatterDims.WF S250000x1 S1500000x1 S1500000x1 [1] [0] [0] 1
  gather_S250000x64_S1500000x1_S1500000x64_1_0_n_n_0_1_164_wf : GatherDims.WF S250000x64 S1500000x1 S1500000x64 [1] [0] [] [0] [] 1 ![1, 64]
  scatter_S100000x64_S1500000x1_S1500000x64_1_0_0_1_wf : ScatterDims.WF S100000x64 S1500000x1 S1500000x64 [1] [0] [0] 1
  scatter_S100000x1_S1500000x1_S1500000x1_1_0_0_1_wf : ScatterDims.WF S100000x1 S1500000x1 S1500000x1 [1] [0] [0] 1
  gather_S100000x64_S500000x1_S500000x64_1_0_n_n_0_1_164_wf : GatherDims.WF S100000x64 S500000x1 S500000x64 [1] [0] [] [0] [] 1 ![1, 64]
  gather_S250000x64_S500000x1_S500000x64_1_0_n_n_0_1_164_wf : GatherDims.WF S250000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S10x1x64.size a
  hwx0_4 : ∀ i : grid0.Coords, EltTy.bits .f32 = 32 ∨ (Rect.block (s := S10x1x64) S1x1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S10x1x64.size a
  hwx1_2 : ∀ i : grid1.Coords, EltTy.bits .f32 = 32 ∨ (Rect.block (s := S10x1x64) S1x1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S250000x128.size a
  hwx3_0 : ∀ i : grid3.Coords, EltTy.bits .f32 = 32 ∨ (Rect.block (s := S250000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S250000x64.size a
  hwx3_3 : ∀ i : grid3.Coords, EltTy.bits .f32 = 32 ∨ (Rect.block (s := S250000x64) S10000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x64.size a ≤ S25x1x64.size a
  hwx3_4 : ∀ i : grid3.Coords, EltTy.bits .f32 = 32 ∨ (Rect.block (s := S25x1x64) S1x1x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S250000x64.size a
  hwx4_0 : ∀ i : grid4.Coords, EltTy.bits .f32 = 32 ∨ (Rect.block (s := S250000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x64.size a ≤ S25x1x64.size a
  hwx4_2 : ∀ i : grid4.Coords, EltTy.bits .f32 = 32 ∨ (Rect.block (s := S25x1x64) S1x1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S250000x64.size a
  hwx5_0 : ∀ i : grid5.Coords, EltTy.bits .f32 = 32 ∨ (Rect.block (s := S250000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S250000x64.size a
  hwx5_5 : ∀ i : grid5.Coords, EltTy.bits .f32 = 32 ∨ (Rect.block (s := S250000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S250000x64.size a
  hwx6_0 : ∀ i : grid6.Coords, EltTy.bits .f32 = 32 ∨ (Rect.block (s := S250000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S250000x1.size a
  hwx6_1 : ∀ i : grid6.Coords, EltTy.bits .f32 = 32 ∨ (Rect.block (s := S250000x1) S10000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S250000x64.size a
  hwx6_2 : ∀ i : grid6.Coords, EltTy.bits .f32 = 32 ∨ (Rect.block (s := S250000x64) S10000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S250000x64.size a
  hwx6_6 : ∀ i : grid6.Coords, EltTy.bits .f32 = 32 ∨ (Rect.block (s := S250000x64) S10000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x1x64.size a ≤ S25x1x64.size a
  hwx6_7 : ∀ i : grid6.Coords, EltTy.bits .f32 = 32 ∨ (Rect.block (s := S25x1x64) S1x1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S250000x64.size a
  hwx7_0 : ∀ i : grid7.Coords, EltTy.bits .f32 = 32 ∨ (Rect.block (s := S250000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x64.size a ≤ S25x1x64.size a
  hwx7_2 : ∀ i : grid7.Coords, EltTy.bits .f32 = 32 ∨ (Rect.block (s := S25x1x64) S1x1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S250000x64.size a
  hwx8_0 : ∀ i : grid8.Coords, EltTy.bits .f32 = 32 ∨ (Rect.block (s := S250000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S250000x64.size a
  hwx8_5 : ∀ i : grid8.Coords, EltTy.bits .f32 = 32 ∨ (Rect.block (s := S250000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x1.size a ≤ S100000x1.size a
  hwx9_1 : ∀ i : grid9.Coords, EltTy.bits .f32 = 32 ∨ (Rect.block (s := S100000x1) S10000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x64.size a ≤ S100000x64.size a
  hwx9_6 : ∀ i : grid9.Coords, EltTy.bits .f32 = 32 ∨ (Rect.block (s := S100000x64) S10000x64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1x1x64.size a ≤ S10x1x64.size a
  hwx9_7 : ∀ i : grid9.Coords, EltTy.bits .f32 = 32 ∨ (Rect.block (s := S10x1x64) S1x1x64.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x1x64.size a ≤ S10x1x64.size a
  hwx10_2 : ∀ i : grid10.Coords, EltTy.bits .f32 = 32 ∨ (Rect.block (s := S10x1x64) S1x1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S100000x64.size a
  hwx11_5 : ∀ i : grid11.Coords, EltTy.bits .f32 = 32 ∨ (Rect.block (s := S100000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S250000x64.size a
  hwx12_0 : ∀ i : grid12.Coords, EltTy.bits .f32 = 32 ∨ (Rect.block (s := S250000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x1.size a ≤ S250000x1.size a
  hwx12_1 : ∀ i : grid12.Coords, EltTy.bits .f32 = 32 ∨ (Rect.block (s := S250000x1) S10000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x64.size a ≤ S250000x64.size a
  hwx12_2 : ∀ i : grid12.Coords, EltTy.bits .f32 = 32 ∨ (Rect.block (s := S250000x64) S10000x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x64.size a ≤ S64x64.size a
  hwx12_3 : ∀ i : grid12.Coords, EltTy.bits .f32 = 32 ∨ (Rect.block (s := S64x64) S64x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x64.size a ≤ S64x64.size a
  hwx12_5 : ∀ i : grid12.Coords, EltTy.bits .f32 = 32 ∨ (Rect.block (s := S64x64) S64x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S10000x64.size a ≤ S250000x64.size a
  hwx12_6 : ∀ i : grid12.Coords, EltTy.bits .f32 = 32 ∨ (Rect.block (s := S250000x64) S10000x64.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S1x1x64.size a ≤ S25x1x64.size a
  hwx12_7 : ∀ i : grid12.Coords, EltTy.bits .f32 = 32 ∨ (Rect.block (s := S25x1x64) S1x1x64.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S250000x64.size a
  hwx13_0 : ∀ i : grid13.Coords, EltTy.bits .f32 = 32 ∨ (Rect.block (s := S250000x64) S10000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1x1x64.size a ≤ S25x1x64.size a
  hwx13_2 : ∀ i : grid13.Coords, EltTy.bits .f32 = 32 ∨ (Rect.block (s := S25x1x64) S1x1x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x1.size a ≤ S100000x1.size a
  hwx14_1 : ∀ i : grid14.Coords, EltTy.bits .f32 = 32 ∨ (Rect.block (s := S100000x1) S10000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x64.size a ≤ S100000x64.size a
  hwx14_2 : ∀ i : grid14.Coords, EltTy.bits .f32 = 32 ∨ (Rect.block (s := S100000x64) S10000x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S64x64.size a ≤ S64x64.size a
  hwx14_3 : ∀ i : grid14.Coords, EltTy.bits .f32 = 32 ∨ (Rect.block (s := S64x64) S64x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S64x64.size a ≤ S64x64.size a
  hwx14_5 : ∀ i : grid14.Coords, EltTy.bits .f32 = 32 ∨ (Rect.block (s := S64x64) S64x64.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S10000x64.size a ≤ S100000x64.size a
  hwx14_6 : ∀ i : grid14.Coords, EltTy.bits .f32 = 32 ∨ (Rect.block (s := S100000x64) S10000x64.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S1x1x64.size a ≤ S10x1x64.size a
  hwx14_7 : ∀ i : grid14.Coords, EltTy.bits .f32 = 32 ∨ (Rect.block (s := S10x1x64) S1x1x64.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x64.size a ≤ S100000x64.size a
  hwx15_0 : ∀ i : grid15.Coords, EltTy.bits .f32 = 32 ∨ (Rect.block (s := S100000x64) S10000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1x1x64.size a ≤ S10x1x64.size a
  hwx15_2 : ∀ i : grid15.Coords, EltTy.bits .f32 = 32 ∨ (Rect.block (s := S10x1x64) S1x1x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x64.size a ≤ S500000x64.size a
  hwx16_0 : ∀ i : grid16.Coords, EltTy.bits .f32 = 32 ∨ (Rect.block (s := S500000x64) S10000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x64.size a ≤ S500000x64.size a
  hwx16_1 : ∀ i : grid16.Coords, EltTy.bits .f32 = 32 ∨ (Rect.block (s := S500000x64) S10000x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x64.size a ≤ S1x64.size a
  hwx16_4 : ∀ i : grid16.Coords, EltTy.bits .f32 = 32 ∨ (Rect.block (s := S1x64) S1x64.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x64.size a ≤ S1x64.size a
  hwx16_5 : ∀ i : grid16.Coords, EltTy.bits .f32 = 32 ∨ (Rect.block (s := S1x64) S1x64.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x64.size a ≤ S1x64.size a
  hwx16_6 : ∀ i : grid16.Coords, EltTy.bits .f32 = 32 ∨ (Rect.block (s := S1x64) S1x64.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S1x64.size a ≤ S1x64.size a
  hwx16_7 : ∀ i : grid16.Coords, EltTy.bits .f32 = 32 ∨ (Rect.block (s := S1x64) S1x64.size (cc16_transform_7 i) (hinb16_7 i)).WholeWords (EltTy.packing .f32)
  hstage16_8 : ∀ j, (stage16_8 j).IsWhole
  nbuf16_8 : grid16.bufCount reads16_8 true = 1
  hreads16_8 : ∀ i i' : grid16.Coords, (∀ a, reads16_8 a = true → i a = i' a) → cc16_transform_8 i = cc16_transform_8 i'
  hinb16_8 : ∀ (i : grid16.Coords) a, (cc16_transform_8 i a + 1) * S1x64.size a ≤ S1x64.size a
  hwx16_8 : ∀ i : grid16.Coords, EltTy.bits .f32 = 32 ∨ (Rect.block (s := S1x64) S1x64.size (cc16_transform_8 i) (hinb16_8 i)).WholeWords (EltTy.packing .f32)
  hstage16_9 : ∀ j, (stage16_9 j).IsWhole
  nbuf16_9 : grid16.bufCount reads16_9 true = 1
  hreads16_9 : ∀ i i' : grid16.Coords, (∀ a, reads16_9 a = true → i a = i' a) → cc16_transform_9 i = cc16_transform_9 i'
  hinb16_9 : ∀ (i : grid16.Coords) a, (cc16_transform_9 i a + 1) * S1x64.size a ≤ S1x64.size a
  hwx16_9 : ∀ i : grid16.Coords, EltTy.bits .f32 = 32 ∨ (Rect.block (s := S1x64) S1x64.size (cc16_transform_9 i) (hinb16_9 i)).WholeWords (EltTy.packing .f32)
  hstage16_10 : ∀ j, (stage16_10 j).IsWhole
  nbuf16_10 : grid16.bufCount reads16_10 false = 2
  hreads16_10 : ∀ i i' : grid16.Coords, (∀ a, reads16_10 a = true → i a = i' a) → cc16_transform_10 i = cc16_transform_10 i'
  hinb16_10 : ∀ (i : grid16.Coords) a, (cc16_transform_10 i a + 1) * S10000x1.size a ≤ S500000x1.size a
  hwx16_10 : ∀ i : grid16.Coords, EltTy.bits .f32 = 32 ∨ (Rect.block (s := S500000x1) S10000x1.size (cc16_transform_10 i) (hinb16_10 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S250000x64_S1500000x1_S1500000x64_1_0_0_1 : ScatterDims S250000x64 S1500000x1 S1500000x64 where
  updateWindowDims := [1]
  insertedWindowDims := [0]
  scatterDimsToOperandDims := [0]
  indexVectorDim := 1
  wf := scatter_S250000x64_S1500000x1_S1500000x64_1_0_0_1_wf
def scatter_S250000x1_S1500000x1_S1500000x1_1_0_0_1 : ScatterDims S250000x1 S1500000x1 S1500000x1 where
  updateWindowDims := [1]
  insertedWindowDims := [0]
  scatterDimsToOperandDims := [0]
  indexVectorDim := 1
  wf := scatter_S250000x1_S1500000x1_S1500000x1_1_0_0_1_wf
def gather_S250000x64_S1500000x1_S1500000x64_1_0_n_n_0_1_164 : GatherDims S250000x64 S1500000x1 S1500000x64 where
  offsetDims := [1]
  collapsedSliceDims := [0]
  operandBatchingDims := []
  startIndicesBatchingDims := []
  startIndexMap := [0]
  indexVectorDim := 1
  sliceSizes := ![1, 64]
  wf := gather_S250000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000x1_S1500000x1_S1500000x1_1_0_0_1 : ScatterDims S100000x1 S1500000x1 S1500000x1 where
  updateWindowDims := [1]
  insertedWindowDims := [0]
  scatterDimsToOperandDims := [0]
  indexVectorDim := 1
  wf := scatter_S100000x1_S1500000x1_S1500000x1_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S250000x64_S500000x1_S500000x64_1_0_n_n_0_1_164 : GatherDims S250000x64 S500000x1 S500000x64 where
  offsetDims := [1]
  collapsedSliceDims := [0]
  operandBatchingDims := []
  startIndicesBatchingDims := []
  startIndexMap := [0]
  indexVectorDim := 1
  sliceSizes := ![1, 64]
  wf := gather_S250000x64_S500000x1_S500000x64_1_0_n_n_0_1_164_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg1) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15_0) S10000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_1) S1x1x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v15_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x1x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v24) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v25) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v26) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v27) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v31) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v35) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v27) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v36) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg12) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v37_0) S10000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v37_1) S1x1x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v37_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v41) S1x1x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v37_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v40) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v46) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v47) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v48) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v49) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v53) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v57) S10000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v13) S10000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg13) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v58) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg15) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v59_0) S10000x64.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v59_1) S1x1x64.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v59_0) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v62) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v63) S1x1x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v59_0) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v62) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v68) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v69) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v70) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v71) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v75) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v35) S10000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v49) S10000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_arg20) S64x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v76) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg22) S64x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v77_0) S10000x64.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v77_1) S1x1x64.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v77_0) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v80) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v81) S1x1x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v90) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v57) S10000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v71) S10000x64.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_arg23) S64x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v91) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_arg25) S64x64.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v92_0) S10000x64.size cc14_transform_6 reads14_6 true false 2 stage14_6 sem14_6
    hrank14 hreads14_6 hinb14_6 nbuf14_6 (Memref.isWhole_whole _) hwx14_6 hstage14_6

abbrev win14_7 : Pipeline.Window sig grid14 :=
  Pipeline.Window.ofSpec (Memref.whole main_v92_1) S1x1x64.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v92_0) S10000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v95) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v96) S1x1x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v102) S10000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v103) S10000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v95) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v101) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v104) S1x64.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v105) S1x64.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v80) S1x64.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v86) S1x64.size cc16_transform_7 reads16_7 false true 1 stage16_7 sem16_7
    hrank16 hreads16_7 hinb16_7 nbuf16_7 (Memref.isWhole_whole _) hwx16_7 hstage16_7

abbrev win16_8 : Pipeline.Window sig grid16 :=
  Pipeline.Window.ofSpec (Memref.whole main_v106) S1x64.size cc16_transform_8 reads16_8 false true 1 stage16_8 sem16_8
    hrank16 hreads16_8 hinb16_8 nbuf16_8 (Memref.isWhole_whole _) hwx16_8 hstage16_8

abbrev win16_9 : Pipeline.Window sig grid16 :=
  Pipeline.Window.ofSpec (Memref.whole main_v107) S1x64.size cc16_transform_9 reads16_9 false true 1 stage16_9 sem16_9
    hrank16 hreads16_9 hinb16_9 nbuf16_9 (Memref.isWhole_whole _) hwx16_9 hstage16_9

abbrev win16_10 : Pipeline.Window sig grid16 :=
  Pipeline.Window.ofSpec (Memref.whole main_v108) S10000x1.size cc16_transform_10 reads16_10 true false 2 stage16_10 sem16_10
    hrank16 hreads16_10 hinb16_10 nbuf16_10 (Memref.isWhole_whole _) hwx16_10 hstage16_10

abbrev win16 : Fin 11 → Pipeline.Window sig grid16 := fun | 0 => win16_0 | 1 => win16_1 | 2 => win16_2 | 3 => win16_3 | 4 => win16_4 | 5 => win16_5 | 6 => win16_6 | 7 => win16_7 | 8 => win16_8 | 9 => win16_9 | 10 => win16_10 | ⟨_ + 11, h⟩ => absurd h (Nat.not_lt.2 (Nat.le_add_left _ _))
abbrev spec16 : Fin 11 → Pipeline.WinSpec sig grid16.rank := fun w => (win16 w).toWinSpec

class Facts : Prop extends Facts₀ where

variable [Facts]
-- ==== ReferenceIdeal.lean ====
abbrev S100000x64 : Shape := ⟨2, ![100000, 64]⟩
abbrev S250000x128 : Shape := ⟨2, ![250000, 128]⟩
abbrev S64x64 : Shape := ⟨2, ![64, 64]⟩
abbrev S64 : Shape := ⟨1, ![64]⟩
abbrev S128x64 : Shape := ⟨2, ![128, 64]⟩
abbrev S1500000 : Shape := ⟨1, ![1500000]⟩
abbrev S500000 : Shape := ⟨1, ![500000]⟩
abbrev S1x64 : Shape := ⟨2, ![1, 64]⟩
abbrev S_ : Shape := ⟨0, ![]⟩
abbrev S250000x64 : Shape := ⟨2, ![250000, 64]⟩
abbrev S1500000x1 : Shape := ⟨2, ![1500000, 1]⟩
abbrev S1500000x64 : Shape := ⟨2, ![1500000, 64]⟩
abbrev S250000x1 : Shape := ⟨2, ![250000, 1]⟩
abbrev S100000x1 : Shape := ⟨2, ![100000, 1]⟩
abbrev S500000x1 : Shape := ⟨2, ![500000, 1]⟩
abbrev S500000x64 : Shape := ⟨2, ![500000, 64]⟩

abbrev nBuf : Space → Nat
  | .hbm => 395
  | .vmem => 0
  | .smem => 0
  | _ => 0

abbrev hbmTy0_0 (i : Nat) : BufTy := match i % 128 with
  | 0 => ⟨S100000x64, .f32⟩
  | 1 => ⟨S250000x128, .f32⟩
  | 2 => ⟨S64x64, .f32⟩
  | 3 => ⟨S64, .f32⟩
  | 4 => ⟨S128x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64x64, .f32⟩
  | 21 => ⟨S64, .f32⟩
  | 22 => ⟨S64x64, .f32⟩
  | 23 => ⟨S64x64, .f32⟩
  | 24 => ⟨S64, .f32⟩
  | 25 => ⟨S64x64, .f32⟩
  | 26 => ⟨S64, .f32⟩
  | 27 => ⟨S64, .f32⟩
  | 28 => ⟨S64, .f32⟩
  | 29 => ⟨S64, .f32⟩
  | 30 => ⟨S1500000, .i32⟩
  | 31 => ⟨S1500000, .i32⟩
  | 32 => ⟨S500000, .i32⟩
  | 33 => ⟨S500000, .i32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S64, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S250000x64, .f32⟩
  | 72 => ⟨S1x64, .f32⟩
  | 73 => ⟨S250000x64, .f32⟩
  | 74 => ⟨S250000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S250000x64, .f32⟩
  | 82 => ⟨S250000x64, .f32⟩
  | 83 => ⟨S250000x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S250000x64, .f32⟩
  | 91 => ⟨S250000x64, .f32⟩
  | 92 => ⟨S1x64, .f32⟩
  | 93 => ⟨S250000x64, .f32⟩
  | 94 => ⟨S250000x64, .f32⟩
  | 95 => ⟨S_, .f32⟩
  | 96 => ⟨S64, .f32⟩
  | 97 => ⟨S64, .f32⟩
  | 98 => ⟨S64, .f32⟩
  | 99 => ⟨S1x64, .f32⟩
  | 100 => ⟨S250000x64, .f32⟩
  | 101 => ⟨S250000x64, .f32⟩
  | 102 => ⟨S1x64, .f32⟩
  | 103 => ⟨S250000x64, .f32⟩
  | 104 => ⟨S250000x64, .f32⟩
  | 105 => ⟨S_, .f32⟩
  | 106 => ⟨S250000x64, .f32⟩
  | 107 => ⟨S250000x64, .f32⟩
  | 108 => ⟨S_, .i32⟩
  | 109 => ⟨S1500000, .i32⟩
  | 110 => ⟨S1500000, .i1⟩
  | 111 => ⟨S_, .i32⟩
  | 112 => ⟨S1500000, .i32⟩
  | 113 => ⟨S1500000, .i32⟩
  | 114 => ⟨S1500000, .i32⟩
  | 115 => ⟨S1500000x1, .i32⟩
  | 116 => ⟨S1500000x64, .f32⟩
  | 117 => ⟨S_, .f32⟩
  | 118 => ⟨S250000x64, .f32⟩
  | 119 => ⟨S1500000x1, .i32⟩
  | 120 => ⟨S250000x64, .f32⟩
  | 121 => ⟨S_, .f32⟩
  | 122 => ⟨S1500000x1, .f32⟩
  | 123 => ⟨S_, .f32⟩
  | 124 => ⟨S250000x1, .f32⟩
  | 125 => ⟨S1500000x1, .i32⟩
  | 126 => ⟨S250000x1, .f32⟩
  | 127 => ⟨S_, .f32⟩
  | _ => ⟨S100000x64, .f32⟩

abbrev hbmTy0_1 (i : Nat) : BufTy := match i % 128 with
  | 0 => ⟨S250000x1, .f32⟩
  | 1 => ⟨S250000x1, .f32⟩
  | 2 => ⟨S250000x64, .f32⟩
  | 3 => ⟨S250000x64, .f32⟩
  | 4 => ⟨S250000x64, .f32⟩
  | 5 => ⟨S1x64, .f32⟩
  | 6 => ⟨S250000x64, .f32⟩
  | 7 => ⟨S250000x64, .f32⟩
  | 8 => ⟨S250000x64, .f32⟩
  | 9 => ⟨S250000x64, .f32⟩
  | 10 => ⟨S_, .i32⟩
  | 11 => ⟨S1500000, .i32⟩
  | 12 => ⟨S1500000, .i1⟩
  | 13 => ⟨S_, .i32⟩
  | 14 => ⟨S1500000, .i32⟩
  | 15 => ⟨S1500000, .i32⟩
  | 16 => ⟨S1500000, .i32⟩
  | 17 => ⟨S1500000x1, .i32⟩
  | 18 => ⟨S1500000x64, .f32⟩
  | 19 => ⟨S_, .f32⟩
  | 20 => ⟨S100000x64, .f32⟩
  | 21 => ⟨S1500000x1, .i32⟩
  | 22 => ⟨S100000x64, .f32⟩
  | 23 => ⟨S_, .f32⟩
  | 24 => ⟨S1500000x1, .f32⟩
  | 25 => ⟨S_, .f32⟩
  | 26 => ⟨S100000x1, .f32⟩
  | 27 => ⟨S1500000x1, .i32⟩
  | 28 => ⟨S100000x1, .f32⟩
  | 29 => ⟨S_, .f32⟩
  | 30 => ⟨S100000x1, .f32⟩
  | 31 => ⟨S100000x1, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S100000x64, .f32⟩
  | 39 => ⟨S100000x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S1x64, .f32⟩
  | 79 => ⟨S250000x64, .f32⟩
  | 80 => ⟨S250000x64, .f32⟩
  | 81 => ⟨S250000x64, .f32⟩
  | 82 => ⟨S_, .f32⟩
  | 83 => ⟨S64, .f32⟩
  | 84 => ⟨S_, .f32⟩
  | 85 => ⟨S64, .f32⟩
  | 86 => ⟨S64, .f32⟩
  | 87 => ⟨S1x64, .f32⟩
  | 88 => ⟨S250000x64, .f32⟩
  | 89 => ⟨S250000x64, .f32⟩
  | 90 => ⟨S1x64, .f32⟩
  | 91 => ⟨S250000x64, .f32⟩
  | 92 => ⟨S250000x64, .f32⟩
  | 93 => ⟨S_, .f32⟩
  | 94 => ⟨S64, .f32⟩
  | 95 => ⟨S64, .f32⟩
  | 96 => ⟨S64, .f32⟩
  | 97 => ⟨S1x64, .f32⟩
  | 98 => ⟨S250000x64, .f32⟩
  | 99 => ⟨S250000x64, .f32⟩
  | 100 => ⟨S1x64, .f32⟩
  | 101 => ⟨S250000x64, .f32⟩
  | 102 => ⟨S250000x64, .f32⟩
  | 103 => ⟨S_, .f32⟩
  | 104 => ⟨S250000x64, .f32⟩
  | 105 => ⟨S250000x64, .f32⟩
  | 106 => ⟨S_, .i32⟩
  | 107 => ⟨S1500000, .i32⟩
  | 108 => ⟨S1500000, .i1⟩
  | 109 => ⟨S_, .i32⟩
  | 110 => ⟨S1500000, .i32⟩
  | 111 => ⟨S1500000, .i32⟩
  | 112 => ⟨S1500000, .i32⟩
  | 113 => ⟨S1500000x1, .i32⟩
  | 114 => ⟨S1500000x64, .f32⟩
  | 115 => ⟨S_, .f32⟩
  | 116 => ⟨S250000x64, .f32⟩
  | 117 => ⟨S1500000x1, .i32⟩
  | 118 => ⟨S250000x64, .f32⟩
  | 119 => ⟨S_, .f32⟩
  | 120 => ⟨S1500000x1, .f32⟩
  | 121 => ⟨S_, .f32⟩
  | 122 => ⟨S250000x1, .f32⟩
  | 123 => ⟨S1500000x1, .i32⟩
  | 124 => ⟨S250000x1, .f32⟩
  | 125 => ⟨S_, .f32⟩
  | 126 => ⟨S250000x1, .f32⟩
  | 127 => ⟨S250000x1, .f32⟩
  | _ => ⟨S100000x64, .f32⟩

abbrev hbmTy0_2 (i : Nat) : BufTy := match i % 128 with
  | 0 => ⟨S250000x64, .f32⟩
  | 1 => ⟨S250000x64, .f32⟩
  | 2 => ⟨S250000x64, .f32⟩
  | 3 => ⟨S1x64, .f32⟩
  | 4 => ⟨S250000x64, .f32⟩
  | 5 => ⟨S250000x64, .f32⟩
  | 6 => ⟨S250000x64, .f32⟩
  | 7 => ⟨S250000x64, .f32⟩
  | 8 => ⟨S_, .i32⟩
  | 9 => ⟨S1500000, .i32⟩
  | 10 => ⟨S1500000, .i1⟩
  | 11 => ⟨S_, .i32⟩
  | 12 => ⟨S1500000, .i32⟩
  | 13 => ⟨S1500000, .i32⟩
  | 14 => ⟨S1500000, .i32⟩
  | 15 => ⟨S1500000x1, .i32⟩
  | 16 => ⟨S1500000x64, .f32⟩
  | 17 => ⟨S_, .f32⟩
  | 18 => ⟨S100000x64, .f32⟩
  | 19 => ⟨S1500000x1, .i32⟩
  | 20 => ⟨S100000x64, .f32⟩
  | 21 => ⟨S_, .f32⟩
  | 22 => ⟨S1500000x1, .f32⟩
  | 23 => ⟨S_, .f32⟩
  | 24 => ⟨S100000x1, .f32⟩
  | 25 => ⟨S1500000x1, .i32⟩
  | 26 => ⟨S100000x1, .f32⟩
  | 27 => ⟨S_, .f32⟩
  | 28 => ⟨S100000x1, .f32⟩
  | 29 => ⟨S100000x1, .f32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S100000x64, .f32⟩
  | 37 => ⟨S100000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S64, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S64, .f32⟩
  | 70 => ⟨S_, .f32⟩
  | 71 => ⟨S64, .f32⟩
  | 72 => ⟨S64, .f32⟩
  | 73 => ⟨S1x64, .f32⟩
  | 74 => ⟨S250000x64, .f32⟩
  | 75 => ⟨S250000x64, .f32⟩
  | 76 => ⟨S250000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S250000x64, .f32⟩
  | 84 => ⟨S250000x64, .f32⟩
  | 85 => ⟨S1x64, .f32⟩
  | 86 => ⟨S250000x64, .f32⟩
  | 87 => ⟨S250000x64, .f32⟩
  | 88 => ⟨S_, .f32⟩
  | 89 => ⟨S64, .f32⟩
  | 90 => ⟨S64, .f32⟩
  | 91 => ⟨S64, .f32⟩
  | 92 => ⟨S1x64, .f32⟩
  | 93 => ⟨S250000x64, .f32⟩
  | 94 => ⟨S250000x64, .f32⟩
  | 95 => ⟨S1x64, .f32⟩
  | 96 => ⟨S250000x64, .f32⟩
  | 97 => ⟨S250000x64, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x64, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x64, .f32⟩
  | 116 => ⟨S500000x64, .f32⟩
  | 117 => ⟨S_, .f32⟩
  | 118 => ⟨S500000, .f32⟩
  | 119 => ⟨S500000x1, .f32⟩
  | 120 => ⟨S500000x1, .f32⟩
  | 121 => ⟨S_, .f32⟩
  | 122 => ⟨S500000x1, .f32⟩
  | 123 => ⟨S500000x1, .f32⟩
  | 124 => ⟨S500000x64, .f32⟩
  | 125 => ⟨S500000x64, .f32⟩
  | 126 => ⟨S500000x64, .f32⟩
  | 127 => ⟨S_, .f32⟩
  | _ => ⟨S100000x64, .f32⟩

abbrev hbmTy0_3 (i : Nat) : BufTy := match i % 128 with
  | 0 => ⟨S500000, .f32⟩
  | 1 => ⟨S500000x1, .f32⟩
  | 2 => ⟨S500000x1, .f32⟩
  | 3 => ⟨S_, .f32⟩
  | 4 => ⟨S500000x1, .f32⟩
  | 5 => ⟨S500000x1, .f32⟩
  | 6 => ⟨S500000x64, .f32⟩
  | 7 => ⟨S500000x64, .f32⟩
  | 8 => ⟨S500000x64, .f32⟩
  | 9 => ⟨S_, .f32⟩
  | 10 => ⟨S500000, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst : Ref sig .tc := ⟨.hbm, 38, rfl⟩
abbrev main_v4 : Ref sig .tc := ⟨.hbm, 39, rfl⟩
abbrev main_cst_0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_3 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call0_cst : Ref sig .tc := ⟨.hbm, 68, rfl⟩
abbrev main_call0_v0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_4 : Ref sig .tc := ⟨.hbm, 75, rfl⟩
abbrev main_v34 : Ref sig .tc := ⟨.hbm, 76, rfl⟩
abbrev main_cst_5 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_6 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_8 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call1_cst : Ref sig .tc := ⟨.hbm, 105, rfl⟩
abbrev main_call1_v0 : Ref sig .tc := ⟨.hbm, 106, rfl⟩
abbrev main_v59 : Ref sig .tc := ⟨.hbm, 107, rfl⟩
abbrev main_c : Ref sig .tc := ⟨.hbm, 108, rfl⟩
abbrev main_v60 : Ref sig .tc := ⟨.hbm, 109, rfl⟩
abbrev main_v61 : Ref sig .tc := ⟨.hbm, 110, rfl⟩
abbrev main_c_9 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_10 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_11 : Ref sig .tc := ⟨.hbm, 121, rfl⟩
abbrev main_v70 : Ref sig .tc := ⟨.hbm, 122, rfl⟩
abbrev main_cst_12 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_13 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_14 : Ref sig .tc := ⟨.hbm, 138, rfl⟩
abbrev main_v84 : Ref sig .tc := ⟨.hbm, 139, rfl⟩
abbrev main_v85 : Ref sig .tc := ⟨.hbm, 140, rfl⟩
abbrev main_c_15 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_16 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_17 : Ref sig .tc := ⟨.hbm, 151, rfl⟩
abbrev main_v94 : Ref sig .tc := ⟨.hbm, 152, rfl⟩
abbrev main_cst_18 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_19 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_20 : Ref sig .tc := ⟨.hbm, 168, rfl⟩
abbrev main_v108 : Ref sig .tc := ⟨.hbm, 169, rfl⟩
abbrev main_cst_21 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_22 : Ref sig .tc := ⟨.hbm, 177, rfl⟩
abbrev main_v115 : Ref sig .tc := ⟨.hbm, 178, rfl⟩
abbrev main_cst_23 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_24 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_call2_cst : Ref sig .tc := ⟨.hbm, 198, rfl⟩
abbrev main_call2_v0 : Ref sig .tc := ⟨.hbm, 199, rfl⟩
abbrev main_v133 : Ref sig .tc := ⟨.hbm, 200, rfl⟩
abbrev main_cst_25 : Ref sig .tc := ⟨.hbm, 201, rfl⟩
abbrev main_v134 : Ref sig .tc := ⟨.hbm, 202, rfl⟩
abbrev main_cst_26 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_cst_27 : Ref sig .tc := ⟨.hbm, 210, rfl⟩
abbrev main_v141 : Ref sig .tc := ⟨.hbm, 211, rfl⟩
abbrev main_cst_28 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_cst_29 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_call3_cst : Ref sig .tc := ⟨.hbm, 231, rfl⟩
abbrev main_call3_v0 : Ref sig .tc := ⟨.hbm, 232, rfl⟩
abbrev main_v159 : Ref sig .tc := ⟨.hbm, 233, rfl⟩
abbrev main_c_30 : Ref sig .tc := ⟨.hbm, 234, rfl⟩
abbrev main_v160 : Ref sig .tc := ⟨.hbm, 235, rfl⟩
abbrev main_v161 : Ref sig .tc := ⟨.hbm, 236, rfl⟩
abbrev main_c_31 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_cst_32 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_cst_33 : Ref sig .tc := ⟨.hbm, 247, rfl⟩
abbrev main_v170 : Ref sig .tc := ⟨.hbm, 248, rfl⟩
abbrev main_cst_34 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_35 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_c_36 : Ref sig .tc := ⟨.hbm, 264, rfl⟩
abbrev main_v184 : Ref sig .tc := ⟨.hbm, 265, rfl⟩
abbrev main_v185 : Ref sig .tc := ⟨.hbm, 266, rfl⟩
abbrev main_c_37 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_cst_38 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_cst_39 : Ref sig .tc := ⟨.hbm, 277, rfl⟩
abbrev main_v194 : Ref sig .tc := ⟨.hbm, 278, rfl⟩
abbrev main_cst_40 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_cst_41 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_cst_42 : Ref sig .tc := ⟨.hbm, 294, rfl⟩
abbrev main_v208 : Ref sig .tc := ⟨.hbm, 295, rfl⟩
abbrev main_cst_43 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_cst_44 : Ref sig .tc := ⟨.hbm, 303, rfl⟩
abbrev main_v215 : Ref sig .tc := ⟨.hbm, 304, rfl⟩
abbrev main_cst_45 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_cst_46 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_cst_47 : Ref sig .tc := ⟨.hbm, 324, rfl⟩
abbrev main_v233 : Ref sig .tc := ⟨.hbm, 325, rfl⟩
abbrev main_cst_48 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_cst_49 : Ref sig .tc := ⟨.hbm, 333, rfl⟩
abbrev main_v240 : Ref sig .tc := ⟨.hbm, 334, rfl⟩
abbrev main_cst_50 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_cst_51 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_c_52 : Ref sig .tc := ⟨.hbm, 354, rfl⟩
abbrev main_v258 : Ref sig .tc := ⟨.hbm, 355, rfl⟩
abbrev main_v259 : Ref sig .tc := ⟨.hbm, 356, rfl⟩
abbrev main_c_53 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_c_54 : Ref sig .tc := ⟨.hbm, 363, rfl⟩
abbrev main_v265 : Ref sig .tc := ⟨.hbm, 364, rfl⟩
abbrev main_v266 : Ref sig .tc := ⟨.hbm, 365, rfl⟩
abbrev main_c_55 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_call4_v0 : Ref sig .tc := ⟨.hbm, 372, rfl⟩
abbrev main_call4_cst : Ref sig .tc := ⟨.hbm, 373, rfl⟩
abbrev main_call4_v1 : Ref sig .tc := ⟨.hbm, 374, rfl⟩
abbrev main_call4_v2 : Ref sig .tc := ⟨.hbm, 375, rfl⟩
abbrev main_v272 : Ref sig .tc := ⟨.hbm, 376, rfl⟩
abbrev main_cst_56 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_call5_v0 : Ref sig .tc := ⟨.hbm, 382, rfl⟩
abbrev main_call5_cst : Ref sig .tc := ⟨.hbm, 383, rfl⟩
abbrev main_call5_v1 : Ref sig .tc := ⟨.hbm, 384, rfl⟩
abbrev main_call5_v2 : Ref sig .tc := ⟨.hbm, 385, rfl⟩
abbrev main_v277 : Ref sig .tc := ⟨.hbm, 386, rfl⟩
abbrev main_cst_57 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_cst_58 : Ref sig .tc := ⟨.hbm, 393, rfl⟩
abbrev main_v283 : Ref sig .tc := ⟨.hbm, 394, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S1x64_S250000x64_0_1 : S1x64.BroadcastsInDim S250000x64 (![0, 1] : Fin 2 → Fin S250000x64.rank)
  reducesTo_S250000x64_S64_d0 : S250000x64.ReducesTo [0] S64
  bcast_S_S250000x64 : S_.BroadcastsInDim S250000x64 (![] : Fin 0 → Fin S250000x64.rank)
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S1500000x1 : S_.BroadcastsInDim S1500000x1 (![] : Fin 0 → Fin S1500000x1.rank)
  bcast_S_S250000x1 : S_.BroadcastsInDim S250000x1 (![] : Fin 0 → Fin S250000x1.rank)
  bcast_S250000x1_S250000x64_0_1 : S250000x1.BroadcastsInDim S250000x64 (![0, 1] : Fin 2 → Fin S250000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  dot_S100000x64_S64x64_S100000x64_1_0_0_1_n_n_wf : DotDims.WF S100000x64 S64x64 S100000x64 [1] [0] [0] [1] [] []
  dot_S250000x128_S128x64_S250000x64_1_0_0_1_n_n_wf : DotDims.WF S250000x128 S128x64 S250000x64 [1] [0] [0] [1] [] []
  gather_S100000x64_S1500000x1_S1500000x64_1_0_n_n_0_1_164_wf : GatherDims.WF S100000x64 S1500000x1 S1500000x64 [1] [0] [] [0] [] 1 ![1, 64]
  scatter_S250000x64_S1500000x1_S1500000x64_1_0_0_1_wf : ScatterDims.WF S250000x64 S1500000x1 S1500000x64 [1] [0] [0] 1
  scatter_S250000x1_S1500000x1_S1500000x1_1_0_0_1_wf : ScatterDims.WF S250000x1 S1500000x1 S1500000x1 [1] [0] [0] 1
  dot_S250000x64_S64x64_S250000x64_1_0_0_1_n_n_wf : DotDims.WF S250000x64 S64x64 S250000x64 [1] [0] [0] [1] [] []
  gather_S250000x64_S1500000x1_S1500000x64_1_0_n_n_0_1_164_wf : GatherDims.WF S250000x64 S1500000x1 S1500000x64 [1] [0] [] [0] [] 1 ![1, 64]
  scatter_S100000x64_S1500000x1_S1500000x64_1_0_0_1_wf : ScatterDims.WF S100000x64 S1500000x1 S1500000x64 [1] [0] [0] 1
  scatter_S100000x1_S1500000x1_S1500000x1_1_0_0_1_wf : ScatterDims.WF S100000x1 S1500000x1 S1500000x1 [1] [0] [0] 1
  gather_S100000x64_S500000x1_S500000x64_1_0_n_n_0_1_164_wf : GatherDims.WF S100000x64 S500000x1 S500000x64 [1] [0] [] [0] [] 1 ![1, 64]
  gather_S250000x64_S500000x1_S500000x64_1_0_n_n_0_1_164_wf : GatherDims.WF S250000x64 S500000x1 S500000x64 [1] [0] [] [0] [] 1 ![1, 64]

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S250000x128_S128x64_S250000x64_1_0_0_1_n_n : DotDims S250000x128 S128x64 S250000x64 where
  lhsContracting := [1]
  rhsContracting := [0]
  lhsNonContracting := [0]
  rhsNonContracting := [1]
  lhsBatch := []
  rhsBatch := []
  wf := dot_S250000x128_S128x64_S250000x64_1_0_0_1_n_n_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S250000x64_S1500000x1_S1500000x64_1_0_0_1 : ScatterDims S250000x64 S1500000x1 S1500000x64 where
  updateWindowDims := [1]
  insertedWindowDims := [0]
  scatterDimsToOperandDims := [0]
  indexVectorDim := 1
  wf := scatter_S250000x64_S1500000x1_S1500000x64_1_0_0_1_wf
def scatter_S250000x1_S1500000x1_S1500000x1_1_0_0_1 : ScatterDims S250000x1 S1500000x1 S1500000x1 where
  updateWindowDims := [1]
  insertedWindowDims := [0]
  scatterDimsToOperandDims := [0]
  indexVectorDim := 1
  wf := scatter_S250000x1_S1500000x1_S1500000x1_1_0_0_1_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def gather_S250000x64_S1500000x1_S1500000x64_1_0_n_n_0_1_164 : GatherDims S250000x64 S1500000x1 S1500000x64 where
  offsetDims := [1]
  collapsedSliceDims := [0]
  operandBatchingDims := []
  startIndicesBatchingDims := []
  startIndexMap := [0]
  indexVectorDim := 1
  sliceSizes := ![1, 64]
  wf := gather_S250000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000x1_S1500000x1_S1500000x1_1_0_0_1 : ScatterDims S100000x1 S1500000x1 S1500000x1 where
  updateWindowDims := [1]
  insertedWindowDims := [0]
  scatterDimsToOperandDims := [0]
  indexVectorDim := 1
  wf := scatter_S100000x1_S1500000x1_S1500000x1_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S250000x64_S500000x1_S500000x64_1_0_n_n_0_1_164 : GatherDims S250000x64 S500000x1 S500000x64 where
  offsetDims := [1]
  collapsedSliceDims := [0]
  operandBatchingDims := []
  startIndicesBatchingDims := []
  startIndexMap := [0]
  indexVectorDim := 1
  sliceSizes := ![1, 64]
  wf := gather_S250000x64_S500000x1_S500000x64_1_0_n_n_0_1_164_wf

class Facts : Prop extends Facts₀ where

variable [Facts]
-- ==== Proof.Spec.lean ====
import Idealize.ShloMosaic.PureOps.Ideal
import Mathlib.Algebra.BigOperators.Fin
import Mathlib.Data.EReal.Operations

noncomputable section

open scoped BigOperators
open Idealize.ShloMosaic

namespace Cert.Spec

variable {n d h : Nat}

def lin (x : Fin n → Fin d → EReal) (W : Fin d → Fin h → EReal) (b : Fin h → EReal) : Fin n → Fin h → EReal :=
  fun i j => (∑ k, x i k * W k j) + b j

def colSum (y : Fin n → Fin h → EReal) : Fin h → EReal := fun j => ∑ i, y i j

def colMean (cN : EReal) (y : Fin n → Fin h → EReal) : Fin h → EReal := fun j => Ideal.div (colSum y j) cN

def colSq (y : Fin n → Fin h → EReal) (μ : Fin h → EReal) : Fin h → EReal :=
  fun j => ∑ i, (y i j - μ j) * (y i j - μ j)

def colVar (cN : EReal) (y : Fin n → Fin h → EReal) (μ : Fin h → EReal) : Fin h → EReal :=
  fun j => Ideal.div (colSq y μ j) cN

def colVarK (cN : EReal) (y : Fin n → Fin h → EReal) (μ : Fin h → EReal) : Fin h → EReal :=
  fun j => max (colVar cN y μ j) 0

def bn (ε : EReal) (g β μ v : Fin h → EReal) (y : Fin n → Fin h → EReal) : Fin n → Fin h → EReal :=
  fun i j => g j * (y i j - μ j) * Ideal.rsqrt (v j + ε) + β j

def relu (y : Fin n → Fin h → EReal) : Fin n → Fin h → EReal := fun i j => max (y i j) 0

def sage (one : EReal) (agg : Fin n → Fin d → EReal) (cnt : Fin n → EReal) (xd : Fin n → Fin d → EReal)
    (Wl : Fin d → Fin h → EReal) (bl : Fin h → EReal) (Wr : Fin d → Fin h → EReal) : Fin n → Fin h → EReal :=
  fun i j => ((∑ k, Ideal.div (agg i k) (max (cnt i) one) * Wl k j) + bl j) + ∑ k, xd i k * Wr k j

def rowNorm (z : Fin n → Fin h → EReal) : Fin n → EReal := fun i => Ideal.sqrt (∑ j, z i j * z i j)

def cosRow (tiny : EReal) (zs zd : Fin n → Fin h → EReal) : Fin n → EReal :=
  fun i => ∑ j, Ideal.div (zs i j) (max (rowNorm zs i) tiny) * Ideal.div (zd i j) (max (rowNorm zd i) tiny)

/-- A sum over nb·B indices regrouped as nb sums of B terms. -/
theorem sum_blocks {nb B : Nat} (f : Fin (nb * B) → EReal) :
    ∑ i, f i = ∑ t : Fin nb, ∑ r : Fin B, f ⟨t.val * B + r.val, by
      have := t.isLt; have := r.isLt; nlinarith [Nat.mul_le_mul_right B (Nat.succ_le_of_lt t.isLt)]⟩ := by
  rw [← (finProdFinEquiv : Fin nb × Fin B ≃ Fin (nb * B)).sum_comp f, Fintype.sum_prod_type]
  refine Finset.sum_congr rfl fun t _ => Finset.sum_congr rfl fun r _ => ?_
  congr 1
  apply Fin.ext
  show r.val + B * t.val = t.val * B + r.val
  rw [Nat.mul_comm, Nat.add_comm]

theorem mul_self_nonneg (x : EReal) : 0 ≤ x * x := by
  rcases le_total 0 x with hx | hx
  · exact EReal.mul_nonneg_iff.mpr (Or.inl ⟨hx, hx⟩)
  · exact EReal.mul_nonneg_iff.mpr (Or.inr ⟨hx, hx⟩)

/-- A mean of squares over a positive count is not negative, so its maximum with zero is itself. -/
theorem colVarK_eq {cN : EReal} {r : ℝ} (hc : cN = (r : EReal)) (hr : 0 < r) (y : Fin n → Fin h → EReal)
    (μ : Fin h → EReal) : colVarK cN y μ = colVar cN y μ := by
  funext j
  have hsq : 0 ≤ colSq y μ j := Finset.sum_nonneg fun i _ => Cert.Spec.mul_self_nonneg _
  have hinv : (0 : EReal) ≤ ((1 / r : ℝ) : EReal) := by exact_mod_cast (one_div_pos.mpr hr).le
  have hv : 0 ≤ colVar cN y μ j := by
    show 0 ≤ Ideal.div (colSq y μ j) cN
    rw [hc, Ideal.div_coe hr.ne']
    exact EReal.mul_nonneg hsq hinv
  exact max_eq_left hv

end Cert.Spec

end
-- ==== Proof.Blocks.lean ====
import proofs.«425228_j78254304133410_2_alg».proof.Proof.Spec

noncomputable section

open scoped BigOperators
open Idealize.ShloMosaic

namespace Cert.Spec

abbrev epsW : EReal := Ideal.ofBits .f32 0x3727C5AC#32
abbrev oneW : EReal := Ideal.ofBits .f32 0x3F800000#32
abbrev tinyW : EReal := Ideal.ofBits .f32 0x2B8CBCCC#32
abbrev nUW : EReal := Ideal.ofBits .f32 0x47C35000#32
abbrev nRW : EReal := Ideal.ofBits .f32 0x48742400#32

def blkRow {N nb : Nat} (hN : N = nb * 10000) (t : Fin nb) (r : Fin 10000) : Fin N :=
  ⟨t.val * 10000 + r.val, by have := t.isLt; have := r.isLt; omega⟩

def blockSums {N nb h : Nat} (hN : N = nb * 10000) (f : Fin N → Fin h → EReal) : Fin nb → Fin h → EReal :=
  fun t j => ∑ r : Fin 10000, f (blkRow hN t r) j

/-- Adding the per-block column sums gives the column's sum over all rows. -/
theorem sum_blockSums {N nb h : Nat} (hN : N = nb * 10000) (f : Fin N → Fin h → EReal) (j : Fin h) :
    ∑ t : Fin nb, blockSums hN f t j = ∑ i : Fin N, f i j := by
  subst hN
  exact (sum_blocks (fun i => f i j)).symm

end Cert.Spec

end
-- ==== Proof.Model.lean ====
import proofs.«425228_j78254304133410_2_alg».proof.Proof.Blocks
import Idealize.ShloMosaic.Lib.ValueIdx

noncomputable section

open scoped BigOperators
open Idealize.ShloMosaic Idealize.ShloMosaic.ValueIdx

namespace Cert.Model

abbrev Mat (n h : Nat) : Type := (⟨2, ![n, h]⟩ : Shape).Idx → EReal
abbrev Row (h : Nat) : Type := (⟨1, ![h]⟩ : Shape).Idx → EReal
abbrev Ixs (e : Nat) : Type := (⟨1, ![e]⟩ : Shape).Idx → BitVec 32
abbrev IxCol (e : Nat) : Type := (⟨2, ![e, 1]⟩ : Shape).Idx → BitVec 32

variable {n h : Nat}

def toF (A : Mat n h) : Fin n → Fin h → EReal := fun a j => A (ix2 a j)
def ofF (f : Fin n → Fin h → EReal) : Mat n h := fun i => f (i 0) (i 1)
def vec (v : Row h) : Fin h → EReal := fun j => v (ix1 j)
def col {e : Nat} (v : Ixs e) : IxCol e := fun i => v (ix1 (i 0))
def col1 (A : Mat n 1) : Fin n → EReal := fun a => A (ix2 a 0)

theorem toF_ofF (f : Fin n → Fin h → EReal) : toF (ofF f) = f := rfl
theorem ofF_toF (A : Mat n h) : ofF (toF A) = A := by
  funext i; simp only [ofF, toF]; exact congrArg A (eq_ix2 i).symm

abbrev zeroW : EReal := Ideal.ofBits .f32 0x00000000#32

structure Args where
  xU : Mat 100000 64
  xR : Mat 250000 128
  Wu : Mat 64 64
  bu : Row 64
  Wr : Mat 128 64
  br : Row 64
  gInU : Row 64
  bInU : Row 64
  gInR : Row 64
  bInR : Row 64
  Wl1ur : Mat 64 64
  bl1ur : Row 64
  Wr1ur : Mat 64 64
  Wl1ru : Mat 64 64
  bl1ru : Row 64
  Wr1ru : Mat 64 64
  g1u : Row 64
  b1u : Row 64
  g1r : Row 64
  b1r : Row 64
  Wl2ur : Mat 64 64
  bl2ur : Row 64
  Wr2ur : Mat 64 64
  Wl2ru : Mat 64 64
  bl2ru : Row 64
  Wr2ru : Mat 64 64
  g2u : Row 64
  b2u : Row 64
  g2r : Row 64
  b2r : Row 64
  eU : Ixs 1500000
  eR : Ixs 1500000
  lU : Ixs 500000
  lR : Ixs 500000

structure Ops where
  gatU : Mat 100000 64 → IxCol 1500000 → Mat 1500000 64
  gatR : Mat 250000 64 → IxCol 1500000 → Mat 1500000 64
  scR : Mat 250000 64 → IxCol 1500000 → Mat 1500000 64 → Mat 250000 64
  scR1 : Mat 250000 1 → IxCol 1500000 → Mat 1500000 1 → Mat 250000 1
  scU : Mat 100000 64 → IxCol 1500000 → Mat 1500000 64 → Mat 100000 64
  scU1 : Mat 100000 1 → IxCol 1500000 → Mat 1500000 1 → Mat 100000 1
  gatLU : Mat 100000 64 → IxCol 500000 → Mat 500000 64
  gatLR : Mat 250000 64 → IxCol 500000 → Mat 500000 64

def norm (cN : EReal) (g β : Row 64) (y : Fin n → Fin 64 → EReal) : Fin n → Fin 64 → EReal :=
  Spec.bn Spec.epsW (vec g) (vec β) (Spec.colMean cN y) (Spec.colVar cN y (Spec.colMean cN y)) y

def rowArr (f : Fin 64 → EReal) : Mat 1 64 := fun i => f (i 1)

def projStage {d : Nat} (cN : EReal) (x : Mat n d) (W : Mat d 64) (b g β : Row 64) : Mat n 64 :=
  ofF (Spec.relu (norm cN g β (Spec.lin (toF x) (toF W) (vec b))))
def bnReluStage (cN : EReal) (g β : Row 64) (y : Mat n 64) : Mat n 64 := ofF (Spec.relu (norm cN g β (toF y)))
def bnStage (cN : EReal) (g β : Row 64) (y : Mat n 64) : Mat n 64 := ofF (norm cN g β (toF y))
def sageStage (agg : Mat n 64) (cnt : Mat n 1) (own : Mat n 64) (Wl : Mat 64 64) (bl : Row 64) (Wr : Mat 64 64) : Mat n 64 :=
  ofF (Spec.sage Spec.oneW (toF agg) (col1 cnt) (toF own) (toF Wl) (vec bl) (toF Wr))
def cosStage (zs zd : Mat 500000 64) : (⟨1, ![500000]⟩ : Shape).Idx → EReal :=
  fun i => Spec.cosRow Spec.tinyW (toF zs) (toF zd) (i 0)

variable (O : Ops)

def cntRStage (eR : Ixs 1500000) : Mat 250000 1 := O.scR1 (fun _ => zeroW) (col eR) (fun _ => Spec.oneW)
def cntUStage (eU : Ixs 1500000) : Mat 100000 1 := O.scU1 (fun _ => zeroW) (col eU) (fun _ => Spec.oneW)
def aggRStage (src : Mat 100000 64) (eU eR : Ixs 1500000) : Mat 250000 64 :=
  O.scR (fun _ => zeroW) (col eR) (O.gatU src (col eU))
def aggUStage (src : Mat 250000 64) (eU eR : Ixs 1500000) : Mat 100000 64 :=
  O.scU (fun _ => zeroW) (col eU) (O.gatR src (col eR))

variable (A : Args)

def hu : Mat 100000 64 := projStage Spec.nUW A.xU A.Wu A.bu A.gInU A.bInU
def hr : Mat 250000 64 := projStage Spec.nRW A.xR A.Wr A.br A.gInR A.bInR
def cntR : Mat 250000 1 := cntRStage O A.eR
def cntU : Mat 100000 1 := cntUStage O A.eU
def r1p : Mat 250000 64 := sageStage (aggRStage O (hu A) A.eU A.eR) (cntR O A) (hr A) A.Wl1ur A.bl1ur A.Wr1ur
def u1p : Mat 100000 64 := sageStage (aggUStage O (hr A) A.eU A.eR) (cntU O A) (hu A) A.Wl1ru A.bl1ru A.Wr1ru
def r1 : Mat 250000 64 := bnReluStage Spec.nRW A.g1r A.b1r (r1p O A)
def u1 : Mat 100000 64 := bnReluStage Spec.nUW A.g1u A.b1u (u1p O A)
def zrp : Mat 250000 64 := sageStage (aggRStage O (u1 O A) A.eU A.eR) (cntR O A) (r1 O A) A.Wl2ur A.bl2ur A.Wr2ur
def zup : Mat 100000 64 := sageStage (aggUStage O (r1 O A) A.eU A.eR) (cntU O A) (u1 O A) A.Wl2ru A.bl2ru A.Wr2ru
def zr : Mat 250000 64 := bnStage Spec.nRW A.g2r A.b2r (zrp O A)
def zu : Mat 100000 64 := bnStage Spec.nUW A.g2u A.b2u (zup O A)
def out : (⟨1, ![500000]⟩ : Shape).Idx → EReal :=
  cosStage (O.gatLU (zu O A) (col A.lU)) (O.gatLR (zr O A) (col A.lR))

/-- All edge and label indices lie inside the tables they index. -/
structure InRange : Prop where
  eU : ∀ e : Fin 1500000, 0 ≤ (A.eU (ix1 e)).toInt ∧ (A.eU (ix1 e)).toInt < 100000
  eR : ∀ e : Fin 1500000, 0 ≤ (A.eR (ix1 e)).toInt ∧ (A.eR (ix1 e)).toInt < 250000
  lU : ∀ e : Fin 500000, 0 ≤ (A.lU (ix1 e)).toInt ∧ (A.lU (ix1 e)).toInt < 100000
  lR : ∀ e : Fin 500000, 0 ≤ (A.lR (ix1 e)).toInt ∧ (A.lR (ix1 e)).toInt < 250000

end Cert.Model

end
-- ==== Proof.KState.lean ====
import proofs.«425228_j78254304133410_2_alg».proof.Proof.Gen.KernelIdeal.Frame
import proofs.«425228_j78254304133410_2_alg».proof.Proof.Model
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.Chain

open Cert.KernelIdeal Cert.KernelIdeal.Gen
open Idealize.ShloMosaic Idealize.ShloMosaic.TcCoe Idealize.ShloMosaic.ValueIdx Idealize.SL.Sem
open scoped BigOperators

/-- Over the result entry (0, j), the summand with block coordinate k sits at (k, 0, j). -/
theorem lift_blocks {nb : Nat} (h : (⟨3, ![nb, 1, 64]⟩ : Shape).Reduces [0] ⟨2, ![1, 64]⟩) (j : Fin 64) (k : Fin nb) :
    h.lift (ix2 (0 : Fin 1) j) k = ix3 k (0 : Fin 1) j := by
  funext a
  apply Fin.ext
  match a with
  | ⟨0, _⟩ => rfl
  | ⟨1, _⟩ => rfl
  | ⟨2, _⟩ => rfl

/-- The blocks' sums of column j added up and divided by the word w: the column's whole sum over the value of w. -/
theorem blockMean_apply {nb N : Nat} (hN : N = nb * 10000)
    (h' : (⟨3, ![nb, 1, 64]⟩ : Shape).ReducesTo [0] ⟨2, ![1, 64]⟩)
    (h : (⟨3, ![nb, 1, 64]⟩ : Shape).Reduces [0] ⟨2, ![1, 64]⟩)
    (hu : 0 < S_.numel) (hb : S_.BroadcastsInDim S1x64 ![])
    (p : FVec Ideal ⟨3, ![nb, 1, 64]⟩ .f32) (f : Fin N → Fin 64 → EReal)
    (hp : p = fun i => Spec.blockSums hN f (i 0) (i 2)) (w : BitVec 32) (j : Fin 64) :
    Host.divf (Host.reduceAdd p (constant (F := Ideal) S_ .f32 0x00000000#32) h' hu)
        (broadcastInDim S1x64 ![] hb (constant (F := Ideal) S_ .f32 w)) (ix2 (0 : Fin 1) j)
      = Ideal.div (∑ i, f i j) (Ideal.ofBits .f32 w) := by
  subst hp
  rw [hostDivf_apply, hostReduceAdd_apply, broadcastInDim_scalar_apply, constant_apply, constant_apply,
    Ideal.hostReduceAdd_single h' h, Ideal.ofBits_zero_f32, zero_add]
  refine congrArg (fun s => Ideal.div s (Ideal.ofBits .f32 w)) ?_
  refine (Finset.sum_congr rfl fun k _ => ?_).trans (Spec.sum_blockSums hN f j)
  rw [lift_blocks h j k]
  rfl

theorem blockVar_apply {nb N : Nat} (hN : N = nb * 10000)
    (h' : (⟨3, ![nb, 1, 64]⟩ : Shape).ReducesTo [0] ⟨2, ![1, 64]⟩)
    (h : (⟨3, ![nb, 1, 64]⟩ : Shape).Reduces [0] ⟨2, ![1, 64]⟩)
    (hu : 0 < S_.numel) (hb : S_.BroadcastsInDim S1x64 ![])
    (p : FVec Ideal ⟨3, ![nb, 1, 64]⟩ .f32) (f : Fin N → Fin 64 → EReal)
    (hp : p = fun i => Spec.blockSums hN f (i 0) (i 2)) (w : BitVec 32) (j : Fin 64) :
    maximumf (Host.divf (Host.reduceAdd p (constant (F := Ideal) S_ .f32 0x00000000#32) h' hu)
        (broadcastInDim S1x64 ![] hb (constant (F := Ideal) S_ .f32 w)))
        (broadcastInDim S1x64 ![] hb (constant (F := Ideal) S_ .f32 0x00000000#32)) (ix2 (0 : Fin 1) j)
      = max (Ideal.div (∑ i, f i j) (Ideal.ofBits .f32 w)) 0 := by
  rw [maximumf_apply, blockMean_apply hN h' h hu hb p f hp w j, broadcastInDim_scalar_apply, constant_apply,
    Ideal.ofBits_zero_f32]

theorem bcast_const {T : Shape} (h : S_.BroadcastsInDim T ![]) (w : BitVec 32) :
    (broadcastInDim T ![] h (constant (F := Ideal) S_ .f32 w) : FVec Ideal T .f32) = fun _ => Ideal.ofBits .f32 w :=
  funext fun j => broadcastInDim_scalar_apply h _ j

theorem ofBuf_toBuf {Val : EltTy → Type} {T : BufTy} (x : StableHlo.TRef sig T) (v : T.Contents Val) :
    x.ofBuf (x.toBuf v) = v := by
  unfold StableHlo.TRef.ofBuf StableHlo.TRef.toBuf
  rw [cast_cast, cast_eq]

variable (m : (ℓ : Loc nD τ sig) → Buf (Elt Ideal) ℓ)

def argsK (c : Dev nD) : Cert.Model.Args where
  xU := m ((c.tc : Thread nD τ).loc main_arg0)
  xR := m ((c.tc : Thread nD τ).loc main_arg1)
  Wu := m ((c.tc : Thread nD τ).loc main_arg2)
  bu := m ((c.tc : Thread nD τ).loc main_arg3)
  Wr := m ((c.tc : Thread nD τ).loc main_arg4)
  br := m ((c.tc : Thread nD τ).loc main_arg5)
  gInU := m ((c.tc : Thread nD τ).loc main_arg6)
  bInU := m ((c.tc : Thread nD τ).loc main_arg7)
  gInR := m ((c.tc : Thread nD τ).loc main_arg8)
  bInR := m ((c.tc : Thread nD τ).loc main_arg9)
  Wl1ur := m ((c.tc : Thread nD τ).loc main_arg10)
  bl1ur := m ((c.tc : Thread nD τ).loc main_arg11)
  Wr1ur := m ((c.tc : Thread nD τ).loc main_arg12)
  Wl1ru := m ((c.tc : Thread nD τ).loc main_arg13)
  bl1ru := m ((c.tc : Thread nD τ).loc main_arg14)
  Wr1ru := m ((c.tc : Thread nD τ).loc main_arg15)
  g1u := m ((c.tc : Thread nD τ).loc main_arg16)
  b1u := m ((c.tc : Thread nD τ).loc main_arg17)
  g1r := m ((c.tc : Thread nD τ).loc main_arg18)
  b1r := m ((c.tc : Thread nD τ).loc main_arg19)
  Wl2ur := m ((c.tc : Thread nD τ).loc main_arg20)
  bl2ur := m ((c.tc : Thread nD τ).loc main_arg21)
  Wr2ur := m ((c.tc : Thread nD τ).loc main_arg22)
  Wl2ru := m ((c.tc : Thread nD τ).loc main_arg23)
  bl2ru := m ((c.tc : Thread nD τ).loc main_arg24)
  Wr2ru := m ((c.tc : Thread nD τ).loc main_arg25)
  g2u := m ((c.tc : Thread nD τ).loc main_arg26)
  b2u := m ((c.tc : Thread nD τ).loc main_arg27)
  g2r := m ((c.tc : Thread nD τ).loc main_arg28)
  b2r := m ((c.tc : Thread nD τ).loc main_arg29)
  eU := m ((c.tc : Thread nD τ).loc main_arg30)
  eR := m ((c.tc : Thread nD τ).loc main_arg31)
  lU := m ((c.tc : Thread nD τ).loc main_arg32)
  lR := m ((c.tc : Thread nD τ).loc main_arg33)

def opsK : Cert.Model.Ops where
  gatU := fun x i => Host.gather gather_S100000x64_S1500000x1_S1500000x64_1_0_n_n_0_1_164 x i
  gatR := fun x i => Host.gather gather_S250000x64_S1500000x1_S1500000x64_1_0_n_n_0_1_164 x i
  scR := fun (x : FVec Ideal S250000x64 .f32) i (u : FVec Ideal S1500000x64 .f32) => (Host.scatterAdd scatter_S250000x64_S1500000x1_S1500000x64_1_0_0_1 x i u : FVec Ideal S250000x64 .f32)
  scR1 := fun (x : FVec Ideal S250000x1 .f32) i (u : FVec Ideal S1500000x1 .f32) => (Host.scatterAdd scatter_S250000x1_S1500000x1_S1500000x1_1_0_0_1 x i u : FVec Ideal S250000x1 .f32)
  scU := fun (x : FVec Ideal S100000x64 .f32) i (u : FVec Ideal S1500000x64 .f32) => (Host.scatterAdd scatter_S100000x64_S1500000x1_S1500000x64_1_0_0_1 x i u : FVec Ideal S100000x64 .f32)
  scU1 := fun (x : FVec Ideal S100000x1 .f32) i (u : FVec Ideal S1500000x1 .f32) => (Host.scatterAdd scatter_S100000x1_S1500000x1_S1500000x1_1_0_0_1 x i u : FVec Ideal S100000x1 .f32)
  gatLU := fun x i => Host.gather gather_S100000x64_S500000x1_S500000x64_1_0_n_n_0_1_164 x i
  gatLR := fun x i => Host.gather gather_S250000x64_S500000x1_S500000x64_1_0_n_n_0_1_164 x i

end Cert.KernelIdeal.Chain

end
-- ==== Proof.KArgs.lean ====
import proofs.«425228_j78254304133410_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

/-- If every array of a region that is the buffer `b` ends equal to what it held at entry, the region leaves `b` unchanged. -/
theorem region_keeps {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

/-- Buffers are numbered in the order the program defines them. A host stretch writes only buffers it defines, so a
    buffer numbered below all of those (the hypothesis `h`) holds after the stretch what it held before. -/
macro "host_keeps " ops:ident h:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by intro e; subst e; exact absurd $h (by decide)))))

variable (m : (ℓ : Loc nD τ sig) → Buf (Elt F) ℓ) (ρ : Dev nD → PrngReg) (c : Dev nD) (b : Ref sig .tc)

/-! Segment by segment: a buffer numbered below the first one the segment defines is not changed by it (a region only
    reads such a buffer). -/

theorem W1_keeps (hb : b.idx.val < 34) : W1 m ρ c (Proc.devRef .tc b) = W0 m ρ c (Proc.devRef .tc b) := by
  host_keeps hostOps0 hb
theorem W2_keeps (hb : b.idx.val < 35) : W2 m ρ c (Proc.devRef .tc b) = W1 m ρ c (Proc.devRef .tc b) :=
  region_keeps spec0 launch0.win.arr_inj c _ _ b fun w e => ((dat0 (V1 m ρ) c).arrAt_in w
    (by subst e; exact (by decide : ∀ w : Fin cfg0.W, (Pipeline.arrRef spec0 w).idx.val < 35 → (cfg0.win w).isOut = false) w hb)
    _).trans (A_eq0 (V1 m ρ) c w)
theorem W3_keeps (hb : b.idx.val < 37) : W3 m ρ c (Proc.devRef .tc b) = W2 m ρ c (Proc.devRef .tc b) := by
  host_keeps hostOps1 hb
theorem W4_keeps (hb : b.idx.val < 42) : W4 m ρ c (Proc.devRef .tc b) = W3 m ρ c (Proc.devRef .tc b) :=
  region_keeps spec1 launch1.win.arr_inj c _ _ b fun w e => ((dat1 (V3 m ρ) c).arrAt_in w
    (by subst e; exact (by decide : ∀ w : Fin cfg1.W, (Pipeline.arrRef spec1 w).idx.val < 42 → (cfg1.win w).isOut = false) w hb)
    _).trans (A_eq1 (V3 m ρ) c w)
theorem W5_keeps (hb : b.idx.val < 43) : W5 m ρ c (Proc.devRef .tc b) = W4 m ρ c (Proc.devRef .tc b) := by
  host_keeps hostOps2 hb
theorem W6_keeps (hb : b.idx.val < 53) : W6 m ρ c (Proc.devRef .tc b) = W5 m ρ c (Proc.devRef .tc b) :=
  region_keeps spec2 launch2.win.arr_inj c _ _ b fun w e => ((dat2 (V5 m ρ) c).arrAt_in w
    (by subst e; exact (by decide : ∀ w : Fin cfg2.W, (Pipeline.arrRef spec2 w).idx.val < 53 → (cfg2.win w).isOut = false) w hb)
    _).trans (A_eq2 (V5 m ρ) c w)
theorem W7_keeps (hb : b.idx.val < 54) : W7 m ρ c (Proc.devRef .tc b) = W6 m ρ c (Proc.devRef .tc b) := by
  host_keeps hostOps3 hb
theorem W8_keeps (hb : b.idx.val < 55) : W8 m ρ c (Proc.devRef .tc b) = W7 m ρ c (Proc.devRef .tc b) :=
  region_keeps spec3 launch3.win.arr_inj c _ _ b fun w e => ((dat3 (V7 m ρ) c).arrAt_in w
    (by subst e; exact (by decide : ∀ w : Fin cfg3.W, (Pipeline.arrRef spec3 w).idx.val < 55 → (cfg3.win w).isOut = false) w hb)
    _).trans (A_eq3 (V7 m ρ) c w)
theorem W9_keeps (hb : b.idx.val < 57) : W9 m ρ c (Proc.devRef .tc b) = W8 m ρ c (Proc.devRef .tc b) := by
  host_keeps hostOps4 hb
theorem W10_keeps (hb : b.idx.val < 62) : W10 m ρ c (Proc.devRef .tc b) = W9 m ρ c (Proc.devRef .tc b) :=
  region_keeps spec4 launch4.win.arr_inj c _ _ b fun w e => ((dat4 (V9 m ρ) c).arrAt_in w
    (by subst e; exact (by decide : ∀ w : Fin cfg4.W, (Pipeline.arrRef spec4 w).idx.val < 62 → (cfg4.win w).isOut = false) w hb)
    _).trans (A_eq4 (V9 m ρ) c w)
theorem W11_keeps (hb : b.idx.val < 63) : W11 m ρ c (Proc.devRef .tc b) = W10 m ρ c (Proc.devRef .tc b) := by
  host_keeps hostOps5 hb
theorem W12_keeps (hb : b.idx.val < 73) : W12 m ρ c (Proc.devRef .tc b) = W11 m ρ c (Proc.devRef .tc b) :=
  region_keeps spec5 launch5.win.arr_inj c _ _ b fun w e => ((dat5 (V11 m ρ) c).arrAt_in w
    (by subst e; exact (by decide : ∀ w : Fin cfg5.W, (Pipeline.arrRef spec5 w).idx.val < 73 → (cfg5.win w).isOut = false) w hb)
    _).trans (A_eq5 (V11 m ρ) c w)
theorem W13_keeps (hb : b.idx.val < 74) : W13 m ρ c (Proc.devRef .tc b) = W12 m ρ c (Proc.devRef .tc b) := by
  host_keeps hostOps6 hb
theorem W14_keeps (hb : b.idx.val < 97) : W14 m ρ c (Proc.devRef .tc b) = W13 m ρ c (Proc.devRef .tc b) := by
  host_keeps hostOps6_1 hb
theorem W15_keeps (hb : b.idx.val < 108) : W15 m ρ c (Proc.devRef .tc b) = W14 m ρ c (Proc.devRef .tc b) :=
  region_keeps spec6 launch6.win.arr_inj c _ _ b fun w e => ((dat6 (V14 m ρ) c).arrAt_in w
    (by subst e; exact (by decide : ∀ w : Fin cfg6.W, (Pipeline.arrRef spec6 w).idx.val < 108 → (cfg6.win w).isOut = false) w hb)
    _).trans (A_eq6 (V14 m ρ) c w)
theorem W16_keeps (hb : b.idx.val < 110) : W16 m ρ c (Proc.devRef .tc b) = W15 m ρ c (Proc.devRef .tc b) := by
  host_keeps hostOps7 hb
theorem W17_keeps (hb : b.idx.val < 115) : W17 m ρ c (Proc.devRef .tc b) = W16 m ρ c (Proc.devRef .tc b) :=
  region_keeps spec7 launch7.win.arr_inj c _ _ b fun w e => ((dat7 (V16 m ρ) c).arrAt_in w
    (by subst e; exact (by decide : ∀ w : Fin cfg7.W, (Pipeline.arrRef spec7 w).idx.val < 115 → (cfg7.win w).isOut = false) w hb)
    _).trans (A_eq7 (V16 m ρ) c w)
theorem W18_keeps (hb : b.idx.val < 116) : W18 m ρ c (Proc.devRef .tc b) = W17 m ρ c (Proc.devRef .tc b) := by
  host_keeps hostOps8 hb
theorem W19_keeps (hb : b.idx.val < 126) : W19 m ρ c (Proc.devRef .tc b) = W18 m ρ c (Proc.devRef .tc b) :=
  region_keeps spec8 launch8.win.arr_inj c _ _ b fun w e => ((dat8 (V18 m ρ) c).arrAt_in w
    (by subst e; exact (by decide : ∀ w : Fin cfg8.W, (Pipeline.arrRef spec8 w).idx.val < 126 → (cfg8.win w).isOut = false) w hb)
    _).trans (A_eq8 (V18 m ρ) c w)
theorem W20_keeps (hb : b.idx.val < 127) : W20 m ρ c (Proc.devRef .tc b) = W19 m ρ c (Proc.devRef .tc b) := by
  host_keeps hostOps9 hb
theorem W21_keeps (hb : b.idx.val < 150) : W21 m ρ c (Proc.devRef .tc b) = W20 m ρ c (Proc.devRef .tc b) := by
  host_keeps hostOps9_1 hb
theorem W22_keeps (hb : b.idx.val < 161) : W22 m ρ c (Proc.devRef .tc b) = W21 m ρ c (Proc.devRef .tc b) :=
  region_keeps spec9 launch9.win.arr_inj c _ _ b fun w e => ((dat9 (V21 m ρ) c).arrAt_in w
    (by subst e; exact (by decide : ∀ w : Fin cfg9.W, (Pipeline.arrRef spec9 w).idx.val < 161 → (cfg9.win w).isOut = false) w hb)
    _).trans (A_eq9 (V21 m ρ) c w)
theorem W23_keeps (hb : b.idx.val < 163) : W23 m ρ c (Proc.devRef .tc b) = W22 m ρ c (Proc.devRef .tc b) := by
  host_keeps hostOps10 hb
theorem W24_keeps (hb : b.idx.val < 168) : W24 m ρ c (Proc.devRef .tc b) = W23 m ρ c (Proc.devRef .tc b) :=
  region_keeps spec10 launch10.win.arr_inj c _ _ b fun w e => ((dat10 (V23 m ρ) c).arrAt_in w
    (by subst e; exact (by decide : ∀ w : Fin cfg10.W, (Pipeline.arrRef spec10 w).idx.val < 168 → (cfg10.win w).isOut = false) w hb)
    _).trans (A_eq10 (V23 m ρ) c w)
theorem W25_keeps (hb : b.idx.val < 169) : W25 m ρ c (Proc.devRef .tc b) = W24 m ρ c (Proc.devRef .tc b) := by
  host_keeps hostOps11 hb
theorem W26_keeps (hb : b.idx.val < 179) : W26 m ρ c (Proc.devRef .tc b) = W25 m ρ c (Proc.devRef .tc b) :=
  region_keeps spec11 launch11.win.arr_inj c _ _ b fun w e => ((dat11 (V25 m ρ) c).arrAt_in w
    (by subst e; exact (by decide : ∀ w : Fin cfg11.W, (Pipeline.arrRef spec11 w).idx.val < 179 → (cfg11.win w).isOut = false) w hb)
    _).trans (A_eq11 (V25 m ρ) c w)
theorem W27_keeps (hb : b.idx.val < 180) : W27 m ρ c (Proc.devRef .tc b) = W26 m ρ c (Proc.devRef .tc b) := by
  host_keeps hostOps12 hb
theorem W28_keeps (hb : b.idx.val < 203) : W28 m ρ c (Proc.devRef .tc b) = W27 m ρ c (Proc.devRef .tc b) := by
  host_keeps hostOps12_1 hb
theorem W29_keeps (hb : b.idx.val < 208) : W29 m ρ c (Proc.devRef .tc b) = W28 m ρ c (Proc.devRef .tc b) :=
  region_keeps spec12 launch12.win.arr_inj c _ _ b fun w e => ((dat12 (V28 m ρ) c).arrAt_in w
    (by subst e; exact (by decide : ∀ w : Fin cfg12.W, (Pipeline.arrRef spec12 w).idx.val < 208 → (cfg12.win w).isOut = false) w hb)
    _).trans (A_eq12 (V28 m ρ) c w)
theorem W30_keeps (hb : b.idx.val < 210) : W30 m ρ c (Proc.devRef .tc b) = W29 m ρ c (Proc.devRef .tc b) := by
  host_keeps hostOps13 hb
theorem W31_keeps (hb : b.idx.val < 215) : W31 m ρ c (Proc.devRef .tc b) = W30 m ρ c (Proc.devRef .tc b) :=
  region_keeps spec13 launch13.win.arr_inj c _ _ b fun w e => ((dat13 (V30 m ρ) c).arrAt_in w
    (by subst e; exact (by decide : ∀ w : Fin cfg13.W, (Pipeline.arrRef spec13 w).idx.val < 215 → (cfg13.win w).isOut = false) w hb)
    _).trans (A_eq13 (V30 m ρ) c w)
theorem W32_keeps (hb : b.idx.val < 216) : W32 m ρ c (Proc.devRef .tc b) = W31 m ρ c (Proc.devRef .tc b) := by
  host_keeps hostOps14 hb
theorem W33_keeps (hb : b.idx.val < 224) : W33 m ρ c (Proc.devRef .tc b) = W32 m ρ c (Proc.devRef .tc b) := by
  host_keeps hostOps14_1 hb
theorem W34_keeps (hb : b.idx.val < 247) : W34 m ρ c (Proc.devRef .tc b) = W33 m ρ c (Proc.devRef .tc b) := by
  host_keeps hostOps14_2 hb
theorem W35_keeps (hb : b.idx.val < 252) : W35 m ρ c (Proc.devRef .tc b) = W34 m ρ c (Proc.devRef .tc b) :=
  region_keeps spec14 launch14.win.arr_inj c _ _ b fun w e => ((dat14 (V34 m ρ) c).arrAt_in w
    (by subst e; exact (by decide : ∀ w : Fin cfg14.W, (Pipeline.arrRef spec14 w).idx.val < 252 → (cfg14.win w).isOut = false) w hb)
    _).trans (A_eq14 (V34 m ρ) c w)
theorem W36_keeps (hb : b.idx.val < 254) : W36 m ρ c (Proc.devRef .tc b) = W35 m ρ c (Proc.devRef .tc b) := by
  host_keeps hostOps15 hb
theorem W37_keeps (hb : b.idx.val < 259) : W37 m ρ c (Proc.devRef .tc b) = W36 m ρ c (Proc.devRef .tc b) :=
  region_keeps spec15 launch15.win.arr_inj c _ _ b fun w e => ((dat15 (V36 m ρ) c).arrAt_in w
    (by subst e; exact (by decide : ∀ w : Fin cfg15.W, (Pipeline.arrRef spec15 w).idx.val < 259 → (cfg15.win w).isOut = false) w hb)
    _).trans (A_eq15 (V36 m ρ) c w)
theorem W38_keeps (hb : b.idx.val < 260) : W38 m ρ c (Proc.devRef .tc b) = W37 m ρ c (Proc.devRef .tc b) := by
  host_keeps hostOps16 hb
theorem W39_keeps (hb : b.idx.val < 268) : W39 m ρ c (Proc.devRef .tc b) = W38 m ρ c (Proc.devRef .tc b) := by
  host_keeps hostOps16_1 hb
theorem W40_keeps (hb : b.idx.val < 291) : W40 m ρ c (Proc.devRef .tc b) = W39 m ρ c (Proc.devRef .tc b) := by
  host_keeps hostOps16_2 hb
theorem W41_keeps (hb : b.idx.val < 314) : W41 m ρ c (Proc.devRef .tc b) = W40 m ρ c (Proc.devRef .tc b) := by
  host_keeps hostOps16_3 hb

/-- At boundary `W` every argument array (the buffers numbered below 34) still holds the launch contents. -/
abbrev ArgAt (W : Dev nD → Valuation τ sig (Elt F)) : Prop :=
  ∀ (c : Dev nD) (b : Ref sig .tc), b.idx.val < 34 → W c (Proc.devRef .tc b) = m ((c : Thread nD τ).loc b)

theorem W0_arg : ArgAt m (W0 m ρ) := fun _ _ _ => rfl
theorem W1_arg : ArgAt m (W1 m ρ) := fun c b hb => (W1_keeps m ρ c b hb).trans (W0_arg m ρ c b hb)
theorem W2_arg : ArgAt m (W2 m ρ) := fun c b hb => (W2_keeps m ρ c b (by omega)).trans (W1_arg m ρ c b hb)
theorem W3_arg : ArgAt m (W3 m ρ) := fun c b hb => (W3_keeps m ρ c b (by omega)).trans (W2_arg m ρ c b hb)
theorem W4_arg : ArgAt m (W4 m ρ) := fun c b hb => (W4_keeps m ρ c b (by omega)).trans (W3_arg m ρ c b hb)
theorem W5_arg : ArgAt m (W5 m ρ) := fun c b hb => (W5_keeps m ρ c b (by omega)).trans (W4_arg m ρ c b hb)
theorem W6_arg : ArgAt m (W6 m ρ) := fun c b hb => (W6_keeps m ρ c b (by omega)).trans (W5_arg m ρ c b hb)
theorem W7_arg : ArgAt m (W7 m ρ) := fun c b hb => (W7_keeps m ρ c b (by omega)).trans (W6_arg m ρ c b hb)
theorem W8_arg : ArgAt m (W8 m ρ) := fun c b hb => (W8_keeps m ρ c b (by omega)).trans (W7_arg m ρ c b hb)
theorem W9_arg : ArgAt m (W9 m ρ) := fun c b hb => (W9_keeps m ρ c b (by omega)).trans (W8_arg m ρ c b hb)
theorem W10_arg : ArgAt m (W10 m ρ) := fun c b hb => (W10_keeps m ρ c b (by omega)).trans (W9_arg m ρ c b hb)
theorem W11_arg : ArgAt m (W11 m ρ) := fun c b hb => (W11_keeps m ρ c b (by omega)).trans (W10_arg m ρ c b hb)
theorem W12_arg : ArgAt m (W12 m ρ) := fun c b hb => (W12_keeps m ρ c b (by omega)).trans (W11_arg m ρ c b hb)
theorem W13_arg : ArgAt m (W13 m ρ) := fun c b hb => (W13_keeps m ρ c b (by omega)).trans (W12_arg m ρ c b hb)
theorem W14_arg : ArgAt m (W14 m ρ) := fun c b hb => (W14_keeps m ρ c b (by omega)).trans (W13_arg m ρ c b hb)
theorem W15_arg : ArgAt m (W15 m ρ) := fun c b hb => (W15_keeps m ρ c b (by omega)).trans (W14_arg m ρ c b hb)
theorem W16_arg : ArgAt m (W16 m ρ) := fun c b hb => (W16_keeps m ρ c b (by omega)).trans (W15_arg m ρ c b hb)
theorem W17_arg : ArgAt m (W17 m ρ) := fun c b hb => (W17_keeps m ρ c b (by omega)).trans (W16_arg m ρ c b hb)
theorem W18_arg : ArgAt m (W18 m ρ) := fun c b hb => (W18_keeps m ρ c b (by omega)).trans (W17_arg m ρ c b hb)
theorem W19_arg : ArgAt m (W19 m ρ) := fun c b hb => (W19_keeps m ρ c b (by omega)).trans (W18_arg m ρ c b hb)
theorem W20_arg : ArgAt m (W20 m ρ) := fun c b hb => (W20_keeps m ρ c b (by omega)).trans (W19_arg m ρ c b hb)
theorem W21_arg : ArgAt m (W21 m ρ) := fun c b hb => (W21_keeps m ρ c b (by omega)).trans (W20_arg m ρ c b hb)
theorem W22_arg : ArgAt m (W22 m ρ) := fun c b hb => (W22_keeps m ρ c b (by omega)).trans (W21_arg m ρ c b hb)
theorem W23_arg : ArgAt m (W23 m ρ) := fun c b hb => (W23_keeps m ρ c b (by omega)).trans (W22_arg m ρ c b hb)
theorem W24_arg : ArgAt m (W24 m ρ) := fun c b hb => (W24_keeps m ρ c b (by omega)).trans (W23_arg m ρ c b hb)
theorem W25_arg : ArgAt m (W25 m ρ) := fun c b hb => (W25_keeps m ρ c b (by omega)).trans (W24_arg m ρ c b hb)
theorem W26_arg : ArgAt m (W26 m ρ) := fun c b hb => (W26_keeps m ρ c b (by omega)).trans (W25_arg m ρ c b hb)
theorem W27_arg : ArgAt m (W27 m ρ) := fun c b hb => (W27_keeps m ρ c b (by omega)).trans (W26_arg m ρ c b hb)
theorem W28_arg : ArgAt m (W28 m ρ) := fun c b hb => (W28_keeps m ρ c b (by omega)).trans (W27_arg m ρ c b hb)
theorem W29_arg : ArgAt m (W29 m ρ) := fun c b hb => (W29_keeps m ρ c b (by omega)).trans (W28_arg m ρ c b hb)
theorem W30_arg : ArgAt m (W30 m ρ) := fun c b hb => (W30_keeps m ρ c b (by omega)).trans (W29_arg m ρ c b hb)
theorem W31_arg : ArgAt m (W31 m ρ) := fun c b hb => (W31_keeps m ρ c b (by omega)).trans (W30_arg m ρ c b hb)
theorem W32_arg : ArgAt m (W32 m ρ) := fun c b hb => (W32_keeps m ρ c b (by omega)).trans (W31_arg m ρ c b hb)
theorem W33_arg : ArgAt m (W33 m ρ) := fun c b hb => (W33_keeps m ρ c b (by omega)).trans (W32_arg m ρ c b hb)
theorem W34_arg : ArgAt m (W34 m ρ) := fun c b hb => (W34_keeps m ρ c b (by omega)).trans (W33_arg m ρ c b hb)
theorem W35_arg : ArgAt m (W35 m ρ) := fun c b hb => (W35_keeps m ρ c b (by omega)).trans (W34_arg m ρ c b hb)
theorem W36_arg : ArgAt m (W36 m ρ) := fun c b hb => (W36_keeps m ρ c b (by omega)).trans (W35_arg m ρ c b hb)
theorem W37_arg : ArgAt m (W37 m ρ) := fun c b hb => (W37_keeps m ρ c b (by omega)).trans (W36_arg m ρ c b hb)
theorem W38_arg : ArgAt m (W38 m ρ) := fun c b hb => (W38_keeps m ρ c b (by omega)).trans (W37_arg m ρ c b hb)
theorem W39_arg : ArgAt m (W39 m ρ) := fun c b hb => (W39_keeps m ρ c b (by omega)).trans (W38_arg m ρ c b hb)
theorem W40_arg : ArgAt m (W40 m ρ) := fun c b hb => (W40_keeps m ρ c b (by omega)).trans (W39_arg m ρ c b hb)

end Cert.KernelIdeal.Gen

end
-- ==== Proof.Consts.lean ====
import Idealize.ShloMosaic.PureOps.Ideal

noncomputable section

namespace Cert.Consts

open Idealize.ShloMosaic

/-- The binary32 word 0x47C35000 denotes 12800000 · 2⁻⁷ = 100000. -/
theorem ofBits_1e5 : Ideal.ofBits .f32 0x47C35000#32 = ((100000 : ℝ) : EReal) := by
  simp [Ideal.ofBits, Ideal.ieee, -EReal.coe_mul]
  norm_num

/-- The binary32 word 0x48742400 denotes 16000000 · 2⁻⁶ = 250000. -/
theorem ofBits_25e4 : Ideal.ofBits .f32 0x48742400#32 = ((250000 : ℝ) : EReal) := by
  simp [Ideal.ofBits, Ideal.ieee, -EReal.coe_mul]
  norm_num

end Cert.Consts

end
-- ==== Proof.RegLin.lean ====
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem lin_hz2 : (![0, 0] : Fin 2 → Nat) = fun _ => 0 := funext fun a => by fin_cases a <;> rfl
theorem lin_hz3 : (![0, 0, 0] : Fin 3 → Nat) = fun _ => 0 := funext fun a => by fin_cases a <;> rfl

theorem lin_colsum_apply (src : FVec Ideal S10000x64 .f32) (j : Fin 64) :
    multiReduction (F := Ideal) .add [0] S64 src 0x00000000#32 reduces_S10000x64_S64 (.inl rfl) rfl (ix1 j)
      = ∑ r : Fin 10000, src (ix2 r j) := by
  refine (Ideal.multiReduction_add_single src 0x00000000#32 reduces_S10000x64_S64 (.inl rfl) rfl (ix1 j)).trans ?_
  refine Finset.sum_congr rfl fun r _ => congrArg src ?_
  funext a
  match a with
  | ⟨0, _⟩ => rfl
  | ⟨1, _⟩ => rfl

theorem lin_sums_cast_apply (s : FVec Ideal S64 .f32) (u v : Fin 1) (j : Fin 64) :
    shapeCast S1x1x64 s shapeCasts_S64_S1x1x64 (ix3 u v j) = s (ix1 j) := by
  refine shapeCast_apply s shapeCasts_S64_S1x1x64 (ix3 u v j) (ix1 j) ?_
  have hu : u.val = 0 := by omega
  have hv : v.val = 0 := by omega
  rw [Shape.rowMajor_val_three, Shape.rowMajor_val_one]
  show j.val = (u.val * 1 + v.val) * 64 + j.val
  rw [hu, hv]; omega

abbrev x0 (c : Dev nD) : Vec Ideal S100000x64 .f32 := V c (Pipeline.arrRef spec0 0)
abbrev w0 (c : Dev nD) : Vec Ideal S64x64 .f32 := V c (Pipeline.arrRef spec0 1)
abbrev b0 (c : Dev nD) : Vec Ideal S1x64 .f32 := V c (Pipeline.arrRef spec0 2)
abbrev y0 (c : Dev nD) : Vec Ideal S100000x64 .f32 := (dat0 (F := Ideal) V c).arrAt 3 cfg0.N
abbrev p0 (c : Dev nD) : Vec Ideal S10x1x64 .f32 := (dat0 (F := Ideal) V c).arrAt 4 cfg0.N
def lin0 (c : Dev nD) : Fin 100000 → Fin 64 → EReal :=
  Spec.lin (fun a k => x0 V c (ix2 a k)) (fun k j => w0 V c (ix2 k j)) (fun j => b0 V c (ix2 0 j))

theorem mm0_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm0_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem mm0_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem mm0_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem mm0_apply (v0 : FVec Ideal S10000x64 .f32) (v1 : FVec Ideal S64x64 .f32) (r : Fin 10000) (j : Fin 64) :
    matmul dot_S10000x64_S64x64_S10000x64_1_0_0_1_n_n none v0 v1 (constant (F := Ideal) S10000x64 .f32 0x00000000#32) (ix2 r j)
      = ∑ k : Fin 64, v0 (ix2 r k) * v1 (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact mm0_lhs_0 _ _
    | ⟨1, _⟩ => exact (mm0_lhs_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (mm0_rhs_0 _ _).trans hk
    | ⟨1, _⟩ => exact mm0_rhs_1 _ _)
  rw [el, er]

theorem pay1_0_apply (v0 : Vec Ideal S10000x64 .f32) (v1 : Vec Ideal S64x64 .f32) (v3 : Vec Ideal S1x64 .f32)
    (r : Fin 10000) (j : Fin 64) :
    k0_pay1 v0 v1 v3 (ix2 r j) = (∑ k : Fin 64, v0 (ix2 r k) * v1 (ix2 k j)) + v3 (ix2 0 j) := by
  unfold k0_pay1
  refine (addf_apply _ _ (ix2 r j)).trans ?_
  refine congrArg₂ (· + ·) (mm0_apply v0 v1 r j) ?_
  refine (broadcastTo_1b_ab_apply _ broadcasts_S1x64_S10000x64 r j).trans ?_
  rw [shapeCast_self]

theorem pay2_0_apply (v0 : Vec Ideal S10000x64 .f32) (v1 : Vec Ideal S64x64 .f32) (v3 : Vec Ideal S1x64 .f32)
    (u v : Fin 1) (j : Fin 64) :
    k0_pay2 v0 v1 v3 (ix3 u v j) = ∑ r : Fin 10000, k0_pay1 v0 v1 v3 (ix2 r j) := by
  unfold k0_pay2
  exact (lin_sums_cast_apply _ u v j).trans (lin_colsum_apply _ j)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem xblk0_apply (c : Dev nD) (t : Fin cfg0.N) (x : S10000x64.Idx) (k : S100000x64.Idx)
    (hk0 : (k 0).val = t.val * 10000 + (x 0).val) (hk1 : (k 1).val = (x 1).val) :
    (iblk0 V c 0 t : Vec Ideal S10000x64 .f32) x = x0 V c k := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * (x 0).val = (k 0).val; rw [e0, hk0]; omega
  | ⟨1, _⟩ => show win0_0.index t 1 * 64 + 1 * (x 1).val = (k 1).val; rw [e1, hk1]; omega

theorem wblk0_eq (c : Dev nD) (t : Fin cfg0.N) : (iblk0 V c 1 t : Vec Ideal S64x64 .f32) = w0 V c := by
  obtain ⟨-, -, e2, e3, -⟩ := idx_facts0 t
  funext x
  unfold iblk0
  rw [View.read_apply]
  show V c (Pipeline.arrRef spec0 1) _ = V c (Pipeline.arrRef spec0 1) _
  congr 1
  funext a
  apply Fin.ext
  match a with
  | ⟨0, _⟩ => show win0_1.index t 0 * 64 + 1 * (x 0).val = (x 0).val; rw [e2]; omega
  | ⟨1, _⟩ => show win0_1.index t 1 * 64 + 1 * (x 1).val = (x 1).val; rw [e3]; omega

theorem bblk0_eq (c : Dev nD) (t : Fin cfg0.N) : (iblk0 V c 2 t : Vec Ideal S1x64 .f32) = b0 V c := by
  obtain ⟨-, -, -, -, e4, e5, -⟩ := idx_facts0 t
  funext x
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * (x 0).val = (x 0).val; rw [e4]; omega
  | ⟨1, _⟩ => show win0_2.index t 1 * 64 + 1 * (x 1).val = (x 1).val; rw [e5]; omega

theorem rows0_apply (c : Dev nD) (t : Fin cfg0.N) (p : Fin 10000) (q : Fin 64) (a : Fin 100000) (b : Fin 64)
    (ha : a.val = t.val * 10000 + p.val) (hb : b.val = q.val) :
    k0_pay1 (iblk0 V c 0 t) (iblk0 V c 1 t) (iblk0 V c 2 t) (ix2 p q) = lin0 V c a b := by
  obtain rfl : b = q := Fin.ext hb
  refine (pay1_0_apply (iblk0 V c 0 t) (iblk0 V c 1 t) (iblk0 V c 2 t) p b).trans ?_
  show _ = (∑ k : Fin 64, x0 V c (ix2 a k) * w0 V c (ix2 k b)) + b0 V c (ix2 0 b)
  refine congrArg₂ (· + ·) (Finset.sum_congr rfl fun k _ => ?_) (congrFun (bblk0_eq V c t) (ix2 0 b))
  exact congrArg₂ (· * ·) (xblk0_apply V c t (ix2 p k) (ix2 a k) ha rfl) (congrFun (wblk0_eq V c t) (ix2 k b))

theorem sums0_apply (c : Dev nD) (t : Fin cfg0.N) (u v : Fin 1) (q : Fin 64) (a : Fin 10) (b : Fin 64)
    (ha : a.val = t.val) (hb : b.val = q.val) :
    k0_pay2 (iblk0 V c 0 t) (iblk0 V c 1 t) (iblk0 V c 2 t) (ix3 u v q)
      = Spec.blockSums (show 100000 = 10 * 10000 from rfl) (lin0 V c) a b := by
  obtain rfl : b = q := Fin.ext hb
  refine (pay2_0_apply (iblk0 V c 0 t) (iblk0 V c 1 t) (iblk0 V c 2 t) u v b).trans ?_
  unfold Spec.blockSums
  refine Finset.sum_congr rfl fun r _ => ?_
  exact rows0_apply V c t r b (Spec.blkRow _ a r) b (by show a.val * 10000 + r.val = _; rw [ha]) rfl

theorem flushed0_3_eq (c : Dev nD) (t : Fin cfg0.N) :
    (dat0 (F := Ideal) V c).flushed 3 t
      = ((cfg0.win 3).blk t).view.read (Elt Ideal) (fun i : S100000x64.Idx => lin0 V c (i 0) (i 1)) := by
  show (cfg0.win 3).cut (grid0.coords t) ((dat0 V c).after 3 t) = _
  rw [after0_3]
  unfold out0_3
  rw [View.canon_unit_zero lin_hz2]
  simp only [View.ld_unit_zero (S := S10000x64) lin_hz2, View.ld_unit_zero (S := S64x64) lin_hz2, View.ld_unit_zero (S := S1x64) lin_hz2]
  obtain ⟨-, -, -, -, -, -, e6, e7, -⟩ := idx_facts0 t
  funext y
  obtain ⟨p, q, rfl⟩ : ∃ (p : Fin 10000) (q : Fin 64), y = ix2 p q := ⟨y 0, y 1, eq_ix2 y⟩
  show k0_pay1 (iblk0 V c 0 t) (iblk0 V c 1 t) (iblk0 V c 2 t) (ix2 p q)
    = lin0 V c ((((cfg0.win 3).blk t).view.emb (ix2 p q)) 0) ((((cfg0.win 3).blk t).view.emb (ix2 p q)) 1)
  exact rows0_apply V c t p q _ _
    (by show win0_3.index t (0 : Fin 2) * 10000 + 1 * p.val = t.val * 10000 + p.val; rw [e6]; omega)
    (by show win0_3.index t (1 : Fin 2) * 64 + 1 * q.val = q.val; rw [e7]; omega)

theorem mem_blk0_3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1_0).slice (win0_3.rect t)).set ↔ _
  rw [View.set_slice_whole, Rect.mem_set_unit]
  exact Iff.rfl

theorem covered0_3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e6, e7, -⟩ := idx_facts0 t
  refine ⟨t, flush0_3 t, ?_⟩
  rw [mem_blk0_3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The row blocks tile the output, so the whole array is the affine map of the whole inputs. -/
theorem reg0_y (c : Dev nD) : y0 V c = fun i => lin0 V c (i 0) (i 1) := by
  exact (dat0 (F := Ideal) V c).arrAt_eq_of_cover 3 (fun i : S100000x64.Idx => lin0 V c (i 0) (i 1))
    (fun t _ => flushed0_3_eq V c t) covered0_3

theorem flushed0_4_eq (c : Dev nD) (t : Fin cfg0.N) :
    (dat0 (F := Ideal) V c).flushed 4 t
      = ((cfg0.win 4).blk t).view.read (Elt Ideal)
          (fun i : S10x1x64.Idx => Spec.blockSums (show 100000 = 10 * 10000 from rfl) (lin0 V c) (i 0) (i 2)) := by
  show (cfg0.win 4).cut (grid0.coords t) ((dat0 V c).after 4 t) = _
  rw [after0_4]
  unfold out0_4
  rw [View.canon_unit_zero lin_hz3]
  simp only [View.ld_unit_zero (S := S10000x64) lin_hz2, View.ld_unit_zero (S := S64x64) lin_hz2, View.ld_unit_zero (S := S1x64) lin_hz2]
  obtain ⟨-, -, -, -, -, -, -, -, e8, e9, e10⟩ := idx_facts0 t
  funext y
  obtain ⟨u, v, q, rfl⟩ : ∃ (u v : Fin 1) (q : Fin 64), y = ix3 u v q := ⟨y 0, y 1, y 2, eq_ix3 y⟩
  show k0_pay2 (iblk0 V c 0 t) (iblk0 V c 1 t) (iblk0 V c 2 t) (ix3 u v q)
    = Spec.blockSums (show 100000 = 10 * 10000 from rfl) (lin0 V c)
        ((((cfg0.win 4).blk t).view.emb (ix3 u v q)) 0) ((((cfg0.win 4).blk t).view.emb (ix3 u v q)) 2)
  exact sums0_apply V c t u v q _ _
    (by show win0_4.index t (0 : Fin 3) * 1 + 1 * u.val = t.val; rw [e8]; omega)
    (by show win0_4.index t (2 : Fin 3) * 64 + 1 * q.val = q.val; rw [e10]; omega)

theorem mem_blk0_4 (t : Fin cfg0.N) (i : S10x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v1_1).slice (win0_4.rect t)).set ↔ _
  rw [View.set_slice_whole, Rect.mem_set_unit]
  exact Iff.rfl

theorem covered0_4 (i : S10x1x64.Idx) :
    ∃ t : Fin cfg0.N, (cfg0.win 4).flush t = true ∧ i ∈ ((cfg0.win 4).blk t).view.set := by
  have hi0 : (i 0).val < 10 := (i 0).isLt
  have hi1 : (i 1).val < 1 := (i 1).isLt
  have hi2 : (i 2).val < 64 := (i 2).isLt
  have hN : cfg0.N = 10 := N_0
  obtain ⟨t, ht⟩ : ∃ t : Fin cfg0.N, t.val = (i 0).val := ⟨⟨(i 0).val, by rw [hN]; omega⟩, rfl⟩
  obtain ⟨-, -, -, -, -, -, -, -, e8, e9, e10⟩ := idx_facts0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 64 ≤ (i 2).val ∧ (i 2).val < win0_4.index t (2 : Fin 3) * 64 + 64; omega

/-- Entry (t, 0, j) of the second output is column j summed over block t's rows. -/
theorem reg0_parts (c : Dev nD) :
    p0 V c = fun i => Spec.blockSums (show 100000 = 10 * 10000 from rfl) (lin0 V c) (i 0) (i 2) := by
  exact (dat0 (F := Ideal) V c).arrAt_eq_of_cover 4
    (fun i : S10x1x64.Idx => Spec.blockSums (show 100000 = 10 * 10000 from rfl) (lin0 V c) (i 0) (i 2))
    (fun t _ => flushed0_4_eq V c t) covered0_4

abbrev x3 (c : Dev nD) : Vec Ideal S250000x128 .f32 := V c (Pipeline.arrRef spec3 0)
abbrev w3 (c : Dev nD) : Vec Ideal S128x64 .f32 := V c (Pipeline.arrRef spec3 1)
abbrev b3 (c : Dev nD) : Vec Ideal S1x64 .f32 := V c (Pipeline.arrRef spec3 2)
abbrev y3 (c : Dev nD) : Vec Ideal S250000x64 .f32 := (dat3 (F := Ideal) V c).arrAt 3 cfg3.N
abbrev p3 (c : Dev nD) : Vec Ideal S25x1x64 .f32 := (dat3 (F := Ideal) V c).arrAt 4 cfg3.N
def lin3 (c : Dev nD) : Fin 250000 → Fin 64 → EReal :=
  Spec.lin (fun a k => x3 V c (ix2 a k)) (fun k j => w3 V c (ix2 k j)) (fun j => b3 V c (ix2 0 j))

theorem mm3_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm3_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem mm3_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem mm3_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem mm3_apply (v0 : FVec Ideal S10000x128 .f32) (v1 : FVec Ideal S128x64 .f32) (r : Fin 10000) (j : Fin 64) :
    matmul dot_S10000x128_S128x64_S10000x64_1_0_0_1_n_n none v0 v1 (constant (F := Ideal) S10000x64 .f32 0x00000000#32) (ix2 r j)
      = ∑ k : Fin 128, v0 (ix2 r k) * v1 (ix2 k j) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r j) ((contrEquiv1 dot_S10000x128_S128x64_S10000x64_1_0_0_1_n_n 128 rfl rfl).symm k) = ix2 r k := funext fun a => Fin.ext (by
    match a with
    | ⟨0, _⟩ => exact mm3_lhs_0 _ _
    | ⟨1, _⟩ => exact (mm3_lhs_1 _ _).trans hk)
  have er : dot_S10000x128_S128x64_S10000x64_1_0_0_1_n_n.rhsIdx (ix2 r j) ((contrEquiv1 dot_S10000x128_S128x64_S10000x64_1_0_0_1_n_n 128 rfl rfl).symm k) = ix2 k j := funext fun a => Fin.ext (by
    match a with
    | ⟨0, _⟩ => exact (mm3_rhs_0 _ _).trans hk
    | ⟨1, _⟩ => exact mm3_rhs_1 _ _)
  rw [el, er]

theorem pay1_3_apply (v0 : Vec Ideal S10000x128 .f32) (v1 : Vec Ideal S128x64 .f32) (v3 : Vec Ideal S1x64 .f32)
    (r : Fin 10000) (j : Fin 64) :
    k3_pay1 v0 v1 v3 (ix2 r j) = (∑ k : Fin 128, v0 (ix2 r k) * v1 (ix2 k j)) + v3 (ix2 0 j) := by
  unfold k3_pay1
  refine (addf_apply _ _ (ix2 r j)).trans ?_
  refine congrArg₂ (· + ·) (mm3_apply v0 v1 r j) ?_
  refine (broadcastTo_1b_ab_apply _ broadcasts_S1x64_S10000x64 r j).trans ?_
  rw [shapeCast_self]

theorem pay2_3_apply (v0 : Vec Ideal S10000x128 .f32) (v1 : Vec Ideal S128x64 .f32) (v3 : Vec Ideal S1x64 .f32)
    (u v : Fin 1) (j : Fin 64) :
    k3_pay2 v0 v1 v3 (ix3 u v j) = ∑ r : Fin 10000, k3_pay1 v0 v1 v3 (ix2 r j) := by
  unfold k3_pay2
  exact (lin_sums_cast_apply _ u v j).trans (lin_colsum_apply _ j)

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 3) = t.val ∧ win3_4.index t (1 : Fin 3) = 0 ∧ win3_4.index t (2 : Fin 3) = 0 :=
  (by decide +kernel : ∀ t : Fin grid3.N, _)

theorem xblk3_apply (c : Dev nD) (t : Fin cfg3.N) (x : S10000x128.Idx) (k : S250000x128.Idx)
    (hk0 : (k 0).val = t.val * 10000 + (x 0).val) (hk1 : (k 1).val = (x 1).val) :
    (iblk3 V c 0 t : Vec Ideal S10000x128 .f32) x = x3 V c k := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t 0 * 10000 + 1 * (x 0).val = (k 0).val; rw [e0, hk0]; omega
  | ⟨1, _⟩ => show win3_0.index t 1 * 128 + 1 * (x 1).val = (k 1).val; rw [e1, hk1]; omega

theorem wblk3_eq (c : Dev nD) (t : Fin cfg3.N) : (iblk3 V c 1 t : Vec Ideal S128x64 .f32) = w3 V c := by
  obtain ⟨-, -, e2, e3, -⟩ := idx_facts3 t
  funext x
  unfold iblk3
  rw [View.read_apply]
  show V c (Pipeline.arrRef spec3 1) _ = V c (Pipeline.arrRef spec3 1) _
  congr 1
  funext a
  apply Fin.ext
  match a with
  | ⟨0, _⟩ => show win3_1.index t 0 * 128 + 1 * (x 0).val = (x 0).val; rw [e2]; omega
  | ⟨1, _⟩ => show win3_1.index t 1 * 64 + 1 * (x 1).val = (x 1).val; rw [e3]; omega

theorem bblk3_eq (c : Dev nD) (t : Fin cfg3.N) : (iblk3 V c 2 t : Vec Ideal S1x64 .f32) = b3 V c := by
  obtain ⟨-, -, -, -, e4, e5, -⟩ := idx_facts3 t
  funext x
  unfold iblk3
  rw [View.read_apply]
  show V c (Pipeline.arrRef spec3 2) _ = V c (Pipeline.arrRef spec3 2) _
  congr 1
  funext a
  apply Fin.ext
  match a with
  | ⟨0, _⟩ => show win3_2.index t 0 * 1 + 1 * (x 0).val = (x 0).val; rw [e4]; omega
  | ⟨1, _⟩ => show win3_2.index t 1 * 64 + 1 * (x 1).val = (x 1).val; rw [e5]; omega

theorem rows3_apply (c : Dev nD) (t : Fin cfg3.N) (p : Fin 10000) (q : Fin 64) (a : Fin 250000) (b : Fin 64)
    (ha : a.val = t.val * 10000 + p.val) (hb : b.val = q.val) :
    k3_pay1 (iblk3 V c 0 t) (iblk3 V c 1 t) (iblk3 V c 2 t) (ix2 p q) = lin3 V c a b := by
  obtain rfl : b = q := Fin.ext hb
  refine (pay1_3_apply (iblk3 V c 0 t) (iblk3 V c 1 t) (iblk3 V c 2 t) p b).trans ?_
  show _ = (∑ k : Fin 128, x3 V c (ix2 a k) * w3 V c (ix2 k b)) + b3 V c (ix2 0 b)
  refine congrArg₂ (· + ·) (Finset.sum_congr rfl fun k _ => ?_) (congrFun (bblk3_eq V c t) (ix2 0 b))
  exact congrArg₂ (· * ·) (xblk3_apply V c t (ix2 p k) (ix2 a k) ha rfl) (congrFun (wblk3_eq V c t) (ix2 k b))

theorem sums3_apply (c : Dev nD) (t : Fin cfg3.N) (u v : Fin 1) (q : Fin 64) (a : Fin 25) (b : Fin 64)
    (ha : a.val = t.val) (hb : b.val = q.val) :
    k3_pay2 (iblk3 V c 0 t) (iblk3 V c 1 t) (iblk3 V c 2 t) (ix3 u v q)
      = Spec.blockSums (show 250000 = 25 * 10000 from rfl) (lin3 V c) a b := by
  obtain rfl : b = q := Fin.ext hb
  refine (pay2_3_apply (iblk3 V c 0 t) (iblk3 V c 1 t) (iblk3 V c 2 t) u v b).trans ?_
  unfold Spec.blockSums
  refine Finset.sum_congr rfl fun r _ => ?_
  exact rows3_apply V c t r b (Spec.blkRow _ a r) b (by show a.val * 10000 + r.val = _; rw [ha]) rfl

theorem flushed3_3_eq (c : Dev nD) (t : Fin cfg3.N) :
    (dat3 (F := Ideal) V c).flushed 3 t
      = ((cfg3.win 3).blk t).view.read (Elt Ideal) (fun i : S250000x64.Idx => lin3 V c (i 0) (i 1)) := by
  show (cfg3.win 3).cut (grid3.coords t) ((dat3 V c).after 3 t) = _
  rw [after3_3]
  unfold out3_3
  rw [View.canon_unit_zero lin_hz2]
  simp only [View.ld_unit_zero (S := S10000x128) lin_hz2, View.ld_unit_zero (S := S128x64) lin_hz2, View.ld_unit_zero (S := S1x64) lin_hz2]
  obtain ⟨-, -, -, -, -, -, e6, e7, -⟩ := idx_facts3 t
  funext y
  obtain ⟨p, q, rfl⟩ : ∃ (p : Fin 10000) (q : Fin 64), y = ix2 p q := ⟨y 0, y 1, eq_ix2 y⟩
  show k3_pay1 (iblk3 V c 0 t) (iblk3 V c 1 t) (iblk3 V c 2 t) (ix2 p q)
    = lin3 V c ((((cfg3.win 3).blk t).view.emb (ix2 p q)) 0) ((((cfg3.win 3).blk t).view.emb (ix2 p q)) 1)
  exact rows3_apply V c t p q _ _
    (by show win3_3.index t (0 : Fin 2) * 10000 + 1 * p.val = t.val * 10000 + p.val; rw [e6]; omega)
    (by show win3_3.index t (1 : Fin 2) * 64 + 1 * q.val = q.val; rw [e7]; omega)

theorem mem_blk3_3 (t : Fin cfg3.N) (i : S250000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v15_0).slice (win3_3.rect t)).set ↔ _
  rw [View.set_slice_whole, Rect.mem_set_unit]
  exact Iff.rfl

theorem covered3_3 (i : S250000x64.Idx) :
    ∃ t : Fin cfg3.N, (cfg3.win 3).flush t = true ∧ i ∈ ((cfg3.win 3).blk t).view.set := by
  have hi0 : (i 0).val < 250000 := (i 0).isLt
  have hi1 : (i 1).val < 64 := (i 1).isLt
  have hN : cfg3.N = 25 := N_3
  obtain ⟨t, ht⟩ : ∃ t : Fin cfg3.N, t.val = (i 0).val / 10000 := ⟨⟨(i 0).val / 10000, by rw [hN]; omega⟩, rfl⟩
  obtain ⟨-, -, -, -, -, -, e6, e7, -⟩ := idx_facts3 t
  refine ⟨t, flush3_3 t, ?_⟩
  rw [mem_blk3_3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

theorem reg3_y (c : Dev nD) : y3 V c = fun i => lin3 V c (i 0) (i 1) := by
  exact (dat3 (F := Ideal) V c).arrAt_eq_of_cover 3 (fun i : S250000x64.Idx => lin3 V c (i 0) (i 1))
    (fun t _ => flushed3_3_eq V c t) covered3_3

theorem flushed3_4_eq (c : Dev nD) (t : Fin cfg3.N) :
    (dat3 (F := Ideal) V c).flushed 4 t
      = ((cfg3.win 4).blk t).view.read (Elt Ideal)
          (fun i : S25x1x64.Idx => Spec.blockSums (show 250000 = 25 * 10000 from rfl) (lin3 V c) (i 0) (i 2)) := by
  show (cfg3.win 4).cut (grid3.coords t) ((dat3 V c).after 4 t) = _
  rw [after3_4]
  unfold out3_4
  rw [View.canon_unit_zero lin_hz3]
  simp only [View.ld_unit_zero (S := S10000x128) lin_hz2, View.ld_unit_zero (S := S128x64) lin_hz2, View.ld_unit_zero (S := S1x64) lin_hz2]
  obtain ⟨-, -, -, -, -, -, -, -, e8, e9, e10⟩ := idx_facts3 t
  funext y
  obtain ⟨u, v, q, rfl⟩ : ∃ (u v : Fin 1) (q : Fin 64), y = ix3 u v q := ⟨y 0, y 1, y 2, eq_ix3 y⟩
  show k3_pay2 (iblk3 V c 0 t) (iblk3 V c 1 t) (iblk3 V c 2 t) (ix3 u v q)
    = Spec.blockSums (show 250000 = 25 * 10000 from rfl) (lin3 V c)
        ((((cfg3.win 4).blk t).view.emb (ix3 u v q)) 0) ((((cfg3.win 4).blk t).view.emb (ix3 u v q)) 2)
  exact sums3_apply V c t u v q _ _
    (by show win3_4.index t (0 : Fin 3) * 1 + 1 * u.val = t.val; rw [e8]; omega)
    (by show win3_4.index t (2 : Fin 3) * 64 + 1 * q.val = q.val; rw [e10]; omega)

theorem mem_blk3_4 (t : Fin cfg3.N) (i : S25x1x64.Idx) :
    i ∈ ((cfg3.win 4).blk t).view.set ↔ ∀ a : Fin 3, win3_4.index t a * S1x1x64.size a ≤ (i a).val ∧ (i a).val < win3_4.index t a * S1x1x64.size a + S1x1x64.size a := by
  show i ∈ ((View.whole main_v15_1).slice (win3_4.rect t)).set ↔ _
  rw [View.set_slice_whole, Rect.mem_set_unit]
  exact Iff.rfl

theorem covered3_4 (i : S25x1x64.Idx) :
    ∃ t : Fin cfg3.N, (cfg3.win 4).flush t = true ∧ i ∈ ((cfg3.win 4).blk t).view.set := by
  have hi0 : (i 0).val < 25 := (i 0).isLt
  have hi1 : (i 1).val < 1 := (i 1).isLt
  have hi2 : (i 2).val < 64 := (i 2).isLt
  have hN : cfg3.N = 25 := N_3
  obtain ⟨t, ht⟩ : ∃ t : Fin cfg3.N, t.val = (i 0).val := ⟨⟨(i 0).val, by rw [hN]; omega⟩, rfl⟩
  obtain ⟨-, -, -, -, -, -, -, -, e8, e9, e10⟩ := idx_facts3 t
  refine ⟨t, flush3_4 t, ?_⟩
  rw [mem_blk3_4]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1 ≤ (i 1).val ∧ (i 1).val < win3_4.index t (1 : Fin 3) * 1 + 1; omega
  | ⟨2, _⟩ => show win3_4.index t (2 : Fin 3) * 64 ≤ (i 2).val ∧ (i 2).val < win3_4.index t (2 : Fin 3) * 64 + 64; omega

theorem reg3_parts (c : Dev nD) :
    p3 V c = fun i => Spec.blockSums (show 250000 = 25 * 10000 from rfl) (lin3 V c) (i 0) (i 2) := by
  exact (dat3 (F := Ideal) V c).arrAt_eq_of_cover 4
    (fun i : S25x1x64.Idx => Spec.blockSums (show 250000 = 25 * 10000 from rfl) (lin3 V c) (i 0) (i 2))
    (fun t _ => flushed3_4_eq V c t) covered3_4

end Cert.KernelIdeal.RegVal

end
-- ==== Proof.RegSq.lean ====
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

theorem lift_rows (hr : (⟨2, ![10000, 64]⟩ : Shape).Reduces [0] ⟨1, ![64]⟩) (l : Fin 64) (r : Fin 10000) :
    hr.lift (ix1 l) r = ix2 r l := by
  funext a
  apply Fin.ext
  match a with
  | ⟨0, _⟩ => rfl
  | ⟨1, _⟩ => rfl

theorem sumsq_apply (x0 : FVec Ideal ⟨2, ![10000, 64]⟩ .f32) (x1 : FVec Ideal ⟨2, ![1, 64]⟩ .f32)
    (h1 : (⟨2, ![10000, 64]⟩ : Shape).ShapeCasts ⟨2, ![10000, 64]⟩) (h2 : (⟨2, ![1, 64]⟩ : Shape).ShapeCasts ⟨2, ![1, 64]⟩)
    (hb : (⟨2, ![1, 64]⟩ : Shape).Broadcasts ⟨2, ![10000, 64]⟩) (hr : (⟨2, ![10000, 64]⟩ : Shape).Reduces [0] ⟨1, ![64]⟩)
    (hφ : FKind.Formats .f32) (hacc : (0x00000000#32 : BitVec 32) = FKind.add.neutral .f32 hφ)
    (hc : (⟨1, ![64]⟩ : Shape).ShapeCasts ⟨3, ![1, 1, 64]⟩) (p q : Fin 1) (l : Fin 64) :
    shapeCast ⟨3, ![1, 1, 64]⟩ (multiReduction (F := Ideal) .add [0] ⟨1, ![64]⟩
        (mulf (subf (shapeCast ⟨2, ![10000, 64]⟩ x0 h1) (broadcastTo ⟨2, ![10000, 64]⟩ (shapeCast ⟨2, ![1, 64]⟩ x1 h2) hb))
              (subf (shapeCast ⟨2, ![10000, 64]⟩ x0 h1) (broadcastTo ⟨2, ![10000, 64]⟩ (shapeCast ⟨2, ![1, 64]⟩ x1 h2) hb)))
        0x00000000#32 hr hφ hacc) hc (ix3 p q l)
      = ∑ r : Fin 10000, (x0 (ix2 r l) - x1 (ix2 0 l)) * (x0 (ix2 r l) - x1 (ix2 0 l)) := by
  rw [shapeCast_self, shapeCast_self]
  refine (shapeCast_apply _ hc (ix3 p q l) (ix1 l) ?_).trans ?_
  · rw [Shape.rowMajor_val_one, Shape.rowMajor_val_three]
    show l.val = (p.val * 1 + q.val) * 64 + l.val
    have := p.isLt; have := q.isLt; omega
  refine (Ideal.multiReduction_add_single _ _ hr hφ hacc (ix1 l)).trans ?_
  refine Finset.sum_congr rfl fun r _ => ?_
  rw [lift_rows hr l r, mulf_apply, subf_apply, broadcastTo_1b_ab_apply x1 hb r l]

abbrev y1 (c : Dev nD) : Vec Ideal S100000x64 .f32 := V c (Pipeline.arrRef spec1 0)
abbrev mu1 (c : Dev nD) : Vec Ideal S1x64 .f32 := V c (Pipeline.arrRef spec1 1)
abbrev q1 (c : Dev nD) : Vec Ideal S10x1x64 .f32 := (dat1 (F := Ideal) V c).arrAt 2 cfg1.N
def dev1 (c : Dev nD) : Fin 100000 → Fin 64 → EReal :=
  fun a j => (y1 V c (ix2 a j) - mu1 V c (ix2 0 j)) * (y1 V c (ix2 a j) - mu1 V c (ix2 0 j))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

theorem blk_sumsq1 (c : Dev nD) (t : Fin cfg1.N) (ht : t.val < 10) (p q : Fin 1) (l : Fin 64) :
    k1_pay1 (F := Ideal) (iblk1 V c 0 t) (iblk1 V c 1 t) (ix3 p q l)
      = Spec.blockSums (show 100000 = 10 * 10000 from rfl) (dev1 V c) ⟨t.val, ht⟩ l := by
  obtain ⟨e00, e01, e10, e11, e20, e21, e22⟩ := idx_facts1 t
  refine (sumsq_apply (iblk1 V c 0 t) (iblk1 V c 1 t) _ _ _ _ _ _ _ p q l).trans ?_
  refine Finset.sum_congr rfl fun r _ => ?_
  have hy : iblk1 V c 0 t (ix2 r l)
      = y1 V c (ix2 (Spec.blkRow (show 100000 = 10 * 10000 from rfl) ⟨t.val, ht⟩ r) l) := by
    show V c (Pipeline.arrRef spec1 0) (((cfg1.win 0).blk t).view.emb (ix2 r l)) = V c (Pipeline.arrRef spec1 0) _
    refine congrArg (V c (Pipeline.arrRef spec1 0)) ?_
    funext a; apply Fin.ext
    match a with
    | ⟨0, _⟩ => show win1_0.index t (0 : Fin 2) * 10000 + 1 * r.val = t.val * 10000 + r.val; rw [e00]; omega
    | ⟨1, _⟩ => show win1_0.index t (1 : Fin 2) * 64 + 1 * l.val = l.val; rw [e01]; omega
  have hm : iblk1 V c 1 t (ix2 0 l) = mu1 V c (ix2 0 l) := by
    show V c (Pipeline.arrRef spec1 1) (((cfg1.win 1).blk t).view.emb (ix2 0 l)) = V c (Pipeline.arrRef spec1 1) _
    refine congrArg (V c (Pipeline.arrRef spec1 1)) ?_
    funext a; apply Fin.ext
    match a with
    | ⟨0, _⟩ => show win1_1.index t (0 : Fin 2) * 1 + 1 * 0 = 0; rw [e10]
    | ⟨1, _⟩ => show win1_1.index t (1 : Fin 2) * 64 + 1 * l.val = l.val; rw [e11]; omega
  rw [hy, hm]
  rfl

theorem flushed1_eq (c : Dev nD) (t : Fin cfg1.N) :
    (dat1 (F := Ideal) V c).flushed 2 t = ((cfg1.win 2).blk t).view.read (Elt Ideal)
      (fun i : S10x1x64.Idx => Spec.blockSums (show 100000 = 10 * 10000 from rfl) (dev1 V c) (i 0) (i 2)) := by
  show (cfg1.win 2).cut (grid1.coords t) ((dat1 (F := Ideal) V c).after 2 t) = _
  rw [after1_2]
  unfold out1_2
  rw [View.canon_unit_zero zeros3]
  simp only [View.ld_unit_zero (S := S10000x64) zeros2, View.ld_unit_zero (S := S1x64) zeros2]
  have ht : t.val < 10 := lt_of_lt_of_eq t.isLt N_1
  obtain ⟨e00, e01, e10, e11, e20, e21, e22⟩ := idx_facts1 t
  refine funext fun j => ?_
  obtain ⟨p, q, l, rfl⟩ : ∃ (p q : Fin 1) (l : Fin 64), j = ix3 p q l := ⟨j 0, j 1, j 2, eq_ix3 j⟩
  show k1_pay1 (F := Ideal) (iblk1 V c 0 t) (iblk1 V c 1 t) (ix3 p q l)
    = Spec.blockSums (show 100000 = 10 * 10000 from rfl) (dev1 V c)
        (((cfg1.win 2).blk t).view.emb (ix3 p q l) 0) (((cfg1.win 2).blk t).view.emb (ix3 p q l) 2)
  have h0 : (((cfg1.win 2).blk t).view.emb (ix3 p q l) 0 : Fin 10) = ⟨t.val, ht⟩ :=
    Fin.ext (by show win1_2.index t (0 : Fin 3) * 1 + 1 * p.val = t.val; rw [e20]; have := p.isLt; omega)
  have h2 : (((cfg1.win 2).blk t).view.emb (ix3 p q l) 2 : Fin 64) = l :=
    Fin.ext (by show win1_2.index t (2 : Fin 3) * 64 + 1 * l.val = l.val; rw [e22]; omega)
  rw [h0, h2]
  exact blk_sumsq1 V c t ht p q l

theorem mem_blk1 (t : Fin cfg1.N) (i : S10x1x64.Idx) :
    i ∈ ((cfg1.win 2).blk t).view.set ↔ ∀ a : Fin 3, win1_2.index t a * S1x1x64.size a ≤ (i a).val ∧ (i a).val < win1_2.index t a * S1x1x64.size a + S1x1x64.size a := by
  show i ∈ ((View.whole (main_v5)).slice (win1_2.rect t)).set ↔ _
  rw [View.set_slice_whole, Rect.mem_set_unit]
  exact Iff.rfl

theorem cover1 (i : S10x1x64.Idx) :
    ∃ t : Fin cfg1.N, (cfg1.win 2).flush t = true ∧ i ∈ ((cfg1.win 2).blk t).view.set := by
  have h0 : (i 0).val < 10 := (i 0).isLt
  have h1 : (i 1).val < 1 := (i 1).isLt
  have h2 : (i 2).val < 64 := (i 2).isLt
  obtain ⟨t, ht⟩ : ∃ t : Fin cfg1.N, t.val = (i 0).val := ⟨⟨(i 0).val, lt_of_lt_of_eq h0 N_1.symm⟩, rfl⟩
  obtain ⟨e00, e01, e10, e11, e20, e21, e22⟩ := idx_facts1 t
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; rw [e20]; omega
  | ⟨1, _⟩ => show win1_2.index t (1 : Fin 3) * 1 ≤ (i 1).val ∧ (i 1).val < win1_2.index t (1 : Fin 3) * 1 + 1; rw [e21]; omega
  | ⟨2, _⟩ => show win1_2.index t (2 : Fin 3) * 64 ≤ (i 2).val ∧ (i 2).val < win1_2.index t (2 : Fin 3) * 64 + 64; rw [e22]; omega

/-- Entry (t, 0, j) is the sum over block t's rows of the squared deviation from the mean of column j. -/
theorem reg1_parts (c : Dev nD) :
    q1 V c = fun i => Spec.blockSums (show 100000 = 10 * 10000 from rfl) (dev1 V c) (i 0) (i 2) :=
  (dat1 (F := Ideal) V c).arrAt_eq_of_cover 2 _ (fun t _ => flushed1_eq V c t) cover1

end Cert.KernelIdeal.RegVal

end
-- ==== Proof.RegSq_4.lean ====
/-
  Region 4: per block of 10000 rows, each column's sum of squared deviations from a given row of means.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws
import proofs.«425228_j78254304133410_2_alg».proof.Proof.RegSq

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 4: 250000 rows -/

abbrev y4 (c : Dev nD) : Vec Ideal S250000x64 .f32 := V c (Pipeline.arrRef spec4 0)
abbrev mu4 (c : Dev nD) : Vec Ideal S1x64 .f32 := V c (Pipeline.arrRef spec4 1)
abbrev q4 (c : Dev nD) : Vec Ideal S25x1x64 .f32 := (dat4 (F := Ideal) V c).arrAt 2 cfg4.N
/-- A row's squared deviations from the means, column by column. -/
def dev4 (c : Dev nD) : Fin 250000 → Fin 64 → EReal :=
  fun a j => (y4 V c (ix2 a j) - mu4 V c (ix2 0 j)) * (y4 V c (ix2 a j) - mu4 V c (ix2 0 j))

/-- The region's block indices over its 25 grid points: the block of rows and the output's row are the point's
    number, every other block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 3) = t.val ∧ win4_2.index t (1 : Fin 3) = 0 ∧ win4_2.index t (2 : Fin 3) = 0 :=
  (by decide +kernel : ∀ t : Fin grid4.N, _)

/-- At grid point `t` the block's arithmetic on the blocks the point reads is block `t`'s sums: row `r` of the
    block of rows is row `10000 t + r` of the array, and the block of means is the array of means. -/
theorem blk_sumsq4 (c : Dev nD) (t : Fin cfg4.N) (ht : t.val < 25) (p q : Fin 1) (l : Fin 64) :
    k4_pay1 (F := Ideal) (iblk4 V c 0 t) (iblk4 V c 1 t) (ix3 p q l)
      = Spec.blockSums (show 250000 = 25 * 10000 from rfl) (dev4 V c) ⟨t.val, ht⟩ l := by
  obtain ⟨e00, e01, e10, e11, e20, e21, e22⟩ := idx_facts4 t
  refine (sumsq_apply (iblk4 V c 0 t) (iblk4 V c 1 t) _ _ _ _ _ _ _ p q l).trans ?_
  refine Finset.sum_congr rfl fun r _ => ?_
  have hy : iblk4 V c 0 t (ix2 r l)
      = y4 V c (ix2 (Spec.blkRow (show 250000 = 25 * 10000 from rfl) ⟨t.val, ht⟩ r) l) := by
    show V c (Pipeline.arrRef spec4 0) (((cfg4.win 0).blk t).view.emb (ix2 r l)) = V c (Pipeline.arrRef spec4 0) _
    refine congrArg (V c (Pipeline.arrRef spec4 0)) ?_
    funext a; apply Fin.ext
    match a with
    | ⟨0, _⟩ => show win4_0.index t (0 : Fin 2) * 10000 + 1 * r.val = t.val * 10000 + r.val; rw [e00]; omega
    | ⟨1, _⟩ => show win4_0.index t (1 : Fin 2) * 64 + 1 * l.val = l.val; rw [e01]; omega
  have hm : iblk4 V c 1 t (ix2 0 l) = mu4 V c (ix2 0 l) := by
    show V c (Pipeline.arrRef spec4 1) (((cfg4.win 1).blk t).view.emb (ix2 0 l)) = V c (Pipeline.arrRef spec4 1) _
    refine congrArg (V c (Pipeline.arrRef spec4 1)) ?_
    funext a; apply Fin.ext
    match a with
    | ⟨0, _⟩ => show win4_1.index t (0 : Fin 2) * 1 + 1 * 0 = 0; rw [e10]
    | ⟨1, _⟩ => show win4_1.index t (1 : Fin 2) * 64 + 1 * l.val = l.val; rw [e11]; omega
  rw [hy, hm]
  rfl

/-- What grid point `t` writes back is block `t` of the array of block sums. -/
theorem flushed4_eq (c : Dev nD) (t : Fin cfg4.N) :
    (dat4 (F := Ideal) V c).flushed 2 t = ((cfg4.win 2).blk t).view.read (Elt Ideal)
      (fun i : S25x1x64.Idx => Spec.blockSums (show 250000 = 25 * 10000 from rfl) (dev4 V c) (i 0) (i 2)) := by
  show (cfg4.win 2).cut (grid4.coords t) ((dat4 (F := Ideal) V c).after 2 t) = _
  rw [after4_2]
  unfold out4_2
  rw [View.canon_unit_zero zeros3]
  simp only [View.ld_unit_zero (S := S10000x64) zeros2, View.ld_unit_zero (S := S1x64) zeros2]
  have ht : t.val < 25 := lt_of_lt_of_eq t.isLt N_4
  obtain ⟨e00, e01, e10, e11, e20, e21, e22⟩ := idx_facts4 t
  refine funext fun j => ?_
  obtain ⟨p, q, l, rfl⟩ : ∃ (p q : Fin 1) (l : Fin 64), j = ix3 p q l := ⟨j 0, j 1, j 2, eq_ix3 j⟩
  show k4_pay1 (F := Ideal) (iblk4 V c 0 t) (iblk4 V c 1 t) (ix3 p q l)
    = Spec.blockSums (show 250000 = 25 * 10000 from rfl) (dev4 V c)
        (((cfg4.win 2).blk t).view.emb (ix3 p q l) 0) (((cfg4.win 2).blk t).view.emb (ix3 p q l) 2)
  have h0 : (((cfg4.win 2).blk t).view.emb (ix3 p q l) 0 : Fin 25) = ⟨t.val, ht⟩ :=
    Fin.ext (by show win4_2.index t (0 : Fin 3) * 1 + 1 * p.val = t.val; rw [e20]; have := p.isLt; omega)
  have h2 : (((cfg4.win 2).blk t).view.emb (ix3 p q l) 2 : Fin 64) = l :=
    Fin.ext (by show win4_2.index t (2 : Fin 3) * 64 + 1 * l.val = l.val; rw [e22]; omega)
  rw [h0, h2]
  exact blk_sumsq4 V c t ht p q l

/-- An entry of the output array is in point `t`'s block iff each coordinate is in the block's range on its axis. -/
theorem mem_blk4 (t : Fin cfg4.N) (i : S25x1x64.Idx) :
    i ∈ ((cfg4.win 2).blk t).view.set ↔ ∀ a : Fin 3, win4_2.index t a * S1x1x64.size a ≤ (i a).val ∧ (i a).val < win4_2.index t a * S1x1x64.size a + S1x1x64.size a := by
  show i ∈ ((View.whole (main_v19)).slice (win4_2.rect t)).set ↔ _
  rw [View.set_slice_whole, Rect.mem_set_unit]
  exact Iff.rfl

/-- Entry `(b, 0, l)` of the output array is in the block of point `b`. -/
theorem cover4 (i : S25x1x64.Idx) :
    ∃ t : Fin cfg4.N, (cfg4.win 2).flush t = true ∧ i ∈ ((cfg4.win 2).blk t).view.set := by
  have h0 : (i 0).val < 25 := (i 0).isLt
  have h1 : (i 1).val < 1 := (i 1).isLt
  have h2 : (i 2).val < 64 := (i 2).isLt
  obtain ⟨t, ht⟩ : ∃ t : Fin cfg4.N, t.val = (i 0).val := ⟨⟨(i 0).val, lt_of_lt_of_eq h0 N_4.symm⟩, rfl⟩
  obtain ⟨e00, e01, e10, e11, e20, e21, e22⟩ := idx_facts4 t
  refine ⟨t, flush4_2 t, ?_⟩
  rw [mem_blk4]
  intro a
  match a with
  | ⟨0, _⟩ => show win4_2.index t (0 : Fin 3) * 1 ≤ (i 0).val ∧ (i 0).val < win4_2.index t (0 : Fin 3) * 1 + 1; rw [e20]; omega
  | ⟨1, _⟩ => show win4_2.index t (1 : Fin 3) * 1 ≤ (i 1).val ∧ (i 1).val < win4_2.index t (1 : Fin 3) * 1 + 1; rw [e21]; omega
  | ⟨2, _⟩ => show win4_2.index t (2 : Fin 3) * 64 ≤ (i 2).val ∧ (i 2).val < win4_2.index t (2 : Fin 3) * 64 + 64; rw [e22]; omega

theorem reg4_parts (c : Dev nD) :
    q4 V c = fun i => Spec.blockSums (show 250000 = 25 * 10000 from rfl) (dev4 V c) (i 0) (i 2) :=
  (dat4 (F := Ideal) V c).arrAt_eq_of_cover 2 _ (fun t _ => flushed4_eq V c t) cover4

end Cert.KernelIdeal.RegVal

end
-- ==== Proof.RegBn.lean ====
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

abbrev y2 (c : Dev nD) : Vec Ideal S100000x64 .f32 := V c (Pipeline.arrRef spec2 0)
abbrev mu2 (c : Dev nD) : Vec Ideal S1x64 .f32 := V c (Pipeline.arrRef spec2 1)
abbrev va2 (c : Dev nD) : Vec Ideal S1x64 .f32 := V c (Pipeline.arrRef spec2 2)
abbrev g2 (c : Dev nD) : Vec Ideal S1x64 .f32 := V c (Pipeline.arrRef spec2 3)
abbrev be2 (c : Dev nD) : Vec Ideal S1x64 .f32 := V c (Pipeline.arrRef spec2 4)
abbrev o2 (c : Dev nD) : Vec Ideal S100000x64 .f32 := (dat2 (F := Ideal) V c).arrAt 5 cfg2.N

theorem bnZeroOff2 : (![0, 0] : Fin 2 → Nat) = fun _ => 0 := funext fun a => by fin_cases a <;> rfl

theorem bnRsqrt2_apply {s : Shape} {φ : FTy} (a : FVec Ideal s φ) (i : s.Idx) : rsqrt a i = Ideal.rsqrt (a i) := rfl

theorem bnPay2_apply (v g : Vec Ideal S1x64 .f32) (y : Vec Ideal S10000x64 .f32) (μ β : Vec Ideal S1x64 .f32)
    (p : Fin 10000) (q : Fin 64) :
    k2_pay1 (F := Ideal) v g y μ β (ix2 p q)
      = max (g (ix2 (0 : Fin 1) q) * (y (ix2 p q) - μ (ix2 (0 : Fin 1) q))
          * Ideal.rsqrt (v (ix2 (0 : Fin 1) q) + Spec.epsW) + β (ix2 (0 : Fin 1) q)) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    bnRsqrt2_apply, addf_apply, broadcast_apply]
  show max (g (ix2 (0 : Fin 1) q) * (y (ix2 p q) - μ (ix2 (0 : Fin 1) q))
      * Ideal.rsqrt (v (ix2 (0 : Fin 1) q) + Ideal.ofBits .f32 0x3727C5AC#32) + β (ix2 (0 : Fin 1) q))
    (Ideal.ofBits .f32 0x00000000#32) = _
  rw [Ideal.ofBits_zero_f32]

theorem bnIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem bnBlk2_0 (c : Dev nD) (t : Fin cfg2.N) (p : Fin 10000) (q : Fin 64) (k : S100000x64.Idx)
    (hk0 : (k 0).val = t.val * 10000 + p.val) (hk1 : (k 1).val = q.val) :
    (iblk2 (F := Ideal) V c 0 t : Vec Ideal S10000x64 .f32) (ix2 p q) = y2 V c k := by
  obtain ⟨e0, e1, -⟩ := bnIdx2 t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 10000 + 1 * p.val = (k 0).val; rw [e0, hk0]; omega
  | ⟨1, _⟩ => show win2_0.index t (1 : Fin 2) * 64 + 1 * q.val = (k 1).val; rw [e1, hk1]; omega

theorem bnRow2_1 (c : Dev nD) (t : Fin cfg2.N) (q : Fin 64) :
    (iblk2 (F := Ideal) V c 1 t : Vec Ideal S1x64 .f32) (ix2 (0 : Fin 1) q) = mu2 V c (ix2 (0 : Fin 1) q) := by
  obtain ⟨-, -, e0, e1, -⟩ := bnIdx2 t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 1 + 1 * ((0 : Fin 1) : Nat) = ((0 : Fin 1) : Nat); rw [e0]; rfl
  | ⟨1, _⟩ => show win2_1.index t (1 : Fin 2) * 64 + 1 * q.val = q.val; rw [e1]; omega

theorem bnRow2_2 (c : Dev nD) (t : Fin cfg2.N) (q : Fin 64) :
    (iblk2 (F := Ideal) V c 2 t : Vec Ideal S1x64 .f32) (ix2 (0 : Fin 1) q) = va2 V c (ix2 (0 : Fin 1) q) := by
  obtain ⟨-, -, -, -, e0, e1, -⟩ := bnIdx2 t
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 1 + 1 * ((0 : Fin 1) : Nat) = ((0 : Fin 1) : Nat); rw [e0]; rfl
  | ⟨1, _⟩ => show win2_2.index t (1 : Fin 2) * 64 + 1 * q.val = q.val; rw [e1]; omega

theorem bnRow2_3 (c : Dev nD) (t : Fin cfg2.N) (q : Fin 64) :
    (iblk2 (F := Ideal) V c 3 t : Vec Ideal S1x64 .f32) (ix2 (0 : Fin 1) q) = g2 V c (ix2 (0 : Fin 1) q) := by
  obtain ⟨-, -, -, -, -, -, e0, e1, -⟩ := bnIdx2 t
  unfold iblk2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 1 + 1 * ((0 : Fin 1) : Nat) = ((0 : Fin 1) : Nat); rw [e0]; rfl
  | ⟨1, _⟩ => show win2_3.index t (1 : Fin 2) * 64 + 1 * q.val = q.val; rw [e1]; omega

theorem bnRow2_4 (c : Dev nD) (t : Fin cfg2.N) (q : Fin 64) :
    (iblk2 (F := Ideal) V c 4 t : Vec Ideal S1x64 .f32) (ix2 (0 : Fin 1) q) = be2 V c (ix2 (0 : Fin 1) q) := by
  obtain ⟨-, -, -, -, -, -, -, -, e0, e1, -⟩ := bnIdx2 t
  unfold iblk2
  rw [View.read_apply]
  show V c (Pipeline.arrRef spec2 4) _ = V c (Pipeline.arrRef spec2 4) _
  refine congrArg (V c (Pipeline.arrRef spec2 4)) (funext fun a => Fin.ext ?_)
  match a with
  | ⟨0, _⟩ => show win2_4.index t (0 : Fin 2) * 1 + 1 * ((0 : Fin 1) : Nat) = ((0 : Fin 1) : Nat); rw [e0]; rfl
  | ⟨1, _⟩ => show win2_4.index t (1 : Fin 2) * 64 + 1 * q.val = q.val; rw [e1]; omega

theorem bnOutBlk2 (t : Fin cfg2.N) (p : Fin 10000) (q : Fin 64) (G : Vec Ideal S100000x64 .f32) (r : Fin 100000)
    (hr : r.val = t.val * 10000 + p.val) :
    ((cfg2.win 5).blk t).view.read (Elt Ideal) G (ix2 p q) = G (ix2 r q) := by
  obtain ⟨-, -, -, -, -, -, -, -, -, -, e0, e1⟩ := bnIdx2 t
  rw [View.read_apply]
  show G _ = G _
  refine congrArg G (funext fun a => Fin.ext ?_)
  match a with
  | ⟨0, _⟩ => show win2_5.index t (0 : Fin 2) * 10000 + 1 * p.val = r.val; rw [e0, hr]; omega
  | ⟨1, _⟩ => show win2_5.index t (1 : Fin 2) * 64 + 1 * q.val = q.val; rw [e1]; omega

theorem bnFlushed2 (c : Dev nD) (t : Fin cfg2.N) :
    (dat2 (F := Ideal) V c).flushed 5 t = ((cfg2.win 5).blk t).view.read (Elt Ideal)
      (fun i : S100000x64.Idx => Spec.relu (Spec.bn Spec.epsW (fun j => g2 V c (ix2 0 j)) (fun j => be2 V c (ix2 0 j))
        (fun j => mu2 V c (ix2 0 j)) (fun j => va2 V c (ix2 0 j)) (fun a j => y2 V c (ix2 a j))) (i 0) (i 1)) := by
  show (cfg2.win 5).cut (grid2.coords t) ((dat2 (F := Ideal) V c).after 5 t) = _
  rw [after2_5]
  unfold out2_5
  rw [View.canon_unit_zero bnZeroOff2]
  simp only [View.ld_unit_zero (S := S10000x64) bnZeroOff2, View.ld_unit_zero (S := S1x64) bnZeroOff2]
  funext j
  obtain ⟨p, q, rfl⟩ : ∃ (p : Fin 10000) (q : Fin 64), j = ix2 p q := ⟨j 0, j 1, eq_ix2 j⟩
  have hr : t.val * 10000 + p.val < 100000 := by
    have ht : t.val < grid2.N := t.isLt
    rw [N_2] at ht
    omega
  refine Eq.trans ?_ (bnOutBlk2 t p q _ ⟨t.val * 10000 + p.val, hr⟩ rfl).symm
  refine (bnPay2_apply (iblk2 V c 2 t) (iblk2 V c 3 t) (iblk2 V c 0 t) (iblk2 V c 1 t) (iblk2 V c 4 t) p q).trans ?_
  rw [bnRow2_1 V c t q, bnRow2_2 V c t q, bnRow2_3 V c t q, bnRow2_4 V c t q,
    bnBlk2_0 V c t p q (ix2 ⟨t.val * 10000 + p.val, hr⟩ q) rfl rfl]
  rfl

theorem bnMem2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v13).slice (win2_5.rect t)).set ↔ _
  rw [View.set_slice_whole, Rect.mem_set_unit]
  exact Iff.rfl

theorem bnCover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show (i 0).val / 10000 < grid2.N; rw [N_2]; omega⟩, rfl⟩
  obtain ⟨-, -, -, -, -, -, -, -, -, -, e0, e1⟩ := bnIdx2 t
  refine ⟨t, flush2_5 t, ?_⟩
  rw [bnMem2]
  intro a
  match a with
  | ⟨0, _⟩ =>
    show win2_5.index t (0 : Fin 2) * 10000 ≤ (i 0).val ∧ (i 0).val < win2_5.index t (0 : Fin 2) * 10000 + 10000
    rw [e0, ht]; omega
  | ⟨1, _⟩ =>
    show win2_5.index t (1 : Fin 2) * 64 ≤ (i 1).val ∧ (i 1).val < win2_5.index t (1 : Fin 2) * 64 + 64
    rw [e1]; omega

/-- Row by row the output is the column-wise normalisation clamped at zero. -/
theorem reg2_out (c : Dev nD) :
    o2 V c = fun i => Spec.relu (Spec.bn Spec.epsW (fun j => g2 V c (ix2 0 j)) (fun j => be2 V c (ix2 0 j))
      (fun j => mu2 V c (ix2 0 j)) (fun j => va2 V c (ix2 0 j)) (fun a j => y2 V c (ix2 a j))) (i 0) (i 1) :=
  (dat2 (F := Ideal) V c).arrAt_eq_of_cover 5 _ (fun t _ => bnFlushed2 V c t) bnCover2

end Cert.KernelIdeal.RegVal

end
-- ==== Proof.RegBn_5.lean ====
/-
  Region 5: the column-wise normalisation `g (y - μ) rsqrt(v + ε) + β` clamped at zero, block by block;
  the blocks tile the rows, so the whole output is `Spec.relu (Spec.bn …)` of the whole inputs.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 5: 250000 rows -/

abbrev y5 (c : Dev nD) : Vec Ideal S250000x64 .f32 := V c (Pipeline.arrRef spec5 0)
abbrev mu5 (c : Dev nD) : Vec Ideal S1x64 .f32 := V c (Pipeline.arrRef spec5 1)
abbrev va5 (c : Dev nD) : Vec Ideal S1x64 .f32 := V c (Pipeline.arrRef spec5 2)
abbrev g5 (c : Dev nD) : Vec Ideal S1x64 .f32 := V c (Pipeline.arrRef spec5 3)
abbrev be5 (c : Dev nD) : Vec Ideal S1x64 .f32 := V c (Pipeline.arrRef spec5 4)
abbrev o5 (c : Dev nD) : Vec Ideal S250000x64 .f32 := (dat5 (F := Ideal) V c).arrAt 5 cfg5.N

/-- The zero offsets of a whole-block access, as a constant function. -/
theorem bnZeroOff5 : (![0, 0] : Fin 2 → Nat) = fun _ => 0 := funext fun a => by fin_cases a <;> rfl

/-- The inverse square root of a vector, read at an index. -/
theorem bnRsqrt5_apply {s : Shape} {φ : FTy} (a : FVec Ideal s φ) (i : s.Idx) : rsqrt a i = Ideal.rsqrt (a i) := rfl

/-- The block region 5 stores, at row `p` and column `q`: the entry of `y` centred by `μ`, scaled by `g` and by the
    inverse square root of `v + ε`, shifted by `β`, and clamped at zero; the four rows are read at column `q`. -/
theorem bnPay5_apply (v g : Vec Ideal S1x64 .f32) (y : Vec Ideal S10000x64 .f32) (μ β : Vec Ideal S1x64 .f32)
    (p : Fin 10000) (q : Fin 64) :
    k5_pay1 (F := Ideal) v g y μ β (ix2 p q)
      = max (g (ix2 (0 : Fin 1) q) * (y (ix2 p q) - μ (ix2 (0 : Fin 1) q))
          * Ideal.rsqrt (v (ix2 (0 : Fin 1) q) + Spec.epsW) + β (ix2 (0 : Fin 1) q)) 0 := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    bnRsqrt5_apply, addf_apply, broadcast_apply]
  show max (g (ix2 (0 : Fin 1) q) * (y (ix2 p q) - μ (ix2 (0 : Fin 1) q))
      * Ideal.rsqrt (v (ix2 (0 : Fin 1) q) + Ideal.ofBits .f32 0x3727C5AC#32) + β (ix2 (0 : Fin 1) q))
    (Ideal.ofBits .f32 0x00000000#32) = _
  rw [Ideal.ofBits_zero_f32]

/-- Region 5's block indices, decided over its grid points: the rows of `y` and of the output move with the point,
    the four one-row arrays stay at their only block. -/
theorem bnIdx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The block of `y` at point `t` holds rows `10000 t … 10000 t + 9999` of the array. -/
theorem bnBlk5_0 (c : Dev nD) (t : Fin cfg5.N) (p : Fin 10000) (q : Fin 64) (k : S250000x64.Idx)
    (hk0 : (k 0).val = t.val * 10000 + p.val) (hk1 : (k 1).val = q.val) :
    (iblk5 (F := Ideal) V c 0 t : Vec Ideal S10000x64 .f32) (ix2 p q) = y5 V c k := by
  obtain ⟨e0, e1, -⟩ := bnIdx5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 10000 + 1 * p.val = (k 0).val; rw [e0, hk0]; omega
  | ⟨1, _⟩ => show win5_0.index t (1 : Fin 2) * 64 + 1 * q.val = (k 1).val; rw [e1, hk1]; omega

/-- The block of `μ` is its one row, at every point. -/
theorem bnRow5_1 (c : Dev nD) (t : Fin cfg5.N) (q : Fin 64) :
    (iblk5 (F := Ideal) V c 1 t : Vec Ideal S1x64 .f32) (ix2 (0 : Fin 1) q) = mu5 V c (ix2 (0 : Fin 1) q) := by
  obtain ⟨-, -, e0, e1, -⟩ := bnIdx5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 1 + 1 * ((0 : Fin 1) : Nat) = ((0 : Fin 1) : Nat); rw [e0]; rfl
  | ⟨1, _⟩ => show win5_1.index t (1 : Fin 2) * 64 + 1 * q.val = q.val; rw [e1]; omega

/-- The block of `v` is its one row, at every point. -/
theorem bnRow5_2 (c : Dev nD) (t : Fin cfg5.N) (q : Fin 64) :
    (iblk5 (F := Ideal) V c 2 t : Vec Ideal S1x64 .f32) (ix2 (0 : Fin 1) q) = va5 V c (ix2 (0 : Fin 1) q) := by
  obtain ⟨-, -, -, -, e0, e1, -⟩ := bnIdx5 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 1 + 1 * ((0 : Fin 1) : Nat) = ((0 : Fin 1) : Nat); rw [e0]; rfl
  | ⟨1, _⟩ => show win5_2.index t (1 : Fin 2) * 64 + 1 * q.val = q.val; rw [e1]; omega

/-- The block of `g` is its one row, at every point. -/
theorem bnRow5_3 (c : Dev nD) (t : Fin cfg5.N) (q : Fin 64) :
    (iblk5 (F := Ideal) V c 3 t : Vec Ideal S1x64 .f32) (ix2 (0 : Fin 1) q) = g5 V c (ix2 (0 : Fin 1) q) := by
  obtain ⟨-, -, -, -, -, -, e0, e1, -⟩ := bnIdx5 t
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 2) * 1 + 1 * ((0 : Fin 1) : Nat) = ((0 : Fin 1) : Nat); rw [e0]; rfl
  | ⟨1, _⟩ => show win5_3.index t (1 : Fin 2) * 64 + 1 * q.val = q.val; rw [e1]; omega

/-- The block of `β` is its one row, at every point. -/
theorem bnRow5_4 (c : Dev nD) (t : Fin cfg5.N) (q : Fin 64) :
    (iblk5 (F := Ideal) V c 4 t : Vec Ideal S1x64 .f32) (ix2 (0 : Fin 1) q) = be5 V c (ix2 (0 : Fin 1) q) := by
  obtain ⟨-, -, -, -, -, -, -, -, e0, e1, -⟩ := bnIdx5 t
  unfold iblk5
  rw [View.read_apply]
  show V c (Pipeline.arrRef spec5 4) _ = V c (Pipeline.arrRef spec5 4) _
  refine congrArg (V c (Pipeline.arrRef spec5 4)) (funext fun a => Fin.ext ?_)
  match a with
  | ⟨0, _⟩ => show win5_4.index t (0 : Fin 2) * 1 + 1 * ((0 : Fin 1) : Nat) = ((0 : Fin 1) : Nat); rw [e0]; rfl
  | ⟨1, _⟩ => show win5_4.index t (1 : Fin 2) * 64 + 1 * q.val = q.val; rw [e1]; omega

/-- Reading any array through the output's block at point `t`: entry `(p, q)` of the block is entry `(10000 t + p, q)`. -/
theorem bnOutBlk5 (t : Fin cfg5.N) (p : Fin 10000) (q : Fin 64) (G : Vec Ideal S250000x64 .f32) (r : Fin 250000)
    (hr : r.val = t.val * 10000 + p.val) :
    ((cfg5.win 5).blk t).view.read (Elt Ideal) G (ix2 p q) = G (ix2 r q) := by
  obtain ⟨-, -, -, -, -, -, -, -, -, -, e0, e1⟩ := bnIdx5 t
  rw [View.read_apply]
  show G _ = G _
  refine congrArg G (funext fun a => Fin.ext ?_)
  match a with
  | ⟨0, _⟩ => show win5_5.index t (0 : Fin 2) * 10000 + 1 * p.val = r.val; rw [e0, hr]; omega
  | ⟨1, _⟩ => show win5_5.index t (1 : Fin 2) * 64 + 1 * q.val = q.val; rw [e1]; omega

/-- What point `t` writes back is rows `10000 t … 10000 t + 9999` of the normalised, clamped array. -/
theorem bnFlushed5 (c : Dev nD) (t : Fin cfg5.N) :
    (dat5 (F := Ideal) V c).flushed 5 t = ((cfg5.win 5).blk t).view.read (Elt Ideal)
      (fun i : S250000x64.Idx => Spec.relu (Spec.bn Spec.epsW (fun j => g5 V c (ix2 0 j)) (fun j => be5 V c (ix2 0 j))
        (fun j => mu5 V c (ix2 0 j)) (fun j => va5 V c (ix2 0 j)) (fun a j => y5 V c (ix2 a j))) (i 0) (i 1)) := by
  show (cfg5.win 5).cut (grid5.coords t) ((dat5 (F := Ideal) V c).after 5 t) = _
  rw [after5_5]
  unfold out5_5
  rw [View.canon_unit_zero bnZeroOff5]
  simp only [View.ld_unit_zero (S := S10000x64) bnZeroOff5, View.ld_unit_zero (S := S1x64) bnZeroOff5]
  funext j
  obtain ⟨p, q, rfl⟩ : ∃ (p : Fin 10000) (q : Fin 64), j = ix2 p q := ⟨j 0, j 1, eq_ix2 j⟩
  have hr : t.val * 10000 + p.val < 250000 := by
    have ht : t.val < grid5.N := t.isLt
    rw [N_5] at ht
    omega
  refine Eq.trans ?_ (bnOutBlk5 t p q _ ⟨t.val * 10000 + p.val, hr⟩ rfl).symm
  refine (bnPay5_apply (iblk5 V c 2 t) (iblk5 V c 3 t) (iblk5 V c 0 t) (iblk5 V c 1 t) (iblk5 V c 4 t) p q).trans ?_
  rw [bnRow5_1 V c t q, bnRow5_2 V c t q, bnRow5_3 V c t q, bnRow5_4 V c t q,
    bnBlk5_0 V c t p q (ix2 ⟨t.val * 10000 + p.val, hr⟩ q) rfl rfl]
  rfl

/-- An index of the output array is in point `t`'s block iff each coordinate is in the block's range on its axis. -/
theorem bnMem5 (t : Fin cfg5.N) (i : S250000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v27).slice (win5_5.rect t)).set ↔ _
  rw [View.set_slice_whole, Rect.mem_set_unit]
  exact Iff.rfl

/-- Every row is written back: row `r` lies in the block of point `r / 10000`. -/
theorem bnCover5 (i : S250000x64.Idx) :
    ∃ t : Fin cfg5.N, (cfg5.win 5).flush t = true ∧ i ∈ ((cfg5.win 5).blk t).view.set := by
  have hi0 : (i 0).val < 250000 := (i 0).isLt
  have hi1 : (i 1).val < 64 := (i 1).isLt
  obtain ⟨t, ht⟩ : ∃ t : Fin cfg5.N, t.val = (i 0).val / 10000 :=
    ⟨⟨(i 0).val / 10000, by show (i 0).val / 10000 < grid5.N; rw [N_5]; omega⟩, rfl⟩
  obtain ⟨-, -, -, -, -, -, -, -, -, -, e0, e1⟩ := bnIdx5 t
  refine ⟨t, flush5_5 t, ?_⟩
  rw [bnMem5]
  intro a
  match a with
  | ⟨0, _⟩ =>
    show win5_5.index t (0 : Fin 2) * 10000 ≤ (i 0).val ∧ (i 0).val < win5_5.index t (0 : Fin 2) * 10000 + 10000
    rw [e0, ht]; omega
  | ⟨1, _⟩ =>
    show win5_5.index t (1 : Fin 2) * 64 ≤ (i 1).val ∧ (i 1).val < win5_5.index t (1 : Fin 2) * 64 + 64
    rw [e1]; omega

theorem reg5_out (c : Dev nD) :
    o5 V c = fun i => Spec.relu (Spec.bn Spec.epsW (fun j => g5 V c (ix2 0 j)) (fun j => be5 V c (ix2 0 j))
      (fun j => mu5 V c (ix2 0 j)) (fun j => va5 V c (ix2 0 j)) (fun a j => y5 V c (ix2 a j))) (i 0) (i 1) :=
  (dat5 (F := Ideal) V c).arrAt_eq_of_cover 5 _ (fun t _ => bnFlushed5 V c t) bnCover5

end Cert.KernelIdeal.RegVal

end
-- ==== Proof.KPhaseAB.lean ====
import proofs.«425228_j78254304133410_2_alg».proof.Proof.KState
import proofs.«425228_j78254304133410_2_alg».proof.Proof.KArgs
import proofs.«425228_j78254304133410_2_alg».proof.Proof.Consts
import proofs.«425228_j78254304133410_2_alg».proof.Proof.RegLin
import proofs.«425228_j78254304133410_2_alg».proof.Proof.RegSq
import proofs.«425228_j78254304133410_2_alg».proof.Proof.RegSq_4
import proofs.«425228_j78254304133410_2_alg».proof.Proof.RegBn
import proofs.«425228_j78254304133410_2_alg».proof.Proof.RegBn_5
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.KernelIdeal.RegVal Cert.Model Cert.Spec
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

def ab_linU (A : Model.Args) : Fin 100000 → Fin 64 → EReal := Spec.lin (toF A.xU) (toF A.Wu) (vec A.bu)
def ab_muU (A : Model.Args) : Fin 64 → EReal := Spec.colMean Spec.nUW (ab_linU A)
def ab_varU (A : Model.Args) : Fin 64 → EReal := Spec.colVar Spec.nUW (ab_linU A) (ab_muU A)

theorem ab_W1_v0 : (W1 m ρ c (Proc.devRef .tc main_v0) : Vec Ideal S1x64 .f32)
    = shapeCast S1x64 (m ((c : Thread nD τ).loc main_arg3) : Vec Ideal S64 .f32) shapeCasts_S64_S1x64 := by
  show StableHlo.after hostOps0 (W0 m ρ c) (Proc.devRef .tc main_v0) = _
  dsimp only [hostOps0]
  after_results <;> rfl

theorem ab_lin0_V1 : lin0 (V1 m ρ) c = ab_linU (argsK m c) := by
  have hx : x0 (V1 m ρ) c = (argsK m c).xU := W1_arg m ρ c main_arg0 (by decide)
  have hw : w0 (V1 m ρ) c = (argsK m c).Wu := W1_arg m ρ c main_arg2 (by decide)
  have hb : ∀ j : Fin 64, b0 (V1 m ρ) c (ix2 0 j) = (argsK m c).bu (ix1 j) := fun j =>
    (congrFun (ab_W1_v0 m ρ c) (ix2 0 j)).trans (shapeCast_a_1a_apply _ _ 0 j)
  funext a j
  show (∑ k : Fin 64, x0 (V1 m ρ) c (ix2 a k) * w0 (V1 m ρ) c (ix2 k j)) + b0 (V1 m ρ) c (ix2 0 j)
    = (∑ k : Fin 64, (argsK m c).xU (ix2 a k) * (argsK m c).Wu (ix2 k j)) + (argsK m c).bu (ix1 j)
  rw [hx, hw, hb]

theorem ab_W2_v1_0 : (W2 m ρ c (Proc.devRef .tc main_v1_0) : Vec Ideal S100000x64 .f32)
    = fun i => ab_linU (argsK m c) (i 0) (i 1) :=
  (W2_arr m ρ c 3).trans ((reg0_y (V1 m ρ) c).trans
    (congrArg (fun f (i : S100000x64.Idx) => f (i 0) (i 1)) (ab_lin0_V1 m ρ c)))

theorem ab_W2_v1_1 : (W2 m ρ c (Proc.devRef .tc main_v1_1) : Vec Ideal S10x1x64 .f32)
    = fun i => Spec.blockSums (show 100000 = 10 * 10000 from rfl) (ab_linU (argsK m c)) (i 0) (i 2) :=
  (W2_arr m ρ c 4).trans ((reg0_parts (V1 m ρ) c).trans
    (congrArg (fun f (i : S10x1x64.Idx) => Spec.blockSums (show 100000 = 10 * 10000 from rfl) f (i 0) (i 2)) (ab_lin0_V1 m ρ c)))

theorem ab_W3_v4_eq : (W3 m ρ c (Proc.devRef .tc main_v4) : Vec Ideal S1x64 .f32)
    = Host.divf (Host.reduceAdd (W2 m ρ c (Proc.devRef .tc main_v1_1) : Vec Ideal S10x1x64 .f32)
          (constant (F := Ideal) S_ .f32 0x00000000#32) reducesTo_S10x1x64_S1x64_d0 h_S_)
        (broadcastInDim S1x64 ![] bcast_S_S1x64 (constant (F := Ideal) S_ .f32 0x47C35000#32)) := by
  show StableHlo.after hostOps1 (W2 m ρ c) (Proc.devRef .tc main_v4) = _
  dsimp only [hostOps1]
  after_results <;> rfl

theorem ab_W3_v4_apply (j : Fin 64) :
    (W3 m ρ c (Proc.devRef .tc main_v4) : Vec Ideal S1x64 .f32) (ix2 0 j) = ab_muU (argsK m c) j :=
  (congrFun (ab_W3_v4_eq m ρ c) (ix2 0 j)).trans
    (blockMean_apply (show 100000 = 10 * 10000 from rfl) reducesTo_S10x1x64_S1x64_d0 (by decide) h_S_ bcast_S_S1x64
      _ (ab_linU (argsK m c)) (ab_W2_v1_1 m ρ c) 0x47C35000#32 j)

theorem ab_dev1_V3 : dev1 (V3 m ρ) c
    = fun a j => (ab_linU (argsK m c) a j - ab_muU (argsK m c) j) * (ab_linU (argsK m c) a j - ab_muU (argsK m c) j) := by
  have hy : y1 (V3 m ρ) c = fun i => ab_linU (argsK m c) (i 0) (i 1) := (W3_keeps m ρ c main_v1_0 (by decide)).trans (ab_W2_v1_0 m ρ c)
  have hm : ∀ j : Fin 64, mu1 (V3 m ρ) c (ix2 0 j) = ab_muU (argsK m c) j := ab_W3_v4_apply m ρ c
  funext a j
  show (y1 (V3 m ρ) c (ix2 a j) - mu1 (V3 m ρ) c (ix2 0 j)) * (y1 (V3 m ρ) c (ix2 a j) - mu1 (V3 m ρ) c (ix2 0 j)) = _
  rw [hy, hm]

theorem ab_W4_v5 : (W4 m ρ c (Proc.devRef .tc main_v5) : Vec Ideal S10x1x64 .f32)
    = fun i => Spec.blockSums (show 100000 = 10 * 10000 from rfl)
        (fun a j => (ab_linU (argsK m c) a j - ab_muU (argsK m c) j) * (ab_linU (argsK m c) a j - ab_muU (argsK m c) j)) (i 0) (i 2) :=
  (W4_arr m ρ c 2).trans ((reg1_parts (V3 m ρ) c).trans
    (congrArg (fun f (i : S10x1x64.Idx) => Spec.blockSums (show 100000 = 10 * 10000 from rfl) f (i 0) (i 2)) (ab_dev1_V3 m ρ c)))

theorem ab_W5_v10_eq : (W5 m ρ c (Proc.devRef .tc main_v10) : Vec Ideal S1x64 .f32)
    = maximumf (Host.divf (Host.reduceAdd (W4 m ρ c (Proc.devRef .tc main_v5) : Vec Ideal S10x1x64 .f32)
          (constant (F := Ideal) S_ .f32 0x00000000#32) reducesTo_S10x1x64_S1x64_d0 h_S_)
        (broadcastInDim S1x64 ![] bcast_S_S1x64 (constant (F := Ideal) S_ .f32 0x47C35000#32)))
        (broadcastInDim S1x64 ![] bcast_S_S1x64 (constant (F := Ideal) S_ .f32 0x00000000#32)) := by
  show StableHlo.after hostOps2 (W4 m ρ c) (Proc.devRef .tc main_v10) = _
  dsimp only [hostOps2]
  after_results <;> rfl

theorem ab_W5_v10_apply (j : Fin 64) :
    (W5 m ρ c (Proc.devRef .tc main_v10) : Vec Ideal S1x64 .f32) (ix2 0 j) = ab_varU (argsK m c) j := by
  refine (congrFun (ab_W5_v10_eq m ρ c) (ix2 0 j)).trans ?_
  refine (blockVar_apply (show 100000 = 10 * 10000 from rfl) reducesTo_S10x1x64_S1x64_d0 (by decide) h_S_ bcast_S_S1x64
    _ _ (ab_W4_v5 m ρ c) 0x47C35000#32 j).trans ?_
  exact congrFun (Spec.colVarK_eq Cert.Consts.ofBits_1e5 (by norm_num) (ab_linU (argsK m c)) (ab_muU (argsK m c))) j

theorem ab_W5_v11 : (W5 m ρ c (Proc.devRef .tc main_v11) : Vec Ideal S1x64 .f32)
    = shapeCast S1x64 (W4 m ρ c (Proc.devRef .tc main_arg6) : Vec Ideal S64 .f32) shapeCasts_S64_S1x64 := by
  show StableHlo.after hostOps2 (W4 m ρ c) (Proc.devRef .tc main_v11) = _
  dsimp only [hostOps2]
  after_results <;> rfl
theorem ab_W5_v12 : (W5 m ρ c (Proc.devRef .tc main_v12) : Vec Ideal S1x64 .f32)
    = shapeCast S1x64 (W4 m ρ c (Proc.devRef .tc main_arg7) : Vec Ideal S64 .f32) shapeCasts_S64_S1x64 := by
  show StableHlo.after hostOps2 (W4 m ρ c) (Proc.devRef .tc main_v12) = _
  dsimp only [hostOps2]
  after_results <;> rfl

/-- The user projection, normalised by its own column statistics and clamped. -/
theorem phaseA : W6 m ρ c (Proc.devRef .tc main_v13) = Model.hu (argsK m c) := by
  have hy : y2 (V5 m ρ) c = fun i => ab_linU (argsK m c) (i 0) (i 1) :=
    (W5_keeps m ρ c main_v1_0 (by decide)).trans ((W4_keeps m ρ c main_v1_0 (by decide)).trans ((W3_keeps m ρ c main_v1_0 (by decide)).trans (ab_W2_v1_0 m ρ c)))
  have hm : ∀ j : Fin 64, mu2 (V5 m ρ) c (ix2 0 j) = ab_muU (argsK m c) j := fun j =>
    (congrFun ((W5_keeps m ρ c main_v4 (by decide)).trans (W4_keeps m ρ c main_v4 (by decide))) (ix2 0 j)).trans (ab_W3_v4_apply m ρ c j)
  have hv : ∀ j : Fin 64, va2 (V5 m ρ) c (ix2 0 j) = ab_varU (argsK m c) j := ab_W5_v10_apply m ρ c
  have hg : ∀ j : Fin 64, g2 (V5 m ρ) c (ix2 0 j) = vec (argsK m c).gInU j := fun j =>
    (congrFun (ab_W5_v11 m ρ c) (ix2 0 j)).trans ((shapeCast_a_1a_apply _ _ 0 j).trans
      (congrFun (W4_arg m ρ c main_arg6 (by decide)) (ix1 j)))
  have hβ : ∀ j : Fin 64, be2 (V5 m ρ) c (ix2 0 j) = vec (argsK m c).bInU j := fun j =>
    (congrFun (ab_W5_v12 m ρ c) (ix2 0 j)).trans ((shapeCast_a_1a_apply _ _ 0 j).trans
      (congrFun (W4_arg m ρ c main_arg7 (by decide)) (ix1 j)))
  refine (W6_arr m ρ c 5).trans ((reg2_out (V5 m ρ) c).trans ?_)
  rw [hy, funext hm, funext hv, funext hg, funext hβ]
  rfl

def ab_linR (A : Model.Args) : Fin 250000 → Fin 64 → EReal := Spec.lin (toF A.xR) (toF A.Wr) (vec A.br)
def ab_muR (A : Model.Args) : Fin 64 → EReal := Spec.colMean Spec.nRW (ab_linR A)
def ab_varR (A : Model.Args) : Fin 64 → EReal := Spec.colVar Spec.nRW (ab_linR A) (ab_muR A)

theorem ab_W7_v14 : (W7 m ρ c (Proc.devRef .tc main_v14) : Vec Ideal S1x64 .f32)
    = shapeCast S1x64 (W6 m ρ c (Proc.devRef .tc main_arg5) : Vec Ideal S64 .f32) shapeCasts_S64_S1x64 := by
  show StableHlo.after hostOps3 (W6 m ρ c) (Proc.devRef .tc main_v14) = _
  dsimp only [hostOps3]
  after_results <;> rfl

theorem ab_lin3_V7 : lin3 (V7 m ρ) c = ab_linR (argsK m c) := by
  have hx : x3 (V7 m ρ) c = (argsK m c).xR := W7_arg m ρ c main_arg1 (by decide)
  have hw : w3 (V7 m ρ) c = (argsK m c).Wr := W7_arg m ρ c main_arg4 (by decide)
  have hb : ∀ j : Fin 64, b3 (V7 m ρ) c (ix2 0 j) = (argsK m c).br (ix1 j) := fun j =>
    (congrFun (ab_W7_v14 m ρ c) (ix2 0 j)).trans ((shapeCast_a_1a_apply _ _ 0 j).trans
      (congrFun (W6_arg m ρ c main_arg5 (by decide)) (ix1 j)))
  funext a j
  show (∑ k : Fin 128, x3 (V7 m ρ) c (ix2 a k) * w3 (V7 m ρ) c (ix2 k j)) + b3 (V7 m ρ) c (ix2 0 j)
    = (∑ k : Fin 128, (argsK m c).xR (ix2 a k) * (argsK m c).Wr (ix2 k j)) + (argsK m c).br (ix1 j)
  rw [hx, hw, hb]

theorem ab_W8_v15_0 : (W8 m ρ c (Proc.devRef .tc main_v15_0) : Vec Ideal S250000x64 .f32)
    = fun i => ab_linR (argsK m c) (i 0) (i 1) :=
  (W8_arr m ρ c 3).trans ((reg3_y (V7 m ρ) c).trans
    (congrArg (fun f (i : S250000x64.Idx) => f (i 0) (i 1)) (ab_lin3_V7 m ρ c)))

theorem ab_W8_v15_1 : (W8 m ρ c (Proc.devRef .tc main_v15_1) : Vec Ideal S25x1x64 .f32)
    = fun i => Spec.blockSums (show 250000 = 25 * 10000 from rfl) (ab_linR (argsK m c)) (i 0) (i 2) :=
  (W8_arr m ρ c 4).trans ((reg3_parts (V7 m ρ) c).trans
    (congrArg (fun f (i : S25x1x64.Idx) => Spec.blockSums (show 250000 = 25 * 10000 from rfl) f (i 0) (i 2)) (ab_lin3_V7 m ρ c)))

theorem ab_W9_v18_eq : (W9 m ρ c (Proc.devRef .tc main_v18) : Vec Ideal S1x64 .f32)
    = Host.divf (Host.reduceAdd (W8 m ρ c (Proc.devRef .tc main_v15_1) : Vec Ideal S25x1x64 .f32)
          (constant (F := Ideal) S_ .f32 0x00000000#32) reducesTo_S25x1x64_S1x64_d0 h_S_)
        (broadcastInDim S1x64 ![] bcast_S_S1x64 (constant (F := Ideal) S_ .f32 0x48742400#32)) := by
  show StableHlo.after hostOps4 (W8 m ρ c) (Proc.devRef .tc main_v18) = _
  dsimp only [hostOps4]
  after_results <;> rfl

theorem ab_W9_v18_apply (j : Fin 64) :
    (W9 m ρ c (Proc.devRef .tc main_v18) : Vec Ideal S1x64 .f32) (ix2 0 j) = ab_muR (argsK m c) j :=
  (congrFun (ab_W9_v18_eq m ρ c) (ix2 0 j)).trans
    (blockMean_apply (show 250000 = 25 * 10000 from rfl) reducesTo_S25x1x64_S1x64_d0 (by decide) h_S_ bcast_S_S1x64
      _ (ab_linR (argsK m c)) (ab_W8_v15_1 m ρ c) 0x48742400#32 j)

theorem ab_dev4_V9 : dev4 (V9 m ρ) c
    = fun a j => (ab_linR (argsK m c) a j - ab_muR (argsK m c) j) * (ab_linR (argsK m c) a j - ab_muR (argsK m c) j) := by
  have hy : y4 (V9 m ρ) c = fun i => ab_linR (argsK m c) (i 0) (i 1) := (W9_keeps m ρ c main_v15_0 (by decide)).trans (ab_W8_v15_0 m ρ c)
  have hm : ∀ j : Fin 64, mu4 (V9 m ρ) c (ix2 0 j) = ab_muR (argsK m c) j := ab_W9_v18_apply m ρ c
  funext a j
  show (y4 (V9 m ρ) c (ix2 a j) - mu4 (V9 m ρ) c (ix2 0 j)) * (y4 (V9 m ρ) c (ix2 a j) - mu4 (V9 m ρ) c (ix2 0 j)) = _
  rw [hy, hm]

theorem ab_W10_v19 : (W10 m ρ c (Proc.devRef .tc main_v19) : Vec Ideal S25x1x64 .f32)
    = fun i => Spec.blockSums (show 250000 = 25 * 10000 from rfl)
        (fun a j => (ab_linR (argsK m c) a j - ab_muR (argsK m c) j) * (ab_linR (argsK m c) a j - ab_muR (argsK m c) j)) (i 0) (i 2) :=
  (W10_arr m ρ c 2).trans ((reg4_parts (V9 m ρ) c).trans
    (congrArg (fun f (i : S25x1x64.Idx) => Spec.blockSums (show 250000 = 25 * 10000 from rfl) f (i 0) (i 2)) (ab_dev4_V9 m ρ c)))

theorem ab_W11_v24_eq : (W11 m ρ c (Proc.devRef .tc main_v24) : Vec Ideal S1x64 .f32)
    = maximumf (Host.divf (Host.reduceAdd (W10 m ρ c (Proc.devRef .tc main_v19) : Vec Ideal S25x1x64 .f32)
          (constant (F := Ideal) S_ .f32 0x00000000#32) reducesTo_S25x1x64_S1x64_d0 h_S_)
        (broadcastInDim S1x64 ![] bcast_S_S1x64 (constant (F := Ideal) S_ .f32 0x48742400#32)))
        (broadcastInDim S1x64 ![] bcast_S_S1x64 (constant (F := Ideal) S_ .f32 0x00000000#32)) := by
  show StableHlo.after hostOps5 (W10 m ρ c) (Proc.devRef .tc main_v24) = _
  dsimp only [hostOps5]
  after_results <;> rfl

theorem ab_W11_v24_apply (j : Fin 64) :
    (W11 m ρ c (Proc.devRef .tc main_v24) : Vec Ideal S1x64 .f32) (ix2 0 j) = ab_varR (argsK m c) j := by
  refine (congrFun (ab_W11_v24_eq m ρ c) (ix2 0 j)).trans ?_
  refine (blockVar_apply (show 250000 = 25 * 10000 from rfl) reducesTo_S25x1x64_S1x64_d0 (by decide) h_S_ bcast_S_S1x64
    _ _ (ab_W10_v19 m ρ c) 0x48742400#32 j).trans ?_
  exact congrFun (Spec.colVarK_eq Cert.Consts.ofBits_25e4 (by norm_num) (ab_linR (argsK m c)) (ab_muR (argsK m c))) j

theorem ab_W11_v25 : (W11 m ρ c (Proc.devRef .tc main_v25) : Vec Ideal S1x64 .f32)
    = shapeCast S1x64 (W10 m ρ c (Proc.devRef .tc main_arg8) : Vec Ideal S64 .f32) shapeCasts_S64_S1x64 := by
  show StableHlo.after hostOps5 (W10 m ρ c) (Proc.devRef .tc main_v25) = _
  dsimp only [hostOps5]
  after_results <;> rfl
theorem ab_W11_v26 : (W11 m ρ c (Proc.devRef .tc main_v26) : Vec Ideal S1x64 .f32)
    = shapeCast S1x64 (W10 m ρ c (Proc.devRef .tc main_arg9) : Vec Ideal S64 .f32) shapeCasts_S64_S1x64 := by
  show StableHlo.after hostOps5 (W10 m ρ c) (Proc.devRef .tc main_v26) = _
  dsimp only [hostOps5]
  after_results <;> rfl

theorem ab_W12_v27 : W12 m ρ c (Proc.devRef .tc main_v27) = Model.hr (argsK m c) := by
  have hy : y5 (V11 m ρ) c = fun i => ab_linR (argsK m c) (i 0) (i 1) :=
    (W11_keeps m ρ c main_v15_0 (by decide)).trans ((W10_keeps m ρ c main_v15_0 (by decide)).trans ((W9_keeps m ρ c main_v15_0 (by decide)).trans (ab_W8_v15_0 m ρ c)))
  have hm : ∀ j : Fin 64, mu5 (V11 m ρ) c (ix2 0 j) = ab_muR (argsK m c) j := fun j =>
    (congrFun ((W11_keeps m ρ c main_v18 (by decide)).trans (W10_keeps m ρ c main_v18 (by decide))) (ix2 0 j)).trans (ab_W9_v18_apply m ρ c j)
  have hv : ∀ j : Fin 64, va5 (V11 m ρ) c (ix2 0 j) = ab_varR (argsK m c) j := ab_W11_v24_apply m ρ c
  have hg : ∀ j : Fin 64, g5 (V11 m ρ) c (ix2 0 j) = vec (argsK m c).gInR j := fun j =>
    (congrFun (ab_W11_v25 m ρ c) (ix2 0 j)).trans ((shapeCast_a_1a_apply _ _ 0 j).trans
      (congrFun (W10_arg m ρ c main_arg8 (by decide)) (ix1 j)))
  have hβ : ∀ j : Fin 64, be5 (V11 m ρ) c (ix2 0 j) = vec (argsK m c).bInR j := fun j =>
    (congrFun (ab_W11_v26 m ρ c) (ix2 0 j)).trans ((shapeCast_a_1a_apply _ _ 0 j).trans
      (congrFun (W10_arg m ρ c main_arg9 (by decide)) (ix1 j)))
  refine (W12_arr m ρ c 5).trans ((reg5_out (V11 m ρ) c).trans ?_)
  rw [hy, funext hm, funext hv, funext hg, funext hβ]
  rfl

/-- The same on the recipe side; the user side's result is carried along. -/
theorem phaseB : W12 m ρ c (Proc.devRef .tc main_v27) = Model.hr (argsK m c)
    ∧ W12 m ρ c (Proc.devRef .tc main_v13) = Model.hu (argsK m c) :=
  ⟨ab_W12_v27 m ρ c,
    (W12_keeps m ρ c main_v13 (by decide)).trans ((W11_keeps m ρ c main_v13 (by decide)).trans ((W10_keeps m ρ c main_v13 (by decide)).trans ((W9_keeps m ρ c main_v13 (by decide)).trans
      ((W8_keeps m ρ c main_v13 (by decide)).trans ((W7_keeps m ρ c main_v13 (by decide)).trans (phaseA m ρ c))))))⟩

end Cert.KernelIdeal.Chain

end
-- ==== Proof.RegSq_7.lean ====
/-
  Region 7: per block of 10000 rows, each column's sum of squared deviations from a given row of means.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws
import proofs.«425228_j78254304133410_2_alg».proof.Proof.RegSq

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 7: 250000 rows -/

abbrev y7 (c : Dev nD) : Vec Ideal S250000x64 .f32 := V c (Pipeline.arrRef spec7 0)
abbrev mu7 (c : Dev nD) : Vec Ideal S1x64 .f32 := V c (Pipeline.arrRef spec7 1)
abbrev q7 (c : Dev nD) : Vec Ideal S25x1x64 .f32 := (dat7 (F := Ideal) V c).arrAt 2 cfg7.N
/-- A row's squared deviations from the means, column by column. -/
def dev7 (c : Dev nD) : Fin 250000 → Fin 64 → EReal :=
  fun a j => (y7 V c (ix2 a j) - mu7 V c (ix2 0 j)) * (y7 V c (ix2 a j) - mu7 V c (ix2 0 j))

/-- The region's block indices over its 25 grid points: the block of rows and the output's row are the point's
    number, every other block index is zero. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 3) = t.val ∧ win7_2.index t (1 : Fin 3) = 0 ∧ win7_2.index t (2 : Fin 3) = 0 :=
  (by decide +kernel : ∀ t : Fin grid7.N, _)

/-- At grid point `t` the block's arithmetic on the blocks the point reads is block `t`'s sums: row `r` of the
    block of rows is row `10000 t + r` of the array, and the block of means is the array of means. -/
theorem blk_sumsq7 (c : Dev nD) (t : Fin cfg7.N) (ht : t.val < 25) (p q : Fin 1) (l : Fin 64) :
    k7_pay1 (F := Ideal) (iblk7 V c 0 t) (iblk7 V c 1 t) (ix3 p q l)
      = Spec.blockSums (show 250000 = 25 * 10000 from rfl) (dev7 V c) ⟨t.val, ht⟩ l := by
  obtain ⟨e00, e01, e10, e11, e20, e21, e22⟩ := idx_facts7 t
  refine (sumsq_apply (iblk7 V c 0 t) (iblk7 V c 1 t) _ _ _ _ _ _ _ p q l).trans ?_
  refine Finset.sum_congr rfl fun r _ => ?_
  have hy : iblk7 V c 0 t (ix2 r l)
      = y7 V c (ix2 (Spec.blkRow (show 250000 = 25 * 10000 from rfl) ⟨t.val, ht⟩ r) l) := by
    show V c (Pipeline.arrRef spec7 0) (((cfg7.win 0).blk t).view.emb (ix2 r l)) = V c (Pipeline.arrRef spec7 0) _
    refine congrArg (V c (Pipeline.arrRef spec7 0)) ?_
    funext a; apply Fin.ext
    match a with
    | ⟨0, _⟩ => show win7_0.index t (0 : Fin 2) * 10000 + 1 * r.val = t.val * 10000 + r.val; rw [e00]; omega
    | ⟨1, _⟩ => show win7_0.index t (1 : Fin 2) * 64 + 1 * l.val = l.val; rw [e01]; omega
  have hm : iblk7 V c 1 t (ix2 0 l) = mu7 V c (ix2 0 l) := by
    show V c (Pipeline.arrRef spec7 1) (((cfg7.win 1).blk t).view.emb (ix2 0 l)) = V c (Pipeline.arrRef spec7 1) _
    refine congrArg (V c (Pipeline.arrRef spec7 1)) ?_
    funext a; apply Fin.ext
    match a with
    | ⟨0, _⟩ => show win7_1.index t (0 : Fin 2) * 1 + 1 * 0 = 0; rw [e10]
    | ⟨1, _⟩ => show win7_1.index t (1 : Fin 2) * 64 + 1 * l.val = l.val; rw [e11]; omega
  rw [hy, hm]
  rfl

/-- What grid point `t` writes back is block `t` of the array of block sums. -/
theorem flushed7_eq (c : Dev nD) (t : Fin cfg7.N) :
    (dat7 (F := Ideal) V c).flushed 2 t = ((cfg7.win 2).blk t).view.read (Elt Ideal)
      (fun i : S25x1x64.Idx => Spec.blockSums (show 250000 = 25 * 10000 from rfl) (dev7 V c) (i 0) (i 2)) := by
  show (cfg7.win 2).cut (grid7.coords t) ((dat7 (F := Ideal) V c).after 2 t) = _
  rw [after7_2]
  unfold out7_2
  rw [View.canon_unit_zero zeros3]
  simp only [View.ld_unit_zero (S := S10000x64) zeros2, View.ld_unit_zero (S := S1x64) zeros2]
  have ht : t.val < 25 := lt_of_lt_of_eq t.isLt N_7
  obtain ⟨e00, e01, e10, e11, e20, e21, e22⟩ := idx_facts7 t
  refine funext fun j => ?_
  obtain ⟨p, q, l, rfl⟩ : ∃ (p q : Fin 1) (l : Fin 64), j = ix3 p q l := ⟨j 0, j 1, j 2, eq_ix3 j⟩
  show k7_pay1 (F := Ideal) (iblk7 V c 0 t) (iblk7 V c 1 t) (ix3 p q l)
    = Spec.blockSums (show 250000 = 25 * 10000 from rfl) (dev7 V c)
        (((cfg7.win 2).blk t).view.emb (ix3 p q l) 0) (((cfg7.win 2).blk t).view.emb (ix3 p q l) 2)
  have h0 : (((cfg7.win 2).blk t).view.emb (ix3 p q l) 0 : Fin 25) = ⟨t.val, ht⟩ :=
    Fin.ext (by show win7_2.index t (0 : Fin 3) * 1 + 1 * p.val = t.val; rw [e20]; have := p.isLt; omega)
  have h2 : (((cfg7.win 2).blk t).view.emb (ix3 p q l) 2 : Fin 64) = l :=
    Fin.ext (by show win7_2.index t (2 : Fin 3) * 64 + 1 * l.val = l.val; rw [e22]; omega)
  rw [h0, h2]
  exact blk_sumsq7 V c t ht p q l

/-- An entry of the output array is in point `t`'s block iff each coordinate is in the block's range on its axis. -/
theorem mem_blk7 (t : Fin cfg7.N) (i : S25x1x64.Idx) :
    i ∈ ((cfg7.win 2).blk t).view.set ↔ ∀ a : Fin 3, win7_2.index t a * S1x1x64.size a ≤ (i a).val ∧ (i a).val < win7_2.index t a * S1x1x64.size a + S1x1x64.size a := by
  show i ∈ ((View.whole (main_v41)).slice (win7_2.rect t)).set ↔ _
  rw [View.set_slice_whole, Rect.mem_set_unit]
  exact Iff.rfl

/-- Entry `(b, 0, l)` of the output array is in the block of point `b`. -/
theorem cover7 (i : S25x1x64.Idx) :
    ∃ t : Fin cfg7.N, (cfg7.win 2).flush t = true ∧ i ∈ ((cfg7.win 2).blk t).view.set := by
  have h0 : (i 0).val < 25 := (i 0).isLt
  have h1 : (i 1).val < 1 := (i 1).isLt
  have h2 : (i 2).val < 64 := (i 2).isLt
  obtain ⟨t, ht⟩ : ∃ t : Fin cfg7.N, t.val = (i 0).val := ⟨⟨(i 0).val, lt_of_lt_of_eq h0 N_7.symm⟩, rfl⟩
  obtain ⟨e00, e01, e10, e11, e20, e21, e22⟩ := idx_facts7 t
  refine ⟨t, flush7_2 t, ?_⟩
  rw [mem_blk7]
  intro a
  match a with
  | ⟨0, _⟩ => show win7_2.index t (0 : Fin 3) * 1 ≤ (i 0).val ∧ (i 0).val < win7_2.index t (0 : Fin 3) * 1 + 1; rw [e20]; omega
  | ⟨1, _⟩ => show win7_2.index t (1 : Fin 3) * 1 ≤ (i 1).val ∧ (i 1).val < win7_2.index t (1 : Fin 3) * 1 + 1; rw [e21]; omega
  | ⟨2, _⟩ => show win7_2.index t (2 : Fin 3) * 64 ≤ (i 2).val ∧ (i 2).val < win7_2.index t (2 : Fin 3) * 64 + 64; rw [e22]; omega

theorem reg7_parts (c : Dev nD) :
    q7 V c = fun i => Spec.blockSums (show 250000 = 25 * 10000 from rfl) (dev7 V c) (i 0) (i 2) :=
  (dat7 (F := Ideal) V c).arrAt_eq_of_cover 2 _ (fun t _ => flushed7_eq V c t) cover7

end Cert.KernelIdeal.RegVal

end
-- ==== Proof.RegSq_10.lean ====
/-
  Region 10: per block of 10000 rows, each column's sum of squared deviations from a given row of means.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws
import proofs.«425228_j78254304133410_2_alg».proof.Proof.RegSq

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 10: 100000 rows -/

abbrev y10 (c : Dev nD) : Vec Ideal S100000x64 .f32 := V c (Pipeline.arrRef spec10 0)
abbrev mu10 (c : Dev nD) : Vec Ideal S1x64 .f32 := V c (Pipeline.arrRef spec10 1)
abbrev q10 (c : Dev nD) : Vec Ideal S10x1x64 .f32 := (dat10 (F := Ideal) V c).arrAt 2 cfg10.N
/-- A row's squared deviations from the means, column by column. -/
def dev10 (c : Dev nD) : Fin 100000 → Fin 64 → EReal :=
  fun a j => (y10 V c (ix2 a j) - mu10 V c (ix2 0 j)) * (y10 V c (ix2 a j) - mu10 V c (ix2 0 j))

/-- The region's block indices over its 10 grid points: the block of rows and the output's row are the point's
    number, every other block index is zero. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 3) = t.val ∧ win10_2.index t (1 : Fin 3) = 0 ∧ win10_2.index t (2 : Fin 3) = 0 :=
  (by decide +kernel : ∀ t : Fin grid10.N, _)

/-- At grid point `t` the block's arithmetic on the blocks the point reads is block `t`'s sums: row `r` of the
    block of rows is row `10000 t + r` of the array, and the block of means is the array of means. -/
theorem blk_sumsq10 (c : Dev nD) (t : Fin cfg10.N) (ht : t.val < 10) (p q : Fin 1) (l : Fin 64) :
    k10_pay1 (F := Ideal) (iblk10 V c 0 t) (iblk10 V c 1 t) (ix3 p q l)
      = Spec.blockSums (show 100000 = 10 * 10000 from rfl) (dev10 V c) ⟨t.val, ht⟩ l := by
  obtain ⟨e00, e01, e10, e11, e20, e21, e22⟩ := idx_facts10 t
  refine (sumsq_apply (iblk10 V c 0 t) (iblk10 V c 1 t) _ _ _ _ _ _ _ p q l).trans ?_
  refine Finset.sum_congr rfl fun r _ => ?_
  have hy : iblk10 V c 0 t (ix2 r l)
      = y10 V c (ix2 (Spec.blkRow (show 100000 = 10 * 10000 from rfl) ⟨t.val, ht⟩ r) l) := by
    show V c (Pipeline.arrRef spec10 0) (((cfg10.win 0).blk t).view.emb (ix2 r l)) = V c (Pipeline.arrRef spec10 0) _
    refine congrArg (V c (Pipeline.arrRef spec10 0)) ?_
    funext a; apply Fin.ext
    match a with
    | ⟨0, _⟩ => show win10_0.index t (0 : Fin 2) * 10000 + 1 * r.val = t.val * 10000 + r.val; rw [e00]; omega
    | ⟨1, _⟩ => show win10_0.index t (1 : Fin 2) * 64 + 1 * l.val = l.val; rw [e01]; omega
  have hm : iblk10 V c 1 t (ix2 0 l) = mu10 V c (ix2 0 l) := by
    show V c (Pipeline.arrRef spec10 1) (((cfg10.win 1).blk t).view.emb (ix2 0 l)) = V c (Pipeline.arrRef spec10 1) _
    refine congrArg (V c (Pipeline.arrRef spec10 1)) ?_
    funext a; apply Fin.ext
    match a with
    | ⟨0, _⟩ => show win10_1.index t (0 : Fin 2) * 1 + 1 * 0 = 0; rw [e10]
    | ⟨1, _⟩ => show win10_1.index t (1 : Fin 2) * 64 + 1 * l.val = l.val; rw [e11]; omega
  rw [hy, hm]
  rfl

/-- What grid point `t` writes back is block `t` of the array of block sums. -/
theorem flushed10_eq (c : Dev nD) (t : Fin cfg10.N) :
    (dat10 (F := Ideal) V c).flushed 2 t = ((cfg10.win 2).blk t).view.read (Elt Ideal)
      (fun i : S10x1x64.Idx => Spec.blockSums (show 100000 = 10 * 10000 from rfl) (dev10 V c) (i 0) (i 2)) := by
  show (cfg10.win 2).cut (grid10.coords t) ((dat10 (F := Ideal) V c).after 2 t) = _
  rw [after10_2]
  unfold out10_2
  rw [View.canon_unit_zero zeros3]
  simp only [View.ld_unit_zero (S := S10000x64) zeros2, View.ld_unit_zero (S := S1x64) zeros2]
  have ht : t.val < 10 := lt_of_lt_of_eq t.isLt N_10
  obtain ⟨e00, e01, e10, e11, e20, e21, e22⟩ := idx_facts10 t
  refine funext fun j => ?_
  obtain ⟨p, q, l, rfl⟩ : ∃ (p q : Fin 1) (l : Fin 64), j = ix3 p q l := ⟨j 0, j 1, j 2, eq_ix3 j⟩
  show k10_pay1 (F := Ideal) (iblk10 V c 0 t) (iblk10 V c 1 t) (ix3 p q l)
    = Spec.blockSums (show 100000 = 10 * 10000 from rfl) (dev10 V c)
        (((cfg10.win 2).blk t).view.emb (ix3 p q l) 0) (((cfg10.win 2).blk t).view.emb (ix3 p q l) 2)
  have h0 : (((cfg10.win 2).blk t).view.emb (ix3 p q l) 0 : Fin 10) = ⟨t.val, ht⟩ :=
    Fin.ext (by show win10_2.index t (0 : Fin 3) * 1 + 1 * p.val = t.val; rw [e20]; have := p.isLt; omega)
  have h2 : (((cfg10.win 2).blk t).view.emb (ix3 p q l) 2 : Fin 64) = l :=
    Fin.ext (by show win10_2.index t (2 : Fin 3) * 64 + 1 * l.val = l.val; rw [e22]; omega)
  rw [h0, h2]
  exact blk_sumsq10 V c t ht p q l

/-- An entry of the output array is in point `t`'s block iff each coordinate is in the block's range on its axis. -/
theorem mem_blk10 (t : Fin cfg10.N) (i : S10x1x64.Idx) :
    i ∈ ((cfg10.win 2).blk t).view.set ↔ ∀ a : Fin 3, win10_2.index t a * S1x1x64.size a ≤ (i a).val ∧ (i a).val < win10_2.index t a * S1x1x64.size a + S1x1x64.size a := by
  show i ∈ ((View.whole (main_v63)).slice (win10_2.rect t)).set ↔ _
  rw [View.set_slice_whole, Rect.mem_set_unit]
  exact Iff.rfl

/-- Entry `(b, 0, l)` of the output array is in the block of point `b`. -/
theorem cover10 (i : S10x1x64.Idx) :
    ∃ t : Fin cfg10.N, (cfg10.win 2).flush t = true ∧ i ∈ ((cfg10.win 2).blk t).view.set := by
  have h0 : (i 0).val < 10 := (i 0).isLt
  have h1 : (i 1).val < 1 := (i 1).isLt
  have h2 : (i 2).val < 64 := (i 2).isLt
  obtain ⟨t, ht⟩ : ∃ t : Fin cfg10.N, t.val = (i 0).val := ⟨⟨(i 0).val, lt_of_lt_of_eq h0 N_10.symm⟩, rfl⟩
  obtain ⟨e00, e01, e10, e11, e20, e21, e22⟩ := idx_facts10 t
  refine ⟨t, flush10_2 t, ?_⟩
  rw [mem_blk10]
  intro a
  match a with
  | ⟨0, _⟩ => show win10_2.index t (0 : Fin 3) * 1 ≤ (i 0).val ∧ (i 0).val < win10_2.index t (0 : Fin 3) * 1 + 1; rw [e20]; omega
  | ⟨1, _⟩ => show win10_2.index t (1 : Fin 3) * 1 ≤ (i 1).val ∧ (i 1).val < win10_2.index t (1 : Fin 3) * 1 + 1; rw [e21]; omega
  | ⟨2, _⟩ => show win10_2.index t (2 : Fin 3) * 64 ≤ (i 2).val ∧ (i 2).val < win10_2.index t (2 : Fin 3) * 64 + 64; rw [e22]; omega

theorem reg10_parts (c : Dev nD) :
    q10 V c = fun i => Spec.blockSums (show 100000 = 10 * 10000 from rfl) (dev10 V c) (i 0) (i 2) :=
  (dat10 (F := Ideal) V c).arrAt_eq_of_cover 2 _ (fun t _ => flushed10_eq V c t) cover10

end Cert.KernelIdeal.RegVal

end
-- ==== Proof.RegSq_13.lean ====
/-
  Region 13: per block of 10000 rows, each column's sum of squared deviations from a given row of means.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws
import proofs.«425228_j78254304133410_2_alg».proof.Proof.RegSq

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 13: 250000 rows -/

abbrev y13 (c : Dev nD) : Vec Ideal S250000x64 .f32 := V c (Pipeline.arrRef spec13 0)
abbrev mu13 (c : Dev nD) : Vec Ideal S1x64 .f32 := V c (Pipeline.arrRef spec13 1)
abbrev q13 (c : Dev nD) : Vec Ideal S25x1x64 .f32 := (dat13 (F := Ideal) V c).arrAt 2 cfg13.N
/-- A row's squared deviations from the means, column by column. -/
def dev13 (c : Dev nD) : Fin 250000 → Fin 64 → EReal :=
  fun a j => (y13 V c (ix2 a j) - mu13 V c (ix2 0 j)) * (y13 V c (ix2 a j) - mu13 V c (ix2 0 j))

/-- The region's block indices over its 25 grid points: the block of rows and the output's row are the point's
    number, every other block index is zero. -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 3) = t.val ∧ win13_2.index t (1 : Fin 3) = 0 ∧ win13_2.index t (2 : Fin 3) = 0 :=
  (by decide +kernel : ∀ t : Fin grid13.N, _)

/-- At grid point `t` the block's arithmetic on the blocks the point reads is block `t`'s sums: row `r` of the
    block of rows is row `10000 t + r` of the array, and the block of means is the array of means. -/
theorem blk_sumsq13 (c : Dev nD) (t : Fin cfg13.N) (ht : t.val < 25) (p q : Fin 1) (l : Fin 64) :
    k13_pay1 (F := Ideal) (iblk13 V c 0 t) (iblk13 V c 1 t) (ix3 p q l)
      = Spec.blockSums (show 250000 = 25 * 10000 from rfl) (dev13 V c) ⟨t.val, ht⟩ l := by
  obtain ⟨e00, e01, e10, e11, e20, e21, e22⟩ := idx_facts13 t
  refine (sumsq_apply (iblk13 V c 0 t) (iblk13 V c 1 t) _ _ _ _ _ _ _ p q l).trans ?_
  refine Finset.sum_congr rfl fun r _ => ?_
  have hy : iblk13 V c 0 t (ix2 r l)
      = y13 V c (ix2 (Spec.blkRow (show 250000 = 25 * 10000 from rfl) ⟨t.val, ht⟩ r) l) := by
    show V c (Pipeline.arrRef spec13 0) (((cfg13.win 0).blk t).view.emb (ix2 r l)) = V c (Pipeline.arrRef spec13 0) _
    refine congrArg (V c (Pipeline.arrRef spec13 0)) ?_
    funext a; apply Fin.ext
    match a with
    | ⟨0, _⟩ => show win13_0.index t (0 : Fin 2) * 10000 + 1 * r.val = t.val * 10000 + r.val; rw [e00]; omega
    | ⟨1, _⟩ => show win13_0.index t (1 : Fin 2) * 64 + 1 * l.val = l.val; rw [e01]; omega
  have hm : iblk13 V c 1 t (ix2 0 l) = mu13 V c (ix2 0 l) := by
    show V c (Pipeline.arrRef spec13 1) (((cfg13.win 1).blk t).view.emb (ix2 0 l)) = V c (Pipeline.arrRef spec13 1) _
    refine congrArg (V c (Pipeline.arrRef spec13 1)) ?_
    funext a; apply Fin.ext
    match a with
    | ⟨0, _⟩ => show win13_1.index t (0 : Fin 2) * 1 + 1 * 0 = 0; rw [e10]
    | ⟨1, _⟩ => show win13_1.index t (1 : Fin 2) * 64 + 1 * l.val = l.val; rw [e11]; omega
  rw [hy, hm]
  rfl

/-- What grid point `t` writes back is block `t` of the array of block sums. -/
theorem flushed13_eq (c : Dev nD) (t : Fin cfg13.N) :
    (dat13 (F := Ideal) V c).flushed 2 t = ((cfg13.win 2).blk t).view.read (Elt Ideal)
      (fun i : S25x1x64.Idx => Spec.blockSums (show 250000 = 25 * 10000 from rfl) (dev13 V c) (i 0) (i 2)) := by
  show (cfg13.win 2).cut (grid13.coords t) ((dat13 (F := Ideal) V c).after 2 t) = _
  rw [after13_2]
  unfold out13_2
  rw [View.canon_unit_zero zeros3]
  simp only [View.ld_unit_zero (S := S10000x64) zeros2, View.ld_unit_zero (S := S1x64) zeros2]
  have ht : t.val < 25 := lt_of_lt_of_eq t.isLt N_13
  obtain ⟨e00, e01, e10, e11, e20, e21, e22⟩ := idx_facts13 t
  refine funext fun j => ?_
  obtain ⟨p, q, l, rfl⟩ : ∃ (p q : Fin 1) (l : Fin 64), j = ix3 p q l := ⟨j 0, j 1, j 2, eq_ix3 j⟩
  show k13_pay1 (F := Ideal) (iblk13 V c 0 t) (iblk13 V c 1 t) (ix3 p q l)
    = Spec.blockSums (show 250000 = 25 * 10000 from rfl) (dev13 V c)
        (((cfg13.win 2).blk t).view.emb (ix3 p q l) 0) (((cfg13.win 2).blk t).view.emb (ix3 p q l) 2)
  have h0 : (((cfg13.win 2).blk t).view.emb (ix3 p q l) 0 : Fin 25) = ⟨t.val, ht⟩ :=
    Fin.ext (by show win13_2.index t (0 : Fin 3) * 1 + 1 * p.val = t.val; rw [e20]; have := p.isLt; omega)
  have h2 : (((cfg13.win 2).blk t).view.emb (ix3 p q l) 2 : Fin 64) = l :=
    Fin.ext (by show win13_2.index t (2 : Fin 3) * 64 + 1 * l.val = l.val; rw [e22]; omega)
  rw [h0, h2]
  exact blk_sumsq13 V c t ht p q l

/-- An entry of the output array is in point `t`'s block iff each coordinate is in the block's range on its axis. -/
theorem mem_blk13 (t : Fin cfg13.N) (i : S25x1x64.Idx) :
    i ∈ ((cfg13.win 2).blk t).view.set ↔ ∀ a : Fin 3, win13_2.index t a * S1x1x64.size a ≤ (i a).val ∧ (i a).val < win13_2.index t a * S1x1x64.size a + S1x1x64.size a := by
  show i ∈ ((View.whole (main_v81)).slice (win13_2.rect t)).set ↔ _
  rw [View.set_slice_whole, Rect.mem_set_unit]
  exact Iff.rfl

/-- Entry `(b, 0, l)` of the output array is in the block of point `b`. -/
theorem cover13 (i : S25x1x64.Idx) :
    ∃ t : Fin cfg13.N, (cfg13.win 2).flush t = true ∧ i ∈ ((cfg13.win 2).blk t).view.set := by
  have h0 : (i 0).val < 25 := (i 0).isLt
  have h1 : (i 1).val < 1 := (i 1).isLt
  have h2 : (i 2).val < 64 := (i 2).isLt
  obtain ⟨t, ht⟩ : ∃ t : Fin cfg13.N, t.val = (i 0).val := ⟨⟨(i 0).val, lt_of_lt_of_eq h0 N_13.symm⟩, rfl⟩
  obtain ⟨e00, e01, e10, e11, e20, e21, e22⟩ := idx_facts13 t
  refine ⟨t, flush13_2 t, ?_⟩
  rw [mem_blk13]
  intro a
  match a with
  | ⟨0, _⟩ => show win13_2.index t (0 : Fin 3) * 1 ≤ (i 0).val ∧ (i 0).val < win13_2.index t (0 : Fin 3) * 1 + 1; rw [e20]; omega
  | ⟨1, _⟩ => show win13_2.index t (1 : Fin 3) * 1 ≤ (i 1).val ∧ (i 1).val < win13_2.index t (1 : Fin 3) * 1 + 1; rw [e21]; omega
  | ⟨2, _⟩ => show win13_2.index t (2 : Fin 3) * 64 ≤ (i 2).val ∧ (i 2).val < win13_2.index t (2 : Fin 3) * 64 + 64; rw [e22]; omega

theorem reg13_parts (c : Dev nD) :
    q13 V c = fun i => Spec.blockSums (show 250000 = 25 * 10000 from rfl) (dev13 V c) (i 0) (i 2) :=
  (dat13 (F := Ideal) V c).arrAt_eq_of_cover 2 _ (fun t _ => flushed13_eq V c t) cover13

end Cert.KernelIdeal.RegVal

end
-- ==== Proof.RegSq_15.lean ====
/-
  Region 15: per block of 10000 rows, each column's sum of squared deviations from a given row of means.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws
import proofs.«425228_j78254304133410_2_alg».proof.Proof.RegSq

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 15: 100000 rows -/

abbrev y15 (c : Dev nD) : Vec Ideal S100000x64 .f32 := V c (Pipeline.arrRef spec15 0)
abbrev mu15 (c : Dev nD) : Vec Ideal S1x64 .f32 := V c (Pipeline.arrRef spec15 1)
abbrev q15 (c : Dev nD) : Vec Ideal S10x1x64 .f32 := (dat15 (F := Ideal) V c).arrAt 2 cfg15.N
/-- A row's squared deviations from the means, column by column. -/
def dev15 (c : Dev nD) : Fin 100000 → Fin 64 → EReal :=
  fun a j => (y15 V c (ix2 a j) - mu15 V c (ix2 0 j)) * (y15 V c (ix2 a j) - mu15 V c (ix2 0 j))

/-- The region's block indices over its 10 grid points: the block of rows and the output's row are the point's
    number, every other block index is zero. -/
theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 3) = t.val ∧ win15_2.index t (1 : Fin 3) = 0 ∧ win15_2.index t (2 : Fin 3) = 0 :=
  (by decide +kernel : ∀ t : Fin grid15.N, _)

/-- At grid point `t` the block's arithmetic on the blocks the point reads is block `t`'s sums: row `r` of the
    block of rows is row `10000 t + r` of the array, and the block of means is the array of means. -/
theorem blk_sumsq15 (c : Dev nD) (t : Fin cfg15.N) (ht : t.val < 10) (p q : Fin 1) (l : Fin 64) :
    k15_pay1 (F := Ideal) (iblk15 V c 0 t) (iblk15 V c 1 t) (ix3 p q l)
      = Spec.blockSums (show 100000 = 10 * 10000 from rfl) (dev15 V c) ⟨t.val, ht⟩ l := by
  obtain ⟨e00, e01, e10, e11, e20, e21, e22⟩ := idx_facts15 t
  refine (sumsq_apply (iblk15 V c 0 t) (iblk15 V c 1 t) _ _ _ _ _ _ _ p q l).trans ?_
  refine Finset.sum_congr rfl fun r _ => ?_
  have hy : iblk15 V c 0 t (ix2 r l)
      = y15 V c (ix2 (Spec.blkRow (show 100000 = 10 * 10000 from rfl) ⟨t.val, ht⟩ r) l) := by
    show V c (Pipeline.arrRef spec15 0) (((cfg15.win 0).blk t).view.emb (ix2 r l)) = V c (Pipeline.arrRef spec15 0) _
    refine congrArg (V c (Pipeline.arrRef spec15 0)) ?_
    funext a; apply Fin.ext
    match a with
    | ⟨0, _⟩ => show win15_0.index t (0 : Fin 2) * 10000 + 1 * r.val = t.val * 10000 + r.val; rw [e00]; omega
    | ⟨1, _⟩ => show win15_0.index t (1 : Fin 2) * 64 + 1 * l.val = l.val; rw [e01]; omega
  have hm : iblk15 V c 1 t (ix2 0 l) = mu15 V c (ix2 0 l) := by
    show V c (Pipeline.arrRef spec15 1) (((cfg15.win 1).blk t).view.emb (ix2 0 l)) = V c (Pipeline.arrRef spec15 1) _
    refine congrArg (V c (Pipeline.arrRef spec15 1)) ?_
    funext a; apply Fin.ext
    match a with
    | ⟨0, _⟩ => show win15_1.index t (0 : Fin 2) * 1 + 1 * 0 = 0; rw [e10]
    | ⟨1, _⟩ => show win15_1.index t (1 : Fin 2) * 64 + 1 * l.val = l.val; rw [e11]; omega
  rw [hy, hm]
  rfl

/-- What grid point `t` writes back is block `t` of the array of block sums. -/
theorem flushed15_eq (c : Dev nD) (t : Fin cfg15.N) :
    (dat15 (F := Ideal) V c).flushed 2 t = ((cfg15.win 2).blk t).view.read (Elt Ideal)
      (fun i : S10x1x64.Idx => Spec.blockSums (show 100000 = 10 * 10000 from rfl) (dev15 V c) (i 0) (i 2)) := by
  show (cfg15.win 2).cut (grid15.coords t) ((dat15 (F := Ideal) V c).after 2 t) = _
  rw [after15_2]
  unfold out15_2
  rw [View.canon_unit_zero zeros3]
  simp only [View.ld_unit_zero (S := S10000x64) zeros2, View.ld_unit_zero (S := S1x64) zeros2]
  have ht : t.val < 10 := lt_of_lt_of_eq t.isLt N_15
  obtain ⟨e00, e01, e10, e11, e20, e21, e22⟩ := idx_facts15 t
  refine funext fun j => ?_
  obtain ⟨p, q, l, rfl⟩ : ∃ (p q : Fin 1) (l : Fin 64), j = ix3 p q l := ⟨j 0, j 1, j 2, eq_ix3 j⟩
  show k15_pay1 (F := Ideal) (iblk15 V c 0 t) (iblk15 V c 1 t) (ix3 p q l)
    = Spec.blockSums (show 100000 = 10 * 10000 from rfl) (dev15 V c)
        (((cfg15.win 2).blk t).view.emb (ix3 p q l) 0) (((cfg15.win 2).blk t).view.emb (ix3 p q l) 2)
  have h0 : (((cfg15.win 2).blk t).view.emb (ix3 p q l) 0 : Fin 10) = ⟨t.val, ht⟩ :=
    Fin.ext (by show win15_2.index t (0 : Fin 3) * 1 + 1 * p.val = t.val; rw [e20]; have := p.isLt; omega)
  have h2 : (((cfg15.win 2).blk t).view.emb (ix3 p q l) 2 : Fin 64) = l :=
    Fin.ext (by show win15_2.index t (2 : Fin 3) * 64 + 1 * l.val = l.val; rw [e22]; omega)
  rw [h0, h2]
  exact blk_sumsq15 V c t ht p q l

/-- An entry of the output array is in point `t`'s block iff each coordinate is in the block's range on its axis. -/
theorem mem_blk15 (t : Fin cfg15.N) (i : S10x1x64.Idx) :
    i ∈ ((cfg15.win 2).blk t).view.set ↔ ∀ a : Fin 3, win15_2.index t a * S1x1x64.size a ≤ (i a).val ∧ (i a).val < win15_2.index t a * S1x1x64.size a + S1x1x64.size a := by
  show i ∈ ((View.whole (main_v96)).slice (win15_2.rect t)).set ↔ _
  rw [View.set_slice_whole, Rect.mem_set_unit]
  exact Iff.rfl

/-- Entry `(b, 0, l)` of the output array is in the block of point `b`. -/
theorem cover15 (i : S10x1x64.Idx) :
    ∃ t : Fin cfg15.N, (cfg15.win 2).flush t = true ∧ i ∈ ((cfg15.win 2).blk t).view.set := by
  have h0 : (i 0).val < 10 := (i 0).isLt
  have h1 : (i 1).val < 1 := (i 1).isLt
  have h2 : (i 2).val < 64 := (i 2).isLt
  obtain ⟨t, ht⟩ : ∃ t : Fin cfg15.N, t.val = (i 0).val := ⟨⟨(i 0).val, lt_of_lt_of_eq h0 N_15.symm⟩, rfl⟩
  obtain ⟨e00, e01, e10, e11, e20, e21, e22⟩ := idx_facts15 t
  refine ⟨t, flush15_2 t, ?_⟩
  rw [mem_blk15]
  intro a
  match a with
  | ⟨0, _⟩ => show win15_2.index t (0 : Fin 3) * 1 ≤ (i 0).val ∧ (i 0).val < win15_2.index t (0 : Fin 3) * 1 + 1; rw [e20]; omega
  | ⟨1, _⟩ => show win15_2.index t (1 : Fin 3) * 1 ≤ (i 1).val ∧ (i 1).val < win15_2.index t (1 : Fin 3) * 1 + 1; rw [e21]; omega
  | ⟨2, _⟩ => show win15_2.index t (2 : Fin 3) * 64 ≤ (i 2).val ∧ (i 2).val < win15_2.index t (2 : Fin 3) * 64 + 64; rw [e22]; omega

theorem reg15_parts (c : Dev nD) :
    q15 V c = fun i => Spec.blockSums (show 100000 = 10 * 10000 from rfl) (dev15 V c) (i 0) (i 2) :=
  (dat15 (F := Ideal) V c).arrAt_eq_of_cover 2 _ (fun t _ => flushed15_eq V c t) cover15

end Cert.KernelIdeal.RegVal

end
-- ==== Proof.RegBn_8.lean ====
/-
  Region 8: the column-wise normalisation `g (y - μ) rsqrt(v + ε) + β` clamped at zero, block by block;
  the blocks tile the rows, so the whole output is `Spec.relu (Spec.bn …)` of the whole inputs.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 8: 250000 rows -/

abbrev y8 (c : Dev nD) : Vec Ideal S250000x64 .f32 := V c (Pipeline.arrRef spec8 0)
abbrev mu8 (c : Dev nD) : Vec Ideal S1x64 .f32 := V c (Pipeline.arrRef spec8 1)
abbrev va8 (c : Dev nD) : Vec Ideal S1x64 .f32 := V c (Pipeline.arrRef spec8 2)
abbrev g8 (c : Dev nD) : Vec Ideal S1x64 .f32 := V c (Pipeline.arrRef spec8 3)
abbrev be8 (c : Dev nD) : Vec Ideal S1x64 .f32 := V c (Pipeline.arrRef spec8 4)
abbrev o8 (c : Dev nD) : Vec Ideal S250000x64 .f32 := (dat8 (F := Ideal) V c).arrAt 5 cfg8.N

/-- The zero offsets of a whole-block access, as a constant function. -/
theorem bnZeroOff8 : (![0, 0] : Fin 2 → Nat) = fun _ => 0 := funext fun a => by fin_cases a <;> rfl

/-- The inverse square root of a vector, read at an index. -/
theorem bnRsqrt8_apply {s : Shape} {φ : FTy} (a : FVec Ideal s φ) (i : s.Idx) : rsqrt a i = Ideal.rsqrt (a i) := rfl

/-- The block region 8 stores, at row `p` and column `q`: the entry of `y` centred by `μ`, scaled by `g` and by the
    inverse square root of `v + ε`, shifted by `β`, and clamped at zero; the four rows are read at column `q`. -/
theorem bnPay8_apply (v g : Vec Ideal S1x64 .f32) (y : Vec Ideal S10000x64 .f32) (μ β : Vec Ideal S1x64 .f32)
    (p : Fin 10000) (q : Fin 64) :
    k8_pay1 (F := Ideal) v g y μ β (ix2 p q)
      = max (g (ix2 (0 : Fin 1) q) * (y (ix2 p q) - μ (ix2 (0 : Fin 1) q))
          * Ideal.rsqrt (v (ix2 (0 : Fin 1) q) + Spec.epsW) + β (ix2 (0 : Fin 1) q)) 0 := by
  unfold k8_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    bnRsqrt8_apply, addf_apply, broadcast_apply]
  show max (g (ix2 (0 : Fin 1) q) * (y (ix2 p q) - μ (ix2 (0 : Fin 1) q))
      * Ideal.rsqrt (v (ix2 (0 : Fin 1) q) + Ideal.ofBits .f32 0x3727C5AC#32) + β (ix2 (0 : Fin 1) q))
    (Ideal.ofBits .f32 0x00000000#32) = _
  rw [Ideal.ofBits_zero_f32]

/-- Region 8's block indices, decided over its grid points: the rows of `y` and of the output move with the point,
    the four one-row arrays stay at their only block. -/
theorem bnIdx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The block of `y` at point `t` holds rows `10000 t … 10000 t + 9999` of the array. -/
theorem bnBlk8_0 (c : Dev nD) (t : Fin cfg8.N) (p : Fin 10000) (q : Fin 64) (k : S250000x64.Idx)
    (hk0 : (k 0).val = t.val * 10000 + p.val) (hk1 : (k 1).val = q.val) :
    (iblk8 (F := Ideal) V c 0 t : Vec Ideal S10000x64 .f32) (ix2 p q) = y8 V c k := by
  obtain ⟨e0, e1, -⟩ := bnIdx8 t
  unfold iblk8
  rw [View.read_apply]
  show V c (Pipeline.arrRef spec8 0) _ = V c (Pipeline.arrRef spec8 0) _
  refine congrArg (V c (Pipeline.arrRef spec8 0)) (funext fun a => Fin.ext ?_)
  match a with
  | ⟨0, _⟩ => show win8_0.index t (0 : Fin 2) * 10000 + 1 * p.val = (k 0).val; rw [e0, hk0]; omega
  | ⟨1, _⟩ => show win8_0.index t (1 : Fin 2) * 64 + 1 * q.val = (k 1).val; rw [e1, hk1]; omega

/-- The block of `μ` is its one row, at every point. -/
theorem bnRow8_1 (c : Dev nD) (t : Fin cfg8.N) (q : Fin 64) :
    (iblk8 (F := Ideal) V c 1 t : Vec Ideal S1x64 .f32) (ix2 (0 : Fin 1) q) = mu8 V c (ix2 (0 : Fin 1) q) := by
  obtain ⟨-, -, e0, e1, -⟩ := bnIdx8 t
  unfold iblk8
  rw [View.read_apply]
  show V c (Pipeline.arrRef spec8 1) _ = V c (Pipeline.arrRef spec8 1) _
  refine congrArg (V c (Pipeline.arrRef spec8 1)) (funext fun a => Fin.ext ?_)
  match a with
  | ⟨0, _⟩ => show win8_1.index t (0 : Fin 2) * 1 + 1 * ((0 : Fin 1) : Nat) = ((0 : Fin 1) : Nat); rw [e0]; rfl
  | ⟨1, _⟩ => show win8_1.index t (1 : Fin 2) * 64 + 1 * q.val = q.val; rw [e1]; omega

/-- The block of `v` is its one row, at every point. -/
theorem bnRow8_2 (c : Dev nD) (t : Fin cfg8.N) (q : Fin 64) :
    (iblk8 (F := Ideal) V c 2 t : Vec Ideal S1x64 .f32) (ix2 (0 : Fin 1) q) = va8 V c (ix2 (0 : Fin 1) q) := by
  obtain ⟨-, -, -, -, e0, e1, -⟩ := bnIdx8 t
  unfold iblk8
  rw [View.read_apply]
  show V c (Pipeline.arrRef spec8 2) _ = V c (Pipeline.arrRef spec8 2) _
  refine congrArg (V c (Pipeline.arrRef spec8 2)) (funext fun a => Fin.ext ?_)
  match a with
  | ⟨0, _⟩ => show win8_2.index t (0 : Fin 2) * 1 + 1 * ((0 : Fin 1) : Nat) = ((0 : Fin 1) : Nat); rw [e0]; rfl
  | ⟨1, _⟩ => show win8_2.index t (1 : Fin 2) * 64 + 1 * q.val = q.val; rw [e1]; omega

/-- The block of `g` is its one row, at every point. -/
theorem bnRow8_3 (c : Dev nD) (t : Fin cfg8.N) (q : Fin 64) :
    (iblk8 (F := Ideal) V c 3 t : Vec Ideal S1x64 .f32) (ix2 (0 : Fin 1) q) = g8 V c (ix2 (0 : Fin 1) q) := by
  obtain ⟨-, -, -, -, -, -, e0, e1, -⟩ := bnIdx8 t
  unfold iblk8
  rw [View.read_apply]
  show V c (Pipeline.arrRef spec8 3) _ = V c (Pipeline.arrRef spec8 3) _
  refine congrArg (V c (Pipeline.arrRef spec8 3)) (funext fun a => Fin.ext ?_)
  match a with
  | ⟨0, _⟩ => show win8_3.index t (0 : Fin 2) * 1 + 1 * ((0 : Fin 1) : Nat) = ((0 : Fin 1) : Nat); rw [e0]; rfl
  | ⟨1, _⟩ => show win8_3.index t (1 : Fin 2) * 64 + 1 * q.val = q.val; rw [e1]; omega

/-- The block of `β` is its one row, at every point. -/
theorem bnRow8_4 (c : Dev nD) (t : Fin cfg8.N) (q : Fin 64) :
    (iblk8 (F := Ideal) V c 4 t : Vec Ideal S1x64 .f32) (ix2 (0 : Fin 1) q) = be8 V c (ix2 (0 : Fin 1) q) := by
  obtain ⟨-, -, -, -, -, -, -, -, e0, e1, -⟩ := bnIdx8 t
  unfold iblk8
  rw [View.read_apply]
  show V c (Pipeline.arrRef spec8 4) _ = V c (Pipeline.arrRef spec8 4) _
  refine congrArg (V c (Pipeline.arrRef spec8 4)) (funext fun a => Fin.ext ?_)
  match a with
  | ⟨0, _⟩ => show win8_4.index t (0 : Fin 2) * 1 + 1 * ((0 : Fin 1) : Nat) = ((0 : Fin 1) : Nat); rw [e0]; rfl
  | ⟨1, _⟩ => show win8_4.index t (1 : Fin 2) * 64 + 1 * q.val = q.val; rw [e1]; omega

/-- Reading any array through the output's block at point `t`: entry `(p, q)` of the block is entry `(10000 t + p, q)`. -/
theorem bnOutBlk8 (t : Fin cfg8.N) (p : Fin 10000) (q : Fin 64) (G : Vec Ideal S250000x64 .f32) (r : Fin 250000)
    (hr : r.val = t.val * 10000 + p.val) :
    ((cfg8.win 5).blk t).view.read (Elt Ideal) G (ix2 p q) = G (ix2 r q) := by
  obtain ⟨-, -, -, -, -, -, -, -, -, -, e0, e1⟩ := bnIdx8 t
  rw [View.read_apply]
  show G _ = G _
  refine congrArg G (funext fun a => Fin.ext ?_)
  match a with
  | ⟨0, _⟩ => show win8_5.index t (0 : Fin 2) * 10000 + 1 * p.val = r.val; rw [e0, hr]; omega
  | ⟨1, _⟩ => show win8_5.index t (1 : Fin 2) * 64 + 1 * q.val = q.val; rw [e1]; omega

/-- What point `t` writes back is rows `10000 t … 10000 t + 9999` of the normalised, clamped array. -/
theorem bnFlushed8 (c : Dev nD) (t : Fin cfg8.N) :
    (dat8 (F := Ideal) V c).flushed 5 t = ((cfg8.win 5).blk t).view.read (Elt Ideal)
      (fun i : S250000x64.Idx => Spec.relu (Spec.bn Spec.epsW (fun j => g8 V c (ix2 0 j)) (fun j => be8 V c (ix2 0 j))
        (fun j => mu8 V c (ix2 0 j)) (fun j => va8 V c (ix2 0 j)) (fun a j => y8 V c (ix2 a j))) (i 0) (i 1)) := by
  show (cfg8.win 5).cut (grid8.coords t) ((dat8 (F := Ideal) V c).after 5 t) = _
  rw [after8_5]
  unfold out8_5
  rw [View.canon_unit_zero bnZeroOff8]
  simp only [View.ld_unit_zero (S := S10000x64) bnZeroOff8, View.ld_unit_zero (S := S1x64) bnZeroOff8]
  funext j
  obtain ⟨p, q, rfl⟩ : ∃ (p : Fin 10000) (q : Fin 64), j = ix2 p q := ⟨j 0, j 1, eq_ix2 j⟩
  have hr : t.val * 10000 + p.val < 250000 := by
    have ht : t.val < grid8.N := t.isLt
    rw [N_8] at ht
    omega
  refine Eq.trans ?_ (bnOutBlk8 t p q _ ⟨t.val * 10000 + p.val, hr⟩ rfl).symm
  refine (bnPay8_apply (iblk8 V c 2 t) (iblk8 V c 3 t) (iblk8 V c 0 t) (iblk8 V c 1 t) (iblk8 V c 4 t) p q).trans ?_
  rw [bnRow8_1 V c t q, bnRow8_2 V c t q, bnRow8_3 V c t q, bnRow8_4 V c t q,
    bnBlk8_0 V c t p q (ix2 ⟨t.val * 10000 + p.val, hr⟩ q) rfl rfl]
  rfl

/-- An index of the output array is in point `t`'s block iff each coordinate is in the block's range on its axis. -/
theorem bnMem8 (t : Fin cfg8.N) (i : S250000x64.Idx) :
    i ∈ ((cfg8.win 5).blk t).view.set ↔ ∀ a : Fin 2, win8_5.index t a * S10000x64.size a ≤ (i a).val
      ∧ (i a).val < win8_5.index t a * S10000x64.size a + S10000x64.size a := by
  show i ∈ ((View.whole main_v49).slice (win8_5.rect t)).set ↔ _
  rw [View.set_slice_whole, Rect.mem_set_unit]
  exact Iff.rfl

/-- Every row is written back: row `r` lies in the block of point `r / 10000`. -/
theorem bnCover8 (i : S250000x64.Idx) :
    ∃ t : Fin cfg8.N, (cfg8.win 5).flush t = true ∧ i ∈ ((cfg8.win 5).blk t).view.set := by
  have hi0 : (i 0).val < 250000 := (i 0).isLt
  have hi1 : (i 1).val < 64 := (i 1).isLt
  obtain ⟨t, ht⟩ : ∃ t : Fin cfg8.N, t.val = (i 0).val / 10000 :=
    ⟨⟨(i 0).val / 10000, by show (i 0).val / 10000 < grid8.N; rw [N_8]; omega⟩, rfl⟩
  obtain ⟨-, -, -, -, -, -, -, -, -, -, e0, e1⟩ := bnIdx8 t
  refine ⟨t, flush8_5 t, ?_⟩
  rw [bnMem8]
  intro a
  match a with
  | ⟨0, _⟩ =>
    show win8_5.index t (0 : Fin 2) * 10000 ≤ (i 0).val ∧ (i 0).val < win8_5.index t (0 : Fin 2) * 10000 + 10000
    rw [e0, ht]; omega
  | ⟨1, _⟩ =>
    show win8_5.index t (1 : Fin 2) * 64 ≤ (i 1).val ∧ (i 1).val < win8_5.index t (1 : Fin 2) * 64 + 64
    rw [e1]; omega

theorem reg8_out (c : Dev nD) :
    o8 V c = fun i => Spec.relu (Spec.bn Spec.epsW (fun j => g8 V c (ix2 0 j)) (fun j => be8 V c (ix2 0 j))
      (fun j => mu8 V c (ix2 0 j)) (fun j => va8 V c (ix2 0 j)) (fun a j => y8 V c (ix2 a j))) (i 0) (i 1) :=
  (dat8 (F := Ideal) V c).arrAt_eq_of_cover 5 _ (fun t _ => bnFlushed8 V c t) bnCover8

end Cert.KernelIdeal.RegVal

end
-- ==== Proof.RegBn_11.lean ====
/-
  Region 11: the column-wise normalisation `g (y - μ) rsqrt(v + ε) + β` clamped at zero, block by block;
  the blocks tile the rows, so the whole output is `Spec.relu (Spec.bn …)` of the whole inputs.
-/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 11: 100000 rows -/

abbrev y11 (c : Dev nD) : Vec Ideal S100000x64 .f32 := V c (Pipeline.arrRef spec11 0)
abbrev mu11 (c : Dev nD) : Vec Ideal S1x64 .f32 := V c (Pipeline.arrRef spec11 1)
abbrev va11 (c : Dev nD) : Vec Ideal S1x64 .f32 := V c (Pipeline.arrRef spec11 2)
abbrev g11 (c : Dev nD) : Vec Ideal S1x64 .f32 := V c (Pipeline.arrRef spec11 3)
abbrev be11 (c : Dev nD) : Vec Ideal S1x64 .f32 := V c (Pipeline.arrRef spec11 4)
abbrev o11 (c : Dev nD) : Vec Ideal S100000x64 .f32 := (dat11 (F := Ideal) V c).arrAt 5 cfg11.N

/-- The zero offsets of a whole-block access, as a constant function. -/
theorem bnZeroOff11 : (![0, 0] : Fin 2 → Nat) = fun _ => 0 := funext fun a => by fin_cases a <;> rfl

/-- The inverse square root of a vector, read at an index. -/
theorem bnRsqrt11_apply {s : Shape} {φ : FTy} (a : FVec Ideal s φ) (i : s.Idx) : rsqrt a i = Ideal.rsqrt (a i) := rfl

/-- The block region 11 stores, at row `p` and column `q`: the entry of `y` centred by `μ`, scaled by `g` and by the
    inverse square root of `v + ε`, shifted by `β`, and clamped at zero; the four rows are read at column `q`. -/
theorem bnPay11_apply (v g : Vec Ideal S1x64 .f32) (y : Vec Ideal S10000x64 .f32) (μ β : Vec Ideal S1x64 .f32)
    (p : Fin 10000) (q : Fin 64) :
    k11_pay1 (F := Ideal) v g y μ β (ix2 p q)
      = max (g (ix2 (0 : Fin 1) q) * (y (ix2 p q) - μ (ix2 (0 : Fin 1) q))
          * Ideal.rsqrt (v (ix2 (0 : Fin 1) q) + Spec.epsW) + β (ix2 (0 : Fin 1) q)) 0 := by
  unfold k11_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    bnRsqrt11_apply, addf_apply, broadcast_apply]
  show max (g (ix2 (0 : Fin 1) q) * (y (ix2 p q) - μ (ix2 (0 : Fin 1) q))
      * Ideal.rsqrt (v (ix2 (0 : Fin 1) q) + Ideal.ofBits .f32 0x3727C5AC#32) + β (ix2 (0 : Fin 1) q))
    (Ideal.ofBits .f32 0x00000000#32) = _
  rw [Ideal.ofBits_zero_f32]

/-- Region 11's block indices, decided over its grid points: the rows of `y` and of the output move with the point,
    the four one-row arrays stay at their only block. -/
theorem bnIdx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- The block of `y` at point `t` holds rows `10000 t … 10000 t + 9999` of the array. -/
theorem bnBlk11_0 (c : Dev nD) (t : Fin cfg11.N) (p : Fin 10000) (q : Fin 64) (k : S100000x64.Idx)
    (hk0 : (k 0).val = t.val * 10000 + p.val) (hk1 : (k 1).val = q.val) :
    (iblk11 (F := Ideal) V c 0 t : Vec Ideal S10000x64 .f32) (ix2 p q) = y11 V c k := by
  obtain ⟨e0, e1, -⟩ := bnIdx11 t
  unfold iblk11
  rw [View.read_apply]
  show V c (Pipeline.arrRef spec11 0) _ = V c (Pipeline.arrRef spec11 0) _
  refine congrArg (V c (Pipeline.arrRef spec11 0)) (funext fun a => Fin.ext ?_)
  match a with
  | ⟨0, _⟩ => show win11_0.index t (0 : Fin 2) * 10000 + 1 * p.val = (k 0).val; rw [e0, hk0]; omega
  | ⟨1, _⟩ => show win11_0.index t (1 : Fin 2) * 64 + 1 * q.val = (k 1).val; rw [e1, hk1]; omega

/-- The block of `μ` is its one row, at every point. -/
theorem bnRow11_1 (c : Dev nD) (t : Fin cfg11.N) (q : Fin 64) :
    (iblk11 (F := Ideal) V c 1 t : Vec Ideal S1x64 .f32) (ix2 (0 : Fin 1) q) = mu11 V c (ix2 (0 : Fin 1) q) := by
  obtain ⟨-, -, e0, e1, -⟩ := bnIdx11 t
  unfold iblk11
  rw [View.read_apply]
  show V c (Pipeline.arrRef spec11 1) _ = V c (Pipeline.arrRef spec11 1) _
  refine congrArg (V c (Pipeline.arrRef spec11 1)) (funext fun a => Fin.ext ?_)
  match a with
  | ⟨0, _⟩ => show win11_1.index t (0 : Fin 2) * 1 + 1 * ((0 : Fin 1) : Nat) = ((0 : Fin 1) : Nat); rw [e0]; rfl
  | ⟨1, _⟩ => show win11_1.index t (1 : Fin 2) * 64 + 1 * q.val = q.val; rw [e1]; omega

/-- The block of `v` is its one row, at every point. -/
theorem bnRow11_2 (c : Dev nD) (t : Fin cfg11.N) (q : Fin 64) :
    (iblk11 (F := Ideal) V c 2 t : Vec Ideal S1x64 .f32) (ix2 (0 : Fin 1) q) = va11 V c (ix2 (0 : Fin 1) q) := by
  obtain ⟨-, -, -, -, e0, e1, -⟩ := bnIdx11 t
  unfold iblk11
  rw [View.read_apply]
  show V c (Pipeline.arrRef spec11 2) _ = V c (Pipeline.arrRef spec11 2) _
  refine congrArg (V c (Pipeline.arrRef spec11 2)) (funext fun a => Fin.ext ?_)
  match a with
  | ⟨0, _⟩ => show win11_2.index t (0 : Fin 2) * 1 + 1 * ((0 : Fin 1) : Nat) = ((0 : Fin 1) : Nat); rw [e0]; rfl
  | ⟨1, _⟩ => show win11_2.index t (1 : Fin 2) * 64 + 1 * q.val = q.val; rw [e1]; omega

/-- The block of `g` is its one row, at every point. -/
theorem bnRow11_3 (c : Dev nD) (t : Fin cfg11.N) (q : Fin 64) :
    (iblk11 (F := Ideal) V c 3 t : Vec Ideal S1x64 .f32) (ix2 (0 : Fin 1) q) = g11 V c (ix2 (0 : Fin 1) q) := by
  obtain ⟨-, -, -, -, -, -, e0, e1, -⟩ := bnIdx11 t
  unfold iblk11
  rw [View.read_apply]
  show V c (Pipeline.arrRef spec11 3) _ = V c (Pipeline.arrRef spec11 3) _
  refine congrArg (V c (Pipeline.arrRef spec11 3)) (funext fun a => Fin.ext ?_)
  match a with
  | ⟨0, _⟩ => show win11_3.index t (0 : Fin 2) * 1 + 1 * ((0 : Fin 1) : Nat) = ((0 : Fin 1) : Nat); rw [e0]; rfl
  | ⟨1, _⟩ => show win11_3.index t (1 : Fin 2) * 64 + 1 * q.val = q.val; rw [e1]; omega

/-- The block of `β` is its one row, at every point. -/
theorem bnRow11_4 (c : Dev nD) (t : Fin cfg11.N) (q : Fin 64) :
    (iblk11 (F := Ideal) V c 4 t : Vec Ideal S1x64 .f32) (ix2 (0 : Fin 1) q) = be11 V c (ix2 (0 : Fin 1) q) := by
  obtain ⟨-, -, -, -, -, -, -, -, e0, e1, -⟩ := bnIdx11 t
  unfold iblk11
  rw [View.read_apply]
  show V c (Pipeline.arrRef spec11 4) _ = V c (Pipeline.arrRef spec11 4) _
  refine congrArg (V c (Pipeline.arrRef spec11 4)) (funext fun a => Fin.ext ?_)
  match a with
  | ⟨0, _⟩ => show win11_4.index t (0 : Fin 2) * 1 + 1 * ((0 : Fin 1) : Nat) = ((0 : Fin 1) : Nat); rw [e0]; rfl
  | ⟨1, _⟩ => show win11_4.index t (1 : Fin 2) * 64 + 1 * q.val = q.val; rw [e1]; omega

/-- Reading any array through the output's block at point `t`: entry `(p, q)` of the block is entry `(10000 t + p, q)`. -/
theorem bnOutBlk11 (t : Fin cfg11.N) (p : Fin 10000) (q : Fin 64) (G : Vec Ideal S100000x64 .f32) (r : Fin 100000)
    (hr : r.val = t.val * 10000 + p.val) :
    ((cfg11.win 5).blk t).view.read (Elt Ideal) G (ix2 p q) = G (ix2 r q) := by
  obtain ⟨-, -, -, -, -, -, -, -, -, -, e0, e1⟩ := bnIdx11 t
  rw [View.read_apply]
  show G _ = G _
  refine congrArg G (funext fun a => Fin.ext ?_)
  match a with
  | ⟨0, _⟩ => show win11_5.index t (0 : Fin 2) * 10000 + 1 * p.val = r.val; rw [e0, hr]; omega
  | ⟨1, _⟩ => show win11_5.index t (1 : Fin 2) * 64 + 1 * q.val = q.val; rw [e1]; omega

/-- What point `t` writes back is rows `10000 t … 10000 t + 9999` of the normalised, clamped array. -/
theorem bnFlushed11 (c : Dev nD) (t : Fin cfg11.N) :
    (dat11 (F := Ideal) V c).flushed 5 t = ((cfg11.win 5).blk t).view.read (Elt Ideal)
      (fun i : S100000x64.Idx => Spec.relu (Spec.bn Spec.epsW (fun j => g11 V c (ix2 0 j)) (fun j => be11 V c (ix2 0 j))
        (fun j => mu11 V c (ix2 0 j)) (fun j => va11 V c (ix2 0 j)) (fun a j => y11 V c (ix2 a j))) (i 0) (i 1)) := by
  show (cfg11.win 5).cut (grid11.coords t) ((dat11 (F := Ideal) V c).after 5 t) = _
  rw [after11_5]
  unfold out11_5
  rw [View.canon_unit_zero bnZeroOff11]
  simp only [View.ld_unit_zero (S := S10000x64) bnZeroOff11, View.ld_unit_zero (S := S1x64) bnZeroOff11]
  funext j
  obtain ⟨p, q, rfl⟩ : ∃ (p : Fin 10000) (q : Fin 64), j = ix2 p q := ⟨j 0, j 1, eq_ix2 j⟩
  have hr : t.val * 10000 + p.val < 100000 := by
    have ht : t.val < grid11.N := t.isLt
    rw [N_11] at ht
    omega
  refine Eq.trans ?_ (bnOutBlk11 t p q _ ⟨t.val * 10000 + p.val, hr⟩ rfl).symm
  refine (bnPay11_apply (iblk11 V c 2 t) (iblk11 V c 3 t) (iblk11 V c 0 t) (iblk11 V c 1 t) (iblk11 V c 4 t) p q).trans ?_
  rw [bnRow11_1 V c t q, bnRow11_2 V c t q, bnRow11_3 V c t q, bnRow11_4 V c t q,
    bnBlk11_0 V c t p q (ix2 ⟨t.val * 10000 + p.val, hr⟩ q) rfl rfl]
  rfl

/-- An index of the output array is in point `t`'s block iff each coordinate is in the block's range on its axis. -/
theorem bnMem11 (t : Fin cfg11.N) (i : S100000x64.Idx) :
    i ∈ ((cfg11.win 5).blk t).view.set ↔ ∀ a : Fin 2, win11_5.index t a * S10000x64.size a ≤ (i a).val
      ∧ (i a).val < win11_5.index t a * S10000x64.size a + S10000x64.size a := by
  show i ∈ ((View.whole main_v71).slice (win11_5.rect t)).set ↔ _
  rw [View.set_slice_whole, Rect.mem_set_unit]
  exact Iff.rfl

/-- Every row is written back: row `r` lies in the block of point `r / 10000`. -/
theorem bnCover11 (i : S100000x64.Idx) :
    ∃ t : Fin cfg11.N, (cfg11.win 5).flush t = true ∧ i ∈ ((cfg11.win 5).blk t).view.set := by
  have hi0 : (i 0).val < 100000 := (i 0).isLt
  have hi1 : (i 1).val < 64 := (i 1).isLt
  obtain ⟨t, ht⟩ : ∃ t : Fin cfg11.N, t.val = (i 0).val / 10000 :=
    ⟨⟨(i 0).val / 10000, by show (i 0).val / 10000 < grid11.N; rw [N_11]; omega⟩, rfl⟩
  obtain ⟨-, -, -, -, -, -, -, -, -, -, e0, e1⟩ := bnIdx11 t
  refine ⟨t, flush11_5 t, ?_⟩
  rw [bnMem11]
  intro a
  match a with
  | ⟨0, _⟩ =>
    show win11_5.index t (0 : Fin 2) * 10000 ≤ (i 0).val ∧ (i 0).val < win11_5.index t (0 : Fin 2) * 10000 + 10000
    rw [e0, ht]; omega
  | ⟨1, _⟩ =>
    show win11_5.index t (1 : Fin 2) * 64 ≤ (i 1).val ∧ (i 1).val < win11_5.index t (1 : Fin 2) * 64 + 64
    rw [e1]; omega

theorem reg11_out (c : Dev nD) :
    o11 V c = fun i => Spec.relu (Spec.bn Spec.epsW (fun j => g11 V c (ix2 0 j)) (fun j => be11 V c (ix2 0 j))
      (fun j => mu11 V c (ix2 0 j)) (fun j => va11 V c (ix2 0 j)) (fun a j => y11 V c (ix2 a j))) (i 0) (i 1) :=
  (dat11 (F := Ideal) V c).arrAt_eq_of_cover 5 _ (fun t _ => bnFlushed11 V c t) bnCover11

end Cert.KernelIdeal.RegVal

end
-- ==== Proof.RegSage.lean ====
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

abbrev agg6 (c : Dev nD) : Vec Ideal S250000x64 .f32 := V c (Pipeline.arrRef spec6 0)
abbrev cnt6 (c : Dev nD) : Vec Ideal S250000x1 .f32 := V c (Pipeline.arrRef spec6 1)
abbrev xd6 (c : Dev nD) : Vec Ideal S250000x64 .f32 := V c (Pipeline.arrRef spec6 2)
abbrev wl6 (c : Dev nD) : Vec Ideal S64x64 .f32 := V c (Pipeline.arrRef spec6 3)
abbrev bl6 (c : Dev nD) : Vec Ideal S1x64 .f32 := V c (Pipeline.arrRef spec6 4)
abbrev wr6 (c : Dev nD) : Vec Ideal S64x64 .f32 := V c (Pipeline.arrRef spec6 5)
abbrev y6 (c : Dev nD) : Vec Ideal S250000x64 .f32 := (dat6 (F := Ideal) V c).arrAt 6 cfg6.N
abbrev p6 (c : Dev nD) : Vec Ideal S25x1x64 .f32 := (dat6 (F := Ideal) V c).arrAt 7 cfg6.N
def sage6 (c : Dev nD) : Fin 250000 → Fin 64 → EReal :=
  Spec.sage Spec.oneW (fun a k => agg6 V c (ix2 a k)) (fun a => cnt6 V c (ix2 a 0)) (fun a k => xd6 V c (ix2 a k))
    (fun k j => wl6 V c (ix2 k j)) (fun j => bl6 V c (ix2 0 j)) (fun k j => wr6 V c (ix2 k j))

theorem zeros6_2 : (![0, 0] : Fin 2 → Nat) = fun _ => 0 := funext fun a => by fin_cases a <;> rfl
theorem zeros6_3 : (![0, 0, 0] : Fin 3 → Nat) = fun _ => 0 := funext fun a => by fin_cases a <;> rfl

theorem dot6_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot6_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot6_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot6_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem mm6_apply (lhs : FVec Ideal S10000x64 .f32) (rhs : FVec Ideal S64x64 .f32) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot6_lhs0 _ _
    | ⟨1, _⟩ => exact (dot6_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot6_rhs0 _ _).trans hk
    | ⟨1, _⟩ => exact dot6_rhs1 _ _)
  rw [el, er]

theorem col6_apply (v : FVec Ideal S10000x1 .f32) (h : S10000x1.Broadcasts S10000x64) (p : Fin 10000) (k : Fin 64) :
    broadcastTo S10000x64 v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem rows6_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (p : Fin 10000) (q : Fin 64) :
    k6_pay1 (F := Ideal) x0 x1 x3 x4 x2 x5 (ix2 p q)
      = ((∑ k : Fin 64, Ideal.div (x0 (ix2 p k)) (max (x1 (ix2 p (0 : Fin 1))) Spec.oneW) * x3 (ix2 k q)) + x4 (ix2 (0 : Fin 1) q))
        + ∑ k : Fin 64, x2 (ix2 p k) * x5 (ix2 k q) := by
  unfold k6_pay1
  simp only [shapeCast_self]
  refine (addf_apply _ _ _).trans ?_
  refine congrArg₂ (· + ·) ((addf_apply _ _ _).trans (congrArg₂ (· + ·) ?_ ?_)) ?_
  · refine (mm6_apply _ _ p q).trans (Finset.sum_congr rfl fun k _ => ?_)
    refine congrArg (· * x3 (ix2 k q)) ?_
    refine (divf_apply _ _ _).trans (congrArg (Ideal.div (x0 (ix2 p k))) ?_)
    refine (col6_apply _ _ p k).trans ?_
    rfl
  · exact broadcastTo_1b_ab_apply _ _ p q
  · exact mm6_apply _ _ p q

theorem colsum6_apply (src : FVec Ideal S10000x64 .f32) (h : S10000x64.Reduces [0] S64) (hφ : FKind.Formats .f32)
    (hacc : (0x00000000#32 : BitVec 32) = FKind.add.neutral .f32 hφ) (q : Fin 64) :
    multiReduction (F := Ideal) .add [0] S64 src 0x00000000#32 h hφ hacc (ix1 q) = ∑ r : Fin 10000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

theorem sums6_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (u v : Fin 1) (q : Fin 64) :
    k6_pay2 (F := Ideal) x0 x1 x3 x4 x2 x5 (ix3 u v q) = ∑ r : Fin 10000, k6_pay1 (F := Ideal) x0 x1 x3 x4 x2 x5 (ix2 r q) := by
  unfold k6_pay2
  refine (shapeCast_apply _ _ (ix3 u v q) (ix1 q) ?_).trans (colsum6_apply _ _ _ _ q)
  rw [Shape.rowMajor_val_one, Shape.rowMajor_val_three]
  show q.val = (u.val * 1 + v.val) * 64 + q.val
  omega

theorem idx6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = t.val ∧ win6_6.index t (1 : Fin 2) = 0)
    ∧ (win6_7.index t (0 : Fin 3) = t.val ∧ win6_7.index t (1 : Fin 3) = 0 ∧ win6_7.index t (2 : Fin 3) = 0) :=
  (by decide +kernel : ∀ t : Fin grid6.N, _)

theorem blk6_0 (c : Dev nD) (t : Fin cfg6.N) (p : Fin 10000) (k : Fin 64) (r : Fin 250000) (hr : r.val = t.val * 10000 + p.val) :
    (iblk6 (F := Ideal) V c 0 t : Vec Ideal S10000x64 .f32) (ix2 p k) = agg6 V c (ix2 r k) := by
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 10000 + 1 * p.val = r.val; rw [(idx6 t).1.1, hr]; omega
  | ⟨1, _⟩ => show win6_0.index t (1 : Fin 2) * 64 + 1 * k.val = k.val; rw [(idx6 t).1.2]; omega

theorem blk6_1 (c : Dev nD) (t : Fin cfg6.N) (p : Fin 10000) (r : Fin 250000) (hr : r.val = t.val * 10000 + p.val) :
    (iblk6 (F := Ideal) V c 1 t : Vec Ideal S10000x1 .f32) (ix2 p (0 : Fin 1)) = cnt6 V c (ix2 r (0 : Fin 1)) := by
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 10000 + 1 * p.val = r.val; rw [(idx6 t).2.1.1, hr]; omega
  | ⟨1, _⟩ => show win6_1.index t (1 : Fin 2) * 1 + 1 * 0 = 0; rw [(idx6 t).2.1.2]

theorem blk6_2 (c : Dev nD) (t : Fin cfg6.N) (p : Fin 10000) (k : Fin 64) (r : Fin 250000) (hr : r.val = t.val * 10000 + p.val) :
    (iblk6 (F := Ideal) V c 2 t : Vec Ideal S10000x64 .f32) (ix2 p k) = xd6 V c (ix2 r k) := by
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 10000 + 1 * p.val = r.val; rw [(idx6 t).2.2.1.1, hr]; omega
  | ⟨1, _⟩ => show win6_2.index t (1 : Fin 2) * 64 + 1 * k.val = k.val; rw [(idx6 t).2.2.1.2]; omega

theorem blk6_3 (c : Dev nD) (t : Fin cfg6.N) (k : Fin 64) (q : Fin 64) :
    (iblk6 (F := Ideal) V c 3 t : Vec Ideal S64x64 .f32) (ix2 k q) = wl6 V c (ix2 k q) := by
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 64 + 1 * k.val = k.val; rw [(idx6 t).2.2.2.1.1]; omega
  | ⟨1, _⟩ => show win6_3.index t (1 : Fin 2) * 64 + 1 * q.val = q.val; rw [(idx6 t).2.2.2.1.2]; omega

theorem blk6_4 (c : Dev nD) (t : Fin cfg6.N) (q : Fin 64) :
    (iblk6 (F := Ideal) V c 4 t : Vec Ideal S1x64 .f32) (ix2 (0 : Fin 1) q) = bl6 V c (ix2 (0 : Fin 1) q) := by
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 1 + 1 * 0 = 0; rw [(idx6 t).2.2.2.2.1.1]
  | ⟨1, _⟩ => show win6_4.index t (1 : Fin 2) * 64 + 1 * q.val = q.val; rw [(idx6 t).2.2.2.2.1.2]; omega

theorem blk6_5 (c : Dev nD) (t : Fin cfg6.N) (k : Fin 64) (q : Fin 64) :
    (iblk6 (F := Ideal) V c 5 t : Vec Ideal S64x64 .f32) (ix2 k q) = wr6 V c (ix2 k q) := by
  unfold iblk6
  rw [View.read_apply]
  show V c (Pipeline.arrRef spec6 5) _ = V c (Pipeline.arrRef spec6 5) _
  congr 1
  funext a
  apply Fin.ext
  match a with
  | ⟨0, _⟩ => show win6_5.index t (0 : Fin 2) * 64 + 1 * k.val = k.val; rw [(idx6 t).2.2.2.2.2.1.1]; omega
  | ⟨1, _⟩ => show win6_5.index t (1 : Fin 2) * 64 + 1 * q.val = q.val; rw [(idx6 t).2.2.2.2.2.1.2]; omega

theorem point6 (c : Dev nD) (t : Fin cfg6.N) (p : Fin 10000) (q : Fin 64) (r : Fin 250000) (hr : r.val = t.val * 10000 + p.val) :
    k6_pay1 (F := Ideal) (iblk6 V c 0 t) (iblk6 V c 1 t) (iblk6 V c 3 t) (iblk6 V c 4 t) (iblk6 V c 2 t) (iblk6 V c 5 t) (ix2 p q)
      = sage6 V c r q := by
  refine (rows6_apply (iblk6 V c 0 t) (iblk6 V c 1 t) (iblk6 V c 3 t) (iblk6 V c 4 t) (iblk6 V c 2 t) (iblk6 V c 5 t) p q).trans ?_
  unfold sage6 Spec.sage
  refine congrArg₂ (· + ·) (congrArg₂ (· + ·) (Finset.sum_congr rfl fun k _ => ?_) (blk6_4 V c t q)) (Finset.sum_congr rfl fun k _ => ?_)
  · exact congrArg₂ (· * ·) (congrArg₂ Ideal.div (blk6_0 V c t p k r hr) (congrArg (max · Spec.oneW) (blk6_1 V c t p r hr))) (blk6_3 V c t k q)
  · exact congrArg₂ (· * ·) (blk6_2 V c t p k r hr) (blk6_5 V c t k q)

abbrev G6 (c : Dev nD) : Vec Ideal S250000x64 .f32 := fun i => sage6 V c (i 0) (i 1)

theorem flushed6_6_eq (c : Dev nD) (t : Fin cfg6.N) :
    (dat6 (F := Ideal) V c).flushed 6 t = ((cfg6.win 6).blk t).view.read (Elt Ideal) (G6 V c) := by
  show (cfg6.win 6).cut (grid6.coords t) ((dat6 (F := Ideal) V c).after 6 t) = _
  rw [after6_6]
  unfold out6_6
  rw [View.canon_unit_zero zeros6_2]
  simp only [View.ld_unit_zero (S := S10000x64) zeros6_2, View.ld_unit_zero (S := S10000x1) zeros6_2, View.ld_unit_zero (S := S64x64) zeros6_2, View.ld_unit_zero (S := S1x64) zeros6_2]
  funext j
  obtain ⟨p, q, rfl⟩ : ∃ (p : Fin 10000) (q : Fin 64), j = ix2 p q := ⟨j 0, j 1, eq_ix2 j⟩
  have hN : cfg6.N = 25 := N_6
  have ht := t.isLt
  refine (point6 V c t p q ⟨t.val * 10000 + p.val, by omega⟩ rfl).trans ?_
  show sage6 V c _ _ = sage6 V c (((cfg6.win 6).blk t).view.emb (ix2 p q) 0) (((cfg6.win 6).blk t).view.emb (ix2 p q) 1)
  refine congrArg₂ (sage6 V c) (Fin.ext ?_) (Fin.ext ?_)
  · show t.val * 10000 + p.val = win6_6.index t (0 : Fin 2) * 10000 + 1 * p.val; rw [(idx6 t).2.2.2.2.2.2.1.1]; omega
  · show q.val = win6_6.index t (1 : Fin 2) * 64 + 1 * q.val; rw [(idx6 t).2.2.2.2.2.2.1.2]; omega

theorem psum6 (c : Dev nD) (t : Fin cfg6.N) (u v : Fin 1) (q : Fin 64) (T : Fin 25) (hT : T.val = t.val) :
    k6_pay2 (F := Ideal) (iblk6 V c 0 t) (iblk6 V c 1 t) (iblk6 V c 3 t) (iblk6 V c 4 t) (iblk6 V c 2 t) (iblk6 V c 5 t) (ix3 u v q)
      = Spec.blockSums (show 250000 = 25 * 10000 from rfl) (sage6 V c) T q := by
  refine (sums6_apply (iblk6 V c 0 t) (iblk6 V c 1 t) (iblk6 V c 3 t) (iblk6 V c 4 t) (iblk6 V c 2 t) (iblk6 V c 5 t) u v q).trans ?_
  unfold Spec.blockSums
  refine Finset.sum_congr rfl fun r _ => point6 V c t r q _ ?_
  show T.val * 10000 + r.val = t.val * 10000 + r.val
  rw [hT]

abbrev P6 (c : Dev nD) : Vec Ideal S25x1x64 .f32 := fun i => Spec.blockSums (show 250000 = 25 * 10000 from rfl) (sage6 V c) (i 0) (i 2)

theorem flushed6_7_eq (c : Dev nD) (t : Fin cfg6.N) :
    (dat6 (F := Ideal) V c).flushed 7 t = ((cfg6.win 7).blk t).view.read (Elt Ideal) (P6 V c) := by
  show (cfg6.win 7).cut (grid6.coords t) ((dat6 (F := Ideal) V c).after 7 t) = _
  rw [after6_7]
  unfold out6_7
  rw [View.canon_unit_zero zeros6_3]
  simp only [View.ld_unit_zero (S := S10000x64) zeros6_2, View.ld_unit_zero (S := S10000x1) zeros6_2, View.ld_unit_zero (S := S64x64) zeros6_2, View.ld_unit_zero (S := S1x64) zeros6_2]
  funext j
  obtain ⟨u, v, q, rfl⟩ : ∃ (u v : Fin 1) (q : Fin 64), j = ix3 u v q := ⟨j 0, j 1, j 2, eq_ix3 j⟩
  have hN : cfg6.N = 25 := N_6
  have ht := t.isLt
  have hu : u.val = 0 := by omega
  refine (psum6 V c t u v q ⟨t.val, by omega⟩ rfl).trans ?_
  show Spec.blockSums _ (sage6 V c) _ _ = Spec.blockSums _ (sage6 V c) (((cfg6.win 7).blk t).view.emb (ix3 u v q) 0) (((cfg6.win 7).blk t).view.emb (ix3 u v q) 2)
  refine congrArg₂ (Spec.blockSums _ (sage6 V c)) (Fin.ext ?_) (Fin.ext ?_)
  · show t.val = win6_7.index t (0 : Fin 3) * 1 + 1 * u.val; rw [(idx6 t).2.2.2.2.2.2.2.1, hu]; omega
  · show q.val = win6_7.index t (2 : Fin 3) * 64 + 1 * q.val; rw [(idx6 t).2.2.2.2.2.2.2.2.2]; omega

theorem mem_blk6_6 (t : Fin cfg6.N) (i : S250000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v37_0).slice (win6_6.rect t)).set ↔ _
  rw [View.set_slice_whole, Rect.mem_set_unit]
  exact Iff.rfl

theorem mem_blk6_7 (t : Fin cfg6.N) (i : S25x1x64.Idx) :
    i ∈ ((cfg6.win 7).blk t).view.set ↔ ∀ a : Fin 3, win6_7.index t a * S1x1x64.size a ≤ (i a).val ∧ (i a).val < win6_7.index t a * S1x1x64.size a + S1x1x64.size a := by
  show i ∈ ((View.whole main_v37_1).slice (win6_7.rect t)).set ↔ _
  rw [View.set_slice_whole, Rect.mem_set_unit]
  exact Iff.rfl

/-- Row by row the first output is the neighbour-mean combination of the six inputs. -/
theorem reg6_y (c : Dev nD) : y6 V c = fun i => sage6 V c (i 0) (i 1) :=
  (dat6 (F := Ideal) V c).arrAt_eq_of_cover 6 (G6 V c) (fun t _ => flushed6_6_eq V c t) fun i => by
    have hi0 : (i 0).val < 250000 := (i 0).isLt
    have hi1 : (i 1).val < 64 := (i 1).isLt
    have hN : cfg6.N = 25 := N_6
    refine ⟨⟨(i 0).val / 10000, by omega⟩, flush6_6 _, ?_⟩
    rw [mem_blk6_6]
    intro a
    match a with
    | ⟨0, _⟩ =>
      show win6_6.index _ (0 : Fin 2) * 10000 ≤ (i 0).val ∧ (i 0).val < win6_6.index _ (0 : Fin 2) * 10000 + 10000
      rw [(idx6 _).2.2.2.2.2.2.1.1]
      show (i 0).val / 10000 * 10000 ≤ (i 0).val ∧ (i 0).val < (i 0).val / 10000 * 10000 + 10000
      omega
    | ⟨1, _⟩ =>
      show win6_6.index _ (1 : Fin 2) * 64 ≤ (i 1).val ∧ (i 1).val < win6_6.index _ (1 : Fin 2) * 64 + 64
      rw [(idx6 _).2.2.2.2.2.2.1.2]
      omega

theorem reg6_parts (c : Dev nD) :
    p6 V c = fun i => Spec.blockSums (show 250000 = 25 * 10000 from rfl) (sage6 V c) (i 0) (i 2) :=
  (dat6 (F := Ideal) V c).arrAt_eq_of_cover 7 (P6 V c) (fun t _ => flushed6_7_eq V c t) fun i => by
    have hi0 : (i 0).val < 25 := (i 0).isLt
    have hi1 : (i 1).val < 1 := (i 1).isLt
    have hi2 : (i 2).val < 64 := (i 2).isLt
    have hN : cfg6.N = 25 := N_6
    refine ⟨⟨(i 0).val, by omega⟩, flush6_7 _, ?_⟩
    rw [mem_blk6_7]
    intro a
    match a with
    | ⟨0, _⟩ =>
      show win6_7.index _ (0 : Fin 3) * 1 ≤ (i 0).val ∧ (i 0).val < win6_7.index _ (0 : Fin 3) * 1 + 1
      rw [(idx6 _).2.2.2.2.2.2.2.1]
      show (i 0).val * 1 ≤ (i 0).val ∧ (i 0).val < (i 0).val * 1 + 1
      omega
    | ⟨1, _⟩ =>
      show win6_7.index _ (1 : Fin 3) * 1 ≤ (i 1).val ∧ (i 1).val < win6_7.index _ (1 : Fin 3) * 1 + 1
      rw [(idx6 _).2.2.2.2.2.2.2.2.1]
      omega
    | ⟨2, _⟩ =>
      show win6_7.index _ (2 : Fin 3) * 64 ≤ (i 2).val ∧ (i 2).val < win6_7.index _ (2 : Fin 3) * 64 + 64
      rw [(idx6 _).2.2.2.2.2.2.2.2.2]
      omega

end Cert.KernelIdeal.RegVal

end
-- ==== Proof.RegSage_9.lean ====
/- Region 9: per block of 10000 rows, the neighbour mean `agg / max(cnt, 1)` through one weight matrix plus a
   bias plus the node's own row through a second weight matrix, and that block's column sums; 100000 rows in 10 blocks. -/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 9: 100000 rows -/

abbrev agg9 (c : Dev nD) : Vec Ideal S100000x64 .f32 := V c (Pipeline.arrRef spec9 0)
abbrev cnt9 (c : Dev nD) : Vec Ideal S100000x1 .f32 := V c (Pipeline.arrRef spec9 1)
abbrev xd9 (c : Dev nD) : Vec Ideal S100000x64 .f32 := V c (Pipeline.arrRef spec9 2)
abbrev wl9 (c : Dev nD) : Vec Ideal S64x64 .f32 := V c (Pipeline.arrRef spec9 3)
abbrev bl9 (c : Dev nD) : Vec Ideal S1x64 .f32 := V c (Pipeline.arrRef spec9 4)
abbrev wr9 (c : Dev nD) : Vec Ideal S64x64 .f32 := V c (Pipeline.arrRef spec9 5)
abbrev y9 (c : Dev nD) : Vec Ideal S100000x64 .f32 := (dat9 (F := Ideal) V c).arrAt 6 cfg9.N
abbrev p9 (c : Dev nD) : Vec Ideal S10x1x64 .f32 := (dat9 (F := Ideal) V c).arrAt 7 cfg9.N
/-- The combined rows of region 9's inputs. -/
def sage9 (c : Dev nD) : Fin 100000 → Fin 64 → EReal :=
  Spec.sage Spec.oneW (fun a k => agg9 V c (ix2 a k)) (fun a => cnt9 V c (ix2 a 0)) (fun a k => xd9 V c (ix2 a k))
    (fun k j => wl9 V c (ix2 k j)) (fun j => bl9 V c (ix2 0 j)) (fun k j => wr9 V c (ix2 k j))

/-! ### The body's arithmetic at an entry -/

theorem zeros9_2 : (![0, 0] : Fin 2 → Nat) = fun _ => 0 := funext fun a => by fin_cases a <;> rfl
theorem zeros9_3 : (![0, 0, 0] : Fin 3 → Nat) = fun _ => 0 := funext fun a => by fin_cases a <;> rfl

/-- Where the block product reads its operands: the left operand at (row, contraction index), -/
theorem dot9_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot9_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at (contraction index, column). -/
theorem dot9_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot9_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of 10000 rows times a 64x64 matrix, into the zero accumulator: entry (p, q) is the sum over k of
    row p's k-th entry times the matrix's (k, q) entry. -/
theorem mm9_apply (lhs : FVec Ideal S10000x64 .f32) (rhs : FVec Ideal S64x64 .f32) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot9_lhs0 _ _
    | ⟨1, _⟩ => exact (dot9_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot9_rhs0 _ _).trans hk
    | ⟨1, _⟩ => exact dot9_rhs1 _ _)
  rw [el, er]

/-- A column of 10000 entries broadcast along 64 columns reads, at (p, k), the column's entry p. -/
theorem col9_apply (v : FVec Ideal S10000x1 .f32) (h : S10000x1.Broadcasts S10000x64) (p : Fin 10000) (k : Fin 64) :
    broadcastTo S10000x64 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The rows' payload at entry (p, q): row p of the first block divided by max(count p, 1), through the left matrix,
    plus the bias at q, plus row p of the third block through the right matrix. -/
theorem rows9_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (p : Fin 10000) (q : Fin 64) :
    k9_pay1 (F := Ideal) x0 x1 x3 x4 x2 x5 (ix2 p q)
      = ((∑ k : Fin 64, Ideal.div (x0 (ix2 p k)) (max (x1 (ix2 p (0 : Fin 1))) Spec.oneW) * x3 (ix2 k q)) + x4 (ix2 (0 : Fin 1) q))
        + ∑ k : Fin 64, x2 (ix2 p k) * x5 (ix2 k q) := by
  unfold k9_pay1
  simp only [shapeCast_self]
  refine (addf_apply _ _ _).trans ?_
  refine congrArg₂ (· + ·) ((addf_apply _ _ _).trans (congrArg₂ (· + ·) ?_ ?_)) ?_
  · refine (mm9_apply _ _ p q).trans (Finset.sum_congr rfl fun k _ => ?_)
    refine congrArg (· * x3 (ix2 k q)) ?_
    refine (divf_apply _ _ _).trans (congrArg (Ideal.div (x0 (ix2 p k))) ?_)
    refine (col9_apply _ _ p k).trans ?_
    rfl
  · exact broadcastTo_1b_ab_apply _ _ p q
  · exact mm9_apply _ _ p q

/-- The lane sum over a block's 10000 rows, at column q. -/
theorem colsum9_apply (src : FVec Ideal S10000x64 .f32) (h : S10000x64.Reduces [0] S64) (hφ : FKind.Formats .f32)
    (hacc : (0x00000000#32 : BitVec 32) = FKind.add.neutral .f32 hφ) (q : Fin 64) :
    multiReduction (F := Ideal) .add [0] S64 src 0x00000000#32 h hφ hacc (ix1 q) = ∑ r : Fin 10000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' payload at column q: the sum over the block's rows of the rows' payload. -/
theorem sums9_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (u v : Fin 1) (q : Fin 64) :
    k9_pay2 (F := Ideal) x0 x1 x3 x4 x2 x5 (ix3 u v q) = ∑ r : Fin 10000, k9_pay1 (F := Ideal) x0 x1 x3 x4 x2 x5 (ix2 r q) := by
  unfold k9_pay2
  refine (shapeCast_apply _ _ (ix3 u v q) (ix1 q) ?_).trans (colsum9_apply _ _ _ _ q)
  rw [Shape.rowMajor_val_one, Shape.rowMajor_val_three]
  show q.val = (u.val * 1 + v.val) * 64 + q.val
  omega

/-! ### The windows' blocks as parts of the arrays -/

/-- Region 9's index maps, decided over its 10 grid points: the row windows and both outputs sit at block t, the two
    matrices and the bias row at block 0. -/
theorem idx9 : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = t.val ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = 0 ∧ win9_5.index t (1 : Fin 2) = 0)
    ∧ (win9_6.index t (0 : Fin 2) = t.val ∧ win9_6.index t (1 : Fin 2) = 0)
    ∧ (win9_7.index t (0 : Fin 3) = t.val ∧ win9_7.index t (1 : Fin 3) = 0 ∧ win9_7.index t (2 : Fin 3) = 0) :=
  (by decide +kernel : ∀ t : Fin grid9.N, _)

/-- Block t of the neighbour sums is rows 10000 t … 10000 t + 9999 of the array. -/
theorem blk9_0 (c : Dev nD) (t : Fin cfg9.N) (p : Fin 10000) (k : Fin 64) (r : Fin 100000) (hr : r.val = t.val * 10000 + p.val) :
    (iblk9 (F := Ideal) V c 0 t : Vec Ideal S10000x64 .f32) (ix2 p k) = agg9 V c (ix2 r k) := by
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 10000 + 1 * p.val = r.val; rw [(idx9 t).1.1, hr]; omega
  | ⟨1, _⟩ => show win9_0.index t (1 : Fin 2) * 64 + 1 * k.val = k.val; rw [(idx9 t).1.2]; omega

/-- Block t of the neighbour counts is rows 10000 t … of the count column. -/
theorem blk9_1 (c : Dev nD) (t : Fin cfg9.N) (p : Fin 10000) (r : Fin 100000) (hr : r.val = t.val * 10000 + p.val) :
    (iblk9 (F := Ideal) V c 1 t : Vec Ideal S10000x1 .f32) (ix2 p (0 : Fin 1)) = cnt9 V c (ix2 r (0 : Fin 1)) := by
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 10000 + 1 * p.val = r.val; rw [(idx9 t).2.1.1, hr]; omega
  | ⟨1, _⟩ => show win9_1.index t (1 : Fin 2) * 1 + 1 * 0 = 0; rw [(idx9 t).2.1.2]

/-- Block t of the nodes' own rows is rows 10000 t … of the array. -/
theorem blk9_2 (c : Dev nD) (t : Fin cfg9.N) (p : Fin 10000) (k : Fin 64) (r : Fin 100000) (hr : r.val = t.val * 10000 + p.val) :
    (iblk9 (F := Ideal) V c 2 t : Vec Ideal S10000x64 .f32) (ix2 p k) = xd9 V c (ix2 r k) := by
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 10000 + 1 * p.val = r.val; rw [(idx9 t).2.2.1.1, hr]; omega
  | ⟨1, _⟩ => show win9_2.index t (1 : Fin 2) * 64 + 1 * k.val = k.val; rw [(idx9 t).2.2.1.2]; omega

/-- Every point's block of the left matrix is the whole matrix. -/
theorem blk9_3 (c : Dev nD) (t : Fin cfg9.N) (k : Fin 64) (q : Fin 64) :
    (iblk9 (F := Ideal) V c 3 t : Vec Ideal S64x64 .f32) (ix2 k q) = wl9 V c (ix2 k q) := by
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 64 + 1 * k.val = k.val; rw [(idx9 t).2.2.2.1.1]; omega
  | ⟨1, _⟩ => show win9_3.index t (1 : Fin 2) * 64 + 1 * q.val = q.val; rw [(idx9 t).2.2.2.1.2]; omega

/-- Every point's block of the bias row is the whole row. -/
theorem blk9_4 (c : Dev nD) (t : Fin cfg9.N) (q : Fin 64) :
    (iblk9 (F := Ideal) V c 4 t : Vec Ideal S1x64 .f32) (ix2 (0 : Fin 1) q) = bl9 V c (ix2 (0 : Fin 1) q) := by
  unfold iblk9
  rw [View.read_apply]
  show V c (Pipeline.arrRef spec9 4) _ = V c (Pipeline.arrRef spec9 4) _
  congr 1
  funext a
  apply Fin.ext
  match a with
  | ⟨0, _⟩ => show win9_4.index t (0 : Fin 2) * 1 + 1 * 0 = 0; rw [(idx9 t).2.2.2.2.1.1]
  | ⟨1, _⟩ => show win9_4.index t (1 : Fin 2) * 64 + 1 * q.val = q.val; rw [(idx9 t).2.2.2.2.1.2]; omega

/-- Every point's block of the right matrix is the whole matrix. -/
theorem blk9_5 (c : Dev nD) (t : Fin cfg9.N) (k : Fin 64) (q : Fin 64) :
    (iblk9 (F := Ideal) V c 5 t : Vec Ideal S64x64 .f32) (ix2 k q) = wr9 V c (ix2 k q) := by
  unfold iblk9
  rw [View.read_apply]
  show V c (Pipeline.arrRef spec9 5) _ = V c (Pipeline.arrRef spec9 5) _
  congr 1
  funext a
  apply Fin.ext
  match a with
  | ⟨0, _⟩ => show win9_5.index t (0 : Fin 2) * 64 + 1 * k.val = k.val; rw [(idx9 t).2.2.2.2.2.1.1]; omega
  | ⟨1, _⟩ => show win9_5.index t (1 : Fin 2) * 64 + 1 * q.val = q.val; rw [(idx9 t).2.2.2.2.2.1.2]; omega

/-- What point t's body computes at entry (p, q) of its block is the combined row 10000 t + p at column q. -/
theorem point9 (c : Dev nD) (t : Fin cfg9.N) (p : Fin 10000) (q : Fin 64) (r : Fin 100000) (hr : r.val = t.val * 10000 + p.val) :
    k9_pay1 (F := Ideal) (iblk9 V c 0 t) (iblk9 V c 1 t) (iblk9 V c 3 t) (iblk9 V c 4 t) (iblk9 V c 2 t) (iblk9 V c 5 t) (ix2 p q)
      = sage9 V c r q := by
  refine (rows9_apply (iblk9 V c 0 t) (iblk9 V c 1 t) (iblk9 V c 3 t) (iblk9 V c 4 t) (iblk9 V c 2 t) (iblk9 V c 5 t) p q).trans ?_
  unfold sage9 Spec.sage
  refine congrArg₂ (· + ·) (congrArg₂ (· + ·) (Finset.sum_congr rfl fun k _ => ?_) (blk9_4 V c t q)) (Finset.sum_congr rfl fun k _ => ?_)
  · exact congrArg₂ (· * ·) (congrArg₂ Ideal.div (blk9_0 V c t p k r hr) (congrArg (max · Spec.oneW) (blk9_1 V c t p r hr))) (blk9_3 V c t k q)
  · exact congrArg₂ (· * ·) (blk9_2 V c t p k r hr) (blk9_5 V c t k q)

/-- The whole-array function of output 6: the combined rows. -/
abbrev G9 (c : Dev nD) : Vec Ideal S100000x64 .f32 := fun i => sage9 V c (i 0) (i 1)

/-- What point t writes back to the row output is block t of the combined rows. -/
theorem flushed9_6_eq (c : Dev nD) (t : Fin cfg9.N) :
    (dat9 (F := Ideal) V c).flushed 6 t = ((cfg9.win 6).blk t).view.read (Elt Ideal) (G9 V c) := by
  show (cfg9.win 6).cut (grid9.coords t) ((dat9 (F := Ideal) V c).after 6 t) = _
  rw [after9_6]
  unfold out9_6
  rw [View.canon_unit_zero zeros9_2]
  simp only [View.ld_unit_zero (S := S10000x64) zeros9_2, View.ld_unit_zero (S := S10000x1) zeros9_2, View.ld_unit_zero (S := S64x64) zeros9_2, View.ld_unit_zero (S := S1x64) zeros9_2]
  funext j
  obtain ⟨p, q, rfl⟩ : ∃ (p : Fin 10000) (q : Fin 64), j = ix2 p q := ⟨j 0, j 1, eq_ix2 j⟩
  have hN : cfg9.N = 10 := N_9
  have ht := t.isLt
  refine (point9 V c t p q ⟨t.val * 10000 + p.val, by omega⟩ rfl).trans ?_
  show sage9 V c _ _ = sage9 V c (((cfg9.win 6).blk t).view.emb (ix2 p q) 0) (((cfg9.win 6).blk t).view.emb (ix2 p q) 1)
  refine congrArg₂ (sage9 V c) (Fin.ext ?_) (Fin.ext ?_)
  · show t.val * 10000 + p.val = win9_6.index t (0 : Fin 2) * 10000 + 1 * p.val; rw [(idx9 t).2.2.2.2.2.2.1.1]; omega
  · show q.val = win9_6.index t (1 : Fin 2) * 64 + 1 * q.val; rw [(idx9 t).2.2.2.2.2.2.1.2]; omega

/-- What point t's body computes at column q of its sums' block is block t's column sum of the combined rows. -/
theorem psum9 (c : Dev nD) (t : Fin cfg9.N) (u v : Fin 1) (q : Fin 64) (T : Fin 10) (hT : T.val = t.val) :
    k9_pay2 (F := Ideal) (iblk9 V c 0 t) (iblk9 V c 1 t) (iblk9 V c 3 t) (iblk9 V c 4 t) (iblk9 V c 2 t) (iblk9 V c 5 t) (ix3 u v q)
      = Spec.blockSums (show 100000 = 10 * 10000 from rfl) (sage9 V c) T q := by
  refine (sums9_apply (iblk9 V c 0 t) (iblk9 V c 1 t) (iblk9 V c 3 t) (iblk9 V c 4 t) (iblk9 V c 2 t) (iblk9 V c 5 t) u v q).trans ?_
  unfold Spec.blockSums
  refine Finset.sum_congr rfl fun r _ => point9 V c t r q _ ?_
  show T.val * 10000 + r.val = t.val * 10000 + r.val
  rw [hT]

/-- The whole-array function of output 7: each block's column sums. -/
abbrev P9 (c : Dev nD) : Vec Ideal S10x1x64 .f32 := fun i => Spec.blockSums (show 100000 = 10 * 10000 from rfl) (sage9 V c) (i 0) (i 2)

/-- What point t writes back to the sums' output is block t of the blocks' column sums. -/
theorem flushed9_7_eq (c : Dev nD) (t : Fin cfg9.N) :
    (dat9 (F := Ideal) V c).flushed 7 t = ((cfg9.win 7).blk t).view.read (Elt Ideal) (P9 V c) := by
  show (cfg9.win 7).cut (grid9.coords t) ((dat9 (F := Ideal) V c).after 7 t) = _
  rw [after9_7]
  unfold out9_7
  rw [View.canon_unit_zero zeros9_3]
  simp only [View.ld_unit_zero (S := S10000x64) zeros9_2, View.ld_unit_zero (S := S10000x1) zeros9_2, View.ld_unit_zero (S := S64x64) zeros9_2, View.ld_unit_zero (S := S1x64) zeros9_2]
  funext j
  obtain ⟨u, v, q, rfl⟩ : ∃ (u v : Fin 1) (q : Fin 64), j = ix3 u v q := ⟨j 0, j 1, j 2, eq_ix3 j⟩
  have hN : cfg9.N = 10 := N_9
  have ht := t.isLt
  have hu : u.val = 0 := by omega
  refine (psum9 V c t u v q ⟨t.val, by omega⟩ rfl).trans ?_
  show Spec.blockSums _ (sage9 V c) _ _ = Spec.blockSums _ (sage9 V c) (((cfg9.win 7).blk t).view.emb (ix3 u v q) 0) (((cfg9.win 7).blk t).view.emb (ix3 u v q) 2)
  refine congrArg₂ (Spec.blockSums _ (sage9 V c)) (Fin.ext ?_) (Fin.ext ?_)
  · show t.val = win9_7.index t (0 : Fin 3) * 1 + 1 * u.val; rw [(idx9 t).2.2.2.2.2.2.2.1, hu]; omega
  · show q.val = win9_7.index t (2 : Fin 3) * 64 + 1 * q.val; rw [(idx9 t).2.2.2.2.2.2.2.2.2]; omega

/-- A row index is in point t's block of the row output iff each coordinate is in the block's range on its axis. -/
theorem mem_blk9_6 (t : Fin cfg9.N) (i : S100000x64.Idx) :
    i ∈ ((cfg9.win 6).blk t).view.set ↔ ∀ a : Fin 2, win9_6.index t a * S10000x64.size a ≤ (i a).val ∧ (i a).val < win9_6.index t a * S10000x64.size a + S10000x64.size a := by
  show i ∈ ((View.whole main_v59_0).slice (win9_6.rect t)).set ↔ _
  rw [View.set_slice_whole, Rect.mem_set_unit]
  exact Iff.rfl

/-- The same for the sums' output. -/
theorem mem_blk9_7 (t : Fin cfg9.N) (i : S10x1x64.Idx) :
    i ∈ ((cfg9.win 7).blk t).view.set ↔ ∀ a : Fin 3, win9_7.index t a * S1x1x64.size a ≤ (i a).val ∧ (i a).val < win9_7.index t a * S1x1x64.size a + S1x1x64.size a := by
  show i ∈ ((View.whole main_v59_1).slice (win9_7.rect t)).set ↔ _
  rw [View.set_slice_whole, Rect.mem_set_unit]
  exact Iff.rfl

theorem reg9_y (c : Dev nD) : y9 V c = fun i => sage9 V c (i 0) (i 1) :=
  (dat9 (F := Ideal) V c).arrAt_eq_of_cover 6 (G9 V c) (fun t _ => flushed9_6_eq V c t) fun i => by
    have hi0 : (i 0).val < 100000 := (i 0).isLt
    have hi1 : (i 1).val < 64 := (i 1).isLt
    have hN : cfg9.N = 10 := N_9
    refine ⟨⟨(i 0).val / 10000, by omega⟩, flush9_6 _, ?_⟩
    rw [mem_blk9_6]
    intro a
    match a with
    | ⟨0, _⟩ =>
      show win9_6.index _ (0 : Fin 2) * 10000 ≤ (i 0).val ∧ (i 0).val < win9_6.index _ (0 : Fin 2) * 10000 + 10000
      rw [(idx9 _).2.2.2.2.2.2.1.1]
      show (i 0).val / 10000 * 10000 ≤ (i 0).val ∧ (i 0).val < (i 0).val / 10000 * 10000 + 10000
      omega
    | ⟨1, _⟩ =>
      show win9_6.index _ (1 : Fin 2) * 64 ≤ (i 1).val ∧ (i 1).val < win9_6.index _ (1 : Fin 2) * 64 + 64
      rw [(idx9 _).2.2.2.2.2.2.1.2]
      omega

theorem reg9_parts (c : Dev nD) :
    p9 V c = fun i => Spec.blockSums (show 100000 = 10 * 10000 from rfl) (sage9 V c) (i 0) (i 2) :=
  (dat9 (F := Ideal) V c).arrAt_eq_of_cover 7 (P9 V c) (fun t _ => flushed9_7_eq V c t) fun i => by
    have hi0 : (i 0).val < 10 := (i 0).isLt
    have hi1 : (i 1).val < 1 := (i 1).isLt
    have hi2 : (i 2).val < 64 := (i 2).isLt
    have hN : cfg9.N = 10 := N_9
    refine ⟨⟨(i 0).val, by omega⟩, flush9_7 _, ?_⟩
    rw [mem_blk9_7]
    intro a
    match a with
    | ⟨0, _⟩ =>
      show win9_7.index _ (0 : Fin 3) * 1 ≤ (i 0).val ∧ (i 0).val < win9_7.index _ (0 : Fin 3) * 1 + 1
      rw [(idx9 _).2.2.2.2.2.2.2.1]
      show (i 0).val * 1 ≤ (i 0).val ∧ (i 0).val < (i 0).val * 1 + 1
      omega
    | ⟨1, _⟩ =>
      show win9_7.index _ (1 : Fin 3) * 1 ≤ (i 1).val ∧ (i 1).val < win9_7.index _ (1 : Fin 3) * 1 + 1
      rw [(idx9 _).2.2.2.2.2.2.2.2.1]
      omega
    | ⟨2, _⟩ =>
      show win9_7.index _ (2 : Fin 3) * 64 ≤ (i 2).val ∧ (i 2).val < win9_7.index _ (2 : Fin 3) * 64 + 64
      rw [(idx9 _).2.2.2.2.2.2.2.2.2]
      omega

end Cert.KernelIdeal.RegVal

end
-- ==== Proof.RegSage_12.lean ====
/- Region 12: per block of 10000 rows, the neighbour mean `agg / max(cnt, 1)` through one weight matrix plus a
   bias plus the node's own row through a second weight matrix, and that block's column sums; 250000 rows in 25 blocks. -/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 12: 250000 rows -/

abbrev agg12 (c : Dev nD) : Vec Ideal S250000x64 .f32 := V c (Pipeline.arrRef spec12 0)
abbrev cnt12 (c : Dev nD) : Vec Ideal S250000x1 .f32 := V c (Pipeline.arrRef spec12 1)
abbrev xd12 (c : Dev nD) : Vec Ideal S250000x64 .f32 := V c (Pipeline.arrRef spec12 2)
abbrev wl12 (c : Dev nD) : Vec Ideal S64x64 .f32 := V c (Pipeline.arrRef spec12 3)
abbrev bl12 (c : Dev nD) : Vec Ideal S1x64 .f32 := V c (Pipeline.arrRef spec12 4)
abbrev wr12 (c : Dev nD) : Vec Ideal S64x64 .f32 := V c (Pipeline.arrRef spec12 5)
abbrev y12 (c : Dev nD) : Vec Ideal S250000x64 .f32 := (dat12 (F := Ideal) V c).arrAt 6 cfg12.N
abbrev p12 (c : Dev nD) : Vec Ideal S25x1x64 .f32 := (dat12 (F := Ideal) V c).arrAt 7 cfg12.N
/-- The combined rows of region 12's inputs. -/
def sage12 (c : Dev nD) : Fin 250000 → Fin 64 → EReal :=
  Spec.sage Spec.oneW (fun a k => agg12 V c (ix2 a k)) (fun a => cnt12 V c (ix2 a 0)) (fun a k => xd12 V c (ix2 a k))
    (fun k j => wl12 V c (ix2 k j)) (fun j => bl12 V c (ix2 0 j)) (fun k j => wr12 V c (ix2 k j))

/-! ### The body's arithmetic at an entry -/

theorem zeros12_2 : (![0, 0] : Fin 2 → Nat) = fun _ => 0 := funext fun a => by fin_cases a <;> rfl
theorem zeros12_3 : (![0, 0, 0] : Fin 3 → Nat) = fun _ => 0 := funext fun a => by fin_cases a <;> rfl

/-- Where the block product reads its operands: the left operand at (row, contraction index), -/
theorem dot12_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot12_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at (contraction index, column). -/
theorem dot12_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot12_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of 10000 rows times a 64x64 matrix, into the zero accumulator: entry (p, q) is the sum over k of
    row p's k-th entry times the matrix's (k, q) entry. -/
theorem mm12_apply (lhs : FVec Ideal S10000x64 .f32) (rhs : FVec Ideal S64x64 .f32) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot12_lhs0 _ _
    | ⟨1, _⟩ => exact (dot12_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot12_rhs0 _ _).trans hk
    | ⟨1, _⟩ => exact dot12_rhs1 _ _)
  rw [el, er]

/-- A column of 10000 entries broadcast along 64 columns reads, at (p, k), the column's entry p. -/
theorem col12_apply (v : FVec Ideal S10000x1 .f32) (h : S10000x1.Broadcasts S10000x64) (p : Fin 10000) (k : Fin 64) :
    broadcastTo S10000x64 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The rows' payload at entry (p, q): row p of the first block divided by max(count p, 1), through the left matrix,
    plus the bias at q, plus row p of the third block through the right matrix. -/
theorem rows12_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (p : Fin 10000) (q : Fin 64) :
    k12_pay1 (F := Ideal) x0 x1 x3 x4 x2 x5 (ix2 p q)
      = ((∑ k : Fin 64, Ideal.div (x0 (ix2 p k)) (max (x1 (ix2 p (0 : Fin 1))) Spec.oneW) * x3 (ix2 k q)) + x4 (ix2 (0 : Fin 1) q))
        + ∑ k : Fin 64, x2 (ix2 p k) * x5 (ix2 k q) := by
  unfold k12_pay1
  simp only [shapeCast_self]
  refine (addf_apply _ _ _).trans ?_
  refine congrArg₂ (· + ·) ((addf_apply _ _ _).trans (congrArg₂ (· + ·) ?_ ?_)) ?_
  · refine (mm12_apply _ _ p q).trans (Finset.sum_congr rfl fun k _ => ?_)
    refine congrArg (· * x3 (ix2 k q)) ?_
    refine (divf_apply _ _ _).trans (congrArg (Ideal.div (x0 (ix2 p k))) ?_)
    refine (col12_apply _ _ p k).trans ?_
    rfl
  · exact broadcastTo_1b_ab_apply _ _ p q
  · exact mm12_apply _ _ p q

/-- The lane sum over a block's 10000 rows, at column q. -/
theorem colsum12_apply (src : FVec Ideal S10000x64 .f32) (h : S10000x64.Reduces [0] S64) (hφ : FKind.Formats .f32)
    (hacc : (0x00000000#32 : BitVec 32) = FKind.add.neutral .f32 hφ) (q : Fin 64) :
    multiReduction (F := Ideal) .add [0] S64 src 0x00000000#32 h hφ hacc (ix1 q) = ∑ r : Fin 10000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' payload at column q: the sum over the block's rows of the rows' payload. -/
theorem sums12_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (u v : Fin 1) (q : Fin 64) :
    k12_pay2 (F := Ideal) x0 x1 x3 x4 x2 x5 (ix3 u v q) = ∑ r : Fin 10000, k12_pay1 (F := Ideal) x0 x1 x3 x4 x2 x5 (ix2 r q) := by
  unfold k12_pay2
  refine (shapeCast_apply _ _ (ix3 u v q) (ix1 q) ?_).trans (colsum12_apply _ _ _ _ q)
  rw [Shape.rowMajor_val_one, Shape.rowMajor_val_three]
  show q.val = (u.val * 1 + v.val) * 64 + q.val
  omega

/-! ### The windows' blocks as parts of the arrays -/

/-- Region 12's index maps, decided over its 25 grid points: the row windows and both outputs sit at block t, the two
    matrices and the bias row at block 0. -/
theorem idx12 : ∀ t : Fin cfg12.N,
    (win12_0.index t (0 : Fin 2) = t.val ∧ win12_0.index t (1 : Fin 2) = 0)
    ∧ (win12_1.index t (0 : Fin 2) = t.val ∧ win12_1.index t (1 : Fin 2) = 0)
    ∧ (win12_2.index t (0 : Fin 2) = t.val ∧ win12_2.index t (1 : Fin 2) = 0)
    ∧ (win12_3.index t (0 : Fin 2) = 0 ∧ win12_3.index t (1 : Fin 2) = 0)
    ∧ (win12_4.index t (0 : Fin 2) = 0 ∧ win12_4.index t (1 : Fin 2) = 0)
    ∧ (win12_5.index t (0 : Fin 2) = 0 ∧ win12_5.index t (1 : Fin 2) = 0)
    ∧ (win12_6.index t (0 : Fin 2) = t.val ∧ win12_6.index t (1 : Fin 2) = 0)
    ∧ (win12_7.index t (0 : Fin 3) = t.val ∧ win12_7.index t (1 : Fin 3) = 0 ∧ win12_7.index t (2 : Fin 3) = 0) :=
  (by decide +kernel : ∀ t : Fin grid12.N, _)

/-- Block t of the neighbour sums is rows 10000 t … 10000 t + 9999 of the array. -/
theorem blk12_0 (c : Dev nD) (t : Fin cfg12.N) (p : Fin 10000) (k : Fin 64) (r : Fin 250000) (hr : r.val = t.val * 10000 + p.val) :
    (iblk12 (F := Ideal) V c 0 t : Vec Ideal S10000x64 .f32) (ix2 p k) = agg12 V c (ix2 r k) := by
  unfold iblk12
  rw [View.read_apply]
  show V c (Pipeline.arrRef spec12 0) _ = V c (Pipeline.arrRef spec12 0) _
  congr 1
  funext a
  apply Fin.ext
  match a with
  | ⟨0, _⟩ => show win12_0.index t (0 : Fin 2) * 10000 + 1 * p.val = r.val; rw [(idx12 t).1.1, hr]; omega
  | ⟨1, _⟩ => show win12_0.index t (1 : Fin 2) * 64 + 1 * k.val = k.val; rw [(idx12 t).1.2]; omega

/-- Block t of the neighbour counts is rows 10000 t … of the count column. -/
theorem blk12_1 (c : Dev nD) (t : Fin cfg12.N) (p : Fin 10000) (r : Fin 250000) (hr : r.val = t.val * 10000 + p.val) :
    (iblk12 (F := Ideal) V c 1 t : Vec Ideal S10000x1 .f32) (ix2 p (0 : Fin 1)) = cnt12 V c (ix2 r (0 : Fin 1)) := by
  unfold iblk12
  rw [View.read_apply]
  show V c (Pipeline.arrRef spec12 1) _ = V c (Pipeline.arrRef spec12 1) _
  congr 1
  funext a
  apply Fin.ext
  match a with
  | ⟨0, _⟩ => show win12_1.index t (0 : Fin 2) * 10000 + 1 * p.val = r.val; rw [(idx12 t).2.1.1, hr]; omega
  | ⟨1, _⟩ => show win12_1.index t (1 : Fin 2) * 1 + 1 * 0 = 0; rw [(idx12 t).2.1.2]

/-- Block t of the nodes' own rows is rows 10000 t … of the array. -/
theorem blk12_2 (c : Dev nD) (t : Fin cfg12.N) (p : Fin 10000) (k : Fin 64) (r : Fin 250000) (hr : r.val = t.val * 10000 + p.val) :
    (iblk12 (F := Ideal) V c 2 t : Vec Ideal S10000x64 .f32) (ix2 p k) = xd12 V c (ix2 r k) := by
  unfold iblk12
  rw [View.read_apply]
  show V c (Pipeline.arrRef spec12 2) _ = V c (Pipeline.arrRef spec12 2) _
  congr 1
  funext a
  apply Fin.ext
  match a with
  | ⟨0, _⟩ => show win12_2.index t (0 : Fin 2) * 10000 + 1 * p.val = r.val; rw [(idx12 t).2.2.1.1, hr]; omega
  | ⟨1, _⟩ => show win12_2.index t (1 : Fin 2) * 64 + 1 * k.val = k.val; rw [(idx12 t).2.2.1.2]; omega

/-- Every point's block of the left matrix is the whole matrix. -/
theorem blk12_3 (c : Dev nD) (t : Fin cfg12.N) (k : Fin 64) (q : Fin 64) :
    (iblk12 (F := Ideal) V c 3 t : Vec Ideal S64x64 .f32) (ix2 k q) = wl12 V c (ix2 k q) := by
  unfold iblk12
  rw [View.read_apply]
  show V c (Pipeline.arrRef spec12 3) _ = V c (Pipeline.arrRef spec12 3) _
  congr 1
  funext a
  apply Fin.ext
  match a with
  | ⟨0, _⟩ => show win12_3.index t (0 : Fin 2) * 64 + 1 * k.val = k.val; rw [(idx12 t).2.2.2.1.1]; omega
  | ⟨1, _⟩ => show win12_3.index t (1 : Fin 2) * 64 + 1 * q.val = q.val; rw [(idx12 t).2.2.2.1.2]; omega

/-- Every point's block of the bias row is the whole row. -/
theorem blk12_4 (c : Dev nD) (t : Fin cfg12.N) (q : Fin 64) :
    (iblk12 (F := Ideal) V c 4 t : Vec Ideal S1x64 .f32) (ix2 (0 : Fin 1) q) = bl12 V c (ix2 (0 : Fin 1) q) := by
  unfold iblk12
  rw [View.read_apply]
  show V c (Pipeline.arrRef spec12 4) _ = V c (Pipeline.arrRef spec12 4) _
  congr 1
  funext a
  apply Fin.ext
  match a with
  | ⟨0, _⟩ => show win12_4.index t (0 : Fin 2) * 1 + 1 * 0 = 0; rw [(idx12 t).2.2.2.2.1.1]
  | ⟨1, _⟩ => show win12_4.index t (1 : Fin 2) * 64 + 1 * q.val = q.val; rw [(idx12 t).2.2.2.2.1.2]; omega

/-- Every point's block of the right matrix is the whole matrix. -/
theorem blk12_5 (c : Dev nD) (t : Fin cfg12.N) (k : Fin 64) (q : Fin 64) :
    (iblk12 (F := Ideal) V c 5 t : Vec Ideal S64x64 .f32) (ix2 k q) = wr12 V c (ix2 k q) := by
  unfold iblk12
  rw [View.read_apply]
  show V c (Pipeline.arrRef spec12 5) _ = V c (Pipeline.arrRef spec12 5) _
  congr 1
  funext a
  apply Fin.ext
  match a with
  | ⟨0, _⟩ => show win12_5.index t (0 : Fin 2) * 64 + 1 * k.val = k.val; rw [(idx12 t).2.2.2.2.2.1.1]; omega
  | ⟨1, _⟩ => show win12_5.index t (1 : Fin 2) * 64 + 1 * q.val = q.val; rw [(idx12 t).2.2.2.2.2.1.2]; omega

/-- What point t's body computes at entry (p, q) of its block is the combined row 10000 t + p at column q. -/
theorem point12 (c : Dev nD) (t : Fin cfg12.N) (p : Fin 10000) (q : Fin 64) (r : Fin 250000) (hr : r.val = t.val * 10000 + p.val) :
    k12_pay1 (F := Ideal) (iblk12 V c 0 t) (iblk12 V c 1 t) (iblk12 V c 3 t) (iblk12 V c 4 t) (iblk12 V c 2 t) (iblk12 V c 5 t) (ix2 p q)
      = sage12 V c r q := by
  refine (rows12_apply (iblk12 V c 0 t) (iblk12 V c 1 t) (iblk12 V c 3 t) (iblk12 V c 4 t) (iblk12 V c 2 t) (iblk12 V c 5 t) p q).trans ?_
  unfold sage12 Spec.sage
  refine congrArg₂ (· + ·) (congrArg₂ (· + ·) (Finset.sum_congr rfl fun k _ => ?_) (blk12_4 V c t q)) (Finset.sum_congr rfl fun k _ => ?_)
  · exact congrArg₂ (· * ·) (congrArg₂ Ideal.div (blk12_0 V c t p k r hr) (congrArg (max · Spec.oneW) (blk12_1 V c t p r hr))) (blk12_3 V c t k q)
  · exact congrArg₂ (· * ·) (blk12_2 V c t p k r hr) (blk12_5 V c t k q)

/-- The whole-array function of output 6: the combined rows. -/
abbrev G12 (c : Dev nD) : Vec Ideal S250000x64 .f32 := fun i => sage12 V c (i 0) (i 1)

/-- What point t writes back to the row output is block t of the combined rows. -/
theorem flushed12_6_eq (c : Dev nD) (t : Fin cfg12.N) :
    (dat12 (F := Ideal) V c).flushed 6 t = ((cfg12.win 6).blk t).view.read (Elt Ideal) (G12 V c) := by
  show (cfg12.win 6).cut (grid12.coords t) ((dat12 (F := Ideal) V c).after 6 t) = _
  rw [after12_6]
  unfold out12_6
  rw [View.canon_unit_zero zeros12_2]
  simp only [View.ld_unit_zero (S := S10000x64) zeros12_2, View.ld_unit_zero (S := S10000x1) zeros12_2, View.ld_unit_zero (S := S64x64) zeros12_2, View.ld_unit_zero (S := S1x64) zeros12_2]
  funext j
  obtain ⟨p, q, rfl⟩ : ∃ (p : Fin 10000) (q : Fin 64), j = ix2 p q := ⟨j 0, j 1, eq_ix2 j⟩
  have hN : cfg12.N = 25 := N_12
  have ht := t.isLt
  refine (point12 V c t p q ⟨t.val * 10000 + p.val, by omega⟩ rfl).trans ?_
  show sage12 V c _ _ = sage12 V c (((cfg12.win 6).blk t).view.emb (ix2 p q) 0) (((cfg12.win 6).blk t).view.emb (ix2 p q) 1)
  refine congrArg₂ (sage12 V c) (Fin.ext ?_) (Fin.ext ?_)
  · show t.val * 10000 + p.val = win12_6.index t (0 : Fin 2) * 10000 + 1 * p.val; rw [(idx12 t).2.2.2.2.2.2.1.1]; omega
  · show q.val = win12_6.index t (1 : Fin 2) * 64 + 1 * q.val; rw [(idx12 t).2.2.2.2.2.2.1.2]; omega

/-- What point t's body computes at column q of its sums' block is block t's column sum of the combined rows. -/
theorem psum12 (c : Dev nD) (t : Fin cfg12.N) (u v : Fin 1) (q : Fin 64) (T : Fin 25) (hT : T.val = t.val) :
    k12_pay2 (F := Ideal) (iblk12 V c 0 t) (iblk12 V c 1 t) (iblk12 V c 3 t) (iblk12 V c 4 t) (iblk12 V c 2 t) (iblk12 V c 5 t) (ix3 u v q)
      = Spec.blockSums (show 250000 = 25 * 10000 from rfl) (sage12 V c) T q := by
  refine (sums12_apply (iblk12 V c 0 t) (iblk12 V c 1 t) (iblk12 V c 3 t) (iblk12 V c 4 t) (iblk12 V c 2 t) (iblk12 V c 5 t) u v q).trans ?_
  unfold Spec.blockSums
  refine Finset.sum_congr rfl fun r _ => point12 V c t r q _ ?_
  show T.val * 10000 + r.val = t.val * 10000 + r.val
  rw [hT]

/-- The whole-array function of output 7: each block's column sums. -/
abbrev P12 (c : Dev nD) : Vec Ideal S25x1x64 .f32 := fun i => Spec.blockSums (show 250000 = 25 * 10000 from rfl) (sage12 V c) (i 0) (i 2)

/-- What point t writes back to the sums' output is block t of the blocks' column sums. -/
theorem flushed12_7_eq (c : Dev nD) (t : Fin cfg12.N) :
    (dat12 (F := Ideal) V c).flushed 7 t = ((cfg12.win 7).blk t).view.read (Elt Ideal) (P12 V c) := by
  show (cfg12.win 7).cut (grid12.coords t) ((dat12 (F := Ideal) V c).after 7 t) = _
  rw [after12_7]
  unfold out12_7
  rw [View.canon_unit_zero zeros12_3]
  simp only [View.ld_unit_zero (S := S10000x64) zeros12_2, View.ld_unit_zero (S := S10000x1) zeros12_2, View.ld_unit_zero (S := S64x64) zeros12_2, View.ld_unit_zero (S := S1x64) zeros12_2]
  funext j
  obtain ⟨u, v, q, rfl⟩ : ∃ (u v : Fin 1) (q : Fin 64), j = ix3 u v q := ⟨j 0, j 1, j 2, eq_ix3 j⟩
  have hN : cfg12.N = 25 := N_12
  have ht := t.isLt
  have hu : u.val = 0 := by omega
  refine (psum12 V c t u v q ⟨t.val, by omega⟩ rfl).trans ?_
  show Spec.blockSums _ (sage12 V c) _ _ = Spec.blockSums _ (sage12 V c) (((cfg12.win 7).blk t).view.emb (ix3 u v q) 0) (((cfg12.win 7).blk t).view.emb (ix3 u v q) 2)
  refine congrArg₂ (Spec.blockSums _ (sage12 V c)) (Fin.ext ?_) (Fin.ext ?_)
  · show t.val = win12_7.index t (0 : Fin 3) * 1 + 1 * u.val; rw [(idx12 t).2.2.2.2.2.2.2.1, hu]; omega
  · show q.val = win12_7.index t (2 : Fin 3) * 64 + 1 * q.val; rw [(idx12 t).2.2.2.2.2.2.2.2.2]; omega

/-- A row index is in point t's block of the row output iff each coordinate is in the block's range on its axis. -/
theorem mem_blk12_6 (t : Fin cfg12.N) (i : S250000x64.Idx) :
    i ∈ ((cfg12.win 6).blk t).view.set ↔ ∀ a : Fin 2, win12_6.index t a * S10000x64.size a ≤ (i a).val ∧ (i a).val < win12_6.index t a * S10000x64.size a + S10000x64.size a := by
  show i ∈ ((View.whole main_v77_0).slice (win12_6.rect t)).set ↔ _
  rw [View.set_slice_whole, Rect.mem_set_unit]
  exact Iff.rfl

/-- The same for the sums' output. -/
theorem mem_blk12_7 (t : Fin cfg12.N) (i : S25x1x64.Idx) :
    i ∈ ((cfg12.win 7).blk t).view.set ↔ ∀ a : Fin 3, win12_7.index t a * S1x1x64.size a ≤ (i a).val ∧ (i a).val < win12_7.index t a * S1x1x64.size a + S1x1x64.size a := by
  show i ∈ ((View.whole main_v77_1).slice (win12_7.rect t)).set ↔ _
  rw [View.set_slice_whole, Rect.mem_set_unit]
  exact Iff.rfl

theorem reg12_y (c : Dev nD) : y12 V c = fun i => sage12 V c (i 0) (i 1) :=
  (dat12 (F := Ideal) V c).arrAt_eq_of_cover 6 (G12 V c) (fun t _ => flushed12_6_eq V c t) fun i => by
    have hi0 : (i 0).val < 250000 := (i 0).isLt
    have hi1 : (i 1).val < 64 := (i 1).isLt
    have hN : cfg12.N = 25 := N_12
    refine ⟨⟨(i 0).val / 10000, by omega⟩, flush12_6 _, ?_⟩
    rw [mem_blk12_6]
    intro a
    match a with
    | ⟨0, _⟩ =>
      show win12_6.index _ (0 : Fin 2) * 10000 ≤ (i 0).val ∧ (i 0).val < win12_6.index _ (0 : Fin 2) * 10000 + 10000
      rw [(idx12 _).2.2.2.2.2.2.1.1]
      show (i 0).val / 10000 * 10000 ≤ (i 0).val ∧ (i 0).val < (i 0).val / 10000 * 10000 + 10000
      omega
    | ⟨1, _⟩ =>
      show win12_6.index _ (1 : Fin 2) * 64 ≤ (i 1).val ∧ (i 1).val < win12_6.index _ (1 : Fin 2) * 64 + 64
      rw [(idx12 _).2.2.2.2.2.2.1.2]
      omega

theorem reg12_parts (c : Dev nD) :
    p12 V c = fun i => Spec.blockSums (show 250000 = 25 * 10000 from rfl) (sage12 V c) (i 0) (i 2) :=
  (dat12 (F := Ideal) V c).arrAt_eq_of_cover 7 (P12 V c) (fun t _ => flushed12_7_eq V c t) fun i => by
    have hi0 : (i 0).val < 25 := (i 0).isLt
    have hi1 : (i 1).val < 1 := (i 1).isLt
    have hi2 : (i 2).val < 64 := (i 2).isLt
    have hN : cfg12.N = 25 := N_12
    refine ⟨⟨(i 0).val, by omega⟩, flush12_7 _, ?_⟩
    rw [mem_blk12_7]
    intro a
    match a with
    | ⟨0, _⟩ =>
      show win12_7.index _ (0 : Fin 3) * 1 ≤ (i 0).val ∧ (i 0).val < win12_7.index _ (0 : Fin 3) * 1 + 1
      rw [(idx12 _).2.2.2.2.2.2.2.1]
      show (i 0).val * 1 ≤ (i 0).val ∧ (i 0).val < (i 0).val * 1 + 1
      omega
    | ⟨1, _⟩ =>
      show win12_7.index _ (1 : Fin 3) * 1 ≤ (i 1).val ∧ (i 1).val < win12_7.index _ (1 : Fin 3) * 1 + 1
      rw [(idx12 _).2.2.2.2.2.2.2.2.1]
      omega
    | ⟨2, _⟩ =>
      show win12_7.index _ (2 : Fin 3) * 64 ≤ (i 2).val ∧ (i 2).val < win12_7.index _ (2 : Fin 3) * 64 + 64
      rw [(idx12 _).2.2.2.2.2.2.2.2.2]
      omega

end Cert.KernelIdeal.RegVal

end
-- ==== Proof.RegSage_14.lean ====
/- Region 14: per block of 10000 rows, the neighbour mean `agg / max(cnt, 1)` through one weight matrix plus a
   bias plus the node's own row through a second weight matrix, and that block's column sums; 100000 rows in 10 blocks. -/
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

-- The TensorCore's buffer contents when a region is entered: every statement below holds for any such contents.
variable (V : (c : Dev nD) → (b : Ref sig .tc) → Buf (Elt Ideal) ((c : Thread nD τ).loc b))

/-! ## Region 14: 100000 rows -/

abbrev agg14 (c : Dev nD) : Vec Ideal S100000x64 .f32 := V c (Pipeline.arrRef spec14 0)
abbrev cnt14 (c : Dev nD) : Vec Ideal S100000x1 .f32 := V c (Pipeline.arrRef spec14 1)
abbrev xd14 (c : Dev nD) : Vec Ideal S100000x64 .f32 := V c (Pipeline.arrRef spec14 2)
abbrev wl14 (c : Dev nD) : Vec Ideal S64x64 .f32 := V c (Pipeline.arrRef spec14 3)
abbrev bl14 (c : Dev nD) : Vec Ideal S1x64 .f32 := V c (Pipeline.arrRef spec14 4)
abbrev wr14 (c : Dev nD) : Vec Ideal S64x64 .f32 := V c (Pipeline.arrRef spec14 5)
abbrev y14 (c : Dev nD) : Vec Ideal S100000x64 .f32 := (dat14 (F := Ideal) V c).arrAt 6 cfg14.N
abbrev p14 (c : Dev nD) : Vec Ideal S10x1x64 .f32 := (dat14 (F := Ideal) V c).arrAt 7 cfg14.N
/-- The combined rows of region 14's inputs. -/
def sage14 (c : Dev nD) : Fin 100000 → Fin 64 → EReal :=
  Spec.sage Spec.oneW (fun a k => agg14 V c (ix2 a k)) (fun a => cnt14 V c (ix2 a 0)) (fun a k => xd14 V c (ix2 a k))
    (fun k j => wl14 V c (ix2 k j)) (fun j => bl14 V c (ix2 0 j)) (fun k j => wr14 V c (ix2 k j))

/-! ### The body's arithmetic at an entry -/

theorem zeros14_2 : (![0, 0] : Fin 2 → Nat) = fun _ => 0 := funext fun a => by fin_cases a <;> rfl
theorem zeros14_3 : (![0, 0, 0] : Fin 3 → Nat) = fun _ => 0 := funext fun a => by fin_cases a <;> rfl

/-- Where the block product reads its operands: the left operand at (row, contraction index), -/
theorem dot14_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot14_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at (contraction index, column). -/
theorem dot14_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot14_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of 10000 rows times a 64x64 matrix, into the zero accumulator: entry (p, q) is the sum over k of
    row p's k-th entry times the matrix's (k, q) entry. -/
theorem mm14_apply (lhs : FVec Ideal S10000x64 .f32) (rhs : FVec Ideal S64x64 .f32) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot14_lhs0 _ _
    | ⟨1, _⟩ => exact (dot14_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot14_rhs0 _ _).trans hk
    | ⟨1, _⟩ => exact dot14_rhs1 _ _)
  rw [el, er]

/-- A column of 10000 entries broadcast along 64 columns reads, at (p, k), the column's entry p. -/
theorem col14_apply (v : FVec Ideal S10000x1 .f32) (h : S10000x1.Broadcasts S10000x64) (p : Fin 10000) (k : Fin 64) :
    broadcastTo S10000x64 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The rows' payload at entry (p, q): row p of the first block divided by max(count p, 1), through the left matrix,
    plus the bias at q, plus row p of the third block through the right matrix. -/
theorem rows14_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (p : Fin 10000) (q : Fin 64) :
    k14_pay1 (F := Ideal) x0 x1 x3 x4 x2 x5 (ix2 p q)
      = ((∑ k : Fin 64, Ideal.div (x0 (ix2 p k)) (max (x1 (ix2 p (0 : Fin 1))) Spec.oneW) * x3 (ix2 k q)) + x4 (ix2 (0 : Fin 1) q))
        + ∑ k : Fin 64, x2 (ix2 p k) * x5 (ix2 k q) := by
  unfold k14_pay1
  simp only [shapeCast_self]
  refine (addf_apply _ _ _).trans ?_
  refine congrArg₂ (· + ·) ((addf_apply _ _ _).trans (congrArg₂ (· + ·) ?_ ?_)) ?_
  · refine (mm14_apply _ _ p q).trans (Finset.sum_congr rfl fun k _ => ?_)
    refine congrArg (· * x3 (ix2 k q)) ?_
    refine (divf_apply _ _ _).trans (congrArg (Ideal.div (x0 (ix2 p k))) ?_)
    refine (col14_apply _ _ p k).trans ?_
    rfl
  · exact broadcastTo_1b_ab_apply _ _ p q
  · exact mm14_apply _ _ p q

/-- The lane sum over a block's 10000 rows, at column q. -/
theorem colsum14_apply (src : FVec Ideal S10000x64 .f32) (h : S10000x64.Reduces [0] S64) (hφ : FKind.Formats .f32)
    (hacc : (0x00000000#32 : BitVec 32) = FKind.add.neutral .f32 hφ) (q : Fin 64) :
    multiReduction (F := Ideal) .add [0] S64 src 0x00000000#32 h hφ hacc (ix1 q) = ∑ r : Fin 10000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' payload at column q: the sum over the block's rows of the rows' payload. -/
theorem sums14_apply (x0 : Vec Ideal S10000x64 .f32) (x1 : Vec Ideal S10000x1 .f32) (x3 : Vec Ideal S64x64 .f32)
    (x4 : Vec Ideal S1x64 .f32) (x2 : Vec Ideal S10000x64 .f32) (x5 : Vec Ideal S64x64 .f32) (u v : Fin 1) (q : Fin 64) :
    k14_pay2 (F := Ideal) x0 x1 x3 x4 x2 x5 (ix3 u v q) = ∑ r : Fin 10000, k14_pay1 (F := Ideal) x0 x1 x3 x4 x2 x5 (ix2 r q) := by
  unfold k14_pay2
  refine (shapeCast_apply _ _ (ix3 u v q) (ix1 q) ?_).trans (colsum14_apply _ _ _ _ q)
  rw [Shape.rowMajor_val_one, Shape.rowMajor_val_three]
  show q.val = (u.val * 1 + v.val) * 64 + q.val
  omega

/-! ### The windows' blocks as parts of the arrays -/

/-- Region 14's index maps, decided over its 10 grid points: the row windows and both outputs sit at block t, the two
    matrices and the bias row at block 0. -/
theorem idx14 : ∀ t : Fin cfg14.N,
    (win14_0.index t (0 : Fin 2) = t.val ∧ win14_0.index t (1 : Fin 2) = 0)
    ∧ (win14_1.index t (0 : Fin 2) = t.val ∧ win14_1.index t (1 : Fin 2) = 0)
    ∧ (win14_2.index t (0 : Fin 2) = t.val ∧ win14_2.index t (1 : Fin 2) = 0)
    ∧ (win14_3.index t (0 : Fin 2) = 0 ∧ win14_3.index t (1 : Fin 2) = 0)
    ∧ (win14_4.index t (0 : Fin 2) = 0 ∧ win14_4.index t (1 : Fin 2) = 0)
    ∧ (win14_5.index t (0 : Fin 2) = 0 ∧ win14_5.index t (1 : Fin 2) = 0)
    ∧ (win14_6.index t (0 : Fin 2) = t.val ∧ win14_6.index t (1 : Fin 2) = 0)
    ∧ (win14_7.index t (0 : Fin 3) = t.val ∧ win14_7.index t (1 : Fin 3) = 0 ∧ win14_7.index t (2 : Fin 3) = 0) :=
  (by decide +kernel : ∀ t : Fin grid14.N, _)

/-- Block t of the neighbour sums is rows 10000 t … 10000 t + 9999 of the array. -/
theorem blk14_0 (c : Dev nD) (t : Fin cfg14.N) (p : Fin 10000) (k : Fin 64) (r : Fin 100000) (hr : r.val = t.val * 10000 + p.val) :
    (iblk14 (F := Ideal) V c 0 t : Vec Ideal S10000x64 .f32) (ix2 p k) = agg14 V c (ix2 r k) := by
  unfold iblk14
  rw [View.read_apply]
  show V c (Pipeline.arrRef spec14 0) _ = V c (Pipeline.arrRef spec14 0) _
  congr 1
  funext a
  apply Fin.ext
  match a with
  | ⟨0, _⟩ => show win14_0.index t (0 : Fin 2) * 10000 + 1 * p.val = r.val; rw [(idx14 t).1.1, hr]; omega
  | ⟨1, _⟩ => show win14_0.index t (1 : Fin 2) * 64 + 1 * k.val = k.val; rw [(idx14 t).1.2]; omega

/-- Block t of the neighbour counts is rows 10000 t … of the count column. -/
theorem blk14_1 (c : Dev nD) (t : Fin cfg14.N) (p : Fin 10000) (r : Fin 100000) (hr : r.val = t.val * 10000 + p.val) :
    (iblk14 (F := Ideal) V c 1 t : Vec Ideal S10000x1 .f32) (ix2 p (0 : Fin 1)) = cnt14 V c (ix2 r (0 : Fin 1)) := by
  unfold iblk14
  rw [View.read_apply]
  show V c (Pipeline.arrRef spec14 1) _ = V c (Pipeline.arrRef spec14 1) _
  congr 1
  funext a
  apply Fin.ext
  match a with
  | ⟨0, _⟩ => show win14_1.index t (0 : Fin 2) * 10000 + 1 * p.val = r.val; rw [(idx14 t).2.1.1, hr]; omega
  | ⟨1, _⟩ => show win14_1.index t (1 : Fin 2) * 1 + 1 * 0 = 0; rw [(idx14 t).2.1.2]

/-- Block t of the nodes' own rows is rows 10000 t … of the array. -/
theorem blk14_2 (c : Dev nD) (t : Fin cfg14.N) (p : Fin 10000) (k : Fin 64) (r : Fin 100000) (hr : r.val = t.val * 10000 + p.val) :
    (iblk14 (F := Ideal) V c 2 t : Vec Ideal S10000x64 .f32) (ix2 p k) = xd14 V c (ix2 r k) := by
  unfold iblk14
  rw [View.read_apply]
  show V c (Pipeline.arrRef spec14 2) _ = V c (Pipeline.arrRef spec14 2) _
  congr 1
  funext a
  apply Fin.ext
  match a with
  | ⟨0, _⟩ => show win14_2.index t (0 : Fin 2) * 10000 + 1 * p.val = r.val; rw [(idx14 t).2.2.1.1, hr]; omega
  | ⟨1, _⟩ => show win14_2.index t (1 : Fin 2) * 64 + 1 * k.val = k.val; rw [(idx14 t).2.2.1.2]; omega

/-- Every point's block of the left matrix is the whole matrix. -/
theorem blk14_3 (c : Dev nD) (t : Fin cfg14.N) (k : Fin 64) (q : Fin 64) :
    (iblk14 (F := Ideal) V c 3 t : Vec Ideal S64x64 .f32) (ix2 k q) = wl14 V c (ix2 k q) := by
  unfold iblk14
  rw [View.read_apply]
  show V c (Pipeline.arrRef spec14 3) _ = V c (Pipeline.arrRef spec14 3) _
  congr 1
  funext a
  apply Fin.ext
  match a with
  | ⟨0, _⟩ => show win14_3.index t (0 : Fin 2) * 64 + 1 * k.val = k.val; rw [(idx14 t).2.2.2.1.1]; omega
  | ⟨1, _⟩ => show win14_3.index t (1 : Fin 2) * 64 + 1 * q.val = q.val; rw [(idx14 t).2.2.2.1.2]; omega

/-- Every point's block of the bias row is the whole row. -/
theorem blk14_4 (c : Dev nD) (t : Fin cfg14.N) (q : Fin 64) :
    (iblk14 (F := Ideal) V c 4 t : Vec Ideal S1x64 .f32) (ix2 (0 : Fin 1) q) = bl14 V c (ix2 (0 : Fin 1) q) := by
  unfold iblk14
  rw [View.read_apply]
  show V c (Pipeline.arrRef spec14 4) _ = V c (Pipeline.arrRef spec14 4) _
  congr 1
  funext a
  apply Fin.ext
  match a with
  | ⟨0, _⟩ => show win14_4.index t (0 : Fin 2) * 1 + 1 * 0 = 0; rw [(idx14 t).2.2.2.2.1.1]
  | ⟨1, _⟩ => show win14_4.index t (1 : Fin 2) * 64 + 1 * q.val = q.val; rw [(idx14 t).2.2.2.2.1.2]; omega

/-- Every point's block of the right matrix is the whole matrix. -/
theorem blk14_5 (c : Dev nD) (t : Fin cfg14.N) (k : Fin 64) (q : Fin 64) :
    (iblk14 (F := Ideal) V c 5 t : Vec Ideal S64x64 .f32) (ix2 k q) = wr14 V c (ix2 k q) := by
  unfold iblk14
  rw [View.read_apply]
  show V c (Pipeline.arrRef spec14 5) _ = V c (Pipeline.arrRef spec14 5) _
  congr 1
  funext a
  apply Fin.ext
  match a with
  | ⟨0, _⟩ => show win14_5.index t (0 : Fin 2) * 64 + 1 * k.val = k.val; rw [(idx14 t).2.2.2.2.2.1.1]; omega
  | ⟨1, _⟩ => show win14_5.index t (1 : Fin 2) * 64 + 1 * q.val = q.val; rw [(idx14 t).2.2.2.2.2.1.2]; omega

/-- What point t's body computes at entry (p, q) of its block is the combined row 10000 t + p at column q. -/
theorem point14 (c : Dev nD) (t : Fin cfg14.N) (p : Fin 10000) (q : Fin 64) (r : Fin 100000) (hr : r.val = t.val * 10000 + p.val) :
    k14_pay1 (F := Ideal) (iblk14 V c 0 t) (iblk14 V c 1 t) (iblk14 V c 3 t) (iblk14 V c 4 t) (iblk14 V c 2 t) (iblk14 V c 5 t) (ix2 p q)
      = sage14 V c r q := by
  refine (rows14_apply (iblk14 V c 0 t) (iblk14 V c 1 t) (iblk14 V c 3 t) (iblk14 V c 4 t) (iblk14 V c 2 t) (iblk14 V c 5 t) p q).trans ?_
  unfold sage14 Spec.sage
  refine congrArg₂ (· + ·) (congrArg₂ (· + ·) (Finset.sum_congr rfl fun k _ => ?_) (blk14_4 V c t q)) (Finset.sum_congr rfl fun k _ => ?_)
  · exact congrArg₂ (· * ·) (congrArg₂ Ideal.div (blk14_0 V c t p k r hr) (congrArg (max · Spec.oneW) (blk14_1 V c t p r hr))) (blk14_3 V c t k q)
  · exact congrArg₂ (· * ·) (blk14_2 V c t p k r hr) (blk14_5 V c t k q)

/-- The whole-array function of output 6: the combined rows. -/
abbrev G14 (c : Dev nD) : Vec Ideal S100000x64 .f32 := fun i => sage14 V c (i 0) (i 1)

/-- What point t writes back to the row output is block t of the combined rows. -/
theorem flushed14_6_eq (c : Dev nD) (t : Fin cfg14.N) :
    (dat14 (F := Ideal) V c).flushed 6 t = ((cfg14.win 6).blk t).view.read (Elt Ideal) (G14 V c) := by
  show (cfg14.win 6).cut (grid14.coords t) ((dat14 (F := Ideal) V c).after 6 t) = _
  rw [after14_6]
  unfold out14_6
  rw [View.canon_unit_zero zeros14_2]
  simp only [View.ld_unit_zero (S := S10000x64) zeros14_2, View.ld_unit_zero (S := S10000x1) zeros14_2, View.ld_unit_zero (S := S64x64) zeros14_2, View.ld_unit_zero (S := S1x64) zeros14_2]
  funext j
  obtain ⟨p, q, rfl⟩ : ∃ (p : Fin 10000) (q : Fin 64), j = ix2 p q := ⟨j 0, j 1, eq_ix2 j⟩
  have hN : cfg14.N = 10 := N_14
  have ht := t.isLt
  refine (point14 V c t p q ⟨t.val * 10000 + p.val, by omega⟩ rfl).trans ?_
  show sage14 V c _ _ = sage14 V c (((cfg14.win 6).blk t).view.emb (ix2 p q) 0) (((cfg14.win 6).blk t).view.emb (ix2 p q) 1)
  refine congrArg₂ (sage14 V c) (Fin.ext ?_) (Fin.ext ?_)
  · show t.val * 10000 + p.val = win14_6.index t (0 : Fin 2) * 10000 + 1 * p.val; rw [(idx14 t).2.2.2.2.2.2.1.1]; omega
  · show q.val = win14_6.index t (1 : Fin 2) * 64 + 1 * q.val; rw [(idx14 t).2.2.2.2.2.2.1.2]; omega

/-- What point t's body computes at column q of its sums' block is block t's column sum of the combined rows. -/
theorem psum14 (c : Dev nD) (t : Fin cfg14.N) (u v : Fin 1) (q : Fin 64) (T : Fin 10) (hT : T.val = t.val) :
    k14_pay2 (F := Ideal) (iblk14 V c 0 t) (iblk14 V c 1 t) (iblk14 V c 3 t) (iblk14 V c 4 t) (iblk14 V c 2 t) (iblk14 V c 5 t) (ix3 u v q)
      = Spec.blockSums (show 100000 = 10 * 10000 from rfl) (sage14 V c) T q := by
  refine (sums14_apply (iblk14 V c 0 t) (iblk14 V c 1 t) (iblk14 V c 3 t) (iblk14 V c 4 t) (iblk14 V c 2 t) (iblk14 V c 5 t) u v q).trans ?_
  unfold Spec.blockSums
  refine Finset.sum_congr rfl fun r _ => point14 V c t r q _ ?_
  show T.val * 10000 + r.val = t.val * 10000 + r.val
  rw [hT]

/-- The whole-array function of output 7: each block's column sums. -/
abbrev P14 (c : Dev nD) : Vec Ideal S10x1x64 .f32 := fun i => Spec.blockSums (show 100000 = 10 * 10000 from rfl) (sage14 V c) (i 0) (i 2)

/-- What point t writes back to the sums' output is block t of the blocks' column sums. -/
theorem flushed14_7_eq (c : Dev nD) (t : Fin cfg14.N) :
    (dat14 (F := Ideal) V c).flushed 7 t = ((cfg14.win 7).blk t).view.read (Elt Ideal) (P14 V c) := by
  show (cfg14.win 7).cut (grid14.coords t) ((dat14 (F := Ideal) V c).after 7 t) = _
  rw [after14_7]
  unfold out14_7
  rw [View.canon_unit_zero zeros14_3]
  simp only [View.ld_unit_zero (S := S10000x64) zeros14_2, View.ld_unit_zero (S := S10000x1) zeros14_2, View.ld_unit_zero (S := S64x64) zeros14_2, View.ld_unit_zero (S := S1x64) zeros14_2]
  funext j
  obtain ⟨u, v, q, rfl⟩ : ∃ (u v : Fin 1) (q : Fin 64), j = ix3 u v q := ⟨j 0, j 1, j 2, eq_ix3 j⟩
  have hN : cfg14.N = 10 := N_14
  have ht := t.isLt
  have hu : u.val = 0 := by omega
  refine (psum14 V c t u v q ⟨t.val, by omega⟩ rfl).trans ?_
  show Spec.blockSums _ (sage14 V c) _ _ = Spec.blockSums _ (sage14 V c) (((cfg14.win 7).blk t).view.emb (ix3 u v q) 0) (((cfg14.win 7).blk t).view.emb (ix3 u v q) 2)
  refine congrArg₂ (Spec.blockSums _ (sage14 V c)) (Fin.ext ?_) (Fin.ext ?_)
  · show t.val = win14_7.index t (0 : Fin 3) * 1 + 1 * u.val; rw [(idx14 t).2.2.2.2.2.2.2.1, hu]; omega
  · show q.val = win14_7.index t (2 : Fin 3) * 64 + 1 * q.val; rw [(idx14 t).2.2.2.2.2.2.2.2.2]; omega

/-- A row index is in point t's block of the row output iff each coordinate is in the block's range on its axis. -/
theorem mem_blk14_6 (t : Fin cfg14.N) (i : S100000x64.Idx) :
    i ∈ ((cfg14.win 6).blk t).view.set ↔ ∀ a : Fin 2, win14_6.index t a * S10000x64.size a ≤ (i a).val ∧ (i a).val < win14_6.index t a * S10000x64.size a + S10000x64.size a := by
  show i ∈ ((View.whole main_v92_0).slice (win14_6.rect t)).set ↔ _
  rw [View.set_slice_whole, Rect.mem_set_unit]
  exact Iff.rfl

/-- The same for the sums' output. -/
theorem mem_blk14_7 (t : Fin cfg14.N) (i : S10x1x64.Idx) :
    i ∈ ((cfg14.win 7).blk t).view.set ↔ ∀ a : Fin 3, win14_7.index t a * S1x1x64.size a ≤ (i a).val ∧ (i a).val < win14_7.index t a * S1x1x64.size a + S1x1x64.size a := by
  show i ∈ ((View.whole main_v92_1).slice (win14_7.rect t)).set ↔ _
  rw [View.set_slice_whole, Rect.mem_set_unit]
  exact Iff.rfl

theorem reg14_y (c : Dev nD) : y14 V c = fun i => sage14 V c (i 0) (i 1) :=
  (dat14 (F := Ideal) V c).arrAt_eq_of_cover 6 (G14 V c) (fun t _ => flushed14_6_eq V c t) fun i => by
    have hi0 : (i 0).val < 100000 := (i 0).isLt
    have hi1 : (i 1).val < 64 := (i 1).isLt
    have hN : cfg14.N = 10 := N_14
    refine ⟨⟨(i 0).val / 10000, by omega⟩, flush14_6 _, ?_⟩
    rw [mem_blk14_6]
    intro a
    match a with
    | ⟨0, _⟩ =>
      show win14_6.index _ (0 : Fin 2) * 10000 ≤ (i 0).val ∧ (i 0).val < win14_6.index _ (0 : Fin 2) * 10000 + 10000
      rw [(idx14 _).2.2.2.2.2.2.1.1]
      show (i 0).val / 10000 * 10000 ≤ (i 0).val ∧ (i 0).val < (i 0).val / 10000 * 10000 + 10000
      omega
    | ⟨1, _⟩ =>
      show win14_6.index _ (1 : Fin 2) * 64 ≤ (i 1).val ∧ (i 1).val < win14_6.index _ (1 : Fin 2) * 64 + 64
      rw [(idx14 _).2.2.2.2.2.2.1.2]
      omega

theorem reg14_parts (c : Dev nD) :
    p14 V c = fun i => Spec.blockSums (show 100000 = 10 * 10000 from rfl) (sage14 V c) (i 0) (i 2) :=
  (dat14 (F := Ideal) V c).arrAt_eq_of_cover 7 (P14 V c) (fun t _ => flushed14_7_eq V c t) fun i => by
    have hi0 : (i 0).val < 10 := (i 0).isLt
    have hi1 : (i 1).val < 1 := (i 1).isLt
    have hi2 : (i 2).val < 64 := (i 2).isLt
    have hN : cfg14.N = 10 := N_14
    refine ⟨⟨(i 0).val, by omega⟩, flush14_7 _, ?_⟩
    rw [mem_blk14_7]
    intro a
    match a with
    | ⟨0, _⟩ =>
      show win14_7.index _ (0 : Fin 3) * 1 ≤ (i 0).val ∧ (i 0).val < win14_7.index _ (0 : Fin 3) * 1 + 1
      rw [(idx14 _).2.2.2.2.2.2.2.1]
      show (i 0).val * 1 ≤ (i 0).val ∧ (i 0).val < (i 0).val * 1 + 1
      omega
    | ⟨1, _⟩ =>
      show win14_7.index _ (1 : Fin 3) * 1 ≤ (i 1).val ∧ (i 1).val < win14_7.index _ (1 : Fin 3) * 1 + 1
      rw [(idx14 _).2.2.2.2.2.2.2.2.1]
      omega
    | ⟨2, _⟩ =>
      show win14_7.index _ (2 : Fin 3) * 64 ≤ (i 2).val ∧ (i 2).val < win14_7.index _ (2 : Fin 3) * 64 + 64
      rw [(idx14 _).2.2.2.2.2.2.2.2.2]
      omega

end Cert.KernelIdeal.RegVal

end
-- ==== Proof.RegDec.lean ====
import proofs.«425228_j78254304133410_2_alg».proof.Proof.Gen.KernelIdeal.Frame
import proofs.«425228_j78254304133410_2_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegVal

open Cert.KernelIdeal Cert.KernelIdeal.Gen Cert.Spec
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

abbrev zs16 (c : Dev nD) : Vec Ideal S500000x64 .f32 := V c (Pipeline.arrRef spec16 0)
abbrev zd16 (c : Dev nD) : Vec Ideal S500000x64 .f32 := V c (Pipeline.arrRef spec16 1)
abbrev mu16 (c : Dev nD) : Vec Ideal S1x64 .f32 := V c (Pipeline.arrRef spec16 2)
abbrev vu16 (c : Dev nD) : Vec Ideal S1x64 .f32 := V c (Pipeline.arrRef spec16 3)
abbrev gu16 (c : Dev nD) : Vec Ideal S1x64 .f32 := V c (Pipeline.arrRef spec16 4)
abbrev bu16 (c : Dev nD) : Vec Ideal S1x64 .f32 := V c (Pipeline.arrRef spec16 5)
abbrev mr16 (c : Dev nD) : Vec Ideal S1x64 .f32 := V c (Pipeline.arrRef spec16 6)
abbrev vr16 (c : Dev nD) : Vec Ideal S1x64 .f32 := V c (Pipeline.arrRef spec16 7)
abbrev gr16 (c : Dev nD) : Vec Ideal S1x64 .f32 := V c (Pipeline.arrRef spec16 8)
abbrev br16 (c : Dev nD) : Vec Ideal S1x64 .f32 := V c (Pipeline.arrRef spec16 9)
abbrev o16 (c : Dev nD) : Vec Ideal S500000x1 .f32 := (dat16 (F := Ideal) V c).arrAt 10 cfg16.N
theorem bcRow_apply (v : FVec Ideal S1x64 .f32) (r : Fin 10000) (j : Fin 64) :
    broadcastTo S10000x64 v broadcasts_S1x64_S10000x64 (ix2 r j) = v (ix2 0 j) :=
  broadcastTo_apply v broadcasts_S1x64_S10000x64 (ix2 r j) (ix2 0 j) fun a => by
    match a with
    | ⟨0, _⟩ => rfl
    | ⟨1, _⟩ => rfl

theorem bcCol_apply (v : FVec Ideal S10000x1 .f32) (r : Fin 10000) (j : Fin 64) :
    broadcastTo S10000x64 v broadcasts_S10000x1_S10000x64 (ix2 r j) = v (ix2 r 0) :=
  broadcastTo_apply v broadcasts_S10000x1_S10000x64 (ix2 r j) (ix2 r 0) fun a => by
    match a with
    | ⟨0, _⟩ => rfl
    | ⟨1, _⟩ => rfl

theorem colCast_apply (v : FVec Ideal S10000 .f32) (r : Fin 10000) (q : Fin 1) :
    shapeCast S10000x1 v shapeCasts_S10000_S10000x1 (ix2 r q) = v (ix1 r) :=
  shapeCast_apply v shapeCasts_S10000_S10000x1 (ix2 r q) (ix1 r) (by
    rw [Shape.rowMajor_val_one, Shape.rowMajor_val_two]
    show r.val = r.val * 1 + q.val
    have := q.isLt
    omega)

theorem rowSum_apply (src : FVec Ideal S10000x64 .f32) (r : Fin 10000) :
    multiReduction (F := Ideal) .add [1] S10000 src 0x00000000#32 reduces_S10000x64_S10000 (.inl rfl) rfl (ix1 r)
      = ∑ k : Fin 64, src (ix2 r k) := by
  refine (Ideal.multiReduction_add_single src 0x00000000#32 reduces_S10000x64_S10000 (.inl rfl) rfl (ix1 r)).trans ?_
  refine Finset.sum_congr rfl fun k _ => congrArg src ?_
  funext a
  apply Fin.ext
  match a with
  | ⟨0, _⟩ => rfl
  | ⟨1, _⟩ => rfl

theorem cosRow_congr {n n' h : Nat} (tiny : EReal) (zs zd : Fin n → Fin h → EReal) (zs' zd' : Fin n' → Fin h → EReal)
    (i : Fin n) (i' : Fin n') (hs : zs i = zs' i') (hd : zd i = zd' i') :
    Spec.cosRow tiny zs zd i = Spec.cosRow tiny zs' zd' i' := by
  unfold Spec.cosRow Spec.rowNorm
  rw [hs, hd]

theorem bn_congr {n n' h : Nat} (ε : EReal) (g β μ v : Fin h → EReal) (y : Fin n → Fin h → EReal) (y' : Fin n' → Fin h → EReal)
    (i : Fin n) (i' : Fin n') (hy : y i = y' i') : Spec.bn ε g β μ v y i = Spec.bn ε g β μ v y' i' := by
  funext j
  show g j * (y i j - μ j) * Ideal.rsqrt (v j + ε) + β j = g j * (y' i' j - μ j) * Ideal.rsqrt (v j + ε) + β j
  rw [hy]

theorem nrmA_apply (x0 : Vec Ideal S10000x64 .f32) (m v g b : Vec Ideal S1x64 .f32) (r : Fin 10000) (j : Fin 64) :
    k16_pay2 (F := Ideal) x0 m v g b (ix2 r j)
      = Spec.bn Spec.epsW (fun j => g (ix2 0 j)) (fun j => b (ix2 0 j)) (fun j => m (ix2 0 j)) (fun j => v (ix2 0 j))
          (fun a j => x0 (ix2 a j)) r j := by
  unfold k16_pay2
  simp only [shapeCast_self, addf_apply, mulf_apply, subf_apply, bcRow_apply]
  rfl

theorem nrmB_apply (x1 : Vec Ideal S10000x64 .f32) (m v g b : Vec Ideal S1x64 .f32) (r : Fin 10000) (j : Fin 64) :
    k16_pay6 (F := Ideal) g (ix2 r j) * k16_pay5 (F := Ideal) x1 m (ix2 r j) * k16_pay4 (F := Ideal) v (ix2 0 j)
        + k16_pay3 (F := Ideal) b (ix2 0 j)
      = Spec.bn Spec.epsW (fun j => g (ix2 0 j)) (fun j => b (ix2 0 j)) (fun j => m (ix2 0 j)) (fun j => v (ix2 0 j))
          (fun a j => x1 (ix2 a j)) r j := by
  unfold k16_pay6 k16_pay5 k16_pay4 k16_pay3
  simp only [shapeCast_self, subf_apply, bcRow_apply]
  rfl

theorem floorNorm_apply (B : FVec Ideal S10000x64 .f32) (r : Fin 10000) :
    maximumf (sqrt (shapeCast S10000x1 (multiReduction (F := Ideal) .add [1] S10000 (mulf B B) 0x00000000#32
        reduces_S10000x64_S10000 (.inl rfl) rfl) shapeCasts_S10000_S10000x1))
      (broadcast S10000x1 (Scalar.ofBits (F := Ideal) .f32 0x2B8CBCCC#32)) (ix2 r 0)
      = max (Ideal.sqrt (∑ x, B (ix2 r x) * B (ix2 r x))) Spec.tinyW :=
  congrArg (fun z => max (Ideal.sqrt z) Spec.tinyW) ((colCast_apply _ r 0).trans (rowSum_apply (mulf B B) r))

theorem cos_apply (A : FVec Ideal S10000x64 .f32) (bt rs : FVec Ideal S1x64 .f32) (D G : FVec Ideal S10000x64 .f32)
    (r : Fin 10000) (q : Fin 1) :
    k16_pay1 (F := Ideal) A bt rs D G (ix2 r q)
      = Spec.cosRow Spec.tinyW (fun a j => A (ix2 a j))
          (fun a j => G (ix2 a j) * D (ix2 a j) * rs (ix2 0 j) + bt (ix2 0 j)) r := by
  unfold k16_pay1
  dsimp only
  refine (colCast_apply _ r q).trans ?_
  refine (rowSum_apply _ r).trans ?_
  unfold Spec.cosRow Spec.rowNorm
  refine Finset.sum_congr rfl fun k _ => ?_
  simp only [mulf_apply, divf_apply, bcCol_apply, bcRow_apply, addf_apply]
  refine congrArg₂ (· * ·) (congrArg (Ideal.div _) ?_) (congrArg (Ideal.div _) ?_)
  · exact floorNorm_apply A r
  · refine (floorNorm_apply _ r).trans ?_
    simp only [addf_apply, mulf_apply, bcRow_apply]

theorem hz16 : (![0, 0] : Fin 2 → Nat) = fun _ => 0 := funext fun a => by fin_cases a <;> rfl

theorem idxRows16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_10.index t (0 : Fin 2) = t.val ∧ win16_10.index t (1 : Fin 2) = 0 :=
  (by decide +kernel : ∀ t : Fin grid16.N, _)

theorem idxPar16 : ∀ t : Fin cfg16.N,
    (win16_2.index t (0 : Fin 2) = 0 ∧ win16_2.index t (1 : Fin 2) = 0)
    ∧ (win16_3.index t (0 : Fin 2) = 0 ∧ win16_3.index t (1 : Fin 2) = 0)
    ∧ (win16_4.index t (0 : Fin 2) = 0 ∧ win16_4.index t (1 : Fin 2) = 0)
    ∧ (win16_5.index t (0 : Fin 2) = 0 ∧ win16_5.index t (1 : Fin 2) = 0)
    ∧ (win16_6.index t (0 : Fin 2) = 0 ∧ win16_6.index t (1 : Fin 2) = 0)
    ∧ (win16_7.index t (0 : Fin 2) = 0 ∧ win16_7.index t (1 : Fin 2) = 0)
    ∧ (win16_8.index t (0 : Fin 2) = 0 ∧ win16_8.index t (1 : Fin 2) = 0)
    ∧ (win16_9.index t (0 : Fin 2) = 0 ∧ win16_9.index t (1 : Fin 2) = 0) :=
  (by decide +kernel : ∀ t : Fin grid16.N, _)

theorem blkS16_apply (c : Dev nD) (t : Fin cfg16.N) (r : Fin 10000) (j : Fin 64) (I : Fin 500000)
    (hI : I.val = t.val * 10000 + r.val) :
    (iblk16 V c 0 t : Vec Ideal S10000x64 .f32) (ix2 r j) = zs16 V c (ix2 I j) := by
  obtain ⟨e0, e1, -⟩ := idxRows16 t
  show V c (Pipeline.arrRef spec16 0) (((cfg16.win 0).blk t).view.emb (ix2 r j)) = V c (Pipeline.arrRef spec16 0) (ix2 I j)
  refine congrArg _ (funext fun a => Fin.ext ?_)
  match a with
  | ⟨0, _⟩ => show win16_0.index t (0 : Fin 2) * 10000 + 1 * r.val = I.val; omega
  | ⟨1, _⟩ => show win16_0.index t (1 : Fin 2) * 64 + 1 * j.val = j.val; omega

theorem blkD16_apply (c : Dev nD) (t : Fin cfg16.N) (r : Fin 10000) (j : Fin 64) (I : Fin 500000)
    (hI : I.val = t.val * 10000 + r.val) :
    (iblk16 V c 1 t : Vec Ideal S10000x64 .f32) (ix2 r j) = zd16 V c (ix2 I j) := by
  obtain ⟨-, -, e0, e1, -⟩ := idxRows16 t
  show V c (Pipeline.arrRef spec16 1) (((cfg16.win 1).blk t).view.emb (ix2 r j)) = V c (Pipeline.arrRef spec16 1) (ix2 I j)
  refine congrArg _ (funext fun a => Fin.ext ?_)
  match a with
  | ⟨0, _⟩ => show win16_1.index t (0 : Fin 2) * 10000 + 1 * r.val = I.val; omega
  | ⟨1, _⟩ => show win16_1.index t (1 : Fin 2) * 64 + 1 * j.val = j.val; omega

theorem blkP2_eq (c : Dev nD) (t : Fin cfg16.N) : (iblk16 V c 2 t : Vec Ideal S1x64 .f32) = mu16 V c := by
  obtain ⟨⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 2) (((cfg16.win 2).blk t).view.emb (ix2 p j)) = V c (Pipeline.arrRef spec16 2) (ix2 p j)
  refine congrArg _ (funext fun a => Fin.ext ?_)
  match a with
  | ⟨0, _⟩ => show win16_2.index t (0 : Fin 2) * 1 + 1 * p.val = p.val; omega
  | ⟨1, _⟩ => show win16_2.index t (1 : Fin 2) * 64 + 1 * j.val = j.val; omega

theorem blkP3_eq (c : Dev nD) (t : Fin cfg16.N) : (iblk16 V c 3 t : Vec Ideal S1x64 .f32) = vu16 V c := by
  obtain ⟨-, ⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 3) (((cfg16.win 3).blk t).view.emb (ix2 p j)) = V c (Pipeline.arrRef spec16 3) (ix2 p j)
  refine congrArg _ (funext fun a => Fin.ext ?_)
  match a with
  | ⟨0, _⟩ => show win16_3.index t (0 : Fin 2) * 1 + 1 * p.val = p.val; omega
  | ⟨1, _⟩ => show win16_3.index t (1 : Fin 2) * 64 + 1 * j.val = j.val; omega

theorem blkP4_eq (c : Dev nD) (t : Fin cfg16.N) : (iblk16 V c 4 t : Vec Ideal S1x64 .f32) = gu16 V c := by
  obtain ⟨-, -, ⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 4) (((cfg16.win 4).blk t).view.emb (ix2 p j)) = V c (Pipeline.arrRef spec16 4) (ix2 p j)
  refine congrArg _ (funext fun a => Fin.ext ?_)
  match a with
  | ⟨0, _⟩ => show win16_4.index t (0 : Fin 2) * 1 + 1 * p.val = p.val; omega
  | ⟨1, _⟩ => show win16_4.index t (1 : Fin 2) * 64 + 1 * j.val = j.val; omega

theorem blkP5_eq (c : Dev nD) (t : Fin cfg16.N) : (iblk16 V c 5 t : Vec Ideal S1x64 .f32) = bu16 V c := by
  obtain ⟨-, -, -, ⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 5) (((cfg16.win 5).blk t).view.emb (ix2 p j)) = V c (Pipeline.arrRef spec16 5) (ix2 p j)
  refine congrArg _ (funext fun a => Fin.ext ?_)
  match a with
  | ⟨0, _⟩ => show win16_5.index t (0 : Fin 2) * 1 + 1 * p.val = p.val; omega
  | ⟨1, _⟩ => show win16_5.index t (1 : Fin 2) * 64 + 1 * j.val = j.val; omega

theorem blkP6_eq (c : Dev nD) (t : Fin cfg16.N) : (iblk16 V c 6 t : Vec Ideal S1x64 .f32) = mr16 V c := by
  obtain ⟨-, -, -, -, ⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 6) (((cfg16.win 6).blk t).view.emb (ix2 p j)) = V c (Pipeline.arrRef spec16 6) (ix2 p j)
  refine congrArg _ (funext fun a => Fin.ext ?_)
  match a with
  | ⟨0, _⟩ => show win16_6.index t (0 : Fin 2) * 1 + 1 * p.val = p.val; omega
  | ⟨1, _⟩ => show win16_6.index t (1 : Fin 2) * 64 + 1 * j.val = j.val; omega

theorem blkP7_eq (c : Dev nD) (t : Fin cfg16.N) : (iblk16 V c 7 t : Vec Ideal S1x64 .f32) = vr16 V c := by
  obtain ⟨-, -, -, -, -, ⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 7) (((cfg16.win 7).blk t).view.emb (ix2 p j)) = V c (Pipeline.arrRef spec16 7) (ix2 p j)
  refine congrArg _ (funext fun a => Fin.ext ?_)
  match a with
  | ⟨0, _⟩ => show win16_7.index t (0 : Fin 2) * 1 + 1 * p.val = p.val; omega
  | ⟨1, _⟩ => show win16_7.index t (1 : Fin 2) * 64 + 1 * j.val = j.val; omega

theorem blkP8_eq (c : Dev nD) (t : Fin cfg16.N) : (iblk16 V c 8 t : Vec Ideal S1x64 .f32) = gr16 V c := by
  obtain ⟨-, -, -, -, -, -, ⟨e0, e1⟩, -⟩ := idxPar16 t
  funext y
  obtain ⟨p, j, rfl⟩ : ∃ (p : Fin 1) (j : Fin 64), y = ix2 p j := ⟨y 0, y 1, eq_ix2 y⟩
  show V c (Pipeline.arrRef spec16 8) (((cfg16.win 8).blk t).view.emb (ix2 p j)) = V c (Pipeline.arrRef spec16 8) (ix2 p j)
  refine congrArg _ (funext fun a => Fin.ext ?_)
  match a with
  | ⟨0, _⟩ => show win16_8.index t (0 : Fin 2) * 1 + 1 * p.val = p.val; omega
  | ⟨1, _⟩ => show win16_8.index t (1 : Fin 2) * 64 + 1 * j.val = j.val; omega

theorem blkP9_eq (c : Dev nD) (t : Fin cfg16.N) : (iblk16 V c 9 t : Vec Ideal S1x64 .f32) = br16 V c := by
  obtain ⟨-, -, -, -, -, -, -, ⟨e0, e1⟩⟩ := idxPar16 t
  funext y
  obtain ⟨p, j, rfl⟩ : ∃ (p : Fin 1) (j : Fin 64), y = ix2 p j := ⟨y 0, y 1, eq_ix2 y⟩
  show V c (Pipeline.arrRef spec16 9) (((cfg16.win 9).blk t).view.emb (ix2 p j)) = V c (Pipeline.arrRef spec16 9) (ix2 p j)
  refine congrArg _ (funext fun a => Fin.ext ?_)
  match a with
  | ⟨0, _⟩ => show win16_9.index t (0 : Fin 2) * 1 + 1 * p.val = p.val; omega
  | ⟨1, _⟩ => show win16_9.index t (1 : Fin 2) * 64 + 1 * j.val = j.val; omega

theorem bn_blk (xw : Vec Ideal S10000x64 .f32) (pm pv pg pb : Vec Ideal S1x64 .f32) (Z : Vec Ideal S500000x64 .f32)
    (M Vr Gm Bt : Vec Ideal S1x64 .f32) (hm : pm = M) (hv : pv = Vr) (hg : pg = Gm) (hb : pb = Bt)
    (r : Fin 10000) (I : Fin 500000) (hx : ∀ j, xw (ix2 r j) = Z (ix2 I j)) (j : Fin 64) :
    Spec.bn Spec.epsW (fun j => pg (ix2 0 j)) (fun j => pb (ix2 0 j)) (fun j => pm (ix2 0 j)) (fun j => pv (ix2 0 j))
        (fun a j => xw (ix2 a j)) r j
      = Spec.bn Spec.epsW (fun j => Gm (ix2 0 j)) (fun j => Bt (ix2 0 j)) (fun j => M (ix2 0 j)) (fun j => Vr (ix2 0 j))
        (fun a j => Z (ix2 a j)) I j := by
  subst hm hv hg hb
  exact congrFun (bn_congr _ _ _ _ _ _ _ r I (funext hx)) j

abbrev cos16 (c : Dev nD) : Vec Ideal S500000x1 .f32 := fun i => Spec.cosRow Spec.tinyW
      (Spec.bn Spec.epsW (fun j => gu16 V c (ix2 0 j)) (fun j => bu16 V c (ix2 0 j)) (fun j => mu16 V c (ix2 0 j)) (fun j => vu16 V c (ix2 0 j)) (fun a j => zs16 V c (ix2 a j)))
      (Spec.bn Spec.epsW (fun j => gr16 V c (ix2 0 j)) (fun j => br16 V c (ix2 0 j)) (fun j => mr16 V c (ix2 0 j)) (fun j => vr16 V c (ix2 0 j)) (fun a j => zd16 V c (ix2 a j)))
      (i 0)

theorem flushed16_eq (c : Dev nD) (t : Fin cfg16.N) :
    (dat16 (F := Ideal) V c).flushed 10 t = ((cfg16.win 10).blk t).view.read (Elt Ideal) (cos16 V c) := by
  show (cfg16.win 10).cut (grid16.coords t) ((dat16 V c).after 10 t) = _
  rw [after16_10]
  unfold out16_10
  rw [View.canon_unit_zero hz16]
  simp only [View.ld_unit_zero (S := S10000x64) hz16, View.ld_unit_zero (S := S1x64) hz16]
  funext y
  obtain ⟨r, q, rfl⟩ : ∃ (r : Fin 10000) (q : Fin 1), y = ix2 r q := ⟨y 0, y 1, eq_ix2 y⟩
  obtain ⟨-, -, -, -, e0, e1⟩ := idxRows16 t
  have ht : t.val < 50 := Nat.lt_of_lt_of_eq t.isLt (N_16 : cfg16.N = 50)
  have hr : r.val < 10000 := r.isLt
  have hI : t.val * 10000 + r.val < 500000 := by omega
  have hemb : ((cfg16.win 10).blk t).view.emb (ix2 r q) = ix2 (⟨t.val * 10000 + r.val, hI⟩ : Fin 500000) (0 : Fin 1) := by
    funext a
    apply Fin.ext
    match a with
    | ⟨0, _⟩ => show win16_10.index t (0 : Fin 2) * 10000 + 1 * r.val = t.val * 10000 + r.val; omega
    | ⟨1, _⟩ => show win16_10.index t (1 : Fin 2) * 1 + 1 * q.val = 0; have := q.isLt; omega
  show _ = cos16 V c (((cfg16.win 10).blk t).view.emb (ix2 r q))
  rw [hemb]
  refine (cos_apply _ _ _ _ _ r q).trans ?_
  refine cosRow_congr _ _ _ _ _ r ⟨t.val * 10000 + r.val, hI⟩ (funext fun j => ?_) (funext fun j => ?_)
  · exact (nrmA_apply (iblk16 V c 0 t) (iblk16 V c 2 t) (iblk16 V c 3 t) (iblk16 V c 4 t) (iblk16 V c 5 t) r j).trans
      (bn_blk (iblk16 V c 0 t) (iblk16 V c 2 t) (iblk16 V c 3 t) (iblk16 V c 4 t) (iblk16 V c 5 t) (zs16 V c)
        (mu16 V c) (vu16 V c) (gu16 V c) (bu16 V c) (blkP2_eq V c t) (blkP3_eq V c t) (blkP4_eq V c t) (blkP5_eq V c t)
        r ⟨t.val * 10000 + r.val, hI⟩ (fun j => blkS16_apply V c t r j _ rfl) j)
  · exact (nrmB_apply (iblk16 V c 1 t) (iblk16 V c 6 t) (iblk16 V c 7 t) (iblk16 V c 8 t) (iblk16 V c 9 t) r j).trans
      (bn_blk (iblk16 V c 1 t) (iblk16 V c 6 t) (iblk16 V c 7 t) (iblk16 V c 8 t) (iblk16 V c 9 t) (zd16 V c)
        (mr16 V c) (vr16 V c) (gr16 V c) (br16 V c) (blkP6_eq V c t) (blkP7_eq V c t) (blkP8_eq V c t) (blkP9_eq V c t)
        r ⟨t.val * 10000 + r.val, hI⟩ (fun j => blkD16_apply V c t r j _ rfl) j)

theorem mem_blk16 (t : Fin cfg16.N) (i : S500000x1.Idx) :
    i ∈ ((cfg16.win 10).blk t).view.set ↔ ∀ a : Fin 2, win16_10.index t a * S10000x1.size a ≤ (i a).val
      ∧ (i a).val < win16_10.index t a * S10000x1.size a + S10000x1.size a := by
  show i ∈ ((View.whole main_v108).slice (win16_10.rect t)).set ↔ _
  rw [View.set_slice_whole, Rect.mem_set_unit]
  exact Iff.rfl

theorem cover16 (i : S500000x1.Idx) : ∃ t : Fin cfg16.N, (cfg16.win 10).flush t = true ∧ i ∈ ((cfg16.win 10).blk t).view.set := by
  have hi0 : (i 0).val < 500000 := (i 0).isLt
  have hi1 : (i 1).val < 1 := (i 1).isLt
  have hN : cfg16.N = 50 := N_16
  have hq : (i 0).val / 10000 < cfg16.N := by rw [hN]; omega
  obtain ⟨-, -, -, -, e0, e1⟩ := idxRows16 ⟨(i 0).val / 10000, hq⟩
  refine ⟨⟨(i 0).val / 10000, hq⟩, flush16_10 _, ?_⟩
  rw [mem_blk16]
  intro a
  match a with
  | ⟨0, _⟩ =>
    show win16_10.index ⟨(i 0).val / 10000, hq⟩ (0 : Fin 2) * 10000 ≤ (i 0).val
      ∧ (i 0).val < win16_10.index ⟨(i 0).val / 10000, hq⟩ (0 : Fin 2) * 10000 + 10000
    rw [e0]
    show (i 0).val / 10000 * 10000 ≤ (i 0).val ∧ (i 0).val < (i 0).val / 10000 * 10000 + 10000
    omega
  | ⟨1, _⟩ =>
    show win16_10.index ⟨(i 0).val / 10000, hq⟩ (1 : Fin 2) * 1 ≤ (i 1).val
      ∧ (i 1).val < win16_10.index ⟨(i 0).val / 10000, hq⟩ (1 : Fin 2) * 1 + 1
    rw [e1]
    omega

/-- Per row: the inner product of the two normalised rows, each divided by its norm floored at the tiny constant. -/
theorem reg16_out (c : Dev nD) :
    o16 V c = fun i => Spec.cosRow Spec.tinyW
      (Spec.bn Spec.epsW (fun j => gu16 V c (ix2 0 j)) (fun j => bu16 V c (ix2 0 j)) (fun j => mu16 V c (ix2 0 j)) (fun j => vu16 V c (ix2 0 j)) (fun a j => zs16 V c (ix2 a j)))
      (Spec.bn Spec.epsW (fun j => gr16 V c (ix2 0 j)) (fun j => br16 V c (ix2 0 j)) (fun j => mr16 V c (ix2 0 j)) (fun j => vr16 V c (ix2 0 j)) (fun a j => zd16 V c (ix2 a j)))
      (i 0) :=
  (dat16 (F := Ideal) V c).arrAt_eq_of_cover 10 (cos16 V c) (fun t _ => flushed16_eq V c t) cover16

end Cert.KernelIdeal.RegVal

end
-- ==== Proof.Regs.lean ====
import proofs.«425228_j78254304133410_2_alg».proof.Proof.RegLin
import proofs.«425228_j78254304133410_2_alg».proof.Proof.RegSq
import proofs.«425228_j78254304133410_2_alg».proof.Proof.RegSq_4
import proofs.«425228_j78254304133410_2_alg».proof.Proof.RegSq_7
import proofs.«425228_j78254304133410_2_alg».proof.Proof.RegSq_10
import proofs.«425228_j78254304133410_2_alg».proof.Proof.RegSq_13
import proofs.«425228_j78254304133410_2_alg».proof.Proof.RegSq_15
import proofs.«425228_j78254304133410_2_alg».proof.Proof.RegBn
import proofs.«425228_j78254304133410_2_alg».proof.Proof.RegBn_5
import proofs.«425228_j78254304133410_2_alg».proof.Proof.RegBn_8
import proofs.«425228_j78254304133410_2_alg».proof.Proof.RegBn_11
import proofs.«425228_j78254304133410_2_alg».proof.Proof.RegSage
import proofs.«425228_j78254304133410_2_alg».proof.Proof.RegSage_9
import proofs.«425228_j78254304133410_2_alg».proof.Proof.RegSage_12
import proofs.«425228_j78254304133410_2_alg».proof.Proof.RegSage_14
import proofs.«425228_j78254304133410_2_alg».proof.Proof.RegDec
-- ==== Proof.Take.lean ====
import proofs.«425228_j78254304133410_2_alg».proof.Proof.KState

import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.ReduceAll
import Idealize.ShloMosaic.PureOps.Ideal.Laws

set_option maxRecDepth 16384

noncomputable section

namespace Cert.KernelIdeal.Chain

open Cert.KernelIdeal Cert.KernelIdeal.Gen Cert.Model Cert.Spec
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

def Below {e : Nat} (N : Int) (v : Model.Ixs e) : Prop :=
  ∀ k : Fin e, 0 ≤ (v (ix1 k)).toInt ∧ (v (ix1 k)).toInt < N

def wrapU (idx : Model.Ixs 1500000) : Model.Ixs 1500000 :=
  select (cmpi .slt idx (broadcastInDim S1500000 ![] Facts₀.bcast_S_S1500000 (constantI S_ 32 0#32)))
    (addi idx (broadcastInDim S1500000 ![] Facts₀.bcast_S_S1500000 (constantI S_ 32 100000#32))) idx
def wcolU (idx : Model.Ixs 1500000) : Model.IxCol 1500000 :=
  broadcastInDim S1500000x1 ![0] Facts₀.bcast_S1500000_S1500000x1_0 (wrapU idx)
def okU (idx : Model.Ixs 1500000) : IVec S1500000 1 :=
  Host.reduce IntOp.andi
    (andi
      (cmpi .sge (wcolU idx) (broadcastInDim S1500000x1 ![] Facts₀.bcast_S_S1500000x1 (constantI S_ 32 0#32)))
      (cmpi .sle (wcolU idx)
        (broadcastInDim S1500000x1 ![0, 1] Facts₀.bcast_S1x1_S1500000x1_0_1
          (broadcastInDim S1x1 ![1] Facts₀.bcast_S1_S1x1_1 (constantI S1 32 99999#32)))))
    (constantI S_ 1 1#1) Facts₀.reducesTo_S1500000x1_S1500000_d1 Facts₀.h_S_
def takeU (x : Model.Mat 100000 64) (idx : Model.Ixs 1500000) : Model.Mat 1500000 64 :=
  select (broadcastInDim S1500000x64 ![0] Facts₀.bcast_S1500000_S1500000x64_0 (okU idx))
    (Host.gather gather_S100000x64_S1500000x1_S1500000x64_1_0_n_n_0_1_164 x (wcolU idx))
    (broadcastInDim S1500000x64 ![] Facts₀.bcast_S_S1500000x64 (constant (F := Ideal) S_ .f32 0x7FC00000#32))
def wrapR (idx : Model.Ixs 1500000) : Model.Ixs 1500000 :=
  select (cmpi .slt idx (broadcastInDim S1500000 ![] Facts₀.bcast_S_S1500000 (constantI S_ 32 0#32)))
    (addi idx (broadcastInDim S1500000 ![] Facts₀.bcast_S_S1500000 (constantI S_ 32 250000#32))) idx
def wcolR (idx : Model.Ixs 1500000) : Model.IxCol 1500000 :=
  broadcastInDim S1500000x1 ![0] Facts₀.bcast_S1500000_S1500000x1_0 (wrapR idx)
def okR (idx : Model.Ixs 1500000) : IVec S1500000 1 :=
  Host.reduce IntOp.andi
    (andi
      (cmpi .sge (wcolR idx) (broadcastInDim S1500000x1 ![] Facts₀.bcast_S_S1500000x1 (constantI S_ 32 0#32)))
      (cmpi .sle (wcolR idx)
        (broadcastInDim S1500000x1 ![0, 1] Facts₀.bcast_S1x1_S1500000x1_0_1
          (broadcastInDim S1x1 ![1] Facts₀.bcast_S1_S1x1_1 (constantI S1 32 249999#32)))))
    (constantI S_ 1 1#1) Facts₀.reducesTo_S1500000x1_S1500000_d1 Facts₀.h_S_
def takeR (x : Model.Mat 250000 64) (idx : Model.Ixs 1500000) : Model.Mat 1500000 64 :=
  select (broadcastInDim S1500000x64 ![0] Facts₀.bcast_S1500000_S1500000x64_0 (okR idx))
    (Host.gather gather_S250000x64_S1500000x1_S1500000x64_1_0_n_n_0_1_164 x (wcolR idx))
    (broadcastInDim S1500000x64 ![] Facts₀.bcast_S_S1500000x64 (constant (F := Ideal) S_ .f32 0x7FC00000#32))
def wrapLU (idx : Model.Ixs 500000) : Model.Ixs 500000 :=
  select (cmpi .slt idx (broadcastInDim S500000 ![] Facts₀.bcast_S_S500000 (constantI S_ 32 0#32)))
    (addi idx (broadcastInDim S500000 ![] Facts₀.bcast_S_S500000 (constantI S_ 32 100000#32))) idx
def wcolLU (idx : Model.Ixs 500000) : Model.IxCol 500000 :=
  broadcastInDim S500000x1 ![0] Facts₀.bcast_S500000_S500000x1_0 (wrapLU idx)
def okLU (idx : Model.Ixs 500000) : IVec S500000 1 :=
  Host.reduce IntOp.andi
    (andi
      (cmpi .sge (wcolLU idx) (broadcastInDim S500000x1 ![] Facts₀.bcast_S_S500000x1 (constantI S_ 32 0#32)))
      (cmpi .sle (wcolLU idx)
        (broadcastInDim S500000x1 ![0, 1] Facts₀.bcast_S1x1_S500000x1_0_1
          (broadcastInDim S1x1 ![1] Facts₀.bcast_S1_S1x1_1 (constantI S1 32 99999#32)))))
    (constantI S_ 1 1#1) Facts₀.reducesTo_S500000x1_S500000_d1 Facts₀.h_S_
def takeLU (x : Model.Mat 100000 64) (idx : Model.Ixs 500000) : Model.Mat 500000 64 :=
  select (broadcastInDim S500000x64 ![0] Facts₀.bcast_S500000_S500000x64_0 (okLU idx))
    (Host.gather gather_S100000x64_S500000x1_S500000x64_1_0_n_n_0_1_164 x (wcolLU idx))
    (broadcastInDim S500000x64 ![] Facts₀.bcast_S_S500000x64 (constant (F := Ideal) S_ .f32 0x7FC00000#32))
def wrapLR (idx : Model.Ixs 500000) : Model.Ixs 500000 :=
  select (cmpi .slt idx (broadcastInDim S500000 ![] Facts₀.bcast_S_S500000 (constantI S_ 32 0#32)))
    (addi idx (broadcastInDim S500000 ![] Facts₀.bcast_S_S500000 (constantI S_ 32 250000#32))) idx
def wcolLR (idx : Model.Ixs 500000) : Model.IxCol 500000 :=
  broadcastInDim S500000x1 ![0] Facts₀.bcast_S500000_S500000x1_0 (wrapLR idx)
def okLR (idx : Model.Ixs 500000) : IVec S500000 1 :=
  Host.reduce IntOp.andi
    (andi
      (cmpi .sge (wcolLR idx) (broadcastInDim S500000x1 ![] Facts₀.bcast_S_S500000x1 (constantI S_ 32 0#32)))
      (cmpi .sle (wcolLR idx)
        (broadcastInDim S500000x1 ![0, 1] Facts₀.bcast_S1x1_S500000x1_0_1
          (broadcastInDim S1x1 ![1] Facts₀.bcast_S1_S1x1_1 (constantI S1 32 249999#32)))))
    (constantI S_ 1 1#1) Facts₀.reducesTo_S500000x1_S500000_d1 Facts₀.h_S_
def takeLR (x : Model.Mat 250000 64) (idx : Model.Ixs 500000) : Model.Mat 500000 64 :=
  select (broadcastInDim S500000x64 ![0] Facts₀.bcast_S500000_S500000x64_0 (okLR idx))
    (Host.gather gather_S250000x64_S500000x1_S500000x64_1_0_n_n_0_1_164 x (wcolLR idx))
    (broadcastInDim S500000x64 ![] Facts₀.bcast_S_S500000x64 (constant (F := Ideal) S_ .f32 0x7FC00000#32))

theorem cmpi_slt_zero (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not, not_lt]; exact h
  show BitVec.ofBool (a.slt 0#32) = 0#1
  rw [hs]; rfl

theorem cmpi_range (a hi : BitVec 32) (N : Int) (hhi : hi.toInt = N - 1) (h : 0 ≤ a.toInt ∧ a.toInt < N) :
    IntOp.andi (IntOp.cmpi .sge a 0#32) (IntOp.cmpi .sle a hi) = 1#1 := by
  have h0 : (0#32 : BitVec 32).toInt = 0 := by decide
  have h1 : (0#32 : BitVec 32).sle a = true := by
    simp only [BitVec.sle, h0, decide_eq_true_eq]; exact h.1
  have h2 : a.sle hi = true := by
    simp only [BitVec.sle, hhi, decide_eq_true_eq]; omega
  show IntOp.andi (BitVec.ofBool ((0#32 : BitVec 32).sle a)) (BitVec.ofBool (a.sle hi)) = 1#1
  rw [h1, h2]; rfl

theorem wrap_id {e : Nat} (N : BitVec 32) (h : S_.BroadcastsInDim (⟨1, ![e]⟩ : Shape) (![] : Fin 0 → Fin 1))
    (idx : Model.Ixs e) (hin : ∀ k : Fin e, 0 ≤ (idx (ix1 k)).toInt) :
    select (cmpi .slt idx (broadcastInDim ⟨1, ![e]⟩ ![] h (constantI S_ 32 0#32)))
      (addi idx (broadcastInDim ⟨1, ![e]⟩ ![] h (constantI S_ 32 N))) idx = idx := by
  funext j
  have hj : 0 ≤ (idx j).toInt := by
    have e1 : idx j = idx (ix1 (j 0)) := congrArg idx (eq_ix1 j)
    rw [e1]; exact hin (j 0)
  show Scalar.select (IntOp.cmpi .slt (idx j) 0#32) (IntOp.addi (idx j) N) (idx j) = idx j
  rw [cmpi_slt_zero _ hj]; rfl

theorem bcast_col {e : Nat} (h : (⟨1, ![e]⟩ : Shape).BroadcastsInDim (⟨2, ![e, 1]⟩ : Shape) (![0] : Fin 1 → Fin 2))
    (v : Model.Ixs e) : broadcastInDim ⟨2, ![e, 1]⟩ ![0] h v = Model.col v := by
  funext i
  obtain ⟨p, rfl⟩ : ∃ p : Fin e, i = StableHlo.Predicate.ixP p :=
    ⟨i 0, by funext b; match b with | ⟨0, _⟩ => rfl | ⟨1, hb⟩ => exact Fin.ext (Nat.lt_one_iff.mp (i ⟨1, hb⟩).isLt)⟩
  rw [StableHlo.Predicate.bcast_col1]
  show v (Shape.Idx.ofFin p) = v (ix1 p)
  congr 1
  funext b; match b with | ⟨0, _⟩ => rfl

theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih (fun n hn => hf n (List.mem_cons_of_mem _ hn))

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x _ (fun n _ => hx n)

/-- For indices already inside the table the wrap of negatives and the out-of-range fill are inert: the look-up is the plain row gather. -/
theorem takeU_eq (x : Model.Mat 100000 64) (idx : Model.Ixs 1500000) (hin : Below 100000 idx) :
    takeU x idx = opsK.gatU x (Model.col idx) := by
  have hw : wrapU idx = idx := wrap_id _ _ idx (fun k => (hin k).1)
  have hc : wcolU idx = Model.col idx := by
    unfold wcolU; rw [hw]; exact bcast_col _ idx
  have hok : okU idx = fun _ => 1#1 := by
    funext j
    unfold okU
    refine reduce_andi_ones _ _ _ _ (fun i => ?_) (fun _ => rfl) j
    rw [hc]
    show IntOp.andi (IntOp.cmpi .sge (idx (ix1 (i 0))) 0#32) (IntOp.cmpi .sle (idx (ix1 (i 0))) 99999#32) = 1#1
    exact cmpi_range _ _ 100000 (by decide) (hin (i 0))
  funext j
  unfold takeU
  rw [hok, hc]
  rfl
theorem takeR_eq (x : Model.Mat 250000 64) (idx : Model.Ixs 1500000) (hin : Below 250000 idx) :
    takeR x idx = opsK.gatR x (Model.col idx) := by
  have hw : wrapR idx = idx := wrap_id _ _ idx (fun k => (hin k).1)
  have hc : wcolR idx = Model.col idx := by
    unfold wcolR; rw [hw]; exact bcast_col _ idx
  have hok : okR idx = fun _ => 1#1 := by
    funext j
    unfold okR
    refine reduce_andi_ones _ _ _ _ (fun i => ?_) (fun _ => rfl) j
    rw [hc]
    show IntOp.andi (IntOp.cmpi .sge (idx (ix1 (i 0))) 0#32) (IntOp.cmpi .sle (idx (ix1 (i 0))) 249999#32) = 1#1
    exact cmpi_range _ _ 250000 (by decide) (hin (i 0))
  funext j
  unfold takeR
  rw [hok, hc]
  rfl
theorem takeLU_eq (x : Model.Mat 100000 64) (idx : Model.Ixs 500000) (hin : Below 100000 idx) :
    takeLU x idx = opsK.gatLU x (Model.col idx) := by
  have hw : wrapLU idx = idx := wrap_id _ _ idx (fun k => (hin k).1)
  have hc : wcolLU idx = Model.col idx := by
    unfold wcolLU; rw [hw]; exact bcast_col _ idx
  have hok : okLU idx = fun _ => 1#1 := by
    funext j
    unfold okLU
    refine reduce_andi_ones _ _ _ _ (fun i => ?_) (fun _ => rfl) j
    rw [hc]
    show IntOp.andi (IntOp.cmpi .sge (idx (ix1 (i 0))) 0#32) (IntOp.cmpi .sle (idx (ix1 (i 0))) 99999#32) = 1#1
    exact cmpi_range _ _ 100000 (by decide) (hin (i 0))
  funext j
  unfold takeLU
  rw [hok, hc]
  rfl
theorem takeLR_eq (x : Model.Mat 250000 64) (idx : Model.Ixs 500000) (hin : Below 250000 idx) :
    takeLR x idx = opsK.gatLR x (Model.col idx) := by
  have hw : wrapLR idx = idx := wrap_id _ _ idx (fun k => (hin k).1)
  have hc : wcolLR idx = Model.col idx := by
    unfold wcolLR; rw [hw]; exact bcast_col _ idx
  have hok : okLR idx = fun _ => 1#1 := by
    funext j
    unfold okLR
    refine reduce_andi_ones _ _ _ _ (fun i => ?_) (fun _ => rfl) j
    rw [hc]
    show IntOp.andi (IntOp.cmpi .sge (idx (ix1 (i 0))) 0#32) (IntOp.cmpi .sle (idx (ix1 (i 0))) 249999#32) = 1#1
    exact cmpi_range _ _ 250000 (by decide) (hin (i 0))
  funext j
  unfold takeLR
  rw [hok, hc]
  rfl

end Cert.KernelIdeal.Chain

end
-- ==== Proof.TakeRunA.lean ====
import proofs.«425228_j78254304133410_2_alg».proof.Proof.KState
import proofs.«425228_j78254304133410_2_alg».proof.Proof.Take

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.Model Cert.Spec
open Idealize.ShloMosaic Idealize.ShloMosaic.TcCoe Idealize.ShloMosaic.ValueIdx Idealize.SL.Sem
open scoped BigOperators

theorem tra_toBuf_v28 (v : (⟨S1500000x64, .f32⟩ : BufTy).Contents (Elt Ideal)) :
    (StableHlo.TRef.of (T := ⟨S1500000x64, .f32⟩) main_v28).toBuf v = v := rfl
theorem tra_ofBuf_v13 (v : (StableHlo.TRef.of (T := ⟨S100000x64, .f32⟩) main_v13).ref.ty.Contents (Elt Ideal)) :
    (StableHlo.TRef.of (T := ⟨S100000x64, .f32⟩) main_v13).ofBuf v = v := rfl
theorem tra_ofBuf_arg30 (v : (StableHlo.TRef.of (T := ⟨S1500000, .i32⟩) main_arg30).ref.ty.Contents (Elt Ideal)) :
    (StableHlo.TRef.of (T := ⟨S1500000, .i32⟩) main_arg30).ofBuf v = v := rfl

set_option maxRecDepth 200000 in
theorem take_run6 (X : Valuation τ sig (Elt Ideal)) :
    StableHlo.after hostOps6 X (Proc.devRef .tc main_v28)
      = takeU (X (Proc.devRef .tc main_v13)) (X (Proc.devRef .tc main_arg30)) := by
  dsimp only [hostOps6]
  after_results_simp
  simp only [ofBuf_toBuf, tra_toBuf_v28, tra_ofBuf_v13, tra_ofBuf_arg30]
  unfold takeU okU wcolU wrapU
  rfl

end Cert.KernelIdeal.Chain

end
-- ==== Proof.KPhaseCD.lean ====
import proofs.«425228_j78254304133410_2_alg».proof.Proof.KState
import proofs.«425228_j78254304133410_2_alg».proof.Proof.KArgs
import proofs.«425228_j78254304133410_2_alg».proof.Proof.Consts
import proofs.«425228_j78254304133410_2_alg».proof.Proof.Regs
import proofs.«425228_j78254304133410_2_alg».proof.Proof.Take
import proofs.«425228_j78254304133410_2_alg».proof.Proof.TakeRunA
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.KernelIdeal.RegVal Cert.Model Cert.Spec
open Idealize.ShloMosaic Idealize.ShloMosaic.TcCoe Idealize.ShloMosaic.ValueIdx Idealize.SL.Sem
open scoped BigOperators

theorem cd_sum25_apply (p : FVec Ideal S25x1x64 .f32) (j : Fin 64) :
    (Host.reduceAdd p (constant (F := Ideal) S_ .f32 0x00000000#32) reducesTo_S25x1x64_S1x64_d0 h_S_ : FVec Ideal S1x64 .f32)
        (ix2 (0 : Fin 1) j) = ∑ t : Fin 25, p (ix3 t (0 : Fin 1) j) := by
  have h : S25x1x64.Reduces [0] S1x64 := by decide
  refine (hostReduceAdd_apply p _ reducesTo_S25x1x64_S1x64_d0 h_S_ (ix2 (0 : Fin 1) j)).trans ?_
  rw [Ideal.hostReduceAdd_single reducesTo_S25x1x64_S1x64_d0 h]
  show Ideal.ofBits .f32 0x00000000#32 + _ = _
  rw [Ideal.ofBits_zero_f32, zero_add]
  refine Finset.sum_congr rfl fun t _ => congrArg p ?_
  funext a
  apply Fin.ext
  match a with
  | ⟨0, _⟩ => rfl
  | ⟨1, _⟩ => rfl
  | ⟨2, _⟩ => rfl

theorem cd_mean_of_blocks {N nb : Nat} (hN : N = nb * 10000) (cN : EReal) (rows : Fin N → Fin 64 → EReal) (j : Fin 64) :
    Ideal.div (∑ t : Fin nb, Spec.blockSums hN rows t j) cN = Spec.colMean cN rows j := by
  rw [Spec.sum_blockSums]
  rfl

theorem cd_var_of_blocks {N nb : Nat} (hN : N = nb * 10000) {cN : EReal} {r : ℝ} (hc : cN = (r : EReal)) (hr : 0 < r)
    (rows : Fin N → Fin 64 → EReal) (μ : Fin 64 → EReal) (j : Fin 64) :
    max (Ideal.div (∑ t : Fin nb, Spec.blockSums hN (fun a l => (rows a l - μ l) * (rows a l - μ l)) t j) cN) 0
      = Spec.colVar cN rows μ j := by
  rw [Spec.sum_blockSums]
  exact congrFun (Spec.colVarK_eq hc hr rows μ) j

section HostC
variable (X : Valuation τ sig (Elt Ideal))

theorem cd_h61_v31 : StableHlo.after hostOps6_1 X (Proc.devRef .tc main_v31)
    = opsK.scR (fun _ => Model.zeroW) (Model.col (X (Proc.devRef .tc main_arg31))) (X (Proc.devRef .tc main_v28)) := by
  have e : StableHlo.after hostOps6_1 X (Proc.devRef .tc main_v31)
      = (Host.scatterAdd scatter_S250000x64_S1500000x1_S1500000x64_1_0_0_1
          (broadcastInDim S250000x64 ![] bcast_S_S250000x64 (constant (F := Ideal) S_ .f32 0x00000000#32))
          (broadcastInDim S1500000x1 ![0] bcast_S1500000_S1500000x1_0 (X (Proc.devRef .tc main_arg31)))
          (X (Proc.devRef .tc main_v28)) : FVec Ideal S250000x64 .f32) := by
    after_results
  rw [e, bcast_const, bcast_col]
  rfl

theorem cd_h61_v35 : StableHlo.after hostOps6_1 X (Proc.devRef .tc main_v35)
    = opsK.scR1 (fun _ => Model.zeroW) (Model.col (X (Proc.devRef .tc main_arg31))) (fun _ => Spec.oneW) := by
  have e : StableHlo.after hostOps6_1 X (Proc.devRef .tc main_v35)
      = (Host.scatterAdd scatter_S250000x1_S1500000x1_S1500000x1_1_0_0_1
          (broadcastInDim S250000x1 ![] bcast_S_S250000x1 (constant (F := Ideal) S_ .f32 0x00000000#32))
          (broadcastInDim S1500000x1 ![0] bcast_S1500000_S1500000x1_0 (X (Proc.devRef .tc main_arg31)))
          (broadcastInDim S1500000x1 ![] bcast_S_S1500000x1 (constant (F := Ideal) S_ .f32 0x3F800000#32)) : FVec Ideal S250000x1 .f32) := by
    after_results
  rw [e, bcast_const, bcast_const, bcast_col]
  rfl

theorem cd_h61_v36 : StableHlo.after hostOps6_1 X (Proc.devRef .tc main_v36)
    = (shapeCast S1x64 (X (Proc.devRef .tc main_arg11)) shapeCasts_S64_S1x64 : FVec Ideal S1x64 .f32) := by
  after_results; rfl

theorem cd_h7_v40 (j : Fin 64) : (StableHlo.after hostOps7 X (Proc.devRef .tc main_v40) : FVec Ideal S1x64 .f32) (ix2 (0 : Fin 1) j)
    = Ideal.div (∑ t : Fin 25, (X (Proc.devRef .tc main_v37_1) : FVec Ideal S25x1x64 .f32) (ix3 t (0 : Fin 1) j)) Spec.nRW := by
  have e : StableHlo.after hostOps7 X (Proc.devRef .tc main_v40)
      = (Host.divf (Host.reduceAdd (X (Proc.devRef .tc main_v37_1)) (constant (F := Ideal) S_ .f32 0x00000000#32) reducesTo_S25x1x64_S1x64_d0 h_S_)
          (broadcastInDim S1x64 ![] bcast_S_S1x64 (constant (F := Ideal) S_ .f32 0x48742400#32)) : FVec Ideal S1x64 .f32) := by
    after_results
  rw [e, bcast_const]
  refine (hostDivf_apply _ _ _).trans ?_
  rw [cd_sum25_apply]

theorem cd_h8_v46 (j : Fin 64) : (StableHlo.after hostOps8 X (Proc.devRef .tc main_v46) : FVec Ideal S1x64 .f32) (ix2 (0 : Fin 1) j)
    = max (Ideal.div (∑ t : Fin 25, (X (Proc.devRef .tc main_v41) : FVec Ideal S25x1x64 .f32) (ix3 t (0 : Fin 1) j)) Spec.nRW) 0 := by
  have e : StableHlo.after hostOps8 X (Proc.devRef .tc main_v46)
      = (maximumf (Host.divf (Host.reduceAdd (X (Proc.devRef .tc main_v41)) (constant (F := Ideal) S_ .f32 0x00000000#32) reducesTo_S25x1x64_S1x64_d0 h_S_)
          (broadcastInDim S1x64 ![] bcast_S_S1x64 (constant (F := Ideal) S_ .f32 0x48742400#32)))
          (broadcastInDim S1x64 ![] bcast_S_S1x64 (constant (F := Ideal) S_ .f32 0x00000000#32)) : FVec Ideal S1x64 .f32) := by
    after_results
  rw [e, bcast_const, bcast_const]
  refine (maximumf_apply _ _ _).trans ?_
  rw [Ideal.ofBits_zero_f32]
  refine congrArg (max · 0) ?_
  refine (hostDivf_apply _ _ _).trans ?_
  rw [cd_sum25_apply]

theorem cd_h8_v47 : StableHlo.after hostOps8 X (Proc.devRef .tc main_v47)
    = (shapeCast S1x64 (X (Proc.devRef .tc main_arg18)) shapeCasts_S64_S1x64 : FVec Ideal S1x64 .f32) := by
  after_results; rfl
theorem cd_h8_v48 : StableHlo.after hostOps8 X (Proc.devRef .tc main_v48)
    = (shapeCast S1x64 (X (Proc.devRef .tc main_arg19)) shapeCasts_S64_S1x64 : FVec Ideal S1x64 .f32) := by
  after_results; rfl

end HostC

section RegionsAny
variable (V : (c : Dev nD) → (b : Ref sig .tc) → Buf (Elt Ideal) ((c : Thread nD τ).loc b)) (c : Dev nD)

theorem cd_sage6_of (agg own : Model.Mat 250000 64) (cnt : Model.Mat 250000 1) (Wl Wr : Model.Mat 64 64) (blv : Fin 64 → EReal)
    (h0 : agg6 V c = agg) (h1 : cnt6 V c = cnt) (h2 : xd6 V c = own) (h3 : wl6 V c = Wl)
    (h4 : ∀ j, bl6 V c (ix2 (0 : Fin 1) j) = blv j) (h5 : wr6 V c = Wr) :
    sage6 V c = Spec.sage Spec.oneW (Model.toF agg) (Model.col1 cnt) (Model.toF own) (Model.toF Wl) blv (Model.toF Wr) := by
  subst h0 h1 h2 h3 h5
  obtain rfl : (fun j => bl6 V c (ix2 (0 : Fin 1) j)) = blv := funext h4
  rfl

theorem cd_y6_of (rows : Fin 250000 → Fin 64 → EReal) (h : sage6 V c = rows) : y6 V c = Model.ofF rows := by
  subst h
  exact reg6_y V c
theorem cd_p6_of (rows : Fin 250000 → Fin 64 → EReal) (h : sage6 V c = rows) :
    p6 V c = fun i => Spec.blockSums (show 250000 = 25 * 10000 from rfl) rows (i 0) (i 2) := by
  subst h
  exact reg6_parts V c

theorem cd_q7_of (y : Model.Mat 250000 64) (μ : Fin 64 → EReal) (h0 : y7 V c = y)
    (h1 : ∀ l, mu7 V c (ix2 (0 : Fin 1) l) = μ l) :
    q7 V c = fun i => Spec.blockSums (show 250000 = 25 * 10000 from rfl)
      (fun a l => (Model.toF y a l - μ l) * (Model.toF y a l - μ l)) (i 0) (i 2) := by
  subst h0
  obtain rfl : (fun l => mu7 V c (ix2 (0 : Fin 1) l)) = μ := funext h1
  exact reg7_parts V c

theorem cd_o8_of (y : Model.Mat 250000 64) (g β μ v : Fin 64 → EReal) (h0 : y8 V c = y)
    (h1 : ∀ j, mu8 V c (ix2 (0 : Fin 1) j) = μ j) (h2 : ∀ j, va8 V c (ix2 (0 : Fin 1) j) = v j)
    (h3 : ∀ j, g8 V c (ix2 (0 : Fin 1) j) = g j) (h4 : ∀ j, be8 V c (ix2 (0 : Fin 1) j) = β j) :
    o8 V c = Model.ofF (Spec.relu (Spec.bn Spec.epsW g β μ v (Model.toF y))) := by
  subst h0
  obtain rfl : (fun j => mu8 V c (ix2 (0 : Fin 1) j)) = μ := funext h1
  obtain rfl : (fun j => va8 V c (ix2 (0 : Fin 1) j)) = v := funext h2
  obtain rfl : (fun j => g8 V c (ix2 (0 : Fin 1) j)) = g := funext h3
  obtain rfl : (fun j => be8 V c (ix2 (0 : Fin 1) j)) = β := funext h4
  exact reg8_out V c

end RegionsAny

variable (m : (ℓ : Loc nD τ sig) → Buf (Elt Ideal) ℓ) (ρ : Dev nD → PrngReg) (c : Dev nD)

abbrev cd_rowsR : Fin 250000 → Fin 64 → EReal := Model.toF (Model.r1p opsK (argsK m c))
abbrev cd_muR : Fin 64 → EReal := Spec.colMean Spec.nRW (cd_rowsR m c)

section ChainC
variable (hin : Model.InRange (argsK m c))
  (hB27 : W12 m ρ c (Proc.devRef .tc main_v27) = Model.hr (argsK m c))
  (hB13 : W12 m ρ c (Proc.devRef .tc main_v13) = Model.hu (argsK m c))
include hin hB27 hB13

theorem cd_W13_v28 : W13 m ρ c (Proc.devRef .tc main_v28)
    = opsK.gatU (Model.hu (argsK m c)) (Model.col (argsK m c).eU) := by
  refine (take_run6 (W12 m ρ c)).trans ?_
  rw [hB13, W12_arg m ρ c main_arg30 (by decide)]
  exact takeU_eq _ _ hin.eU

theorem cd_W14_v31 : W14 m ρ c (Proc.devRef .tc main_v31)
    = Model.aggRStage opsK (Model.hu (argsK m c)) (argsK m c).eU (argsK m c).eR := by
  refine (cd_h61_v31 (W13 m ρ c)).trans ?_
  rw [W13_arg m ρ c main_arg31 (by decide), cd_W13_v28 m ρ c hin hB27 hB13]
  rfl

theorem cd_W14_v35 : W14 m ρ c (Proc.devRef .tc main_v35) = Model.cntR opsK (argsK m c) := by
  refine (cd_h61_v35 (W13 m ρ c)).trans ?_
  rw [W13_arg m ρ c main_arg31 (by decide)]
  rfl

theorem cd_W14_v36 : W14 m ρ c (Proc.devRef .tc main_v36)
    = (shapeCast S1x64 (argsK m c).bl1ur shapeCasts_S64_S1x64 : FVec Ideal S1x64 .f32) := by
  refine (cd_h61_v36 (W13 m ρ c)).trans ?_
  rw [W13_arg m ρ c main_arg11 (by decide)]
  rfl

theorem cd_W14_v27 : W14 m ρ c (Proc.devRef .tc main_v27) = Model.hr (argsK m c) :=
  (W14_keeps m ρ c main_v27 (by decide)).trans ((W13_keeps m ρ c main_v27 (by decide)).trans hB27)
theorem cd_W14_v13 : W14 m ρ c (Proc.devRef .tc main_v13) = Model.hu (argsK m c) :=
  (W14_keeps m ρ c main_v13 (by decide)).trans ((W13_keeps m ρ c main_v13 (by decide)).trans hB13)

theorem cd_sage6 : sage6 (V14 m ρ) c = cd_rowsR m c :=
  cd_sage6_of (V14 m ρ) c _ _ _ _ _ (Model.vec (argsK m c).bl1ur)
    (cd_W14_v31 m ρ c hin hB27 hB13) (cd_W14_v35 m ρ c hin hB27 hB13) (cd_W14_v27 m ρ c hin hB27 hB13) (W14_arg m ρ c main_arg10 (by decide))
    (fun j => (congrFun (cd_W14_v36 m ρ c hin hB27 hB13) _).trans (shapeCast_a_1a_apply _ _ 0 j)) (W14_arg m ρ c main_arg12 (by decide))

theorem cd_W15_v37_0 : W15 m ρ c (Proc.devRef .tc main_v37_0) = Model.r1p opsK (argsK m c) :=
  (W15_arr m ρ c 6).trans ((cd_y6_of (V14 m ρ) c _ (cd_sage6 m ρ c hin hB27 hB13)).trans (Model.ofF_toF _))

theorem cd_W15_v37_1 : W15 m ρ c (Proc.devRef .tc main_v37_1)
    = fun i => Spec.blockSums (show 250000 = 25 * 10000 from rfl) (cd_rowsR m c) (i 0) (i 2) :=
  (W15_arr m ρ c 7).trans (cd_p6_of (V14 m ρ) c _ (cd_sage6 m ρ c hin hB27 hB13))

theorem cd_W16_v40 (j : Fin 64) :
    (W16 m ρ c (Proc.devRef .tc main_v40) : FVec Ideal S1x64 .f32) (ix2 (0 : Fin 1) j) = cd_muR m c j := by
  refine (cd_h7_v40 (W15 m ρ c) j).trans ?_
  rw [cd_W15_v37_1 m ρ c hin hB27 hB13]
  exact cd_mean_of_blocks _ Spec.nRW (cd_rowsR m c) j

theorem cd_W16_v37 : W16 m ρ c (Proc.devRef .tc main_v37_0) = Model.r1p opsK (argsK m c) :=
  (W16_keeps m ρ c main_v37_0 (by decide)).trans (cd_W15_v37_0 m ρ c hin hB27 hB13)

theorem cd_W17_v41 : W17 m ρ c (Proc.devRef .tc main_v41)
    = fun i => Spec.blockSums (show 250000 = 25 * 10000 from rfl)
        (fun a l => (cd_rowsR m c a l - cd_muR m c l) * (cd_rowsR m c a l - cd_muR m c l)) (i 0) (i 2) :=
  (W17_arr m ρ c 2).trans (cd_q7_of (V16 m ρ) c _ (cd_muR m c) (cd_W16_v37 m ρ c hin hB27 hB13)
    (fun l => cd_W16_v40 m ρ c hin hB27 hB13 l))

theorem cd_W18_v46 (j : Fin 64) :
    (W18 m ρ c (Proc.devRef .tc main_v46) : FVec Ideal S1x64 .f32) (ix2 (0 : Fin 1) j)
      = Spec.colVar Spec.nRW (cd_rowsR m c) (cd_muR m c) j := by
  refine (cd_h8_v46 (W17 m ρ c) j).trans ?_
  rw [cd_W17_v41 m ρ c hin hB27 hB13]
  exact cd_var_of_blocks _ Cert.Consts.ofBits_25e4 (by norm_num) (cd_rowsR m c) (cd_muR m c) j

theorem cd_W18_v40 (j : Fin 64) :
    (W18 m ρ c (Proc.devRef .tc main_v40) : FVec Ideal S1x64 .f32) (ix2 (0 : Fin 1) j) = cd_muR m c j :=
  (congrFun ((W18_keeps m ρ c main_v40 (by decide)).trans (W17_keeps m ρ c main_v40 (by decide))) _).trans (cd_W16_v40 m ρ c hin hB27 hB13 j)

theorem cd_W18_v37 : W18 m ρ c (Proc.devRef .tc main_v37_0) = Model.r1p opsK (argsK m c) :=
  (W18_keeps m ρ c main_v37_0 (by decide)).trans ((W17_keeps m ρ c main_v37_0 (by decide)).trans (cd_W16_v37 m ρ c hin hB27 hB13))

theorem cd_W18_v47 (j : Fin 64) :
    (W18 m ρ c (Proc.devRef .tc main_v47) : FVec Ideal S1x64 .f32) (ix2 (0 : Fin 1) j) = Model.vec (argsK m c).g1r j := by
  refine (congrFun (cd_h8_v47 (W17 m ρ c)) _).trans ?_
  rw [W17_arg m ρ c main_arg18 (by decide)]
  exact shapeCast_a_1a_apply _ _ 0 j
theorem cd_W18_v48 (j : Fin 64) :
    (W18 m ρ c (Proc.devRef .tc main_v48) : FVec Ideal S1x64 .f32) (ix2 (0 : Fin 1) j) = Model.vec (argsK m c).b1r j := by
  refine (congrFun (cd_h8_v48 (W17 m ρ c)) _).trans ?_
  rw [W17_arg m ρ c main_arg19 (by decide)]
  exact shapeCast_a_1a_apply _ _ 0 j

theorem cd_W19_v49 : W19 m ρ c (Proc.devRef .tc main_v49) = Model.r1 opsK (argsK m c) :=
  (W19_arr m ρ c 5).trans (cd_o8_of (V18 m ρ) c _ (Model.vec (argsK m c).g1r) (Model.vec (argsK m c).b1r) (cd_muR m c)
    (Spec.colVar Spec.nRW (cd_rowsR m c) (cd_muR m c)) (cd_W18_v37 m ρ c hin hB27 hB13)
    (fun j => cd_W18_v40 m ρ c hin hB27 hB13 j) (fun j => cd_W18_v46 m ρ c hin hB27 hB13 j)
    (fun j => cd_W18_v47 m ρ c hin hB27 hB13 j) (fun j => cd_W18_v48 m ρ c hin hB27 hB13 j))

end ChainC

/-- The first neighbour-mean layer on the recipe side, normalised and clamped. -/
theorem phaseC (hin : Model.InRange (argsK m c))
    (hB : W12 m ρ c (Proc.devRef .tc main_v27) = Model.hr (argsK m c) ∧ W12 m ρ c (Proc.devRef .tc main_v13) = Model.hu (argsK m c)) :
    W19 m ρ c (Proc.devRef .tc main_v49) = Model.r1 opsK (argsK m c)
    ∧ W19 m ρ c (Proc.devRef .tc main_v35) = Model.cntR opsK (argsK m c)
    ∧ W19 m ρ c (Proc.devRef .tc main_v13) = Model.hu (argsK m c)
    ∧ W19 m ρ c (Proc.devRef .tc main_v27) = Model.hr (argsK m c) := by
  refine ⟨cd_W19_v49 m ρ c hin hB.1 hB.2, ?_, ?_, ?_⟩
  · exact (W19_keeps m ρ c main_v35 (by decide)).trans ((W18_keeps m ρ c main_v35 (by decide)).trans ((W17_keeps m ρ c main_v35 (by decide)).trans ((W16_keeps m ρ c main_v35 (by decide)).trans
      ((W15_keeps m ρ c main_v35 (by decide)).trans (cd_W14_v35 m ρ c hin hB.1 hB.2)))))
  · exact (W19_keeps m ρ c main_v13 (by decide)).trans ((W18_keeps m ρ c main_v13 (by decide)).trans ((W17_keeps m ρ c main_v13 (by decide)).trans ((W16_keeps m ρ c main_v13 (by decide)).trans
      ((W15_keeps m ρ c main_v13 (by decide)).trans (cd_W14_v13 m ρ c hin hB.1 hB.2)))))
  · exact (W19_keeps m ρ c main_v27 (by decide)).trans ((W18_keeps m ρ c main_v27 (by decide)).trans ((W17_keeps m ρ c main_v27 (by decide)).trans ((W16_keeps m ρ c main_v27 (by decide)).trans
      ((W15_keeps m ρ c main_v27 (by decide)).trans (cd_W14_v27 m ρ c hin hB.1 hB.2)))))

end Cert.KernelIdeal.Chain

end
-- ==== Proof.KPhaseD.lean ====
import proofs.«425228_j78254304133410_2_alg».proof.Proof.KState
import proofs.«425228_j78254304133410_2_alg».proof.Proof.KArgs
import proofs.«425228_j78254304133410_2_alg».proof.Proof.Consts
import proofs.«425228_j78254304133410_2_alg».proof.Proof.Regs
import proofs.«425228_j78254304133410_2_alg».proof.Proof.Take

import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.KernelIdeal.RegVal Cert.Model Cert.Spec
open Idealize.ShloMosaic Idealize.ShloMosaic.TcCoe Idealize.ShloMosaic.ValueIdx Idealize.SL.Sem
open scoped BigOperators

theorem d_ofBuf_arg31 (h1 h2 h3) (v : main_arg31.ty.Contents (Elt Ideal)) :
    (StableHlo.TRef.of (sig := sig) (T := ⟨S1500000, .i32⟩) main_arg31 h1 h2 h3).ofBuf v
      = (v : (⟨S1500000, .i32⟩ : BufTy).Contents (Elt Ideal)) := rfl
theorem d_ofBuf_v27 (h1 h2 h3) (v : main_v27.ty.Contents (Elt Ideal)) :
    (StableHlo.TRef.of (sig := sig) (T := ⟨S250000x64, .f32⟩) main_v27 h1 h2 h3).ofBuf v
      = (v : (⟨S250000x64, .f32⟩ : BufTy).Contents (Elt Ideal)) := rfl
theorem d_toBuf_v50 (h1 h2 h3) (v : (⟨S1500000x64, .f32⟩ : BufTy).Contents (Elt Ideal)) :
    (StableHlo.TRef.of (sig := sig) (T := ⟨S1500000x64, .f32⟩) main_v50 h1 h2 h3).toBuf v
      = (v : main_v50.ty.Contents (Elt Ideal)) := rfl
set_option maxRecDepth 200000 in
theorem d_h9_v50 (X : Valuation τ sig (Elt Ideal)) :
    StableHlo.after hostOps9 X (Proc.devRef .tc main_v50)
      = takeR (X (Proc.devRef .tc main_v27)) (X (Proc.devRef .tc main_arg31)) := by
  dsimp only [hostOps9]
  after_results_simp
  simp only [ofBuf_toBuf, d_ofBuf_arg31, d_ofBuf_v27, d_toBuf_v50]
  unfold takeR okR wcolR wrapR
  rfl

section Host
variable (X : Valuation τ sig (Elt Ideal))

theorem d_h91_v53 : (StableHlo.after hostOps9_1 X (Proc.devRef .tc main_v53) : Model.Mat 100000 64)
    = opsK.scU (fun _ => Model.zeroW) (Model.col (X (Proc.devRef .tc main_arg30))) (X (Proc.devRef .tc main_v50)) := by
  have e : StableHlo.after hostOps9_1 X (Proc.devRef .tc main_v53)
      = (Host.scatterAdd scatter_S100000x64_S1500000x1_S1500000x64_1_0_0_1
          (broadcastInDim S100000x64 ![] bcast_S_S100000x64 (constant (F := Ideal) S_ .f32 0x00000000#32))
          (broadcastInDim S1500000x1 ![0] bcast_S1500000_S1500000x1_0 (X (Proc.devRef .tc main_arg30)))
          (X (Proc.devRef .tc main_v50)) : FVec Ideal S100000x64 .f32) := by
    dsimp only [hostOps9_1]
    after_results <;> rfl
  rw [e, bcast_const, bcast_col]
  rfl

theorem d_h91_v57 : (StableHlo.after hostOps9_1 X (Proc.devRef .tc main_v57) : Model.Mat 100000 1)
    = opsK.scU1 (fun _ => Model.zeroW) (Model.col (X (Proc.devRef .tc main_arg30))) (fun _ => Spec.oneW) := by
  have e : StableHlo.after hostOps9_1 X (Proc.devRef .tc main_v57)
      = (Host.scatterAdd scatter_S100000x1_S1500000x1_S1500000x1_1_0_0_1
          (broadcastInDim S100000x1 ![] bcast_S_S100000x1 (constant (F := Ideal) S_ .f32 0x00000000#32))
          (broadcastInDim S1500000x1 ![0] bcast_S1500000_S1500000x1_0 (X (Proc.devRef .tc main_arg30)))
          (broadcastInDim S1500000x1 ![] bcast_S_S1500000x1 (constant (F := Ideal) S_ .f32 0x3F800000#32)) : FVec Ideal S100000x1 .f32) := by
    dsimp only [hostOps9_1]
    after_results <;> rfl
  rw [e, bcast_const, bcast_const, bcast_col]
  rfl

theorem d_h91_v58 : (StableHlo.after hostOps9_1 X (Proc.devRef .tc main_v58) : Vec Ideal S1x64 .f32)
    = shapeCast S1x64 (X (Proc.devRef .tc main_arg14) : Vec Ideal S64 .f32) shapeCasts_S64_S1x64 := by
  dsimp only [hostOps9_1]
  after_results <;> rfl

end Host

variable (m : (ℓ : Loc nD τ sig) → Buf (Elt Ideal) ℓ) (ρ : Dev nD → PrngReg) (c : Dev nD)

def d_sgU (A : Model.Args) : Fin 100000 → Fin 64 → EReal :=
  Spec.sage Spec.oneW (toF (Model.aggUStage opsK (Model.hr A) A.eU A.eR)) (col1 (Model.cntU opsK A)) (toF (Model.hu A))
    (toF A.Wl1ru) (vec A.bl1ru) (toF A.Wr1ru)
def d_muU (A : Model.Args) : Fin 64 → EReal := Spec.colMean Spec.nUW (d_sgU A)
def d_varU (A : Model.Args) : Fin 64 → EReal := Spec.colVar Spec.nUW (d_sgU A) (d_muU A)

theorem d_W20_v50 (hin : Model.InRange (argsK m c))
    (h27 : W19 m ρ c (Proc.devRef .tc main_v27) = Model.hr (argsK m c)) :
    (W20 m ρ c (Proc.devRef .tc main_v50) : Model.Mat 1500000 64)
      = opsK.gatR (Model.hr (argsK m c)) (Model.col (argsK m c).eR) :=
  (d_h9_v50 (W19 m ρ c)).trans ((congrArg₂ takeR h27 (W19_arg m ρ c main_arg31 (by decide))).trans (takeR_eq _ _ hin.eR))

theorem d_W21_v53 (hin : Model.InRange (argsK m c))
    (h27 : W19 m ρ c (Proc.devRef .tc main_v27) = Model.hr (argsK m c)) :
    (W21 m ρ c (Proc.devRef .tc main_v53) : Model.Mat 100000 64)
      = Model.aggUStage opsK (Model.hr (argsK m c)) (argsK m c).eU (argsK m c).eR :=
  (d_h91_v53 (W20 m ρ c)).trans
    (congrArg₂ (fun (i : Model.Ixs 1500000) (u : Model.Mat 1500000 64) => opsK.scU (fun _ => Model.zeroW) (Model.col i) u)
      (W20_arg m ρ c main_arg30 (by decide)) (d_W20_v50 m ρ c hin h27))

theorem d_W21_v57 : (W21 m ρ c (Proc.devRef .tc main_v57) : Model.Mat 100000 1) = Model.cntU opsK (argsK m c) :=
  (d_h91_v57 (W20 m ρ c)).trans
    (congrArg (fun (i : Model.Ixs 1500000) => opsK.scU1 (fun _ => Model.zeroW) (Model.col i) (fun _ => Spec.oneW))
      (W20_arg m ρ c main_arg30 (by decide)))

theorem d_sage9_V21 (hin : Model.InRange (argsK m c))
    (h27 : W19 m ρ c (Proc.devRef .tc main_v27) = Model.hr (argsK m c))
    (h13 : W19 m ρ c (Proc.devRef .tc main_v13) = Model.hu (argsK m c)) :
    sage9 (V21 m ρ) c = d_sgU (argsK m c) := by
  have ha : agg9 (V21 m ρ) c = Model.aggUStage opsK (Model.hr (argsK m c)) (argsK m c).eU (argsK m c).eR :=
    d_W21_v53 m ρ c hin h27
  have hc : cnt9 (V21 m ρ) c = Model.cntU opsK (argsK m c) := d_W21_v57 m ρ c
  have hx : xd9 (V21 m ρ) c = Model.hu (argsK m c) :=
    (W21_keeps m ρ c main_v13 (by decide)).trans ((W20_keeps m ρ c main_v13 (by decide)).trans h13)
  have hwl : wl9 (V21 m ρ) c = (argsK m c).Wl1ru := W21_arg m ρ c main_arg13 (by decide)
  have hwr : wr9 (V21 m ρ) c = (argsK m c).Wr1ru := W21_arg m ρ c main_arg15 (by decide)
  have hb : ∀ j : Fin 64, bl9 (V21 m ρ) c (ix2 0 j) = (argsK m c).bl1ru (ix1 j) := fun j =>
    (congrFun (d_h91_v58 (W20 m ρ c)) (ix2 0 j)).trans ((shapeCast_a_1a_apply _ _ 0 j).trans
      (congrFun (W20_arg m ρ c main_arg14 (by decide)) (ix1 j)))
  unfold sage9
  rw [ha, hc, hx, hwl, hwr, funext hb]
  rfl

theorem d_W22_v59_0 (hs : sage9 (V21 m ρ) c = d_sgU (argsK m c)) :
    (W22 m ρ c (Proc.devRef .tc main_v59_0) : Vec Ideal S100000x64 .f32) = fun i => d_sgU (argsK m c) (i 0) (i 1) :=
  (W22_arr m ρ c 6).trans ((reg9_y (V21 m ρ) c).trans (congrArg (fun f (i : S100000x64.Idx) => f (i 0) (i 1)) hs))

theorem d_W22_v59_1 (hs : sage9 (V21 m ρ) c = d_sgU (argsK m c)) :
    (W22 m ρ c (Proc.devRef .tc main_v59_1) : Vec Ideal S10x1x64 .f32)
      = fun i => Spec.blockSums (show 100000 = 10 * 10000 from rfl) (d_sgU (argsK m c)) (i 0) (i 2) :=
  (W22_arr m ρ c 7).trans ((reg9_parts (V21 m ρ) c).trans
    (congrArg (fun f (i : S10x1x64.Idx) => Spec.blockSums (show 100000 = 10 * 10000 from rfl) f (i 0) (i 2)) hs))

theorem d_W23_v62_eq : (W23 m ρ c (Proc.devRef .tc main_v62) : Vec Ideal S1x64 .f32)
    = Host.divf (Host.reduceAdd (W22 m ρ c (Proc.devRef .tc main_v59_1) : Vec Ideal S10x1x64 .f32)
          (constant (F := Ideal) S_ .f32 0x00000000#32) reducesTo_S10x1x64_S1x64_d0 h_S_)
        (broadcastInDim S1x64 ![] bcast_S_S1x64 (constant (F := Ideal) S_ .f32 0x47C35000#32)) := by
  show StableHlo.after hostOps10 (W22 m ρ c) (Proc.devRef .tc main_v62) = _
  dsimp only [hostOps10]
  after_results <;> rfl

theorem d_W23_v62_apply (hs : sage9 (V21 m ρ) c = d_sgU (argsK m c)) (j : Fin 64) :
    (W23 m ρ c (Proc.devRef .tc main_v62) : Vec Ideal S1x64 .f32) (ix2 0 j) = d_muU (argsK m c) j :=
  (congrFun (d_W23_v62_eq m ρ c) (ix2 0 j)).trans
    (blockMean_apply (show 100000 = 10 * 10000 from rfl) reducesTo_S10x1x64_S1x64_d0 (by decide) h_S_ bcast_S_S1x64
      _ (d_sgU (argsK m c)) (d_W22_v59_1 m ρ c hs) 0x47C35000#32 j)

theorem d_dev10_V23 (hs : sage9 (V21 m ρ) c = d_sgU (argsK m c)) : dev10 (V23 m ρ) c
    = fun a j => (d_sgU (argsK m c) a j - d_muU (argsK m c) j) * (d_sgU (argsK m c) a j - d_muU (argsK m c) j) := by
  have hy : y10 (V23 m ρ) c = fun i => d_sgU (argsK m c) (i 0) (i 1) :=
    (W23_keeps m ρ c main_v59_0 (by decide)).trans (d_W22_v59_0 m ρ c hs)
  have hm : ∀ j : Fin 64, mu10 (V23 m ρ) c (ix2 0 j) = d_muU (argsK m c) j := d_W23_v62_apply m ρ c hs
  funext a j
  show (y10 (V23 m ρ) c (ix2 a j) - mu10 (V23 m ρ) c (ix2 0 j)) * (y10 (V23 m ρ) c (ix2 a j) - mu10 (V23 m ρ) c (ix2 0 j)) = _
  rw [hy, hm]

theorem d_W24_v63 (hs : sage9 (V21 m ρ) c = d_sgU (argsK m c)) :
    (W24 m ρ c (Proc.devRef .tc main_v63) : Vec Ideal S10x1x64 .f32)
      = fun i => Spec.blockSums (show 100000 = 10 * 10000 from rfl)
          (fun a j => (d_sgU (argsK m c) a j - d_muU (argsK m c) j) * (d_sgU (argsK m c) a j - d_muU (argsK m c) j)) (i 0) (i 2) :=
  (W24_arr m ρ c 2).trans ((reg10_parts (V23 m ρ) c).trans
    (congrArg (fun f (i : S10x1x64.Idx) => Spec.blockSums (show 100000 = 10 * 10000 from rfl) f (i 0) (i 2)) (d_dev10_V23 m ρ c hs)))

theorem d_W25_v68_eq : (W25 m ρ c (Proc.devRef .tc main_v68) : Vec Ideal S1x64 .f32)
    = maximumf (Host.divf (Host.reduceAdd (W24 m ρ c (Proc.devRef .tc main_v63) : Vec Ideal S10x1x64 .f32)
          (constant (F := Ideal) S_ .f32 0x00000000#32) reducesTo_S10x1x64_S1x64_d0 h_S_)
        (broadcastInDim S1x64 ![] bcast_S_S1x64 (constant (F := Ideal) S_ .f32 0x47C35000#32)))
        (broadcastInDim S1x64 ![] bcast_S_S1x64 (constant (F := Ideal) S_ .f32 0x00000000#32)) := by
  show StableHlo.after hostOps11 (W24 m ρ c) (Proc.devRef .tc main_v68) = _
  dsimp only [hostOps11]
  after_results <;> rfl

theorem d_W25_v68_apply (hs : sage9 (V21 m ρ) c = d_sgU (argsK m c)) (j : Fin 64) :
    (W25 m ρ c (Proc.devRef .tc main_v68) : Vec Ideal S1x64 .f32) (ix2 0 j) = d_varU (argsK m c) j := by
  refine (congrFun (d_W25_v68_eq m ρ c) (ix2 0 j)).trans ?_
  refine (blockVar_apply (show 100000 = 10 * 10000 from rfl) reducesTo_S10x1x64_S1x64_d0 (by decide) h_S_ bcast_S_S1x64
    _ _ (d_W24_v63 m ρ c hs) 0x47C35000#32 j).trans ?_
  exact congrFun (Spec.colVarK_eq Cert.Consts.ofBits_1e5 (by norm_num) (d_sgU (argsK m c)) (d_muU (argsK m c))) j

theorem d_W25_v69 : (W25 m ρ c (Proc.devRef .tc main_v69) : Vec Ideal S1x64 .f32)
    = shapeCast S1x64 (W24 m ρ c (Proc.devRef .tc main_arg16) : Vec Ideal S64 .f32) shapeCasts_S64_S1x64 := by
  show StableHlo.after hostOps11 (W24 m ρ c) (Proc.devRef .tc main_v69) = _
  dsimp only [hostOps11]
  after_results <;> rfl
theorem d_W25_v70 : (W25 m ρ c (Proc.devRef .tc main_v70) : Vec Ideal S1x64 .f32)
    = shapeCast S1x64 (W24 m ρ c (Proc.devRef .tc main_arg17) : Vec Ideal S64 .f32) shapeCasts_S64_S1x64 := by
  show StableHlo.after hostOps11 (W24 m ρ c) (Proc.devRef .tc main_v70) = _
  dsimp only [hostOps11]
  after_results <;> rfl

theorem d_W26_v71 (hs : sage9 (V21 m ρ) c = d_sgU (argsK m c)) :
    W26 m ρ c (Proc.devRef .tc main_v71) = Model.u1 opsK (argsK m c) := by
  have hy : y11 (V25 m ρ) c = fun i => d_sgU (argsK m c) (i 0) (i 1) :=
    (W25_keeps m ρ c main_v59_0 (by decide)).trans ((W24_keeps m ρ c main_v59_0 (by decide)).trans ((W23_keeps m ρ c main_v59_0 (by decide)).trans (d_W22_v59_0 m ρ c hs)))
  have hm : ∀ j : Fin 64, mu11 (V25 m ρ) c (ix2 0 j) = d_muU (argsK m c) j := fun j =>
    (congrFun ((W25_keeps m ρ c main_v62 (by decide)).trans (W24_keeps m ρ c main_v62 (by decide))) (ix2 0 j)).trans (d_W23_v62_apply m ρ c hs j)
  have hv : ∀ j : Fin 64, va11 (V25 m ρ) c (ix2 0 j) = d_varU (argsK m c) j := d_W25_v68_apply m ρ c hs
  have hg : ∀ j : Fin 64, g11 (V25 m ρ) c (ix2 0 j) = vec (argsK m c).g1u j := fun j =>
    (congrFun (d_W25_v69 m ρ c) (ix2 0 j)).trans ((shapeCast_a_1a_apply _ _ 0 j).trans
      (congrFun (W24_arg m ρ c main_arg16 (by decide)) (ix1 j)))
  have hβ : ∀ j : Fin 64, be11 (V25 m ρ) c (ix2 0 j) = vec (argsK m c).b1u j := fun j =>
    (congrFun (d_W25_v70 m ρ c) (ix2 0 j)).trans ((shapeCast_a_1a_apply _ _ 0 j).trans
      (congrFun (W24_arg m ρ c main_arg17 (by decide)) (ix1 j)))
  refine (W26_arr m ρ c 5).trans ((reg11_out (V25 m ρ) c).trans ?_)
  rw [hy, funext hm, funext hv, funext hg, funext hβ]
  rfl

/-- The first layer in the other direction, from recipes to users. -/
theorem phaseD (hin : Model.InRange (argsK m c))
    (hC : W19 m ρ c (Proc.devRef .tc main_v49) = Model.r1 opsK (argsK m c)
      ∧ W19 m ρ c (Proc.devRef .tc main_v35) = Model.cntR opsK (argsK m c)
      ∧ W19 m ρ c (Proc.devRef .tc main_v13) = Model.hu (argsK m c)
      ∧ W19 m ρ c (Proc.devRef .tc main_v27) = Model.hr (argsK m c)) :
    W26 m ρ c (Proc.devRef .tc main_v71) = Model.u1 opsK (argsK m c)
    ∧ W26 m ρ c (Proc.devRef .tc main_v57) = Model.cntU opsK (argsK m c)
    ∧ W26 m ρ c (Proc.devRef .tc main_v49) = Model.r1 opsK (argsK m c)
    ∧ W26 m ρ c (Proc.devRef .tc main_v35) = Model.cntR opsK (argsK m c) :=
  have hs : sage9 (V21 m ρ) c = d_sgU (argsK m c) := d_sage9_V21 m ρ c hin hC.2.2.2 hC.2.2.1
  ⟨d_W26_v71 m ρ c hs,
    (W26_keeps m ρ c main_v57 (by decide)).trans ((W25_keeps m ρ c main_v57 (by decide)).trans ((W24_keeps m ρ c main_v57 (by decide)).trans
      ((W23_keeps m ρ c main_v57 (by decide)).trans ((W22_keeps m ρ c main_v57 (by decide)).trans (d_W21_v57 m ρ c))))),
    (W26_keeps m ρ c main_v49 (by decide)).trans ((W25_keeps m ρ c main_v49 (by decide)).trans ((W24_keeps m ρ c main_v49 (by decide)).trans
      ((W23_keeps m ρ c main_v49 (by decide)).trans ((W22_keeps m ρ c main_v49 (by decide)).trans ((W21_keeps m ρ c main_v49 (by decide)).trans
        ((W20_keeps m ρ c main_v49 (by decide)).trans hC.1)))))),
    (W26_keeps m ρ c main_v35 (by decide)).trans ((W25_keeps m ρ c main_v35 (by decide)).trans ((W24_keeps m ρ c main_v35 (by decide)).trans
      ((W23_keeps m ρ c main_v35 (by decide)).trans ((W22_keeps m ρ c main_v35 (by decide)).trans ((W21_keeps m ρ c main_v35 (by decide)).trans
        ((W20_keeps m ρ c main_v35 (by decide)).trans hC.2.1))))))⟩

end Cert.KernelIdeal.Chain

end
-- ==== Proof.KPhaseEF.lean ====
import proofs.«425228_j78254304133410_2_alg».proof.Proof.KState
import proofs.«425228_j78254304133410_2_alg».proof.Proof.KArgs
import proofs.«425228_j78254304133410_2_alg».proof.Proof.Consts
import proofs.«425228_j78254304133410_2_alg».proof.Proof.Regs
import proofs.«425228_j78254304133410_2_alg».proof.Proof.Take
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.KernelIdeal.RegVal Cert.Model Cert.Spec
open Idealize.ShloMosaic Idealize.ShloMosaic.TcCoe Idealize.ShloMosaic.ValueIdx Idealize.SL.Sem
open scoped BigOperators

theorem ef_hostBlockSum_apply {nb : Nat} (x : (⟨3, ![nb, 1, 64]⟩ : Shape).Idx → EReal) (init : EReal)
    (h' : (⟨3, ![nb, 1, 64]⟩ : Shape).ReducesTo [0] ⟨2, ![1, 64]⟩) (u : Fin 1) (j : Fin 64) :
    Ideal.hostReduceAdd h' x init (ix2 u j) = init + ∑ t : Fin nb, x (ix3 t u j) := by
  have h : (⟨3, ![nb, 1, 64]⟩ : Shape).Reduces [0] ⟨2, ![1, 64]⟩ := by
    obtain ⟨h1, h2⟩ := h'; exact ⟨h1, by decide, h2⟩
  rw [Ideal.hostReduceAdd_single h' h]
  refine congrArg (init + ·) (Finset.sum_congr rfl fun t _ => congrArg x ?_)
  funext a; apply Fin.ext
  match a with
  | ⟨0, _⟩ => rfl
  | ⟨1, _⟩ => rfl
  | ⟨2, _⟩ => rfl

theorem ef_meanRow_eq {N nb : Nat} (hN : N = nb * 10000) (f : Fin N → Fin 64 → EReal)
    (p : (⟨3, ![nb, 1, 64]⟩ : Shape).Idx → EReal) (hp : p = fun i => Spec.blockSums hN f (i 0) (i 2)) (w : BitVec 32)
    (h' : (⟨3, ![nb, 1, 64]⟩ : Shape).ReducesTo [0] ⟨2, ![1, 64]⟩) (hu : 0 < (⟨0, ![]⟩ : Shape).numel)
    (hb : (⟨0, ![]⟩ : Shape).BroadcastsInDim ⟨2, ![1, 64]⟩ ![]) :
    (Host.divf (Host.reduceAdd (F := Ideal) (φ := .f32) p (constant (F := Ideal) ⟨0, ![]⟩ .f32 0x00000000#32) h' hu)
        (broadcastInDim ⟨2, ![1, 64]⟩ ![] hb (constant (F := Ideal) ⟨0, ![]⟩ .f32 w)) : FVec Ideal ⟨2, ![1, 64]⟩ .f32)
      = Model.rowArr (Spec.colMean (Ideal.ofBits .f32 w) f) := by
  funext i
  obtain ⟨u, j, rfl⟩ : ∃ (u : Fin 1) (j : Fin 64), i = ix2 u j := ⟨i 0, i 1, eq_ix2 i⟩
  rw [hostDivf_apply, hostReduceAdd_apply, ef_hostBlockSum_apply, constant_apply, Ideal.ofBits_zero_f32, zero_add, hp]
  show Ideal.div (∑ t : Fin nb, Spec.blockSums hN f t j) _ = Ideal.div (∑ a, f a j) _
  rw [Spec.sum_blockSums]
  rfl

theorem ef_varRow_eq {N nb : Nat} (hN : N = nb * 10000) (y : Fin N → Fin 64 → EReal) (μ : Fin 64 → EReal)
    (q : (⟨3, ![nb, 1, 64]⟩ : Shape).Idx → EReal)
    (hq : q = fun i => Spec.blockSums hN (fun a j => (y a j - μ j) * (y a j - μ j)) (i 0) (i 2)) (w : BitVec 32)
    {r : ℝ} (hw : Ideal.ofBits .f32 w = (r : EReal)) (hr : 0 < r)
    (h' : (⟨3, ![nb, 1, 64]⟩ : Shape).ReducesTo [0] ⟨2, ![1, 64]⟩) (hu : 0 < (⟨0, ![]⟩ : Shape).numel)
    (hb : (⟨0, ![]⟩ : Shape).BroadcastsInDim ⟨2, ![1, 64]⟩ ![]) :
    (maximumf (Host.divf (Host.reduceAdd (F := Ideal) (φ := .f32) q (constant (F := Ideal) ⟨0, ![]⟩ .f32 0x00000000#32) h' hu)
        (broadcastInDim ⟨2, ![1, 64]⟩ ![] hb (constant (F := Ideal) ⟨0, ![]⟩ .f32 w)))
        (broadcastInDim ⟨2, ![1, 64]⟩ ![] hb (constant (F := Ideal) ⟨0, ![]⟩ .f32 0x00000000#32)) : FVec Ideal ⟨2, ![1, 64]⟩ .f32)
      = Model.rowArr (Spec.colVar (Ideal.ofBits .f32 w) y μ) := by
  rw [← Spec.colVarK_eq hw hr]
  funext i
  obtain ⟨u, j, rfl⟩ : ∃ (u : Fin 1) (j : Fin 64), i = ix2 u j := ⟨i 0, i 1, eq_ix2 i⟩
  rw [maximumf_apply, hostDivf_apply, hostReduceAdd_apply, ef_hostBlockSum_apply, constant_apply, Ideal.ofBits_zero_f32, zero_add, hq]
  show max (Ideal.div (∑ t : Fin nb, Spec.blockSums hN (fun a j => (y a j - μ j) * (y a j - μ j)) t j) _) _
    = max (Ideal.div (∑ a, (y a j - μ j) * (y a j - μ j)) _) 0
  rw [Spec.sum_blockSums]
  exact congrArg (max _) Ideal.ofBits_zero_f32

theorem ef_ofBuf_arg30 (h1 h2 h3) (v : main_arg30.ty.Contents (Elt Ideal)) :
    (StableHlo.TRef.of (sig := sig) (T := ⟨S1500000, .i32⟩) main_arg30 h1 h2 h3).ofBuf v
      = (v : (⟨S1500000, .i32⟩ : BufTy).Contents (Elt Ideal)) := rfl

theorem ef_ofBuf_v71 (h1 h2 h3) (v : main_v71.ty.Contents (Elt Ideal)) :
    (StableHlo.TRef.of (sig := sig) (T := ⟨S100000x64, .f32⟩) main_v71 h1 h2 h3).ofBuf v
      = (v : (⟨S100000x64, .f32⟩ : BufTy).Contents (Elt Ideal)) := rfl

theorem ef_toBuf_v72 (h1 h2 h3) (v : (⟨S1500000x64, .f32⟩ : BufTy).Contents (Elt Ideal)) :
    (StableHlo.TRef.of (sig := sig) (T := ⟨S1500000x64, .f32⟩) main_v72 h1 h2 h3).toBuf v
      = (v : main_v72.ty.Contents (Elt Ideal)) := rfl

section HostE

variable (X : Valuation τ sig (Elt Ideal))

set_option maxRecDepth 200000 in
theorem ef_take12 : StableHlo.after hostOps12 X (Proc.devRef .tc main_v72)
    = takeU (X (Proc.devRef .tc main_v71)) (X (Proc.devRef .tc main_arg30)) := by
  dsimp only [hostOps12]
  after_results_simp
  simp only [ofBuf_toBuf, ef_ofBuf_arg30, ef_ofBuf_v71, ef_toBuf_v72]
  rfl

theorem ef_scat12 : StableHlo.after hostOps12_1 X (Proc.devRef .tc main_v75)
    = opsK.scR (fun _ => Model.zeroW) (Model.col (X (Proc.devRef .tc main_arg31))) (X (Proc.devRef .tc main_v72)) := by
  dsimp only [hostOps12_1]
  after_results
  rw [bcast_col]
  rfl

theorem ef_bias12 (j : Fin 64) : StableHlo.after hostOps12_1 X (Proc.devRef .tc main_v76) (ix2 0 j)
    = X (Proc.devRef .tc main_arg21) (ix1 j) := by
  dsimp only [hostOps12_1]
  after_results
  exact shapeCast_a_1a_apply _ _ 0 j

theorem ef_mean13 (f : Fin 250000 → Fin 64 → EReal)
    (hp : X (Proc.devRef .tc main_v77_1) = fun i => Spec.blockSums (show 250000 = 25 * 10000 from rfl) f (i 0) (i 2)) :
    StableHlo.after hostOps13 X (Proc.devRef .tc main_v80) = Model.rowArr (Spec.colMean Spec.nRW f) := by
  dsimp only [hostOps13]
  after_results
  exact ef_meanRow_eq (show 250000 = 25 * 10000 from rfl) f _ hp 0x48742400#32 _ _ _

theorem ef_var14 (y : Fin 250000 → Fin 64 → EReal) (μ : Fin 64 → EReal)
    (hq : X (Proc.devRef .tc main_v81)
      = fun i => Spec.blockSums (show 250000 = 25 * 10000 from rfl) (fun a j => (y a j - μ j) * (y a j - μ j)) (i 0) (i 2)) :
    StableHlo.after hostOps14 X (Proc.devRef .tc main_v86) = Model.rowArr (Spec.colVar Spec.nRW y μ) := by
  dsimp only [hostOps14]
  after_results
  exact ef_varRow_eq (show 250000 = 25 * 10000 from rfl) y μ _ hq 0x48742400#32 Cert.Consts.ofBits_25e4 (by norm_num) _ _ _

end HostE

section RegE

variable (V : (c : Dev nD) → (b : Ref sig .tc) → Buf (Elt Ideal) ((c : Thread nD τ).loc b)) (c : Dev nD)

theorem ef_sage12_fn (AGG : Model.Mat 250000 64) (CNT : Model.Mat 250000 1) (OWN : Model.Mat 250000 64)
    (WL : Model.Mat 64 64) (BL : Model.Row 64) (WR : Model.Mat 64 64)
    (h0 : agg12 V c = AGG) (h1 : cnt12 V c = CNT) (h2 : xd12 V c = OWN) (h3 : wl12 V c = WL)
    (h4 : ∀ j : Fin 64, bl12 V c (ix2 0 j) = BL (ix1 j)) (h5 : wr12 V c = WR) :
    sage12 V c = Model.toF (Model.sageStage AGG CNT OWN WL BL WR) := by
  subst h0 h1 h2 h3 h5
  have h4' : (fun j : Fin 64 => bl12 V c (ix2 0 j)) = Model.vec BL := funext h4
  exact congrArg (fun b => Spec.sage Spec.oneW (Model.toF (agg12 V c)) (Model.col1 (cnt12 V c)) (Model.toF (xd12 V c))
    (Model.toF (wl12 V c)) b (Model.toF (wr12 V c))) h4'

theorem ef_dev13_fn (Y : Model.Mat 250000 64) (μ : Fin 64 → EReal) (h0 : y13 V c = Y) (h1 : mu13 V c = Model.rowArr μ) :
    dev13 V c = fun a j => (Model.toF Y a j - μ j) * (Model.toF Y a j - μ j) := by
  subst h0
  funext a j
  have hμ : mu13 V c (ix2 0 j) = μ j := congrFun h1 (ix2 0 j)
  show (y13 V c (ix2 a j) - mu13 V c (ix2 0 j)) * (y13 V c (ix2 a j) - mu13 V c (ix2 0 j)) = _
  rw [hμ]
  rfl

end RegE

variable (m : (ℓ : Loc nD τ sig) → Buf (Elt Ideal) ℓ) (ρ : Dev nD → PrngReg) (c : Dev nD)

section StepsE

variable (hin : Model.InRange (argsK m c))
  (hD : W26 m ρ c (Proc.devRef .tc main_v71) = Model.u1 opsK (argsK m c)
      ∧ W26 m ρ c (Proc.devRef .tc main_v57) = Model.cntU opsK (argsK m c)
      ∧ W26 m ρ c (Proc.devRef .tc main_v49) = Model.r1 opsK (argsK m c)
      ∧ W26 m ρ c (Proc.devRef .tc main_v35) = Model.cntR opsK (argsK m c))

include hin hD

theorem ef_e27_v72 : W27 m ρ c (Proc.devRef .tc main_v72)
    = opsK.gatU (Model.u1 opsK (argsK m c)) (Model.col (argsK m c).eU) := by
  refine (ef_take12 (W26 m ρ c)).trans ?_
  rw [hD.1, W26_arg m ρ c main_arg30 (by decide)]
  exact takeU_eq _ _ hin.eU

theorem ef_e28_v75 : W28 m ρ c (Proc.devRef .tc main_v75)
    = Model.aggRStage opsK (Model.u1 opsK (argsK m c)) (argsK m c).eU (argsK m c).eR := by
  refine (ef_scat12 (W27 m ρ c)).trans ?_
  rw [ef_e27_v72 m ρ c hin hD, W27_arg m ρ c main_arg31 (by decide)]
  rfl

theorem ef_e28_sage : sage12 (V28 m ρ) c = Model.toF (Model.zrp opsK (argsK m c)) :=
  ef_sage12_fn (V28 m ρ) c _ _ _ _ (argsK m c).bl2ur _
    (ef_e28_v75 m ρ c hin hD)
    ((W28_keeps m ρ c main_v35 (by decide)).trans ((W27_keeps m ρ c main_v35 (by decide)).trans hD.2.2.2))
    ((W28_keeps m ρ c main_v49 (by decide)).trans ((W27_keeps m ρ c main_v49 (by decide)).trans hD.2.2.1))
    (W28_arg m ρ c main_arg20 (by decide))
    (fun j => (ef_bias12 (W27 m ρ c) j).trans (congrFun (W27_arg m ρ c main_arg21 (by decide)) (ix1 j)))
    (W28_arg m ρ c main_arg22 (by decide))

theorem ef_e29_v77 : W29 m ρ c (Proc.devRef .tc main_v77_0) = Model.zrp opsK (argsK m c) := by
  refine ((W29_arr m ρ c 6).trans (reg12_y (V28 m ρ) c)).trans ?_
  rw [ef_e28_sage m ρ c hin hD]
  exact Model.ofF_toF _

theorem ef_e29_parts : W29 m ρ c (Proc.devRef .tc main_v77_1)
    = fun i => Spec.blockSums (show 250000 = 25 * 10000 from rfl) (Model.toF (Model.zrp opsK (argsK m c))) (i 0) (i 2) := by
  refine ((W29_arr m ρ c 7).trans (reg12_parts (V28 m ρ) c)).trans ?_
  rw [ef_e28_sage m ρ c hin hD]
  rfl

theorem ef_e30_v80 : W30 m ρ c (Proc.devRef .tc main_v80)
    = Model.rowArr (Spec.colMean Spec.nRW (Model.toF (Model.zrp opsK (argsK m c)))) :=
  ef_mean13 (W29 m ρ c) _ (ef_e29_parts m ρ c hin hD)

theorem ef_e31_v81 : W31 m ρ c (Proc.devRef .tc main_v81)
    = fun i => Spec.blockSums (show 250000 = 25 * 10000 from rfl)
        (fun a j => (Model.toF (Model.zrp opsK (argsK m c)) a j - Spec.colMean Spec.nRW (Model.toF (Model.zrp opsK (argsK m c))) j)
          * (Model.toF (Model.zrp opsK (argsK m c)) a j - Spec.colMean Spec.nRW (Model.toF (Model.zrp opsK (argsK m c))) j))
        (i 0) (i 2) := by
  refine ((W31_arr m ρ c 2).trans (reg13_parts (V30 m ρ) c)).trans ?_
  rw [ef_dev13_fn (V30 m ρ) c _ _ ((W30_keeps m ρ c main_v77_0 (by decide)).trans (ef_e29_v77 m ρ c hin hD)) (ef_e30_v80 m ρ c hin hD)]
  rfl

theorem ef_e32_v86 : W32 m ρ c (Proc.devRef .tc main_v86)
    = Model.rowArr (Spec.colVar Spec.nRW (Model.toF (Model.zrp opsK (argsK m c))) (Spec.colMean Spec.nRW (Model.toF (Model.zrp opsK (argsK m c))))) :=
  ef_var14 (W31 m ρ c) _ _ (ef_e31_v81 m ρ c hin hD)

end StepsE

/-- The second layer on the recipe side with its column mean and variance rows, not yet normalised. -/
theorem phaseE (hin : Model.InRange (argsK m c))
    (hD : W26 m ρ c (Proc.devRef .tc main_v71) = Model.u1 opsK (argsK m c)
      ∧ W26 m ρ c (Proc.devRef .tc main_v57) = Model.cntU opsK (argsK m c)
      ∧ W26 m ρ c (Proc.devRef .tc main_v49) = Model.r1 opsK (argsK m c)
      ∧ W26 m ρ c (Proc.devRef .tc main_v35) = Model.cntR opsK (argsK m c)) :
    W32 m ρ c (Proc.devRef .tc main_v77_0) = Model.zrp opsK (argsK m c)
    ∧ W32 m ρ c (Proc.devRef .tc main_v80) = Model.rowArr (Spec.colMean Spec.nRW (Model.toF (Model.zrp opsK (argsK m c))))
    ∧ W32 m ρ c (Proc.devRef .tc main_v86) = Model.rowArr (Spec.colVar Spec.nRW (Model.toF (Model.zrp opsK (argsK m c))) (Spec.colMean Spec.nRW (Model.toF (Model.zrp opsK (argsK m c)))))
    ∧ W32 m ρ c (Proc.devRef .tc main_v57) = Model.cntU opsK (argsK m c)
    ∧ W32 m ρ c (Proc.devRef .tc main_v71) = Model.u1 opsK (argsK m c)
    ∧ W32 m ρ c (Proc.devRef .tc main_v49) = Model.r1 opsK (argsK m c) :=
  ⟨(W32_keeps m ρ c main_v77_0 (by decide)).trans ((W31_keeps m ρ c main_v77_0 (by decide)).trans ((W30_keeps m ρ c main_v77_0 (by decide)).trans (ef_e29_v77 m ρ c hin hD))),
   (W32_keeps m ρ c main_v80 (by decide)).trans ((W31_keeps m ρ c main_v80 (by decide)).trans (ef_e30_v80 m ρ c hin hD)),
   ef_e32_v86 m ρ c hin hD,
   (W32_keeps m ρ c main_v57 (by decide)).trans ((W31_keeps m ρ c main_v57 (by decide)).trans ((W30_keeps m ρ c main_v57 (by decide)).trans ((W29_keeps m ρ c main_v57 (by decide)).trans
     ((W28_keeps m ρ c main_v57 (by decide)).trans ((W27_keeps m ρ c main_v57 (by decide)).trans hD.2.1))))),
   (W32_keeps m ρ c main_v71 (by decide)).trans ((W31_keeps m ρ c main_v71 (by decide)).trans ((W30_keeps m ρ c main_v71 (by decide)).trans ((W29_keeps m ρ c main_v71 (by decide)).trans
     ((W28_keeps m ρ c main_v71 (by decide)).trans ((W27_keeps m ρ c main_v71 (by decide)).trans hD.1))))),
   (W32_keeps m ρ c main_v49 (by decide)).trans ((W31_keeps m ρ c main_v49 (by decide)).trans ((W30_keeps m ρ c main_v49 (by decide)).trans ((W29_keeps m ρ c main_v49 (by decide)).trans
     ((W28_keeps m ρ c main_v49 (by decide)).trans ((W27_keeps m ρ c main_v49 (by decide)).trans hD.2.2.1)))))⟩

end Cert.KernelIdeal.Chain

end
-- ==== Proof.KPhaseF.lean ====
import proofs.«425228_j78254304133410_2_alg».proof.Proof.KState
import proofs.«425228_j78254304133410_2_alg».proof.Proof.KArgs
import proofs.«425228_j78254304133410_2_alg».proof.Proof.Consts
import proofs.«425228_j78254304133410_2_alg».proof.Proof.Regs
import proofs.«425228_j78254304133410_2_alg».proof.Proof.Take

import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.KernelIdeal.RegVal Cert.Model Cert.Spec
open Idealize.ShloMosaic Idealize.ShloMosaic.TcCoe Idealize.ShloMosaic.ValueIdx Idealize.SL.Sem
open scoped BigOperators

theorem f_row_ext (x : Vec Ideal S1x64 .f32) (g : Fin 64 → EReal) (h : ∀ j : Fin 64, x (ix2 (0 : Fin 1) j) = g j) :
    x = Model.rowArr g := by
  funext i
  obtain ⟨a, b, rfl⟩ : ∃ (a : Fin 1) (b : Fin 64), i = ix2 a b := ⟨i 0, i 1, eq_ix2 i⟩
  obtain rfl : a = 0 := Subsingleton.elim _ _
  exact h b

theorem f_ofBuf_arg31 (h1 h2 h3) (v : main_arg31.ty.Contents (Elt Ideal)) :
    (StableHlo.TRef.of (sig := sig) (T := ⟨S1500000, .i32⟩) main_arg31 h1 h2 h3).ofBuf v
      = (v : (⟨S1500000, .i32⟩ : BufTy).Contents (Elt Ideal)) := rfl

theorem f_ofBuf_v49 (h1 h2 h3) (v : main_v49.ty.Contents (Elt Ideal)) :
    (StableHlo.TRef.of (sig := sig) (T := ⟨S250000x64, .f32⟩) main_v49 h1 h2 h3).ofBuf v
      = (v : (⟨S250000x64, .f32⟩ : BufTy).Contents (Elt Ideal)) := rfl

theorem f_toBuf_v87 (h1 h2 h3) (v : (⟨S1500000x64, .f32⟩ : BufTy).Contents (Elt Ideal)) :
    (StableHlo.TRef.of (sig := sig) (T := ⟨S1500000x64, .f32⟩) main_v87 h1 h2 h3).toBuf v
      = (v : main_v87.ty.Contents (Elt Ideal)) := rfl

set_option maxRecDepth 200000 in
theorem f_take_run (X : Valuation τ sig (Elt Ideal)) :
    StableHlo.after hostOps14_1 X (Proc.devRef .tc main_v87)
      = takeR (X (Proc.devRef .tc main_v49)) (X (Proc.devRef .tc main_arg31)) := by
  dsimp only [hostOps14_1]
  after_results_simp
  simp only [ofBuf_toBuf, f_ofBuf_arg31, f_ofBuf_v49, f_toBuf_v87]
  rfl

section AnyFloat
variable {F : FTy → Type} [FloatOps F]

theorem f_scatter_after (X : Valuation τ sig (Elt F)) :
    (StableHlo.after (hostOps14_2 (F := F)) X (Proc.devRef .tc main_v90) : FVec F S100000x64 .f32)
      = Host.scatterAdd scatter_S100000x64_S1500000x1_S1500000x64_1_0_0_1
          (broadcastInDim S100000x64 ![] bcast_S_S100000x64 (constant (F := F) S_ .f32 0x00000000#32))
          (broadcastInDim S1500000x1 ![0] bcast_S1500000_S1500000x1_0 (X (Proc.devRef .tc main_arg30) : IVec S1500000 32))
          (X (Proc.devRef .tc main_v87) : FVec F S1500000x64 .f32) := by
  dsimp only [hostOps14_2]
  after_results <;> rfl

theorem f_bias_after (X : Valuation τ sig (Elt F)) :
    (StableHlo.after (hostOps14_2 (F := F)) X (Proc.devRef .tc main_v91) : FVec F S1x64 .f32)
      = shapeCast S1x64 (X (Proc.devRef .tc main_arg24) : FVec F S64 .f32) shapeCasts_S64_S1x64 := by
  dsimp only [hostOps14_2]
  after_results <;> rfl

end AnyFloat

variable (m : (ℓ : Loc nD τ sig) → Buf (Elt Ideal) ℓ) (ρ : Dev nD → PrngReg) (c : Dev nD)

def f_zupF (A : Model.Args) : Fin 100000 → Fin 64 → EReal := toF (Model.zup opsK A)
def f_muU (A : Model.Args) : Fin 64 → EReal := Spec.colMean Spec.nUW (f_zupF A)
def f_varU (A : Model.Args) : Fin 64 → EReal := Spec.colVar Spec.nUW (f_zupF A) (f_muU A)

theorem f_zup_eq (A : Model.Args) : Model.zup opsK A = fun i => f_zupF A (i 0) (i 1) := (ofF_toF _).symm

theorem f_W33_v87_eq : (W33 m ρ c (Proc.devRef .tc main_v87) : Model.Mat 1500000 64)
    = takeR (W32 m ρ c (Proc.devRef .tc main_v49)) (W32 m ρ c (Proc.devRef .tc main_arg31)) :=
  f_take_run (W32 m ρ c)

theorem f_W33_v87 (hin : Model.InRange (argsK m c)) (h49 : W32 m ρ c (Proc.devRef .tc main_v49) = Model.r1 opsK (argsK m c)) :
    W33 m ρ c (Proc.devRef .tc main_v87) = opsK.gatR (Model.r1 opsK (argsK m c)) (Model.col (argsK m c).eR) := by
  refine (f_W33_v87_eq m ρ c).trans ?_
  rw [h49, W32_arg m ρ c main_arg31 (by decide)]
  exact takeR_eq _ _ hin.eR

theorem f_W34_v90_eq : (W34 m ρ c (Proc.devRef .tc main_v90) : Model.Mat 100000 64)
    = (Host.scatterAdd scatter_S100000x64_S1500000x1_S1500000x64_1_0_0_1
        (broadcastInDim S100000x64 ![] bcast_S_S100000x64 (constant (F := Ideal) S_ .f32 0x00000000#32))
        (broadcastInDim S1500000x1 ![0] bcast_S1500000_S1500000x1_0 (W33 m ρ c (Proc.devRef .tc main_arg30) : Model.Ixs 1500000))
        (W33 m ρ c (Proc.devRef .tc main_v87) : Model.Mat 1500000 64) : FVec Ideal S100000x64 .f32) :=
  f_scatter_after (F := Ideal) (W33 m ρ c)

theorem f_W34_v90 (hin : Model.InRange (argsK m c)) (h49 : W32 m ρ c (Proc.devRef .tc main_v49) = Model.r1 opsK (argsK m c)) :
    W34 m ρ c (Proc.devRef .tc main_v90) = Model.aggUStage opsK (Model.r1 opsK (argsK m c)) (argsK m c).eU (argsK m c).eR := by
  refine (f_W34_v90_eq m ρ c).trans ?_
  rw [f_W33_v87 m ρ c hin h49, W33_arg m ρ c main_arg30 (by decide), bcast_col]
  rfl

theorem f_W34_v91 : (W34 m ρ c (Proc.devRef .tc main_v91) : Vec Ideal S1x64 .f32)
    = shapeCast S1x64 (W33 m ρ c (Proc.devRef .tc main_arg24) : Vec Ideal S64 .f32) shapeCasts_S64_S1x64 :=
  f_bias_after (F := Ideal) (W33 m ρ c)

theorem f_agg14 (hin : Model.InRange (argsK m c)) (h49 : W32 m ρ c (Proc.devRef .tc main_v49) = Model.r1 opsK (argsK m c)) :
    agg14 (V34 m ρ) c = Model.aggUStage opsK (Model.r1 opsK (argsK m c)) (argsK m c).eU (argsK m c).eR :=
  f_W34_v90 m ρ c hin h49
theorem f_cnt14 (h57 : W32 m ρ c (Proc.devRef .tc main_v57) = Model.cntU opsK (argsK m c)) :
    cnt14 (V34 m ρ) c = Model.cntU opsK (argsK m c) :=
  (W34_keeps m ρ c main_v57 (by decide)).trans ((W33_keeps m ρ c main_v57 (by decide)).trans h57)
theorem f_xd14 (h71 : W32 m ρ c (Proc.devRef .tc main_v71) = Model.u1 opsK (argsK m c)) :
    xd14 (V34 m ρ) c = Model.u1 opsK (argsK m c) :=
  (W34_keeps m ρ c main_v71 (by decide)).trans ((W33_keeps m ρ c main_v71 (by decide)).trans h71)
theorem f_wl14 : wl14 (V34 m ρ) c = (argsK m c).Wl2ru := W34_arg m ρ c main_arg23 (by decide)
theorem f_wr14 : wr14 (V34 m ρ) c = (argsK m c).Wr2ru := W34_arg m ρ c main_arg25 (by decide)
theorem f_bl14 (j : Fin 64) : bl14 (V34 m ρ) c (ix2 0 j) = (argsK m c).bl2ru (ix1 j) :=
  (congrFun (f_W34_v91 m ρ c) (ix2 0 j)).trans ((shapeCast_a_1a_apply _ _ 0 j).trans
    (congrFun (W33_arg m ρ c main_arg24 (by decide)) (ix1 j)))

theorem f_sage_congr {agg agg' own own' : Model.Mat 100000 64} {cnt cnt' : Model.Mat 100000 1}
    {wl wl' wr wr' : Model.Mat 64 64} {bl : Model.Mat 1 64} {bl' : Model.Row 64}
    (hagg : agg = agg') (hcnt : cnt = cnt') (hown : own = own') (hwl : wl = wl') (hwr : wr = wr')
    (hbl : ∀ j : Fin 64, bl (ix2 0 j) = bl' (ix1 j)) :
    Spec.sage Spec.oneW (fun a k => agg (ix2 a k)) (fun a => cnt (ix2 a 0)) (fun a k => own (ix2 a k))
        (fun k j => wl (ix2 k j)) (fun j => bl (ix2 0 j)) (fun k j => wr (ix2 k j))
      = Spec.sage Spec.oneW (toF agg') (col1 cnt') (toF own') (toF wl') (vec bl') (toF wr') := by
  subst hagg hcnt hown hwl hwr
  rw [show (fun j => bl (ix2 0 j)) = vec bl' from funext hbl]
  rfl

theorem f_sage14_V34 (hin : Model.InRange (argsK m c))
    (h57 : W32 m ρ c (Proc.devRef .tc main_v57) = Model.cntU opsK (argsK m c))
    (h71 : W32 m ρ c (Proc.devRef .tc main_v71) = Model.u1 opsK (argsK m c))
    (h49 : W32 m ρ c (Proc.devRef .tc main_v49) = Model.r1 opsK (argsK m c)) :
    sage14 (V34 m ρ) c = f_zupF (argsK m c) :=
  f_sage_congr (f_agg14 m ρ c hin h49) (f_cnt14 m ρ c h57) (f_xd14 m ρ c h71) (f_wl14 m ρ c) (f_wr14 m ρ c) (f_bl14 m ρ c)

section
variable (hS : sage14 (V34 m ρ) c = f_zupF (argsK m c))
include hS

theorem f_W35_v92_0 : (W35 m ρ c (Proc.devRef .tc main_v92_0) : Vec Ideal S100000x64 .f32)
    = fun i => f_zupF (argsK m c) (i 0) (i 1) :=
  (W35_arr m ρ c 6).trans ((reg14_y (V34 m ρ) c).trans
    (congrArg (fun f (i : S100000x64.Idx) => f (i 0) (i 1)) hS))

theorem f_W35_v92_1 : (W35 m ρ c (Proc.devRef .tc main_v92_1) : Vec Ideal S10x1x64 .f32)
    = fun i => Spec.blockSums (show 100000 = 10 * 10000 from rfl) (f_zupF (argsK m c)) (i 0) (i 2) :=
  (W35_arr m ρ c 7).trans ((reg14_parts (V34 m ρ) c).trans
    (congrArg (fun f (i : S10x1x64.Idx) => Spec.blockSums (show 100000 = 10 * 10000 from rfl) f (i 0) (i 2)) hS))

end

theorem f_W36_v95_eq : (W36 m ρ c (Proc.devRef .tc main_v95) : Vec Ideal S1x64 .f32)
    = Host.divf (Host.reduceAdd (W35 m ρ c (Proc.devRef .tc main_v92_1) : Vec Ideal S10x1x64 .f32)
          (constant (F := Ideal) S_ .f32 0x00000000#32) reducesTo_S10x1x64_S1x64_d0 h_S_)
        (broadcastInDim S1x64 ![] bcast_S_S1x64 (constant (F := Ideal) S_ .f32 0x47C35000#32)) := by
  show StableHlo.after hostOps15 (W35 m ρ c) (Proc.devRef .tc main_v95) = _
  dsimp only [hostOps15]
  after_results <;> rfl

section
variable (hS : sage14 (V34 m ρ) c = f_zupF (argsK m c))
include hS

theorem f_W36_v95_apply (j : Fin 64) :
    (W36 m ρ c (Proc.devRef .tc main_v95) : Vec Ideal S1x64 .f32) (ix2 0 j) = f_muU (argsK m c) j :=
  (congrFun (f_W36_v95_eq m ρ c) (ix2 0 j)).trans
    (blockMean_apply (show 100000 = 10 * 10000 from rfl) reducesTo_S10x1x64_S1x64_d0 (by decide) h_S_ bcast_S_S1x64
      _ (f_zupF (argsK m c)) (f_W35_v92_1 m ρ c hS) 0x47C35000#32 j)

theorem f_dev15_V36 : dev15 (V36 m ρ) c
    = fun a j => (f_zupF (argsK m c) a j - f_muU (argsK m c) j) * (f_zupF (argsK m c) a j - f_muU (argsK m c) j) := by
  have hy : y15 (V36 m ρ) c = fun i => f_zupF (argsK m c) (i 0) (i 1) :=
    (W36_keeps m ρ c main_v92_0 (by decide)).trans (f_W35_v92_0 m ρ c hS)
  have hm : ∀ j : Fin 64, mu15 (V36 m ρ) c (ix2 0 j) = f_muU (argsK m c) j := f_W36_v95_apply m ρ c hS
  funext a j
  show (y15 (V36 m ρ) c (ix2 a j) - mu15 (V36 m ρ) c (ix2 0 j)) * (y15 (V36 m ρ) c (ix2 a j) - mu15 (V36 m ρ) c (ix2 0 j)) = _
  rw [hy, hm]

theorem f_W37_v96 : (W37 m ρ c (Proc.devRef .tc main_v96) : Vec Ideal S10x1x64 .f32)
    = fun i => Spec.blockSums (show 100000 = 10 * 10000 from rfl)
        (fun a j => (f_zupF (argsK m c) a j - f_muU (argsK m c) j) * (f_zupF (argsK m c) a j - f_muU (argsK m c) j)) (i 0) (i 2) :=
  (W37_arr m ρ c 2).trans ((reg15_parts (V36 m ρ) c).trans
    (congrArg (fun f (i : S10x1x64.Idx) => Spec.blockSums (show 100000 = 10 * 10000 from rfl) f (i 0) (i 2)) (f_dev15_V36 m ρ c hS)))

end

theorem f_W38_v101_eq : (W38 m ρ c (Proc.devRef .tc main_v101) : Vec Ideal S1x64 .f32)
    = maximumf (Host.divf (Host.reduceAdd (W37 m ρ c (Proc.devRef .tc main_v96) : Vec Ideal S10x1x64 .f32)
          (constant (F := Ideal) S_ .f32 0x00000000#32) reducesTo_S10x1x64_S1x64_d0 h_S_)
        (broadcastInDim S1x64 ![] bcast_S_S1x64 (constant (F := Ideal) S_ .f32 0x47C35000#32)))
        (broadcastInDim S1x64 ![] bcast_S_S1x64 (constant (F := Ideal) S_ .f32 0x00000000#32)) := by
  show StableHlo.after hostOps16 (W37 m ρ c) (Proc.devRef .tc main_v101) = _
  dsimp only [hostOps16]
  after_results <;> rfl

theorem f_W38_v101_apply (hS : sage14 (V34 m ρ) c = f_zupF (argsK m c)) (j : Fin 64) :
    (W38 m ρ c (Proc.devRef .tc main_v101) : Vec Ideal S1x64 .f32) (ix2 0 j) = f_varU (argsK m c) j := by
  refine (congrFun (f_W38_v101_eq m ρ c) (ix2 0 j)).trans ?_
  refine (blockVar_apply (show 100000 = 10 * 10000 from rfl) reducesTo_S10x1x64_S1x64_d0 (by decide) h_S_ bcast_S_S1x64
    _ _ (f_W37_v96 m ρ c hS) 0x47C35000#32 j).trans ?_
  exact congrFun (Spec.colVarK_eq Cert.Consts.ofBits_1e5 (by norm_num) (f_zupF (argsK m c)) (f_muU (argsK m c))) j

theorem f_W38_v77_0 : W38 m ρ c (Proc.devRef .tc main_v77_0) = W32 m ρ c (Proc.devRef .tc main_v77_0) :=
  (W38_keeps m ρ c main_v77_0 (by decide)).trans ((W37_keeps m ρ c main_v77_0 (by decide)).trans ((W36_keeps m ρ c main_v77_0 (by decide)).trans
    ((W35_keeps m ρ c main_v77_0 (by decide)).trans ((W34_keeps m ρ c main_v77_0 (by decide)).trans (W33_keeps m ρ c main_v77_0 (by decide))))))

theorem f_W38_v80 : W38 m ρ c (Proc.devRef .tc main_v80) = W32 m ρ c (Proc.devRef .tc main_v80) :=
  (W38_keeps m ρ c main_v80 (by decide)).trans ((W37_keeps m ρ c main_v80 (by decide)).trans ((W36_keeps m ρ c main_v80 (by decide)).trans
    ((W35_keeps m ρ c main_v80 (by decide)).trans ((W34_keeps m ρ c main_v80 (by decide)).trans (W33_keeps m ρ c main_v80 (by decide))))))

theorem f_W38_v86 : W38 m ρ c (Proc.devRef .tc main_v86) = W32 m ρ c (Proc.devRef .tc main_v86) :=
  (W38_keeps m ρ c main_v86 (by decide)).trans ((W37_keeps m ρ c main_v86 (by decide)).trans ((W36_keeps m ρ c main_v86 (by decide)).trans
    ((W35_keeps m ρ c main_v86 (by decide)).trans ((W34_keeps m ρ c main_v86 (by decide)).trans (W33_keeps m ρ c main_v86 (by decide))))))

/-- The second layer on the user side, likewise. -/
theorem phaseF (hin : Model.InRange (argsK m c))
    (hE : W32 m ρ c (Proc.devRef .tc main_v77_0) = Model.zrp opsK (argsK m c)
      ∧ W32 m ρ c (Proc.devRef .tc main_v80) = Model.rowArr (Spec.colMean Spec.nRW (Model.toF (Model.zrp opsK (argsK m c))))
      ∧ W32 m ρ c (Proc.devRef .tc main_v86) = Model.rowArr (Spec.colVar Spec.nRW (Model.toF (Model.zrp opsK (argsK m c))) (Spec.colMean Spec.nRW (Model.toF (Model.zrp opsK (argsK m c)))))
      ∧ W32 m ρ c (Proc.devRef .tc main_v57) = Model.cntU opsK (argsK m c)
      ∧ W32 m ρ c (Proc.devRef .tc main_v71) = Model.u1 opsK (argsK m c)
      ∧ W32 m ρ c (Proc.devRef .tc main_v49) = Model.r1 opsK (argsK m c)) :
    W38 m ρ c (Proc.devRef .tc main_v92_0) = Model.zup opsK (argsK m c)
    ∧ W38 m ρ c (Proc.devRef .tc main_v95) = Model.rowArr (Spec.colMean Spec.nUW (Model.toF (Model.zup opsK (argsK m c))))
    ∧ W38 m ρ c (Proc.devRef .tc main_v101) = Model.rowArr (Spec.colVar Spec.nUW (Model.toF (Model.zup opsK (argsK m c))) (Spec.colMean Spec.nUW (Model.toF (Model.zup opsK (argsK m c)))))
    ∧ W38 m ρ c (Proc.devRef .tc main_v77_0) = Model.zrp opsK (argsK m c)
    ∧ W38 m ρ c (Proc.devRef .tc main_v80) = Model.rowArr (Spec.colMean Spec.nRW (Model.toF (Model.zrp opsK (argsK m c))))
    ∧ W38 m ρ c (Proc.devRef .tc main_v86) = Model.rowArr (Spec.colVar Spec.nRW (Model.toF (Model.zrp opsK (argsK m c))) (Spec.colMean Spec.nRW (Model.toF (Model.zrp opsK (argsK m c))))) := by
  obtain ⟨h77, h80, h86, h57, h71, h49⟩ := hE
  have hS : sage14 (V34 m ρ) c = f_zupF (argsK m c) := f_sage14_V34 m ρ c hin h57 h71 h49
  refine ⟨?_, ?_, ?_, ?_, ?_, ?_⟩
  ·
    exact (W38_keeps m ρ c main_v92_0 (by decide)).trans ((W37_keeps m ρ c main_v92_0 (by decide)).trans ((W36_keeps m ρ c main_v92_0 (by decide)).trans
      ((f_W35_v92_0 m ρ c hS).trans (f_zup_eq (argsK m c)).symm)))
  ·
    exact f_row_ext _ _ fun j =>
      (congrFun ((W38_keeps m ρ c main_v95 (by decide)).trans (W37_keeps m ρ c main_v95 (by decide))) (ix2 0 j)).trans (f_W36_v95_apply m ρ c hS j)
  ·
    exact f_row_ext _ _ (f_W38_v101_apply m ρ c hS)
  · exact (f_W38_v77_0 m ρ c).trans h77
  · exact (f_W38_v80 m ρ c).trans h80
  · exact (f_W38_v86 m ρ c).trans h86

end Cert.KernelIdeal.Chain

end
-- ==== Proof.KPhaseG.lean ====
import proofs.«425228_j78254304133410_2_alg».proof.Proof.KState
import proofs.«425228_j78254304133410_2_alg».proof.Proof.KArgs
import proofs.«425228_j78254304133410_2_alg».proof.Proof.Consts
import proofs.«425228_j78254304133410_2_alg».proof.Proof.Regs
import proofs.«425228_j78254304133410_2_alg».proof.Proof.Take
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Chain

open Cert.KernelIdeal Cert.KernelIdeal.Gen Cert.KernelIdeal.RegVal Cert.Model Cert.Spec
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

theorem g_getElem_singleton_one (l : List (Fin 2)) (k : Nat) (hk : k < l.length) (hl : l = [1]) (h0 : k = 0) :
    l[k] = 1 := by
  subst hl; subst h0; rfl

theorem g_one_not_mem_zero : (1 : Fin 2) ∉ ([0] : List (Fin 2)) := by decide
theorem g_one_kept : (1 : Fin 2) ∉ ([0] : List (Fin 2)) ∧ (1 : Fin 2) ∉ ([] : List (Fin 2)) := by decide
theorem g_idxOf_one_kept :
    List.idxOf (1 : Fin 2) ((List.finRange 2).filter (· ∉ ([0] ++ [] : List (Fin 2)))) = 0 := by decide

theorem g_operandIdx_col {N n h w : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsim : d.startIndexMap = [0]) (j : (⟨2, ![n, h]⟩ : Shape).Idx) (idx : IVec ⟨2, ![n, 1]⟩ w) :
    d.operandIdx j idx 1 = j 1 := by
  apply Fin.ext
  have hb : (1 : Fin 2) ∉ d.operandBatchingDims := by rw [hob]; exact List.not_mem_nil
  have hm : (1 : Fin 2) ∉ d.startIndexMap := by rw [hsim]; exact g_one_not_mem_zero
  have hk : (1 : Fin 2) ∈ d.sKept := by rw [GatherDims.mem_sKept, hcoll, hob]; exact g_one_kept
  have hidx : d.sKept.idxOf (1 : Fin 2) = 0 := by
    show (Shape.kept _ (d.collapsedSliceDims ++ d.operandBatchingDims)).idxOf (1 : Fin 2) = 0
    rw [hcoll, hob]; exact g_idxOf_one_kept
  simp only [GatherDims.operandIdx, GatherDims.batchCoord_eq_zero _ _ _ hb, GatherDims.start, dif_neg hm,
    GatherDims.offCoord, dif_pos hk, Nat.add_zero, Nat.zero_add]
  exact congrArg (fun x => (j x).val) (g_getElem_singleton_one _ _ _ hoff hidx)

theorem g_gather_rowMap {N n h w : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsim : d.startIndexMap = [0]) (f : Fin h → EReal → EReal) (X : Fin N → Fin h → EReal)
    (idx : IVec ⟨2, ![n, 1]⟩ w) :
    toF (Host.gather d (ofF fun a j => f j (X a j)) idx) = fun a j => f j (toF (Host.gather d (ofF X) idx) a j) := by
  funext a j
  show f (d.operandIdx (ix2 a j) idx 1) (X (d.operandIdx (ix2 a j) idx 0) (d.operandIdx (ix2 a j) idx 1))
    = f j (X (d.operandIdx (ix2 a j) idx 0) (d.operandIdx (ix2 a j) idx 1))
  rw [g_operandIdx_col d hoff hcoll hob hsim]
  rfl

/-- A column-wise map with row-independent parameters commutes with a gather of whole rows. -/
theorem g_bn_gather {N n h w : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsim : d.startIndexMap = [0]) (ε : EReal) (g β μ v : Fin h → EReal) (Y : Mat N h) (idx : IVec ⟨2, ![n, 1]⟩ w) :
    toF (Host.gather d (ofF (Spec.bn ε g β μ v (toF Y))) idx) = Spec.bn ε g β μ v (toF (Host.gather d Y idx)) := by
  have e := g_gather_rowMap d hoff hcoll hob hsim (fun j x => g j * (x - μ j) * Ideal.rsqrt (v j + ε) + β j) (toF Y) idx
  rw [ofF_toF] at e
  exact e

theorem g_out_eq (A : Model.Args) :
    Model.out opsK A = fun i => Spec.cosRow Spec.tinyW
      (Spec.bn Spec.epsW (vec A.g2u) (vec A.b2u) (Spec.colMean Spec.nUW (toF (Model.zup opsK A)))
        (Spec.colVar Spec.nUW (toF (Model.zup opsK A)) (Spec.colMean Spec.nUW (toF (Model.zup opsK A))))
        (toF (opsK.gatLU (Model.zup opsK A) (Model.col A.lU))))
      (Spec.bn Spec.epsW (vec A.g2r) (vec A.b2r) (Spec.colMean Spec.nRW (toF (Model.zrp opsK A)))
        (Spec.colVar Spec.nRW (toF (Model.zrp opsK A)) (Spec.colMean Spec.nRW (toF (Model.zrp opsK A))))
        (toF (opsK.gatLR (Model.zrp opsK A) (Model.col A.lR))))
      (i 0) := by
  have eu := g_bn_gather gather_S100000x64_S500000x1_S500000x64_1_0_n_n_0_1_164 rfl rfl rfl rfl Spec.epsW (vec A.g2u) (vec A.b2u)
    (Spec.colMean Spec.nUW (toF (Model.zup opsK A)))
    (Spec.colVar Spec.nUW (toF (Model.zup opsK A)) (Spec.colMean Spec.nUW (toF (Model.zup opsK A))))
    (Model.zup opsK A) (Model.col A.lU)
  have er := g_bn_gather gather_S250000x64_S500000x1_S500000x64_1_0_n_n_0_1_164 rfl rfl rfl rfl Spec.epsW (vec A.g2r) (vec A.b2r)
    (Spec.colMean Spec.nRW (toF (Model.zrp opsK A)))
    (Spec.colVar Spec.nRW (toF (Model.zrp opsK A)) (Spec.colMean Spec.nRW (toF (Model.zrp opsK A))))
    (Model.zrp opsK A) (Model.col A.lR)
  funext i
  show Spec.cosRow Spec.tinyW (toF (opsK.gatLU (Model.zu opsK A) (Model.col A.lU)))
    (toF (opsK.gatLR (Model.zr opsK A) (Model.col A.lR))) (i 0) = _
  rw [show toF (opsK.gatLU (Model.zu opsK A) (Model.col A.lU)) = _ from eu,
    show toF (opsK.gatLR (Model.zr opsK A) (Model.col A.lR)) = _ from er]
  rfl

set_option maxHeartbeats 1000000 in
theorem g_take1 (V : Valuation τ sig (Elt Ideal)) :
    (StableHlo.after hostOps16_1 V (Proc.devRef .tc main_v102) : Model.Mat 500000 64)
      = takeLU (V (Proc.devRef .tc main_v92_0)) (V (Proc.devRef .tc main_arg32)) := by
  dsimp only [hostOps16_1]
  after_results_simp
  (try simp only [StableHlo.TRef.ofBuf, StableHlo.TRef.toBuf, cast_eq])
  rfl

set_option maxHeartbeats 1000000 in
theorem g_take3 (V : Valuation τ sig (Elt Ideal)) :
    (StableHlo.after hostOps16_2 V (Proc.devRef .tc main_v103) : Model.Mat 500000 64)
      = takeLR (V (Proc.devRef .tc main_v77_0)) (V (Proc.devRef .tc main_arg33)) := by
  dsimp only [hostOps16_2]
  after_results_simp
  (try simp only [StableHlo.TRef.ofBuf, StableHlo.TRef.toBuf, cast_eq])
  rfl

theorem g_W39_v102 : (W39 m ρ c (Proc.devRef .tc main_v102) : Model.Mat 500000 64)
    = takeLU (W38 m ρ c (Proc.devRef .tc main_v92_0)) (W38 m ρ c (Proc.devRef .tc main_arg32)) :=
  g_take1 (W38 m ρ c)
theorem g_W40_v103 : (W40 m ρ c (Proc.devRef .tc main_v103) : Model.Mat 500000 64)
    = takeLR (W39 m ρ c (Proc.devRef .tc main_v77_0)) (W39 m ρ c (Proc.devRef .tc main_arg33)) :=
  g_take3 (W39 m ρ c)

theorem g_resh26 (V : Valuation τ sig (Elt Ideal)) :
    (StableHlo.after hostOps16_3 V (Proc.devRef .tc main_v104) : Model.Mat 1 64)
      = shapeCast S1x64 (V (Proc.devRef .tc main_arg26) : FVec Ideal S64 .f32) shapeCasts_S64_S1x64 := by
  dsimp only [hostOps16_3]
  after_results
  rfl
theorem g_resh27 (V : Valuation τ sig (Elt Ideal)) :
    (StableHlo.after hostOps16_3 V (Proc.devRef .tc main_v105) : Model.Mat 1 64)
      = shapeCast S1x64 (V (Proc.devRef .tc main_arg27) : FVec Ideal S64 .f32) shapeCasts_S64_S1x64 := by
  dsimp only [hostOps16_3]
  after_results
  rfl
theorem g_resh28 (V : Valuation τ sig (Elt Ideal)) :
    (StableHlo.after hostOps16_3 V (Proc.devRef .tc main_v106) : Model.Mat 1 64)
      = shapeCast S1x64 (V (Proc.devRef .tc main_arg28) : FVec Ideal S64 .f32) shapeCasts_S64_S1x64 := by
  dsimp only [hostOps16_3]
  after_results
  rfl
theorem g_resh29 (V : Valuation τ sig (Elt Ideal)) :
    (StableHlo.after hostOps16_3 V (Proc.devRef .tc main_v107) : Model.Mat 1 64)
      = shapeCast S1x64 (V (Proc.devRef .tc main_arg29) : FVec Ideal S64 .f32) shapeCasts_S64_S1x64 := by
  dsimp only [hostOps16_3]
  after_results
  rfl

theorem g_W41_v104 (j : Fin 64) : (W41 m ρ c (Proc.devRef .tc main_v104) : Model.Mat 1 64) (ix2 0 j) = vec (argsK m c).g2u j :=
  (congrFun (g_resh26 (W40 m ρ c)) (ix2 0 j)).trans ((shapeCast_a_1a_apply _ _ 0 j).trans (congrFun (W40_arg m ρ c main_arg26 (by decide)) (ix1 j)))
theorem g_W41_v105 (j : Fin 64) : (W41 m ρ c (Proc.devRef .tc main_v105) : Model.Mat 1 64) (ix2 0 j) = vec (argsK m c).b2u j :=
  (congrFun (g_resh27 (W40 m ρ c)) (ix2 0 j)).trans ((shapeCast_a_1a_apply _ _ 0 j).trans (congrFun (W40_arg m ρ c main_arg27 (by decide)) (ix1 j)))
theorem g_W41_v106 (j : Fin 64) : (W41 m ρ c (Proc.devRef .tc main_v106) : Model.Mat 1 64) (ix2 0 j) = vec (argsK m c).g2r j :=
  (congrFun (g_resh28 (W40 m ρ c)) (ix2 0 j)).trans ((shapeCast_a_1a_apply _ _ 0 j).trans (congrFun (W40_arg m ρ c main_arg28 (by decide)) (ix1 j)))
theorem g_W41_v107 (j : Fin 64) : (W41 m ρ c (Proc.devRef .tc main_v107) : Model.Mat 1 64) (ix2 0 j) = vec (argsK m c).b2r j :=
  (congrFun (g_resh29 (W40 m ρ c)) (ix2 0 j)).trans ((shapeCast_a_1a_apply _ _ 0 j).trans (congrFun (W40_arg m ρ c main_arg29 (by decide)) (ix1 j)))

theorem g_W43_v109 : (W43 m ρ c (Proc.devRef .tc main_v109) : FVec Ideal S500000 .f32)
    = shapeCast S500000 (W42 m ρ c (Proc.devRef .tc main_v108) : FVec Ideal S500000x1 .f32) shapeCasts_S500000x1_S500000 := by
  show StableHlo.after hostOps17 (W42 m ρ c) (Proc.devRef .tc main_v109) = _
  dsimp only [hostOps17]
  after_results
  rfl

theorem g_vecCast_apply (v : FVec Ideal S500000x1 .f32) (r : Fin 500000) :
    shapeCast S500000 v shapeCasts_S500000x1_S500000 (ix1 r) = v (ix2 r 0) :=
  shapeCast_apply v shapeCasts_S500000x1_S500000 (ix1 r) (ix2 r 0) (by
    rw [Shape.rowMajor_val_one, Shape.rowMajor_val_two]
    show r.val * 1 + 0 = r.val
    omega)

theorem g_w0 : zs16 (V41 m ρ) c = W41 m ρ c (Proc.devRef .tc main_v102) := rfl
theorem g_w1 : zd16 (V41 m ρ) c = W41 m ρ c (Proc.devRef .tc main_v103) := rfl
theorem g_w2 : mu16 (V41 m ρ) c = W41 m ρ c (Proc.devRef .tc main_v95) := rfl
theorem g_w3 : vu16 (V41 m ρ) c = W41 m ρ c (Proc.devRef .tc main_v101) := rfl
theorem g_w4 : gu16 (V41 m ρ) c = W41 m ρ c (Proc.devRef .tc main_v104) := rfl
theorem g_w5 : bu16 (V41 m ρ) c = W41 m ρ c (Proc.devRef .tc main_v105) := rfl
theorem g_w6 : mr16 (V41 m ρ) c = W41 m ρ c (Proc.devRef .tc main_v80) := rfl
theorem g_w7 : vr16 (V41 m ρ) c = W41 m ρ c (Proc.devRef .tc main_v86) := rfl
theorem g_w8 : gr16 (V41 m ρ) c = W41 m ρ c (Proc.devRef .tc main_v106) := rfl
theorem g_w9 : br16 (V41 m ρ) c = W41 m ρ c (Proc.devRef .tc main_v107) := rfl
theorem g_w10 : (W42 m ρ c (Proc.devRef .tc main_v108) : FVec Ideal S500000x1 .f32) = o16 (V41 m ρ) c :=
  W42_arr m ρ c 10

/-- Normalising column-wise commutes with gathering whole rows, so the last region's result is the model's. -/
theorem phaseG (hin : Model.InRange (argsK m c))
    (hF : W38 m ρ c (Proc.devRef .tc main_v92_0) = Model.zup opsK (argsK m c)
      ∧ W38 m ρ c (Proc.devRef .tc main_v95) = Model.rowArr (Spec.colMean Spec.nUW (Model.toF (Model.zup opsK (argsK m c))))
      ∧ W38 m ρ c (Proc.devRef .tc main_v101) = Model.rowArr (Spec.colVar Spec.nUW (Model.toF (Model.zup opsK (argsK m c))) (Spec.colMean Spec.nUW (Model.toF (Model.zup opsK (argsK m c)))))
      ∧ W38 m ρ c (Proc.devRef .tc main_v77_0) = Model.zrp opsK (argsK m c)
      ∧ W38 m ρ c (Proc.devRef .tc main_v80) = Model.rowArr (Spec.colMean Spec.nRW (Model.toF (Model.zrp opsK (argsK m c))))
      ∧ W38 m ρ c (Proc.devRef .tc main_v86) = Model.rowArr (Spec.colVar Spec.nRW (Model.toF (Model.zrp opsK (argsK m c))) (Spec.colMean Spec.nRW (Model.toF (Model.zrp opsK (argsK m c)))))) :
    W43 m ρ c (Proc.devRef .tc main_v109) = Model.out opsK (argsK m c) := by
  obtain ⟨hzup, hmu, hvu, hzrp, hmr, hvr⟩ := hF
  have hlU : W38 m ρ c (Proc.devRef .tc main_arg32) = (argsK m c).lU := W38_arg m ρ c main_arg32 (by decide)
  have hlR : W39 m ρ c (Proc.devRef .tc main_arg33) = (argsK m c).lR := W39_arg m ρ c main_arg33 (by decide)
  have hzs0 : zs16 (V41 m ρ) c = opsK.gatLU (Model.zup opsK (argsK m c)) (Model.col (argsK m c).lU) := by
    rw [g_w0, W41_keeps m ρ c main_v102 (by decide), W40_keeps m ρ c main_v102 (by decide), g_W39_v102, hzup, hlU]
    exact takeLU_eq (Model.zup opsK (argsK m c)) (argsK m c).lU hin.lU
  have hzd0 : zd16 (V41 m ρ) c = opsK.gatLR (Model.zrp opsK (argsK m c)) (Model.col (argsK m c).lR) := by
    rw [g_w1, W41_keeps m ρ c main_v103 (by decide), g_W40_v103, W39_keeps m ρ c main_v77_0 (by decide), hzrp, hlR]
    exact takeLR_eq (Model.zrp opsK (argsK m c)) (argsK m c).lR hin.lR
  have hzs : (fun a j => zs16 (V41 m ρ) c (ix2 a j))
      = toF (opsK.gatLU (Model.zup opsK (argsK m c)) (Model.col (argsK m c).lU)) := by
    rw [hzs0]; rfl
  have hzd : (fun a j => zd16 (V41 m ρ) c (ix2 a j))
      = toF (opsK.gatLR (Model.zrp opsK (argsK m c)) (Model.col (argsK m c).lR)) := by
    rw [hzd0]; rfl
  have pmu : (fun j => mu16 (V41 m ρ) c (ix2 0 j)) = Spec.colMean Spec.nUW (toF (Model.zup opsK (argsK m c))) := by
    rw [g_w2, W41_keeps m ρ c main_v95 (by decide), W40_keeps m ρ c main_v95 (by decide), W39_keeps m ρ c main_v95 (by decide), hmu]; rfl
  have pvu : (fun j => vu16 (V41 m ρ) c (ix2 0 j))
      = Spec.colVar Spec.nUW (toF (Model.zup opsK (argsK m c))) (Spec.colMean Spec.nUW (toF (Model.zup opsK (argsK m c)))) := by
    rw [g_w3, W41_keeps m ρ c main_v101 (by decide), W40_keeps m ρ c main_v101 (by decide), W39_keeps m ρ c main_v101 (by decide), hvu]; rfl
  have pmr : (fun j => mr16 (V41 m ρ) c (ix2 0 j)) = Spec.colMean Spec.nRW (toF (Model.zrp opsK (argsK m c))) := by
    rw [g_w6, W41_keeps m ρ c main_v80 (by decide), W40_keeps m ρ c main_v80 (by decide), W39_keeps m ρ c main_v80 (by decide), hmr]; rfl
  have pvr : (fun j => vr16 (V41 m ρ) c (ix2 0 j))
      = Spec.colVar Spec.nRW (toF (Model.zrp opsK (argsK m c))) (Spec.colMean Spec.nRW (toF (Model.zrp opsK (argsK m c)))) := by
    rw [g_w7, W41_keeps m ρ c main_v86 (by decide), W40_keeps m ρ c main_v86 (by decide), W39_keeps m ρ c main_v86 (by decide), hvr]; rfl
  have pgu : (fun j => gu16 (V41 m ρ) c (ix2 0 j)) = vec (argsK m c).g2u := by
    rw [g_w4]; exact funext (g_W41_v104 m ρ c)
  have pbu : (fun j => bu16 (V41 m ρ) c (ix2 0 j)) = vec (argsK m c).b2u := by
    rw [g_w5]; exact funext (g_W41_v105 m ρ c)
  have pgr : (fun j => gr16 (V41 m ρ) c (ix2 0 j)) = vec (argsK m c).g2r := by
    rw [g_w8]; exact funext (g_W41_v106 m ρ c)
  have pbr : (fun j => br16 (V41 m ρ) c (ix2 0 j)) = vec (argsK m c).b2r := by
    rw [g_w9]; exact funext (g_W41_v107 m ρ c)
  have hreg := reg16_out (V41 m ρ) c
  rw [hzs, hzd, pmu, pvu, pmr, pvr, pgu, pbu, pgr, pbr] at hreg
  rw [g_W43_v109, g_w10, hreg, g_out_eq]
  funext i
  obtain ⟨r, rfl⟩ : ∃ r : Fin 500000, i = ix1 r := ⟨i 0, eq_ix1 i⟩
  rw [g_vecCast_apply]

end Cert.KernelIdeal.Chain

end
-- ==== Proof.KChain.lean ====
import proofs.«425228_j78254304133410_2_alg».proof.Proof.KPhaseAB
import proofs.«425228_j78254304133410_2_alg».proof.Proof.KPhaseCD
import proofs.«425228_j78254304133410_2_alg».proof.Proof.KPhaseD
import proofs.«425228_j78254304133410_2_alg».proof.Proof.KPhaseEF
import proofs.«425228_j78254304133410_2_alg».proof.Proof.KPhaseF
import proofs.«425228_j78254304133410_2_alg».proof.Proof.KPhaseG
import proofs.«425228_j78254304133410_2_alg».proof.Proof.LaunchValue

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The seven phases compose: the result buffer ends at the model's output. -/
theorem kernel_value (c : Dev nD) (hin : Cert.Model.InRange (argsK m c)) :
    W43 m ρ c (Proc.devRef .tc main_v109) = Cert.Model.out opsK (argsK m c) :=
  phaseG m ρ c hin (phaseF m ρ c hin (phaseE m ρ c hin (phaseD m ρ c hin (phaseC m ρ c hin (phaseB m ρ c)))))

theorem kernel_run (hin : ∀ c : Dev nD, Cert.Model.InRange (argsK m c)) :
    θ_run defs (onTc (τ := τ) (main (F := Ideal))) ⟨m, fun _ => 0, ρ⟩ fun r => ∀ c : Dev nD,
      r.2.mem ((c.tc : Thread nD τ).loc main_v109) = Cert.Model.out opsK (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) :=
  (θ_run defs _ _).mono (fun r h c => ⟨(h c).1.trans (kernel_value m ρ c (hin c)), (h c).2⟩)
    (Cert.KernelIdeal.Gen.run_value (F := Ideal) m ρ)

end Cert.KernelIdeal.Chain

end
-- ==== Proof.RState.lean ====
import proofs.«425228_j78254304133410_2_alg».proof.Proof.RefOps
import proofs.«425228_j78254304133410_2_alg».proof.Proof.Model

noncomputable section

namespace Cert.ReferenceIdeal.Hand

open Cert.ReferenceIdeal Cert.ReferenceIdeal.Gen
open Idealize.ShloMosaic Idealize.ShloMosaic.TcCoe Idealize.SL.Sem Idealize.ShloMosaic.StableHlo

def argsR (m : (ℓ : Loc nD τ sig) → Buf (Elt Ideal) ℓ) (c : Dev nD) : Cert.Model.Args where
  xU := m ((c.tc : Thread nD τ).loc main_arg0)
  xR := m ((c.tc : Thread nD τ).loc main_arg1)
  Wu := m ((c.tc : Thread nD τ).loc main_arg2)
  bu := m ((c.tc : Thread nD τ).loc main_arg3)
  Wr := m ((c.tc : Thread nD τ).loc main_arg4)
  br := m ((c.tc : Thread nD τ).loc main_arg5)
  gInU := m ((c.tc : Thread nD τ).loc main_arg6)
  bInU := m ((c.tc : Thread nD τ).loc main_arg7)
  gInR := m ((c.tc : Thread nD τ).loc main_arg8)
  bInR := m ((c.tc : Thread nD τ).loc main_arg9)
  Wl1ur := m ((c.tc : Thread nD τ).loc main_arg10)
  bl1ur := m ((c.tc : Thread nD τ).loc main_arg11)
  Wr1ur := m ((c.tc : Thread nD τ).loc main_arg12)
  Wl1ru := m ((c.tc : Thread nD τ).loc main_arg13)
  bl1ru := m ((c.tc : Thread nD τ).loc main_arg14)
  Wr1ru := m ((c.tc : Thread nD τ).loc main_arg15)
  g1u := m ((c.tc : Thread nD τ).loc main_arg16)
  b1u := m ((c.tc : Thread nD τ).loc main_arg17)
  g1r := m ((c.tc : Thread nD τ).loc main_arg18)
  b1r := m ((c.tc : Thread nD τ).loc main_arg19)
  Wl2ur := m ((c.tc : Thread nD τ).loc main_arg20)
  bl2ur := m ((c.tc : Thread nD τ).loc main_arg21)
  Wr2ur := m ((c.tc : Thread nD τ).loc main_arg22)
  Wl2ru := m ((c.tc : Thread nD τ).loc main_arg23)
  bl2ru := m ((c.tc : Thread nD τ).loc main_arg24)
  Wr2ru := m ((c.tc : Thread nD τ).loc main_arg25)
  g2u := m ((c.tc : Thread nD τ).loc main_arg26)
  b2u := m ((c.tc : Thread nD τ).loc main_arg27)
  g2r := m ((c.tc : Thread nD τ).loc main_arg28)
  b2r := m ((c.tc : Thread nD τ).loc main_arg29)
  eU := m ((c.tc : Thread nD τ).loc main_arg30)
  eR := m ((c.tc : Thread nD τ).loc main_arg31)
  lU := m ((c.tc : Thread nD τ).loc main_arg32)
  lR := m ((c.tc : Thread nD τ).loc main_arg33)

def opsR : Cert.Model.Ops where
  gatU := fun x i => Host.gather gather_S100000x64_S1500000x1_S1500000x64_1_0_n_n_0_1_164 x i
  gatR := fun x i => Host.gather gather_S250000x64_S1500000x1_S1500000x64_1_0_n_n_0_1_164 x i
  scR := fun (x : FVec Ideal S250000x64 .f32) i (u : FVec Ideal S1500000x64 .f32) => (Host.scatterAdd scatter_S250000x64_S1500000x1_S1500000x64_1_0_0_1 x i u : FVec Ideal S250000x64 .f32)
  scR1 := fun (x : FVec Ideal S250000x1 .f32) i (u : FVec Ideal S1500000x1 .f32) => (Host.scatterAdd scatter_S250000x1_S1500000x1_S1500000x1_1_0_0_1 x i u : FVec Ideal S250000x1 .f32)
  scU := fun (x : FVec Ideal S100000x64 .f32) i (u : FVec Ideal S1500000x64 .f32) => (Host.scatterAdd scatter_S100000x64_S1500000x1_S1500000x64_1_0_0_1 x i u : FVec Ideal S100000x64 .f32)
  scU1 := fun (x : FVec Ideal S100000x1 .f32) i (u : FVec Ideal S1500000x1 .f32) => (Host.scatterAdd scatter_S100000x1_S1500000x1_S1500000x1_1_0_0_1 x i u : FVec Ideal S100000x1 .f32)
  gatLU := fun x i => Host.gather gather_S100000x64_S500000x1_S500000x64_1_0_n_n_0_1_164 x i
  gatLR := fun x i => Host.gather gather_S250000x64_S500000x1_S500000x64_1_0_n_n_0_1_164 x i

def Below {e : Nat} (N : Int) (v : Cert.Model.Ixs e) : Prop :=
  ∀ k : Fin e, 0 ≤ (v (Idealize.ShloMosaic.ValueIdx.ix1 k)).toInt ∧ (v (Idealize.ShloMosaic.ValueIdx.ix1 k)).toInt < N

end Cert.ReferenceIdeal.Hand

end
-- ==== Proof.RProj.lean ====
import proofs.«425228_j78254304133410_2_alg».proof.Proof.RState
import Idealize.ShloMosaic.Lib.ValueIdx
import Idealize.ShloMosaic.Lib.ValueLayout
import Idealize.ShloMosaic.Lib.Pipeline.Value
import Idealize.ShloMosaic.Lib.StackMember
import Idealize.ShloMosaic.Lib.StableHlo.Run
import Idealize.ShloMosaic.Lib.StableHlo.Predicate
import Idealize.ShloMosaic.PureOps.Ideal.Laws

set_option maxRecDepth 16384

noncomputable section

namespace Cert.ReferenceIdeal.Hand

open Cert.ReferenceIdeal Cert.ReferenceIdeal.Gen Cert.Model Cert.Spec
open Idealize.ShloMosaic Idealize.ShloMosaic.TcCoe Idealize.ShloMosaic.ValueIdx Idealize.SL.Sem Idealize.ShloMosaic.StableHlo
open scoped BigOperators

section

abbrev proj_V64 : Shape := ⟨1, ![64]⟩
abbrev proj_R64 : Shape := ⟨2, ![1, 64]⟩
abbrev proj_Sc : Shape := ⟨0, ![]⟩
abbrev proj_Mx (n h : Nat) : Shape := ⟨2, ![n, h]⟩

variable {n d : Nat}

variable (b1 : proj_V64.BroadcastsInDim proj_R64 (![1] : Fin 1 → Fin proj_R64.rank))
  (b2 : proj_R64.BroadcastsInDim (proj_Mx n 64) (![0, 1] : Fin 2 → Fin (proj_Mx n 64).rank))
  (b0 : proj_Sc.BroadcastsInDim proj_V64 (![] : Fin 0 → Fin proj_V64.rank))
  (bz : proj_Sc.BroadcastsInDim (proj_Mx n 64) (![] : Fin 0 → Fin (proj_Mx n 64).rank))
  (rd : (proj_Mx n 64).ReducesTo [0] proj_V64) (h0 : 0 < proj_Sc.numel)

def proj_rows (v : FVec Ideal proj_V64 .f32) : FVec Ideal (proj_Mx n 64) .f32 :=
  broadcastInDim (proj_Mx n 64) ![0, 1] b2 (broadcastInDim proj_R64 ![1] b1 v)

theorem proj_rows_apply (v : FVec Ideal proj_V64 .f32) (a : Fin n) (j : Fin 64) : proj_rows b1 b2 v (ix2 a j) = v (ix1 j) := by
  unfold proj_rows
  rw [broadcastInDim_apply _ b2 _ (ix2 a j) (ix2 0 j) (fun c => match c with
      | ⟨0, _⟩ => by show 0 = if (1 : Nat) = 1 then 0 else a.val; rw [if_pos rfl]
      | ⟨1, _⟩ => by show j.val = if (64 : Nat) = 1 then 0 else j.val; rw [if_neg (by decide)]),
    broadcastInDim_apply _ b1 v (ix2 0 j) (ix1 j) (fun c => match c with
      | ⟨0, _⟩ => by show j.val = if (64 : Nat) = 1 then 0 else j.val; rw [if_neg (by decide)])]

def proj_splat64 (w : BitVec 32) : FVec Ideal proj_V64 .f32 := broadcastInDim proj_V64 ![] b0 (constant proj_Sc .f32 w)

theorem proj_splat64_apply (w : BitVec 32) (i : proj_V64.Idx) : proj_splat64 b0 w i = Ideal.ofBits .f32 w := by
  unfold proj_splat64
  rw [broadcastInDim_apply _ b0 _ i ix0 (fun c => c.elim0)]
  rfl

def proj_zeros : FVec Ideal (proj_Mx n 64) .f32 := broadcastInDim (proj_Mx n 64) ![] bz (constant proj_Sc .f32 0x00000000#32)

theorem proj_zeros_apply (i : (proj_Mx n 64).Idx) : proj_zeros bz i = 0 := by
  unfold proj_zeros
  rw [broadcastInDim_apply _ bz _ i ix0 (fun c => c.elim0)]
  exact Ideal.ofBits_zero_f32

def proj_colAvg (cN : BitVec 32) (y : FVec Ideal (proj_Mx n 64) .f32) : FVec Ideal proj_V64 .f32 :=
  Host.divf (Host.reduceAdd y (constant proj_Sc .f32 0x00000000#32) rd h0) (proj_splat64 b0 cN)

theorem proj_colAvg_apply (cN : BitVec 32) (y : FVec Ideal (proj_Mx n 64) .f32) (j : Fin 64) :
    proj_colAvg b0 rd h0 cN y (ix1 j) = Ideal.div (∑ a : Fin n, y (ix2 a j)) (Ideal.ofBits .f32 cN) := by
  have hr : (proj_Mx n 64).Reduces [0] proj_V64 := ⟨rd.1, Nat.one_pos, rd.2⟩
  show Ideal.div (Ideal.hostReduceAdd rd y (Ideal.ofBits .f32 0x00000000#32) (ix1 j)) (proj_splat64 b0 cN (ix1 j)) = _
  rw [proj_splat64_apply, Ideal.hostReduceAdd_single rd hr, Ideal.ofBits_zero_f32, zero_add]
  refine congrArg (Ideal.div · _) (Finset.sum_congr rfl fun k _ => ?_)
  exact congrArg y (funext fun c => Fin.ext (by match c with | ⟨0, _⟩ => rfl | ⟨1, _⟩ => rfl))

def proj_linT (x : FVec Ideal (proj_Mx n d) .f32) (W : FVec Ideal (proj_Mx d 64) .f32) (b : FVec Ideal proj_V64 .f32) :
    FVec Ideal (proj_Mx n 64) .f32 :=
  addf (Host.dotGeneral (DotDims.plain n d 64) none x W) (proj_rows b1 b2 b)

theorem proj_linT_eq (x : FVec Ideal (proj_Mx n d) .f32) (W : FVec Ideal (proj_Mx d 64) .f32) (b : FVec Ideal proj_V64 .f32) :
    proj_linT b1 b2 x W b = ofF (Spec.lin (toF x) (toF W) (vec b)) := by
  funext i
  obtain ⟨a, j, rfl⟩ : ∃ a j, i = ix2 a j := ⟨i 0, i 1, eq_ix2 i⟩
  show Host.dotGeneral (DotDims.plain n d 64) none x W (ix2 a j) + proj_rows b1 b2 b (ix2 a j) = _
  rw [StackMember.dotGeneral_plain_apply, proj_rows_apply]
  rfl

def proj_normT (cN : BitVec 32) (g β : FVec Ideal proj_V64 .f32) (y : FVec Ideal (proj_Mx n 64) .f32) : FVec Ideal (proj_Mx n 64) .f32 :=
  maximumf
    (addf
      (mulf (mulf (proj_rows b1 b2 g) (subf y (proj_rows b1 b2 (proj_colAvg b0 rd h0 cN y))))
        (proj_rows b1 b2 (Host.rsqrt (addf
          (proj_colAvg b0 rd h0 cN (mulf (subf y (proj_rows b1 b2 (proj_colAvg b0 rd h0 cN y))) (subf y (proj_rows b1 b2 (proj_colAvg b0 rd h0 cN y)))))
          (proj_splat64 b0 0x3727C5AC#32)))))
      (proj_rows b1 b2 β))
    (proj_zeros bz)

theorem proj_normT_eq (cN : BitVec 32) (g β : FVec Ideal proj_V64 .f32) (y : FVec Ideal (proj_Mx n 64) .f32) :
    proj_normT b1 b2 b0 bz rd h0 cN g β y = ofF (Spec.relu (Model.norm (Ideal.ofBits .f32 cN) g β (toF y))) := by
  funext i
  obtain ⟨a, j, rfl⟩ : ∃ a j, i = ix2 a j := ⟨i 0, i 1, eq_ix2 i⟩
  have hdev : ∀ r : Fin n, subf y (proj_rows b1 b2 (proj_colAvg b0 rd h0 cN y)) (ix2 r j)
      = y (ix2 r j) - Ideal.div (∑ s : Fin n, y (ix2 s j)) (Ideal.ofBits .f32 cN) := fun r => by
    rw [subf_apply, proj_rows_apply, proj_colAvg_apply]
  show max (proj_rows b1 b2 g (ix2 a j) * subf y (proj_rows b1 b2 (proj_colAvg b0 rd h0 cN y)) (ix2 a j)
        * proj_rows b1 b2 (Host.rsqrt (addf
            (proj_colAvg b0 rd h0 cN (mulf (subf y (proj_rows b1 b2 (proj_colAvg b0 rd h0 cN y))) (subf y (proj_rows b1 b2 (proj_colAvg b0 rd h0 cN y)))))
            (proj_splat64 b0 0x3727C5AC#32))) (ix2 a j)
      + proj_rows b1 b2 β (ix2 a j)) (proj_zeros bz (ix2 a j)) = _
  rw [proj_zeros_apply, proj_rows_apply, proj_rows_apply, proj_rows_apply, hdev]
  show max (g (ix1 j) * _ * Ideal.rsqrt
        (proj_colAvg b0 rd h0 cN (mulf (subf y (proj_rows b1 b2 (proj_colAvg b0 rd h0 cN y))) (subf y (proj_rows b1 b2 (proj_colAvg b0 rd h0 cN y)))) (ix1 j)
          + proj_splat64 b0 0x3727C5AC#32 (ix1 j))
      + β (ix1 j)) 0 = _
  rw [proj_colAvg_apply, proj_splat64_apply]
  simp only [mulf_apply, hdev]
  rfl

def proj_term (cN : BitVec 32) (x : FVec Ideal (proj_Mx n d) .f32) (W : FVec Ideal (proj_Mx d 64) .f32) (b g β : FVec Ideal proj_V64 .f32) :
    FVec Ideal (proj_Mx n 64) .f32 :=
  proj_normT b1 b2 b0 bz rd h0 cN g β (proj_linT b1 b2 x W b)

/-- The operations of a projection chunk compose to the model's projection stage. -/
theorem proj_term_eq (cN : BitVec 32) (x : FVec Ideal (proj_Mx n d) .f32) (W : FVec Ideal (proj_Mx d 64) .f32) (b g β : FVec Ideal proj_V64 .f32) :
    proj_term b1 b2 b0 bz rd h0 cN x W b g β = Model.projStage (Ideal.ofBits .f32 cN) x W b g β := by
  unfold proj_term Model.projStage
  rw [proj_normT_eq, proj_linT_eq, toF_ofF]

end

variable (X : Valuation τ sig (Elt Ideal))

theorem proj_c1_run : StableHlo.after opsC1 X (Proc.devRef .tc main_v29)
    = proj_term (n := 100000) (d := 64) bcast_S64_S1x64_1 bcast_S1x64_S100000x64_0_1 bcast_S_S64 bcast_S_S100000x64
        reducesTo_S100000x64_S64_d0 h_S_ 0x47C35000#32
        (X (Proc.devRef .tc main_arg0)) (X (Proc.devRef .tc main_arg2)) (X (Proc.devRef .tc main_arg3))
        (X (Proc.devRef .tc main_arg6)) (X (Proc.devRef .tc main_arg7)) := by
  after_results_simp
  rfl

theorem c1_val : StableHlo.after opsC1 X (Proc.devRef .tc main_v29)
    = Model.projStage Spec.nUW (X (Proc.devRef .tc main_arg0)) (X (Proc.devRef .tc main_arg2)) (X (Proc.devRef .tc main_arg3)) (X (Proc.devRef .tc main_arg6)) (X (Proc.devRef .tc main_arg7)) := by
  rw [proj_c1_run]
  exact proj_term_eq _ _ _ _ _ _ _ _ _ _ _ _

theorem proj_c2_run : StableHlo.after opsC2 X (Proc.devRef .tc main_v59)
    = proj_term (n := 250000) (d := 128) bcast_S64_S1x64_1 bcast_S1x64_S250000x64_0_1 bcast_S_S64 bcast_S_S250000x64
        reducesTo_S250000x64_S64_d0 h_S_ 0x48742400#32
        (X (Proc.devRef .tc main_arg1)) (X (Proc.devRef .tc main_arg4)) (X (Proc.devRef .tc main_arg5))
        (X (Proc.devRef .tc main_arg8)) (X (Proc.devRef .tc main_arg9)) := by
  after_results_simp
  rfl

theorem c2_val : StableHlo.after opsC2 X (Proc.devRef .tc main_v59)
    = Model.projStage Spec.nRW (X (Proc.devRef .tc main_arg1)) (X (Proc.devRef .tc main_arg4)) (X (Proc.devRef .tc main_arg5)) (X (Proc.devRef .tc main_arg8)) (X (Proc.devRef .tc main_arg9)) := by
  rw [proj_c2_run]
  exact proj_term_eq _ _ _ _ _ _ _ _ _ _ _ _

end Cert.ReferenceIdeal.Hand

end
-- ==== Proof.RSage.lean ====
import proofs.«425228_j78254304133410_2_alg».proof.Proof.RState
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.ReferenceIdeal.Hand

open Cert.ReferenceIdeal Cert.ReferenceIdeal.Gen Cert.Model Cert.Spec
open Idealize.ShloMosaic Idealize.ShloMosaic.TcCoe Idealize.ShloMosaic.ValueIdx Idealize.SL.Sem Idealize.ShloMosaic.StableHlo
open scoped BigOperators

theorem sage_slt_zero_of_nonneg {w : BitVec 32} (h : 0 ≤ w.toInt) : IntOp.cmpi .slt w 0#32 = 0#1 := by
  have hb : w.slt 0#32 = false := by
    simp only [BitVec.slt, show (0#32 : BitVec 32).toInt = 0 from by decide, decide_eq_false_iff_not, not_lt]
    exact h
  show BitVec.ofBool (w.slt 0#32) = 0#1
  rw [hb]; rfl

def sage_wrapIx (N : BitVec 32) (v : Ixs 1500000) : Ixs 1500000 :=
  select (cmpi .slt (v : IVec S1500000 32) (broadcastInDim S1500000 ![] bcast_S_S1500000 (constantI S_ 32 0#32)))
    (addi (v : IVec S1500000 32) (broadcastInDim S1500000 ![] bcast_S_S1500000 (constantI S_ 32 N))) v

def sage_bcol (v : Ixs 1500000) : IxCol 1500000 := broadcastInDim S1500000x1 ![0] bcast_S1500000_S1500000x1_0 v

theorem sage_wrapIx_eq (N : BitVec 32) {M : Int} (v : Ixs 1500000) (h : Below M v) : sage_wrapIx N v = v := by
  funext i
  obtain ⟨k, rfl⟩ : ∃ k : Fin 1500000, i = ix1 k := ⟨i 0, eq_ix1 i⟩
  have hc : cmpi .slt (v : IVec S1500000 32) (broadcastInDim S1500000 ![] bcast_S_S1500000 (constantI S_ 32 0#32)) (ix1 k) = 0#1 :=
    sage_slt_zero_of_nonneg (h k).1
  unfold sage_wrapIx
  rw [select_apply, hc, select_zero]

theorem sage_bcol_eq (v : Ixs 1500000) : sage_bcol v = Model.col v := by
  funext i
  unfold sage_bcol Model.col
  exact broadcastInDim_apply _ bcast_S1500000_S1500000x1_0 v i (ix1 (i 0)) (fun a => match a with
    | ⟨0, _⟩ => by show (i 0).val = if (1500000 : Nat) = 1 then 0 else (i 0).val; rw [if_neg (by decide)])

theorem sage_onesE_eq : (broadcastInDim S1500000x1 ![] bcast_S_S1500000x1 (constant (F := Ideal) S_ .f32 0x3F800000#32) : Mat 1500000 1)
    = fun _ => Spec.oneW := rfl

theorem sage_zerosR_eq : (broadcastInDim S250000x64 ![] bcast_S_S250000x64 (constant (F := Ideal) S_ .f32 0x00000000#32) : Mat 250000 64)
    = fun _ => Model.zeroW := rfl
theorem sage_zerosR1_eq : (broadcastInDim S250000x1 ![] bcast_S_S250000x1 (constant (F := Ideal) S_ .f32 0x00000000#32) : Mat 250000 1)
    = fun _ => Model.zeroW := rfl

def sage_aggRProg (N : BitVec 32) (src : Mat 100000 64) (eU eR : Ixs 1500000) : Mat 250000 64 :=
  opsR.scR (broadcastInDim S250000x64 ![] bcast_S_S250000x64 (constant (F := Ideal) S_ .f32 0x00000000#32)) (sage_bcol eR)
    (opsR.gatU src (sage_bcol (sage_wrapIx N eU)))
def sage_cntRProg (eR : Ixs 1500000) : Mat 250000 1 :=
  opsR.scR1 (broadcastInDim S250000x1 ![] bcast_S_S250000x1 (constant (F := Ideal) S_ .f32 0x00000000#32)) (sage_bcol eR)
    (broadcastInDim S1500000x1 ![] bcast_S_S1500000x1 (constant (F := Ideal) S_ .f32 0x3F800000#32))

theorem sage_aggRProg_eq (N : BitVec 32) {M : Int} (src : Mat 100000 64) (eU eR : Ixs 1500000) (h : Below M eU) :
    sage_aggRProg N src eU eR = Model.aggRStage opsR src eU eR := by
  unfold sage_aggRProg Model.aggRStage
  rw [sage_wrapIx_eq N eU h, sage_bcol_eq, sage_bcol_eq, sage_zerosR_eq]
theorem sage_cntRProg_eq (eR : Ixs 1500000) : sage_cntRProg eR = Model.cntRStage opsR eR := by
  unfold sage_cntRProg Model.cntRStage
  rw [sage_bcol_eq, sage_zerosR1_eq, sage_onesE_eq]

def sage_floorR (cnt : Mat 250000 1) : Mat 250000 1 :=
  maximumf (F := Ideal) (φ := .f32) cnt (broadcastInDim S250000x1 ![] bcast_S_S250000x1 (constant (F := Ideal) S_ .f32 0x3F800000#32))
def sage_quotR (agg : Mat 250000 64) (cnt : Mat 250000 1) : Mat 250000 64 :=
  Host.divf (F := Ideal) (φ := .f32) agg (broadcastInDim S250000x64 ![0, 1] bcast_S250000x1_S250000x64_0_1 (sage_floorR cnt))
def sage_biasR (bl : Row 64) : Mat 250000 64 :=
  broadcastInDim S250000x64 ![0, 1] bcast_S1x64_S250000x64_0_1 (broadcastInDim S1x64 ![1] bcast_S64_S1x64_1 bl)
def sage_combR (agg : Mat 250000 64) (cnt : Mat 250000 1) (own : Mat 250000 64) (Wl : Mat 64 64) (bl : Row 64) (Wr : Mat 64 64) : Mat 250000 64 :=
  addf (F := Ideal) (φ := .f32)
    (addf (F := Ideal) (φ := .f32) (Host.dotGeneral (F := Ideal) (φ₁ := .f32) (φ₂ := .f32) dot_S250000x64_S64x64_S250000x64_1_0_0_1_n_n none (sage_quotR agg cnt) Wl) (sage_biasR bl))
    (Host.dotGeneral (F := Ideal) (φ₁ := .f32) (φ₂ := .f32) dot_S250000x64_S64x64_S250000x64_1_0_0_1_n_n none own Wr)

theorem sage_quotR_apply (agg : Mat 250000 64) (cnt : Mat 250000 1) (a : Fin 250000) (k : Fin 64) :
    sage_quotR agg cnt (ix2 a k) = Ideal.div (agg (ix2 a k)) (max (cnt (ix2 a 0)) Spec.oneW) := by
  show Ideal.div (agg (ix2 a k)) ((broadcastInDim S250000x64 ![0, 1] bcast_S250000x1_S250000x64_0_1 (sage_floorR cnt) : Mat 250000 64) (ix2 a k)) = _
  rw [broadcastInDim_apply _ bcast_S250000x1_S250000x64_0_1 (sage_floorR cnt) (ix2 a k) (ix2 a 0) (fun b => match b with
    | ⟨0, _⟩ => by show a.val = if (250000 : Nat) = 1 then 0 else a.val; rw [if_neg (by decide)]
    | ⟨1, _⟩ => by show 0 = if (1 : Nat) = 1 then 0 else k.val; rw [if_pos rfl])]
  rfl

theorem sage_biasR_apply (bl : Row 64) (a : Fin 250000) (j : Fin 64) : sage_biasR bl (ix2 a j) = bl (ix1 j) := by
  unfold sage_biasR
  rw [broadcastInDim_apply _ bcast_S1x64_S250000x64_0_1 _ (ix2 a j) (ix2 (0 : Fin 1) j) (fun b => match b with
    | ⟨0, _⟩ => by show 0 = if (1 : Nat) = 1 then 0 else a.val; rw [if_pos rfl]
    | ⟨1, _⟩ => by show j.val = if (64 : Nat) = 1 then 0 else j.val; rw [if_neg (by decide)])]
  exact broadcastInDim_apply _ bcast_S64_S1x64_1 bl (ix2 (0 : Fin 1) j) (ix1 j) (fun b => match b with
    | ⟨0, _⟩ => by show j.val = if (64 : Nat) = 1 then 0 else j.val; rw [if_neg (by decide)])

theorem sage_dR_lhs0 (i : S250000x64.Idx) (q : dot_S250000x64_S64x64_S250000x64_1_0_0_1_n_n.contr.Idx) :
    (dot_S250000x64_S64x64_S250000x64_1_0_0_1_n_n.lhsIdx i q 0).val = (i 0).val := by
  unfold DotDims.lhsIdx
  rw [dif_neg (show ¬(0 : Fin S250000x64.rank) ∈ dot_S250000x64_S64x64_S250000x64_1_0_0_1_n_n.lhsBatch by decide),
    dif_pos (show (0 : Fin S250000x64.rank) ∈ dot_S250000x64_S64x64_S250000x64_1_0_0_1_n_n.lhsNonContracting by decide)]
  rfl
theorem sage_dR_lhs1 (i : S250000x64.Idx) (q : dot_S250000x64_S64x64_S250000x64_1_0_0_1_n_n.contr.Idx) :
    (dot_S250000x64_S64x64_S250000x64_1_0_0_1_n_n.lhsIdx i q 1).val = (q ⟨0, by decide⟩).val :=
  dot_S250000x64_S64x64_S250000x64_1_0_0_1_n_n.lhsIdx_val_of_single rfl i q
theorem sage_dR_rhs0 (i : S250000x64.Idx) (q : dot_S250000x64_S64x64_S250000x64_1_0_0_1_n_n.contr.Idx) :
    (dot_S250000x64_S64x64_S250000x64_1_0_0_1_n_n.rhsIdx i q 0).val = (q ⟨0, by decide⟩).val :=
  dot_S250000x64_S64x64_S250000x64_1_0_0_1_n_n.rhsIdx_val_of_single rfl i q
theorem sage_dR_rhs1 (i : S250000x64.Idx) (q : dot_S250000x64_S64x64_S250000x64_1_0_0_1_n_n.contr.Idx) :
    (dot_S250000x64_S64x64_S250000x64_1_0_0_1_n_n.rhsIdx i q 1).val = (i 1).val := by
  unfold DotDims.rhsIdx
  rw [dif_neg (show ¬(1 : Fin S64x64.rank) ∈ dot_S250000x64_S64x64_S250000x64_1_0_0_1_n_n.rhsBatch by decide),
    dif_pos (show (1 : Fin S64x64.rank) ∈ dot_S250000x64_S64x64_S250000x64_1_0_0_1_n_n.rhsNonContracting by decide)]
  rfl

theorem sage_dotR_apply (l : Mat 250000 64) (r : Mat 64 64) (a : Fin 250000) (j : Fin 64) :
    Host.dotGeneral (F := Ideal) (φ₁ := .f32) (φ₂ := .f32) dot_S250000x64_S64x64_S250000x64_1_0_0_1_n_n none l r (ix2 a j)
      = ∑ k : Fin 64, l (ix2 a k) * r (ix2 k j) := by
  simp only [Host.dotGeneral]
  rw [Ideal.dotGeneral_apply, ← Equiv.sum_comp (contrEquiv1 dot_S250000x64_S64x64_S250000x64_1_0_0_1_n_n 64 rfl rfl).symm]
  refine Finset.sum_congr rfl fun k _ => ?_
  have hk := contrEquiv1_symm_val dot_S250000x64_S64x64_S250000x64_1_0_0_1_n_n 64 rfl rfl k
  have el : dot_S250000x64_S64x64_S250000x64_1_0_0_1_n_n.lhsIdx (ix2 a j) ((contrEquiv1 dot_S250000x64_S64x64_S250000x64_1_0_0_1_n_n 64 rfl rfl).symm k) = ix2 a k :=
    funext fun b => Fin.ext (by
      match b with
      | ⟨0, _⟩ => exact sage_dR_lhs0 _ _
      | ⟨1, _⟩ => exact (sage_dR_lhs1 _ _).trans hk)
  have er : dot_S250000x64_S64x64_S250000x64_1_0_0_1_n_n.rhsIdx (ix2 a j) ((contrEquiv1 dot_S250000x64_S64x64_S250000x64_1_0_0_1_n_n 64 rfl rfl).symm k) = ix2 k j :=
    funext fun b => Fin.ext (by
      match b with
      | ⟨0, _⟩ => exact (sage_dR_rhs0 _ _).trans hk
      | ⟨1, _⟩ => exact sage_dR_rhs1 _ _)
  rw [el, er]

theorem sage_combR_eq (agg : Mat 250000 64) (cnt : Mat 250000 1) (own : Mat 250000 64) (Wl : Mat 64 64) (bl : Row 64) (Wr : Mat 64 64) :
    sage_combR agg cnt own Wl bl Wr = Model.sageStage agg cnt own Wl bl Wr := by
  funext i
  obtain ⟨a, j, rfl⟩ : ∃ (a : Fin 250000) (j : Fin 64), i = ix2 a j := ⟨i 0, i 1, eq_ix2 i⟩
  show _ = ((∑ k : Fin 64, Ideal.div (agg (ix2 a k)) (max (cnt (ix2 a 0)) Spec.oneW) * Wl (ix2 k j)) + bl (ix1 j))
      + ∑ k : Fin 64, own (ix2 a k) * Wr (ix2 k j)
  unfold sage_combR
  rw [addf_apply, addf_apply, sage_dotR_apply, sage_dotR_apply, sage_biasR_apply]
  simp only [sage_quotR_apply]

def sage_progR {F : FTy → Type} [FloatOps F] (N : BitVec 32) (src : FVec F S100000x64 .f32) (eU eR : IVec S1500000 32)
    (own : FVec F S250000x64 .f32) (Wl : FVec F S64x64 .f32) (bl : FVec F S64 .f32) (Wr : FVec F S64x64 .f32) : FVec F S250000x64 .f32 :=
  addf
    (addf
      (Host.dotGeneral dot_S250000x64_S64x64_S250000x64_1_0_0_1_n_n none
        (Host.divf
          (Host.scatterAdd scatter_S250000x64_S1500000x1_S1500000x64_1_0_0_1
            (broadcastInDim S250000x64 ![] bcast_S_S250000x64 (constant S_ .f32 0x00000000#32))
            (broadcastInDim S1500000x1 ![0] bcast_S1500000_S1500000x1_0 eR)
            (Host.gather gather_S100000x64_S1500000x1_S1500000x64_1_0_n_n_0_1_164 src
              (broadcastInDim S1500000x1 ![0] bcast_S1500000_S1500000x1_0
                (select (cmpi .slt eU (broadcastInDim S1500000 ![] bcast_S_S1500000 (constantI S_ 32 0#32)))
                  (addi eU (broadcastInDim S1500000 ![] bcast_S_S1500000 (constantI S_ 32 N))) eU))))
          (broadcastInDim S250000x64 ![0, 1] bcast_S250000x1_S250000x64_0_1
            (maximumf
              (Host.scatterAdd scatter_S250000x1_S1500000x1_S1500000x1_1_0_0_1
                (broadcastInDim S250000x1 ![] bcast_S_S250000x1 (constant S_ .f32 0x00000000#32))
                (broadcastInDim S1500000x1 ![0] bcast_S1500000_S1500000x1_0 eR)
                (broadcastInDim S1500000x1 ![] bcast_S_S1500000x1 (constant S_ .f32 0x3F800000#32)))
              (broadcastInDim S250000x1 ![] bcast_S_S250000x1 (constant S_ .f32 0x3F800000#32)))))
        Wl)
      (broadcastInDim S250000x64 ![0, 1] bcast_S1x64_S250000x64_0_1 (broadcastInDim S1x64 ![1] bcast_S64_S1x64_1 bl)))
    (Host.dotGeneral dot_S250000x64_S64x64_S250000x64_1_0_0_1_n_n none own Wr)

theorem sage_progR_eq (N : BitVec 32) (src : Mat 100000 64) (eU eR : Ixs 1500000) (own : Mat 250000 64) (Wl : Mat 64 64) (bl : Row 64)
    (Wr : Mat 64 64) :
    sage_progR (F := Ideal) N src eU eR own Wl bl Wr = sage_combR (sage_aggRProg N src eU eR) (sage_cntRProg eR) own Wl bl Wr := rfl

/-- With indices in range the chunk's gather, scatter-adds, quotient and two products are the model's neighbour-mean stage. -/
theorem sage_progR_model (N : BitVec 32) {M : Int} (src : Mat 100000 64) (eU eR : Ixs 1500000) (own : Mat 250000 64) (Wl : Mat 64 64)
    (bl : Row 64) (Wr : Mat 64 64) (h : Below M eU) :
    sage_progR (F := Ideal) N src eU eR own Wl bl Wr
      = Model.sageStage (Model.aggRStage opsR src eU eR) (Model.cntRStage opsR eR) own Wl bl Wr := by
  rw [sage_progR_eq, sage_combR_eq, sage_aggRProg_eq N src eU eR h, sage_cntRProg_eq]

theorem sage_zerosU_eq : (broadcastInDim S100000x64 ![] bcast_S_S100000x64 (constant (F := Ideal) S_ .f32 0x00000000#32) : Mat 100000 64)
    = fun _ => Model.zeroW := rfl
theorem sage_zerosU1_eq : (broadcastInDim S100000x1 ![] bcast_S_S100000x1 (constant (F := Ideal) S_ .f32 0x00000000#32) : Mat 100000 1)
    = fun _ => Model.zeroW := rfl

def sage_aggUProg (N : BitVec 32) (src : Mat 250000 64) (eU eR : Ixs 1500000) : Mat 100000 64 :=
  opsR.scU (broadcastInDim S100000x64 ![] bcast_S_S100000x64 (constant (F := Ideal) S_ .f32 0x00000000#32)) (sage_bcol eU)
    (opsR.gatR src (sage_bcol (sage_wrapIx N eR)))
def sage_cntUProg (eU : Ixs 1500000) : Mat 100000 1 :=
  opsR.scU1 (broadcastInDim S100000x1 ![] bcast_S_S100000x1 (constant (F := Ideal) S_ .f32 0x00000000#32)) (sage_bcol eU)
    (broadcastInDim S1500000x1 ![] bcast_S_S1500000x1 (constant (F := Ideal) S_ .f32 0x3F800000#32))

theorem sage_aggUProg_eq (N : BitVec 32) {M : Int} (src : Mat 250000 64) (eU eR : Ixs 1500000) (h : Below M eR) :
    sage_aggUProg N src eU eR = Model.aggUStage opsR src eU eR := by
  unfold sage_aggUProg Model.aggUStage
  rw [sage_wrapIx_eq N eR h, sage_bcol_eq, sage_bcol_eq, sage_zerosU_eq]
theorem sage_cntUProg_eq (eU : Ixs 1500000) : sage_cntUProg eU = Model.cntUStage opsR eU := by
  unfold sage_cntUProg Model.cntUStage
  rw [sage_bcol_eq, sage_zerosU1_eq, sage_onesE_eq]

def sage_floorU (cnt : Mat 100000 1) : Mat 100000 1 :=
  maximumf (F := Ideal) (φ := .f32) cnt (broadcastInDim S100000x1 ![] bcast_S_S100000x1 (constant (F := Ideal) S_ .f32 0x3F800000#32))
def sage_quotU (agg : Mat 100000 64) (cnt : Mat 100000 1) : Mat 100000 64 :=
  Host.divf (F := Ideal) (φ := .f32) agg (broadcastInDim S100000x64 ![0, 1] bcast_S100000x1_S100000x64_0_1 (sage_floorU cnt))
def sage_biasU (bl : Row 64) : Mat 100000 64 :=
  broadcastInDim S100000x64 ![0, 1] bcast_S1x64_S100000x64_0_1 (broadcastInDim S1x64 ![1] bcast_S64_S1x64_1 bl)
def sage_combU (agg : Mat 100000 64) (cnt : Mat 100000 1) (own : Mat 100000 64) (Wl : Mat 64 64) (bl : Row 64) (Wr : Mat 64 64) : Mat 100000 64 :=
  addf (F := Ideal) (φ := .f32)
    (addf (F := Ideal) (φ := .f32) (Host.dotGeneral (F := Ideal) (φ₁ := .f32) (φ₂ := .f32) dot_S100000x64_S64x64_S100000x64_1_0_0_1_n_n none (sage_quotU agg cnt) Wl) (sage_biasU bl))
    (Host.dotGeneral (F := Ideal) (φ₁ := .f32) (φ₂ := .f32) dot_S100000x64_S64x64_S100000x64_1_0_0_1_n_n none own Wr)

theorem sage_quotU_apply (agg : Mat 100000 64) (cnt : Mat 100000 1) (a : Fin 100000) (k : Fin 64) :
    sage_quotU agg cnt (ix2 a k) = Ideal.div (agg (ix2 a k)) (max (cnt (ix2 a 0)) Spec.oneW) := by
  show Ideal.div (agg (ix2 a k)) ((broadcastInDim S100000x64 ![0, 1] bcast_S100000x1_S100000x64_0_1 (sage_floorU cnt) : Mat 100000 64) (ix2 a k)) = _
  rw [broadcastInDim_apply _ bcast_S100000x1_S100000x64_0_1 (sage_floorU cnt) (ix2 a k) (ix2 a 0) (fun b => match b with
    | ⟨0, _⟩ => by show a.val = if (100000 : Nat) = 1 then 0 else a.val; rw [if_neg (by decide)]
    | ⟨1, _⟩ => by show 0 = if (1 : Nat) = 1 then 0 else k.val; rw [if_pos rfl])]
  rfl

theorem sage_biasU_apply (bl : Row 64) (a : Fin 100000) (j : Fin 64) : sage_biasU bl (ix2 a j) = bl (ix1 j) := by
  unfold sage_biasU
  rw [broadcastInDim_apply _ bcast_S1x64_S100000x64_0_1 _ (ix2 a j) (ix2 (0 : Fin 1) j) (fun b => match b with
    | ⟨0, _⟩ => by show 0 = if (1 : Nat) = 1 then 0 else a.val; rw [if_pos rfl]
    | ⟨1, _⟩ => by show j.val = if (64 : Nat) = 1 then 0 else j.val; rw [if_neg (by decide)])]
  exact broadcastInDim_apply _ bcast_S64_S1x64_1 bl (ix2 (0 : Fin 1) j) (ix1 j) (fun b => match b with
    | ⟨0, _⟩ => by show j.val = if (64 : Nat) = 1 then 0 else j.val; rw [if_neg (by decide)])

theorem sage_dU_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem sage_dU_lhs1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem sage_dU_rhs0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem sage_dU_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

theorem sage_dotU_apply (l : Mat 100000 64) (r : Mat 64 64) (a : Fin 100000) (j : Fin 64) :
    Host.dotGeneral (F := Ideal) (φ₁ := .f32) (φ₂ := .f32) dot_S100000x64_S64x64_S100000x64_1_0_0_1_n_n none l r (ix2 a j)
      = ∑ k : Fin 64, l (ix2 a k) * r (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 a j) ((contrEquiv1 dot_S100000x64_S64x64_S100000x64_1_0_0_1_n_n 64 rfl rfl).symm k) = ix2 a k :=
    funext fun b => Fin.ext (by
      match b with
      | ⟨0, _⟩ => exact sage_dU_lhs0 _ _
      | ⟨1, _⟩ => exact (sage_dU_lhs1 _ _).trans hk)
  have er : dot_S100000x64_S64x64_S100000x64_1_0_0_1_n_n.rhsIdx (ix2 a j) ((contrEquiv1 dot_S100000x64_S64x64_S100000x64_1_0_0_1_n_n 64 rfl rfl).symm k) = ix2 k j :=
    funext fun b => Fin.ext (by
      match b with
      | ⟨0, _⟩ => exact (sage_dU_rhs0 _ _).trans hk
      | ⟨1, _⟩ => exact sage_dU_rhs1 _ _)
  rw [el, er]

theorem sage_combU_eq (agg : Mat 100000 64) (cnt : Mat 100000 1) (own : Mat 100000 64) (Wl : Mat 64 64) (bl : Row 64) (Wr : Mat 64 64) :
    sage_combU agg cnt own Wl bl Wr = Model.sageStage agg cnt own Wl bl Wr := by
  funext i
  obtain ⟨a, j, rfl⟩ : ∃ (a : Fin 100000) (j : Fin 64), i = ix2 a j := ⟨i 0, i 1, eq_ix2 i⟩
  show _ = ((∑ k : Fin 64, Ideal.div (agg (ix2 a k)) (max (cnt (ix2 a 0)) Spec.oneW) * Wl (ix2 k j)) + bl (ix1 j))
      + ∑ k : Fin 64, own (ix2 a k) * Wr (ix2 k j)
  unfold sage_combU
  rw [addf_apply, addf_apply, sage_dotU_apply, sage_dotU_apply, sage_biasU_apply]
  simp only [sage_quotU_apply]

def sage_progU {F : FTy → Type} [FloatOps F] (N : BitVec 32) (src : FVec F S250000x64 .f32) (eU eR : IVec S1500000 32)
    (own : FVec F S100000x64 .f32) (Wl : FVec F S64x64 .f32) (bl : FVec F S64 .f32) (Wr : FVec F S64x64 .f32) : FVec F S100000x64 .f32 :=
  addf
    (addf
      (Host.dotGeneral dot_S100000x64_S64x64_S100000x64_1_0_0_1_n_n none
        (Host.divf
          (Host.scatterAdd scatter_S100000x64_S1500000x1_S1500000x64_1_0_0_1
            (broadcastInDim S100000x64 ![] bcast_S_S100000x64 (constant S_ .f32 0x00000000#32))
            (broadcastInDim S1500000x1 ![0] bcast_S1500000_S1500000x1_0 eU)
            (Host.gather gather_S250000x64_S1500000x1_S1500000x64_1_0_n_n_0_1_164 src
              (broadcastInDim S1500000x1 ![0] bcast_S1500000_S1500000x1_0
                (select (cmpi .slt eR (broadcastInDim S1500000 ![] bcast_S_S1500000 (constantI S_ 32 0#32)))
                  (addi eR (broadcastInDim S1500000 ![] bcast_S_S1500000 (constantI S_ 32 N))) eR))))
          (broadcastInDim S100000x64 ![0, 1] bcast_S100000x1_S100000x64_0_1
            (maximumf
              (Host.scatterAdd scatter_S100000x1_S1500000x1_S1500000x1_1_0_0_1
                (broadcastInDim S100000x1 ![] bcast_S_S100000x1 (constant S_ .f32 0x00000000#32))
                (broadcastInDim S1500000x1 ![0] bcast_S1500000_S1500000x1_0 eU)
                (broadcastInDim S1500000x1 ![] bcast_S_S1500000x1 (constant S_ .f32 0x3F800000#32)))
              (broadcastInDim S100000x1 ![] bcast_S_S100000x1 (constant S_ .f32 0x3F800000#32)))))
        Wl)
      (broadcastInDim S100000x64 ![0, 1] bcast_S1x64_S100000x64_0_1 (broadcastInDim S1x64 ![1] bcast_S64_S1x64_1 bl)))
    (Host.dotGeneral dot_S100000x64_S64x64_S100000x64_1_0_0_1_n_n none own Wr)

theorem sage_progU_eq (N : BitVec 32) (src : Mat 250000 64) (eU eR : Ixs 1500000) (own : Mat 100000 64) (Wl : Mat 64 64) (bl : Row 64)
    (Wr : Mat 64 64) :
    sage_progU (F := Ideal) N src eU eR own Wl bl Wr = sage_combU (sage_aggUProg N src eU eR) (sage_cntUProg eU) own Wl bl Wr := rfl

theorem sage_progU_model (N : BitVec 32) {M : Int} (src : Mat 250000 64) (eU eR : Ixs 1500000) (own : Mat 100000 64) (Wl : Mat 64 64)
    (bl : Row 64) (Wr : Mat 64 64) (h : Below M eR) :
    sage_progU (F := Ideal) N src eU eR own Wl bl Wr
      = Model.sageStage (Model.aggUStage opsR src eU eR) (Model.cntUStage opsR eU) own Wl bl Wr := by
  rw [sage_progU_eq, sage_combU_eq, sage_aggUProg_eq N src eU eR h, sage_cntUProg_eq]

variable (X : Valuation τ sig (Elt Ideal))

set_option maxHeartbeats 4000000 in
theorem sage_c3_run {F : FTy → Type} [FloatOps F] (Y : Valuation τ sig (Elt F)) : StableHlo.after opsC3 Y (Proc.devRef .tc main_v83)
    = sage_progR 100000#32 (Y (Proc.devRef .tc main_v29)) (Y (Proc.devRef .tc main_arg30)) (Y (Proc.devRef .tc main_arg31))
        (Y (Proc.devRef .tc main_v59)) (Y (Proc.devRef .tc main_arg10)) (Y (Proc.devRef .tc main_arg11)) (Y (Proc.devRef .tc main_arg12)) := by
  after_results_simp
  rfl

theorem c3_val (hin : Below 100000 (X (Proc.devRef .tc main_arg30))) : StableHlo.after opsC3 X (Proc.devRef .tc main_v83)
    = Model.sageStage (Model.aggRStage opsR (X (Proc.devRef .tc main_v29)) (X (Proc.devRef .tc main_arg30)) (X (Proc.devRef .tc main_arg31)))
        (Model.cntRStage opsR (X (Proc.devRef .tc main_arg31))) (X (Proc.devRef .tc main_v59)) (X (Proc.devRef .tc main_arg10)) (X (Proc.devRef .tc main_arg11)) (X (Proc.devRef .tc main_arg12)) := by
  rw [sage_c3_run X]
  exact sage_progR_model 100000#32 _ _ _ _ _ _ _ hin

set_option maxHeartbeats 4000000 in
theorem sage_c4_run {F : FTy → Type} [FloatOps F] (Y : Valuation τ sig (Elt F)) : StableHlo.after opsC4 Y (Proc.devRef .tc main_v107)
    = sage_progU 250000#32 (Y (Proc.devRef .tc main_v59)) (Y (Proc.devRef .tc main_arg30)) (Y (Proc.devRef .tc main_arg31))
        (Y (Proc.devRef .tc main_v29)) (Y (Proc.devRef .tc main_arg13)) (Y (Proc.devRef .tc main_arg14)) (Y (Proc.devRef .tc main_arg15)) := by
  after_results_simp
  rfl

theorem c4_val (hin : Below 250000 (X (Proc.devRef .tc main_arg31))) : StableHlo.after opsC4 X (Proc.devRef .tc main_v107)
    = Model.sageStage (Model.aggUStage opsR (X (Proc.devRef .tc main_v59)) (X (Proc.devRef .tc main_arg30)) (X (Proc.devRef .tc main_arg31)))
        (Model.cntUStage opsR (X (Proc.devRef .tc main_arg30))) (X (Proc.devRef .tc main_v29)) (X (Proc.devRef .tc main_arg13)) (X (Proc.devRef .tc main_arg14)) (X (Proc.devRef .tc main_arg15)) := by
  rw [sage_c4_run X]
  exact sage_progU_model 250000#32 _ _ _ _ _ _ _ hin

set_option maxHeartbeats 4000000 in
theorem sage_c7_run {F : FTy → Type} [FloatOps F] (Y : Valuation τ sig (Elt F)) : StableHlo.after opsC7 Y (Proc.devRef .tc main_v183)
    = sage_progR 100000#32 (Y (Proc.devRef .tc main_v133)) (Y (Proc.devRef .tc main_arg30)) (Y (Proc.devRef .tc main_arg31))
        (Y (Proc.devRef .tc main_v159)) (Y (Proc.devRef .tc main_arg20)) (Y (Proc.devRef .tc main_arg21)) (Y (Proc.devRef .tc main_arg22)) := by
  after_results_simp
  rfl

theorem c7_val (hin : Below 100000 (X (Proc.devRef .tc main_arg30))) : StableHlo.after opsC7 X (Proc.devRef .tc main_v183)
    = Model.sageStage (Model.aggRStage opsR (X (Proc.devRef .tc main_v133)) (X (Proc.devRef .tc main_arg30)) (X (Proc.devRef .tc main_arg31)))
        (Model.cntRStage opsR (X (Proc.devRef .tc main_arg31))) (X (Proc.devRef .tc main_v159)) (X (Proc.devRef .tc main_arg20)) (X (Proc.devRef .tc main_arg21)) (X (Proc.devRef .tc main_arg22)) := by
  rw [sage_c7_run X]
  exact sage_progR_model 100000#32 _ _ _ _ _ _ _ hin

set_option maxHeartbeats 4000000 in
theorem sage_c8_run {F : FTy → Type} [FloatOps F] (Y : Valuation τ sig (Elt F)) : StableHlo.after opsC8 Y (Proc.devRef .tc main_v207)
    = sage_progU 250000#32 (Y (Proc.devRef .tc main_v159)) (Y (Proc.devRef .tc main_arg30)) (Y (Proc.devRef .tc main_arg31))
        (Y (Proc.devRef .tc main_v133)) (Y (Proc.devRef .tc main_arg23)) (Y (Proc.devRef .tc main_arg24)) (Y (Proc.devRef .tc main_arg25)) := by
  after_results_simp
  rfl

theorem c8_val (hin : Below 250000 (X (Proc.devRef .tc main_arg31))) : StableHlo.after opsC8 X (Proc.devRef .tc main_v207)
    = Model.sageStage (Model.aggUStage opsR (X (Proc.devRef .tc main_v159)) (X (Proc.devRef .tc main_arg30)) (X (Proc.devRef .tc main_arg31)))
        (Model.cntUStage opsR (X (Proc.devRef .tc main_arg30))) (X (Proc.devRef .tc main_v133)) (X (Proc.devRef .tc main_arg23)) (X (Proc.devRef .tc main_arg24)) (X (Proc.devRef .tc main_arg25)) := by
  rw [sage_c8_run X]
  exact sage_progU_model 250000#32 _ _ _ _ _ _ _ hin

end Cert.ReferenceIdeal.Hand

end
-- ==== Proof.RBn.lean ====
import proofs.«425228_j78254304133410_2_alg».proof.Proof.RState
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.ReferenceIdeal.Hand

open Cert.ReferenceIdeal Cert.ReferenceIdeal.Gen Cert.Model Cert.Spec
open Idealize.ShloMosaic Idealize.ShloMosaic.TcCoe Idealize.ShloMosaic.ValueIdx Idealize.SL.Sem Idealize.ShloMosaic.StableHlo
open scoped BigOperators

abbrev bn_Sn (n : Nat) : Shape := ⟨2, ![n, 64]⟩

section Term

variable {n : Nat}

def bn_down (hb : S1x64.BroadcastsInDim (bn_Sn n) (![0, 1] : Fin 2 → Fin (bn_Sn n).rank)) (w : FVec Ideal S64 .f32) :
    FVec Ideal (bn_Sn n) .f32 :=
  broadcastInDim (bn_Sn n) ![0, 1] hb (broadcastInDim S1x64 ![1] bcast_S64_S1x64_1 w)

def bn_splat (b : BitVec 32) : FVec Ideal S64 .f32 :=
  broadcastInDim S64 ![] bcast_S_S64 (constant (F := Ideal) S_ .f32 b)

def bn_csum (hred : (bn_Sn n).ReducesTo [0] S64) (y : FVec Ideal (bn_Sn n) .f32) : FVec Ideal S64 .f32 :=
  Host.reduceAdd y (constant (F := Ideal) S_ .f32 0x00000000#32) hred h_S_

def bn_meanT (hred : (bn_Sn n).ReducesTo [0] S64) (cW : BitVec 32) (y : FVec Ideal (bn_Sn n) .f32) : FVec Ideal S64 .f32 :=
  Host.divf (bn_csum hred y) (bn_splat cW)

def bn_devT (hred : (bn_Sn n).ReducesTo [0] S64) (hb : S1x64.BroadcastsInDim (bn_Sn n) (![0, 1] : Fin 2 → Fin (bn_Sn n).rank))
    (cW : BitVec 32) (y : FVec Ideal (bn_Sn n) .f32) : FVec Ideal (bn_Sn n) .f32 :=
  subf y (bn_down hb (bn_meanT hred cW y))

def bn_varT (hred : (bn_Sn n).ReducesTo [0] S64) (hb : S1x64.BroadcastsInDim (bn_Sn n) (![0, 1] : Fin 2 → Fin (bn_Sn n).rank))
    (cW : BitVec 32) (y : FVec Ideal (bn_Sn n) .f32) : FVec Ideal S64 .f32 :=
  Host.divf (bn_csum hred (mulf (bn_devT hred hb cW y) (bn_devT hred hb cW y))) (bn_splat cW)

def bn_term (hred : (bn_Sn n).ReducesTo [0] S64) (hb : S1x64.BroadcastsInDim (bn_Sn n) (![0, 1] : Fin 2 → Fin (bn_Sn n).rank))
    (cW : BitVec 32) (g β : FVec Ideal S64 .f32) (y : FVec Ideal (bn_Sn n) .f32) : FVec Ideal (bn_Sn n) .f32 :=
  addf (mulf (mulf (bn_down hb g) (bn_devT hred hb cW y))
      (bn_down hb (Host.rsqrt (addf (bn_varT hred hb cW y) (bn_splat 0x3727C5AC#32)))))
    (bn_down hb β)

def bn_reluTerm (hred : (bn_Sn n).ReducesTo [0] S64) (hb : S1x64.BroadcastsInDim (bn_Sn n) (![0, 1] : Fin 2 → Fin (bn_Sn n).rank))
    (hz : S_.BroadcastsInDim (bn_Sn n) (![] : Fin 0 → Fin (bn_Sn n).rank))
    (cW : BitVec 32) (g β : FVec Ideal S64 .f32) (y : FVec Ideal (bn_Sn n) .f32) : FVec Ideal (bn_Sn n) .f32 :=
  maximumf (bn_term hred hb cW g β y) (broadcastInDim (bn_Sn n) ![] hz (constant (F := Ideal) S_ .f32 0x00000000#32))

theorem bn_down_apply (hb : S1x64.BroadcastsInDim (bn_Sn n) (![0, 1] : Fin 2 → Fin (bn_Sn n).rank)) (w : FVec Ideal S64 .f32)
    (a : Fin n) (j : Fin 64) : bn_down hb w (ix2 a j) = w (ix1 j) := by
  unfold bn_down
  refine (broadcastInDim_apply _ hb _ (ix2 a j) (ix2 (⟨0, Nat.one_pos⟩ : Fin 1) j) (fun d => match d with
    | ⟨0, _⟩ => by show (0 : Nat) = if (1 : Nat) = 1 then 0 else a.val; rw [if_pos rfl]
    | ⟨1, _⟩ => by show j.val = if (64 : Nat) = 1 then 0 else j.val; rw [if_neg (by decide)])).trans ?_
  exact broadcastInDim_apply _ bcast_S64_S1x64_1 w (ix2 (⟨0, Nat.one_pos⟩ : Fin 1) j) (ix1 j) (fun d => match d with
    | ⟨0, _⟩ => by show j.val = if (64 : Nat) = 1 then 0 else j.val; rw [if_neg (by decide)])

theorem bn_csum_apply (hred : (bn_Sn n).ReducesTo [0] S64) (hR : (bn_Sn n).Reduces [0] S64) (y : FVec Ideal (bn_Sn n) .f32)
    (j : Fin 64) : bn_csum hred y (ix1 j) = ∑ k : Fin n, y (ix2 k j) := by
  unfold bn_csum
  simp only [Host.reduceAdd, Ideal.hostReduceAdd_def]
  rw [Ideal.hostReduceAdd_single hred hR]
  rw [show (constant (F := Ideal) S_ .f32 0x00000000#32) (Shape.Idx.first h_S_) = (0 : EReal) from Ideal.ofBits_zero_f32,
    zero_add]
  refine Finset.sum_congr rfl fun k _ => congrArg y (funext fun d => Fin.ext ?_)
  match d with | ⟨0, _⟩ => rfl | ⟨1, _⟩ => rfl

theorem bn_meanT_apply (hred : (bn_Sn n).ReducesTo [0] S64) (hR : (bn_Sn n).Reduces [0] S64) (cW : BitVec 32)
    (y : FVec Ideal (bn_Sn n) .f32) (j : Fin 64) :
    bn_meanT hred cW y (ix1 j) = Spec.colMean (Ideal.ofBits .f32 cW) (toF y) j := by
  show Ideal.div (bn_csum hred y (ix1 j)) (Ideal.ofBits .f32 cW) = Ideal.div (∑ i : Fin n, y (ix2 i j)) (Ideal.ofBits .f32 cW)
  rw [bn_csum_apply hred hR]

theorem bn_devT_apply (hred : (bn_Sn n).ReducesTo [0] S64) (hR : (bn_Sn n).Reduces [0] S64)
    (hb : S1x64.BroadcastsInDim (bn_Sn n) (![0, 1] : Fin 2 → Fin (bn_Sn n).rank)) (cW : BitVec 32)
    (y : FVec Ideal (bn_Sn n) .f32) (a : Fin n) (j : Fin 64) :
    bn_devT hred hb cW y (ix2 a j) = toF y a j - Spec.colMean (Ideal.ofBits .f32 cW) (toF y) j := by
  show y (ix2 a j) - bn_down hb (bn_meanT hred cW y) (ix2 a j) = _
  rw [bn_down_apply, bn_meanT_apply hred hR]
  rfl

theorem bn_varT_apply (hred : (bn_Sn n).ReducesTo [0] S64) (hR : (bn_Sn n).Reduces [0] S64)
    (hb : S1x64.BroadcastsInDim (bn_Sn n) (![0, 1] : Fin 2 → Fin (bn_Sn n).rank)) (cW : BitVec 32)
    (y : FVec Ideal (bn_Sn n) .f32) (j : Fin 64) :
    bn_varT hred hb cW y (ix1 j)
      = Spec.colVar (Ideal.ofBits .f32 cW) (toF y) (Spec.colMean (Ideal.ofBits .f32 cW) (toF y)) j := by
  show Ideal.div (bn_csum hred (mulf (bn_devT hred hb cW y) (bn_devT hred hb cW y)) (ix1 j)) (Ideal.ofBits .f32 cW)
    = Ideal.div (Spec.colSq (toF y) (Spec.colMean (Ideal.ofBits .f32 cW) (toF y)) j) (Ideal.ofBits .f32 cW)
  rw [bn_csum_apply hred hR]
  refine congrArg (fun s => Ideal.div s (Ideal.ofBits .f32 cW)) (Finset.sum_congr rfl fun k _ => ?_)
  show bn_devT hred hb cW y (ix2 k j) * bn_devT hred hb cW y (ix2 k j) = _
  rw [bn_devT_apply hred hR]

theorem bn_term_apply (hred : (bn_Sn n).ReducesTo [0] S64) (hR : (bn_Sn n).Reduces [0] S64)
    (hb : S1x64.BroadcastsInDim (bn_Sn n) (![0, 1] : Fin 2 → Fin (bn_Sn n).rank)) (cW : BitVec 32)
    (g β : FVec Ideal S64 .f32) (y : FVec Ideal (bn_Sn n) .f32) (a : Fin n) (j : Fin 64) :
    bn_term hred hb cW g β y (ix2 a j) = Model.norm (Ideal.ofBits .f32 cW) g β (toF y) a j := by
  show bn_down hb g (ix2 a j) * bn_devT hred hb cW y (ix2 a j)
      * bn_down hb (Host.rsqrt (addf (bn_varT hred hb cW y) (bn_splat 0x3727C5AC#32))) (ix2 a j) + bn_down hb β (ix2 a j) = _
  rw [bn_down_apply, bn_down_apply, bn_down_apply, bn_devT_apply hred hR]
  show g (ix1 j) * (toF y a j - Spec.colMean (Ideal.ofBits .f32 cW) (toF y) j)
      * Ideal.rsqrt (bn_varT hred hb cW y (ix1 j) + Ideal.ofBits .f32 0x3727C5AC#32) + β (ix1 j) = _
  rw [bn_varT_apply hred hR]
  rfl

/-- The operations of a normalisation chunk compose to the model's normalisation stage. -/
theorem bn_term_eq (hred : (bn_Sn n).ReducesTo [0] S64) (hR : (bn_Sn n).Reduces [0] S64)
    (hb : S1x64.BroadcastsInDim (bn_Sn n) (![0, 1] : Fin 2 → Fin (bn_Sn n).rank)) (cW : BitVec 32)
    (g β : FVec Ideal S64 .f32) (y : FVec Ideal (bn_Sn n) .f32) :
    bn_term hred hb cW g β y = Model.bnStage (Ideal.ofBits .f32 cW) g β y := by
  funext i
  obtain ⟨a, j, rfl⟩ : ∃ a j, i = ix2 a j := ⟨i 0, i 1, eq_ix2 i⟩
  exact bn_term_apply hred hR hb cW g β y a j

theorem bn_reluTerm_eq (hred : (bn_Sn n).ReducesTo [0] S64) (hR : (bn_Sn n).Reduces [0] S64)
    (hb : S1x64.BroadcastsInDim (bn_Sn n) (![0, 1] : Fin 2 → Fin (bn_Sn n).rank))
    (hz : S_.BroadcastsInDim (bn_Sn n) (![] : Fin 0 → Fin (bn_Sn n).rank)) (cW : BitVec 32)
    (g β : FVec Ideal S64 .f32) (y : FVec Ideal (bn_Sn n) .f32) :
    bn_reluTerm hred hb hz cW g β y = Model.bnReluStage (Ideal.ofBits .f32 cW) g β y := by
  funext i
  obtain ⟨a, j, rfl⟩ : ∃ a j, i = ix2 a j := ⟨i 0, i 1, eq_ix2 i⟩
  show max (bn_term hred hb cW g β y (ix2 a j)) (Ideal.ofBits .f32 0x00000000#32)
    = max (Model.norm (Ideal.ofBits .f32 cW) g β (toF y) a j) 0
  rw [bn_term_apply hred hR, Ideal.ofBits_zero_f32]

end Term

variable (X : Valuation τ sig (Elt Ideal))

theorem c5_val : StableHlo.after opsC5 X (Proc.devRef .tc main_v133) = Model.bnReluStage Spec.nUW (X (Proc.devRef .tc main_arg16)) (X (Proc.devRef .tc main_arg17)) (X (Proc.devRef .tc main_v107)) := by
  have hrun : StableHlo.after opsC5 X (Proc.devRef .tc main_v133)
      = bn_reluTerm (n := 100000) reducesTo_S100000x64_S64_d0 bcast_S1x64_S100000x64_0_1 bcast_S_S100000x64 0x47C35000#32
          (X (Proc.devRef .tc main_arg16)) (X (Proc.devRef .tc main_arg17)) (X (Proc.devRef .tc main_v107)) := by
    unfold opsC5
    after_results_simp <;> rfl
  rw [hrun]
  exact bn_reluTerm_eq reducesTo_S100000x64_S64_d0 (by decide) bcast_S1x64_S100000x64_0_1 bcast_S_S100000x64 0x47C35000#32 _ _ _

theorem c6_val : StableHlo.after opsC6 X (Proc.devRef .tc main_v159) = Model.bnReluStage Spec.nRW (X (Proc.devRef .tc main_arg18)) (X (Proc.devRef .tc main_arg19)) (X (Proc.devRef .tc main_v83)) := by
  have hrun : StableHlo.after opsC6 X (Proc.devRef .tc main_v159)
      = bn_reluTerm (n := 250000) reducesTo_S250000x64_S64_d0 bcast_S1x64_S250000x64_0_1 bcast_S_S250000x64 0x48742400#32
          (X (Proc.devRef .tc main_arg18)) (X (Proc.devRef .tc main_arg19)) (X (Proc.devRef .tc main_v83)) := by
    unfold opsC6
    after_results_simp <;> rfl
  rw [hrun]
  exact bn_reluTerm_eq reducesTo_S250000x64_S64_d0 (by decide) bcast_S1x64_S250000x64_0_1 bcast_S_S250000x64 0x48742400#32 _ _ _

theorem c9_val : StableHlo.after opsC9 X (Proc.devRef .tc main_v232) = Model.bnStage Spec.nUW (X (Proc.devRef .tc main_arg26)) (X (Proc.devRef .tc main_arg27)) (X (Proc.devRef .tc main_v207)) := by
  have hrun : StableHlo.after opsC9 X (Proc.devRef .tc main_v232)
      = bn_term (n := 100000) reducesTo_S100000x64_S64_d0 bcast_S1x64_S100000x64_0_1 0x47C35000#32
          (X (Proc.devRef .tc main_arg26)) (X (Proc.devRef .tc main_arg27)) (X (Proc.devRef .tc main_v207)) := by
    unfold opsC9
    after_results_simp <;> rfl
  rw [hrun]
  exact bn_term_eq reducesTo_S100000x64_S64_d0 (by decide) bcast_S1x64_S100000x64_0_1 0x47C35000#32 _ _ _

theorem c10_val : StableHlo.after opsC10 X (Proc.devRef .tc main_v257) = Model.bnStage Spec.nRW (X (Proc.devRef .tc main_arg28)) (X (Proc.devRef .tc main_arg29)) (X (Proc.devRef .tc main_v183)) := by
  have hrun : StableHlo.after opsC10 X (Proc.devRef .tc main_v257)
      = bn_term (n := 250000) reducesTo_S250000x64_S64_d0 bcast_S1x64_S250000x64_0_1 0x48742400#32
          (X (Proc.devRef .tc main_arg28)) (X (Proc.devRef .tc main_arg29)) (X (Proc.devRef .tc main_v183)) := by
    unfold opsC10
    after_results_simp <;> rfl
  rw [hrun]
  exact bn_term_eq reducesTo_S250000x64_S64_d0 (by decide) bcast_S1x64_S250000x64_0_1 0x48742400#32 _ _ _

end Cert.ReferenceIdeal.Hand

end
-- ==== Proof.RDec.lean ====
import proofs.«425228_j78254304133410_2_alg».proof.Proof.RState
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.ReferenceIdeal.Hand

open Cert.ReferenceIdeal Cert.ReferenceIdeal.Gen Cert.Model Cert.Spec
open Idealize.ShloMosaic Idealize.ShloMosaic.TcCoe Idealize.ShloMosaic.ValueIdx Idealize.SL.Sem Idealize.ShloMosaic.StableHlo
open scoped BigOperators

section Reads
variable {α : Type}

theorem dec_splatVec_apply (v : S_.Idx → α) (i : S500000.Idx) :
    broadcastInDim S500000 ![] bcast_S_S500000 v i = v ix0 :=
  broadcastInDim_apply _ bcast_S_S500000 v i ix0 (fun a => a.elim0)

theorem dec_splatCol_apply (v : S_.Idx → α) (i : S500000x1.Idx) :
    broadcastInDim S500000x1 ![] bcast_S_S500000x1 v i = v ix0 :=
  broadcastInDim_apply _ bcast_S_S500000x1 v i ix0 (fun a => a.elim0)

theorem dec_asCol_apply (v : S500000.Idx → α) (i : S500000x1.Idx) :
    broadcastInDim S500000x1 ![0] bcast_S500000_S500000x1_0 v i = v (ix1 (i 0)) :=
  broadcastInDim_apply _ bcast_S500000_S500000x1_0 v i (ix1 (i 0)) (fun a => match a with
    | ⟨0, _⟩ => by show (i 0).val = if (500000 : Nat) = 1 then 0 else (i 0).val; rw [if_neg (by decide)])

theorem dec_alongCols_apply (v : S500000x1.Idx → α) (a : Fin 500000) (j : Fin 64) :
    broadcastInDim S500000x64 ![0, 1] bcast_S500000x1_S500000x64_0_1 v (ix2 a j) = v (ix2 a 0) :=
  broadcastInDim_apply _ bcast_S500000x1_S500000x64_0_1 v (ix2 a j) (ix2 a 0) (fun d => match d with
    | ⟨0, _⟩ => by show a.val = if (500000 : Nat) = 1 then 0 else a.val; rw [if_neg (by decide)]
    | ⟨1, _⟩ => by show (0 : Nat) = if (1 : Nat) = 1 then 0 else j.val; rw [if_pos rfl])

end Reads

theorem dec_slt_zero_of_nonneg (x : BitVec 32) (h : 0 ≤ x.toInt) : IntOp.cmpi .slt x 0#32 = 0#1 := by
  have h0 : (0#32 : BitVec 32).toInt = 0 := by decide
  have hs : x.slt 0#32 = false := by
    simp only [BitVec.slt, h0, decide_eq_false_iff_not, not_lt]; exact h
  unfold IntOp.cmpi
  show BitVec.ofBool (x.slt 0#32) = 0#1
  rw [hs]; rfl

def dec_wrapCol (n : BitVec 32) (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 n))) v)

theorem dec_wrapCol_eq {N : Int} (n : BitVec 32) (v : IVec S500000 32) (hv : Below N v) : dec_wrapCol n v = Model.col v := by
  funext i
  unfold dec_wrapCol
  rw [dec_asCol_apply, select_apply]
  have hc : cmpi .slt v (broadcastInDim S500000 ![] bcast_S_S500000 (constantI S_ 32 0#32)) (ix1 (i 0)) = 0#1 := by
    show IntOp.cmpi .slt (v (ix1 (i 0))) (broadcastInDim S500000 ![] bcast_S_S500000 (constantI S_ 32 0#32) (ix1 (i 0))) = 0#1
    rw [dec_splatVec_apply]
    exact dec_slt_zero_of_nonneg _ (hv (i 0)).1
  rw [hc, select_zero]
  rfl

theorem dec_hostDivf_apply {s : Shape} (x y : FVec Ideal s .f32) (i : s.Idx) : Host.divf x y i = Ideal.div (x i) (y i) := rfl
theorem dec_hostSqrt_apply {s : Shape} (x : FVec Ideal s .f32) (i : s.Idx) : Host.sqrt x i = Ideal.sqrt (x i) := rfl

theorem dec_rowSum_apply (y : FVec Ideal S500000x64 .f32) (a : Fin 500000) :
    (Host.reduceAdd y (constant (F := Ideal) S_ .f32 0x00000000#32) reducesTo_S500000x64_S500000_d1 h_S_ : FVec Ideal S500000 .f32) (ix1 a)
      = ∑ j : Fin 64, y (ix2 a j) := by
  simp only [Host.reduceAdd, Ideal.hostReduceAdd_def]
  rw [Ideal.hostReduceAdd_single reducesTo_S500000x64_S500000_d1 (by decide), constant_apply, Ideal.ofBits_zero_f32, zero_add]
  refine Finset.sum_congr rfl fun k _ => ?_
  exact congrArg y (funext fun d => Fin.ext (by match d with | ⟨0, _⟩ => rfl | ⟨1, _⟩ => rfl))

def dec_flooredNorms (g : FVec Ideal S500000x64 .f32) : FVec Ideal S500000x64 .f32 :=
  broadcastInDim S500000x64 ![0, 1] bcast_S500000x1_S500000x64_0_1
    (maximumf
      (Host.sqrt (broadcastInDim S500000x1 ![0] bcast_S500000_S500000x1_0
        (Host.reduceAdd (mulf g g) (constant (F := Ideal) S_ .f32 0x00000000#32) reducesTo_S500000x64_S500000_d1 h_S_)))
      (broadcastInDim S500000x1 ![] bcast_S_S500000x1 (constant (F := Ideal) S_ .f32 0x2B8CBCCC#32)))

theorem dec_flooredNorms_apply (g : FVec Ideal S500000x64 .f32) (a : Fin 500000) (j : Fin 64) :
    dec_flooredNorms g (ix2 a j) = max (Spec.rowNorm (toF g) a) Spec.tinyW := by
  unfold dec_flooredNorms
  rw [dec_alongCols_apply, maximumf_apply, dec_splatCol_apply, constant_apply, dec_hostSqrt_apply, dec_asCol_apply, dec_rowSum_apply]
  rfl

def dec_cosTerm (gU gR : FVec Ideal S500000x64 .f32) : FVec Ideal S500000 .f32 :=
  Host.reduceAdd (mulf (Host.divf gU (dec_flooredNorms gU)) (Host.divf gR (dec_flooredNorms gR)))
    (constant (F := Ideal) S_ .f32 0x00000000#32) reducesTo_S500000x64_S500000_d1 h_S_

theorem dec_cosTerm_eq (gU gR : FVec Ideal S500000x64 .f32) : dec_cosTerm gU gR = Model.cosStage gU gR := by
  funext i
  obtain ⟨a, rfl⟩ : ∃ a, i = ix1 a := ⟨i 0, eq_ix1 i⟩
  unfold dec_cosTerm
  rw [dec_rowSum_apply]
  show _ = Spec.cosRow Spec.tinyW (toF gU) (toF gR) a
  unfold Spec.cosRow
  refine Finset.sum_congr rfl fun j _ => ?_
  rw [mulf_apply, dec_hostDivf_apply, dec_hostDivf_apply, dec_flooredNorms_apply, dec_flooredNorms_apply]
  rfl

theorem dec_gatLU_eq (x : FVec Ideal S100000x64 .f32) (i : IVec S500000x1 32) :
    opsR.gatLU x i = Host.gather gather_S100000x64_S500000x1_S500000x64_1_0_n_n_0_1_164 x i := rfl
theorem dec_gatLR_eq (x : FVec Ideal S250000x64 .f32) (i : IVec S500000x1 32) :
    opsR.gatLR x i = Host.gather gather_S250000x64_S500000x1_S500000x64_1_0_n_n_0_1_164 x i := rfl

variable (X : Valuation τ sig (Elt Ideal))

theorem dec_c11_after :
    StableHlo.after opsC11 X (Proc.devRef .tc main_v283)
    = dec_cosTerm
        (Host.gather gather_S100000x64_S500000x1_S500000x64_1_0_n_n_0_1_164 (X (Proc.devRef .tc main_v232)) (dec_wrapCol 100000#32 (X (Proc.devRef .tc main_arg32))))
        (Host.gather gather_S250000x64_S500000x1_S500000x64_1_0_n_n_0_1_164 (X (Proc.devRef .tc main_v257)) (dec_wrapCol 250000#32 (X (Proc.devRef .tc main_arg33)))) := by
  after_results_simp
  rfl

/-- The last chunk: both label gathers, the floored norms and the row-wise inner product are the model's final stage. -/
theorem c11_val (hU : Below 100000 (X (Proc.devRef .tc main_arg32))) (hR : Below 250000 (X (Proc.devRef .tc main_arg33))) :
    StableHlo.after opsC11 X (Proc.devRef .tc main_v283)
    = Model.cosStage (opsR.gatLU (X (Proc.devRef .tc main_v232)) (Model.col (X (Proc.devRef .tc main_arg32)))) (opsR.gatLR (X (Proc.devRef .tc main_v257)) (Model.col (X (Proc.devRef .tc main_arg33)))) := by
  rw [dec_c11_after, dec_wrapCol_eq _ _ hU, dec_wrapCol_eq _ _ hR, dec_cosTerm_eq, dec_gatLU_eq, dec_gatLR_eq]

end Cert.ReferenceIdeal.Hand

end
-- ==== Proof.RRun.lean ====
import proofs.«425228_j78254304133410_2_alg».proof.Proof.RState
import proofs.«425228_j78254304133410_2_alg».proof.Proof.RProj
import proofs.«425228_j78254304133410_2_alg».proof.Proof.RSage
import proofs.«425228_j78254304133410_2_alg».proof.Proof.RBn
import proofs.«425228_j78254304133410_2_alg».proof.Proof.RDec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.ReferenceIdeal.Hand

open Cert.ReferenceIdeal Cert.ReferenceIdeal.Gen Cert.Model Cert.Spec
open Idealize.ShloMosaic Idealize.ShloMosaic.TcCoe Idealize.ShloMosaic.ValueIdx Idealize.SL.Sem Idealize.ShloMosaic.StableHlo
open scoped BigOperators

section Run

variable {F : FTy → Type} [FloatOps F]

abbrev run_opsAll : List (HloOp τ sig (Elt F)) :=
  opsC1 ++ opsC2 ++ opsC3 ++ opsC4 ++ opsC5 ++ opsC6 ++ opsC7 ++ opsC8 ++ opsC9 ++ opsC10 ++ opsC11

abbrev run_opsW0 : List (HloOp τ sig (Elt F)) := opsC1 ++ opsC2.take 25
abbrev run_opsW1 : List (HloOp τ sig (Elt F)) := opsC2.drop 25 ++ opsC3 ++ opsC4.take 20
abbrev run_opsW2 : List (HloOp τ sig (Elt F)) := opsC4.drop 20 ++ opsC5 ++ opsC6.take 19
abbrev run_opsW3 : List (HloOp τ sig (Elt F)) := opsC6.drop 19 ++ opsC7 ++ opsC8.take 18
abbrev run_opsW4 : List (HloOp τ sig (Elt F)) := opsC8.drop 18 ++ opsC9 ++ opsC10.take 18
abbrev run_opsW5 : List (HloOp τ sig (Elt F)) := opsC10.drop 18 ++ opsC11

set_option maxHeartbeats 4000000 in
theorem run_main_part0_eq (c : Dev nD) : main_part0 (F := F) c = seq run_opsW0 := rfl
set_option maxHeartbeats 4000000 in
theorem run_main_part1_eq (c : Dev nD) : main_part1 (F := F) c = seq run_opsW1 := rfl
set_option maxHeartbeats 4000000 in
theorem run_main_part2_eq (c : Dev nD) : main_part2 (F := F) c = seq run_opsW2 := rfl
set_option maxHeartbeats 4000000 in
theorem run_main_part3_eq (c : Dev nD) : main_part3 (F := F) c = seq run_opsW3 := rfl
set_option maxHeartbeats 4000000 in
theorem run_main_part4_eq (c : Dev nD) : main_part4 (F := F) c = seq run_opsW4 := rfl
set_option maxHeartbeats 4000000 in
theorem run_main_part5_eq (c : Dev nD) : main_part5 (F := F) c = seq run_opsW5 := rfl

theorem run_take_drop_app {α : Type} (n : Nat) (l r : List α) : l.take n ++ (l.drop n ++ r) = l ++ r := by
  rw [← List.append_assoc, List.take_append_drop]

theorem run_opsAll_windows : (run_opsAll : List (HloOp τ sig (Elt F)))
    = run_opsW0 ++ (run_opsW1 ++ (run_opsW2 ++ (run_opsW3 ++ (run_opsW4 ++ run_opsW5)))) := by
  simp only [run_opsAll, run_opsW0, run_opsW1, run_opsW2, run_opsW3, run_opsW4, run_opsW5, List.append_assoc,
    run_take_drop_app]

theorem run_main_eq (c : Dev nD) : main (F := F) c = seq run_opsAll := by
  rw [run_opsAll_windows]
  simp only [seq_append, ← run_main_part0_eq c, ← run_main_part1_eq c, ← run_main_part2_eq c, ← run_main_part3_eq c,
    ← run_main_part4_eq c, ← run_main_part5_eq c]
  rfl

theorem run_scopedRefs_eq : (Finset.univ.filter fun b : Ref sig .tc => b.isScoped) = ∅ := by decide
theorem run_scopedSems_eq : (Finset.univ.filter fun sm : SemLoc sig => sm.isScoped .tc) = ∅ := by decide

theorem run_opsC1_sub : (opsC1 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub ..⟩
theorem run_opsC1_fresh : ∀ op ∈ (opsC1 : List (HloOp τ sig (Elt F))), op.fresh = ∅ := by
  intro _ h; (repeat (cases h with | head => rfl | tail _ h => ?_)); exact nomatch h

theorem run_opsC2_sub : (opsC2 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub ..⟩
theorem run_opsC2_fresh : ∀ op ∈ (opsC2 : List (HloOp τ sig (Elt F))), op.fresh = ∅ := by
  intro _ h; (repeat (cases h with | head => rfl | tail _ h => ?_)); exact nomatch h

theorem run_opsC3_sub : (opsC3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..⟩
theorem run_opsC3_fresh : ∀ op ∈ (opsC3 : List (HloOp τ sig (Elt F))), op.fresh = ∅ := by
  intro _ h; (repeat (cases h with | head => rfl | tail _ h => ?_)); exact nomatch h

theorem run_opsC4_sub : (opsC4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..⟩
theorem run_opsC4_fresh : ∀ op ∈ (opsC4 : List (HloOp τ sig (Elt F))), op.fresh = ∅ := by
  intro _ h; (repeat (cases h with | head => rfl | tail _ h => ?_)); exact nomatch h

theorem run_opsC5_sub : (opsC5 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub ..⟩
theorem run_opsC5_fresh : ∀ op ∈ (opsC5 : List (HloOp τ sig (Elt F))), op.fresh = ∅ := by
  intro _ h; (repeat (cases h with | head => rfl | tail _ h => ?_)); exact nomatch h

theorem run_opsC6_sub : (opsC6 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub ..⟩
theorem run_opsC6_fresh : ∀ op ∈ (opsC6 : List (HloOp τ sig (Elt F))), op.fresh = ∅ := by
  intro _ h; (repeat (cases h with | head => rfl | tail _ h => ?_)); exact nomatch h

theorem run_opsC7_sub : (opsC7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..⟩
theorem run_opsC7_fresh : ∀ op ∈ (opsC7 : List (HloOp τ sig (Elt F))), op.fresh = ∅ := by
  intro _ h; (repeat (cases h with | head => rfl | tail _ h => ?_)); exact nomatch h

theorem run_opsC8_sub : (opsC8 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..⟩
theorem run_opsC8_fresh : ∀ op ∈ (opsC8 : List (HloOp τ sig (Elt F))), op.fresh = ∅ := by
  intro _ h; (repeat (cases h with | head => rfl | tail _ h => ?_)); exact nomatch h

theorem run_opsC9_sub : (opsC9 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..⟩
theorem run_opsC9_fresh : ∀ op ∈ (opsC9 : List (HloOp τ sig (Elt F))), op.fresh = ∅ := by
  intro _ h; (repeat (cases h with | head => rfl | tail _ h => ?_)); exact nomatch h

theorem run_opsC10_sub : (opsC10 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..⟩
theorem run_opsC10_fresh : ∀ op ∈ (opsC10 : List (HloOp τ sig (Elt F))), op.fresh = ∅ := by
  intro _ h; (repeat (cases h with | head => rfl | tail _ h => ?_)); exact nomatch h

theorem run_opsC11_sub : (opsC11 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., nullary_bufs_sub .., binary_bufs_sub ..⟩
theorem run_opsC11_fresh : ∀ op ∈ (opsC11 : List (HloOp τ sig (Elt F))), op.fresh = ∅ := by
  intro _ h; (repeat (cases h with | head => rfl | tail _ h => ?_)); exact nomatch h

theorem run_forall_mem_app {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

theorem run_opsAll_sub : (run_opsAll : List (HloOp τ sig (Elt F))).Forall fun op => op.bufs ⊆ tcRefs τ sig :=
  List.forall_iff_forall_mem.mpr
    (run_forall_mem_app (run_forall_mem_app (run_forall_mem_app (run_forall_mem_app (run_forall_mem_app (run_forall_mem_app (run_forall_mem_app
      (run_forall_mem_app (run_forall_mem_app (run_forall_mem_app
        (List.forall_iff_forall_mem.mp run_opsC1_sub) (List.forall_iff_forall_mem.mp run_opsC2_sub))
        (List.forall_iff_forall_mem.mp run_opsC3_sub)) (List.forall_iff_forall_mem.mp run_opsC4_sub))
        (List.forall_iff_forall_mem.mp run_opsC5_sub)) (List.forall_iff_forall_mem.mp run_opsC6_sub))
        (List.forall_iff_forall_mem.mp run_opsC7_sub)) (List.forall_iff_forall_mem.mp run_opsC8_sub))
        (List.forall_iff_forall_mem.mp run_opsC9_sub)) (List.forall_iff_forall_mem.mp run_opsC10_sub))
        (List.forall_iff_forall_mem.mp run_opsC11_sub))

theorem run_opsAll_fresh : ∀ op ∈ (run_opsAll : List (HloOp τ sig (Elt F))), op.fresh = ∅ :=
  run_forall_mem_app (run_forall_mem_app (run_forall_mem_app (run_forall_mem_app (run_forall_mem_app (run_forall_mem_app (run_forall_mem_app
    (run_forall_mem_app (run_forall_mem_app (run_forall_mem_app run_opsC1_fresh run_opsC2_fresh) run_opsC3_fresh) run_opsC4_fresh) run_opsC5_fresh)
    run_opsC6_fresh) run_opsC7_fresh) run_opsC8_fresh) run_opsC9_fresh) run_opsC10_fresh) run_opsC11_fresh

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after run_opsAll (launchContents m d) (Proc.devRef .tc b) :=
  run_seq run_scopedRefs_eq run_scopedSems_eq defs main (fun _ => run_opsAll) run_main_eq (fun _ => run_opsAll_sub) m ρ (fun _ => run_opsAll_fresh)

end Run

section Keep

variable {F : FTy → Type} [FloatOps F] {r : Ref sig .tc}

theorem run_c1_keep (hr : r.idx.val < 34 ∨ 70 < r.idx.val) (X : Valuation τ sig (Elt F)) :
    StableHlo.after opsC1 X (Proc.devRef .tc r) = X (Proc.devRef .tc r) :=
  StableHlo.after_of_forall_not_mem (b := Proc.devRef .tc r) _ _ (List.forall_iff_forall_mem.mp (by
    simp only [opsC1, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c2_keep (hr : r.idx.val < 71 ∨ 107 < r.idx.val) (X : Valuation τ sig (Elt F)) :
    StableHlo.after opsC2 X (Proc.devRef .tc r) = X (Proc.devRef .tc r) :=
  StableHlo.after_of_forall_not_mem (b := Proc.devRef .tc r) _ _ (List.forall_iff_forall_mem.mp (by
    simp only [opsC2, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c3_keep (hr : r.idx.val < 108 ∨ 137 < r.idx.val) (X : Valuation τ sig (Elt F)) :
    StableHlo.after opsC3 X (Proc.devRef .tc r) = X (Proc.devRef .tc r) :=
  StableHlo.after_of_forall_not_mem (b := Proc.devRef .tc r) _ _ (List.forall_iff_forall_mem.mp (by
    simp only [opsC3, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c4_keep (hr : r.idx.val < 138 ∨ 167 < r.idx.val) (X : Valuation τ sig (Elt F)) :
    StableHlo.after opsC4 X (Proc.devRef .tc r) = X (Proc.devRef .tc r) :=
  StableHlo.after_of_forall_not_mem (b := Proc.devRef .tc r) _ _ (List.forall_iff_forall_mem.mp (by
    simp only [opsC4, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c5_keep (hr : r.idx.val < 168 ∨ 200 < r.idx.val) (X : Valuation τ sig (Elt F)) :
    StableHlo.after opsC5 X (Proc.devRef .tc r) = X (Proc.devRef .tc r) :=
  StableHlo.after_of_forall_not_mem (b := Proc.devRef .tc r) _ _ (List.forall_iff_forall_mem.mp (by
    simp only [opsC5, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c6_keep (hr : r.idx.val < 201 ∨ 233 < r.idx.val) (X : Valuation τ sig (Elt F)) :
    StableHlo.after opsC6 X (Proc.devRef .tc r) = X (Proc.devRef .tc r) :=
  StableHlo.after_of_forall_not_mem (b := Proc.devRef .tc r) _ _ (List.forall_iff_forall_mem.mp (by
    simp only [opsC6, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c7_keep (hr : r.idx.val < 234 ∨ 263 < r.idx.val) (X : Valuation τ sig (Elt F)) :
    StableHlo.after opsC7 X (Proc.devRef .tc r) = X (Proc.devRef .tc r) :=
  StableHlo.after_of_forall_not_mem (b := Proc.devRef .tc r) _ _ (List.forall_iff_forall_mem.mp (by
    simp only [opsC7, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c8_keep (hr : r.idx.val < 264 ∨ 293 < r.idx.val) (X : Valuation τ sig (Elt F)) :
    StableHlo.after opsC8 X (Proc.devRef .tc r) = X (Proc.devRef .tc r) :=
  StableHlo.after_of_forall_not_mem (b := Proc.devRef .tc r) _ _ (List.forall_iff_forall_mem.mp (by
    simp only [opsC8, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c9_keep (hr : r.idx.val < 294 ∨ 323 < r.idx.val) (X : Valuation τ sig (Elt F)) :
    StableHlo.after opsC9 X (Proc.devRef .tc r) = X (Proc.devRef .tc r) :=
  StableHlo.after_of_forall_not_mem (b := Proc.devRef .tc r) _ _ (List.forall_iff_forall_mem.mp (by
    simp only [opsC9, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c10_keep (hr : r.idx.val < 324 ∨ 353 < r.idx.val) (X : Valuation τ sig (Elt F)) :
    StableHlo.after opsC10 X (Proc.devRef .tc r) = X (Proc.devRef .tc r) :=
  StableHlo.after_of_forall_not_mem (b := Proc.devRef .tc r) _ _ (List.forall_iff_forall_mem.mp (by
    simp only [opsC10, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

theorem run_c11_keep (hr : r.idx.val < 354 ∨ 394 < r.idx.val) (X : Valuation τ sig (Elt F)) :
    StableHlo.after opsC11 X (Proc.devRef .tc r) = X (Proc.devRef .tc r) :=
  StableHlo.after_of_forall_not_mem (b := Proc.devRef .tc r) _ _ (List.forall_iff_forall_mem.mp (by
    simp only [opsC11, List.Forall, StableHlo.nullary_writes, StableHlo.unary_writes, StableHlo.binary_writes,
      StableHlo.ternary_writes, Finset.mem_singleton]
    repeat' apply And.intro
    all_goals exact StableHlo.devRef_ne_of_ne (fun e => by subst e; exact absurd hr (by decide))))

end Keep

section Reading

variable (m : (ℓ : Loc nD τ sig) → Buf (Elt Ideal) ℓ) (c : Dev nD)

def run_R0 : Valuation τ sig (Elt Ideal) := launchContents m c
def run_R1 : Valuation τ sig (Elt Ideal) := after opsC1 (run_R0 m c)
def run_R2 : Valuation τ sig (Elt Ideal) := after opsC2 (run_R1 m c)
def run_R3 : Valuation τ sig (Elt Ideal) := after opsC3 (run_R2 m c)
def run_R4 : Valuation τ sig (Elt Ideal) := after opsC4 (run_R3 m c)
def run_R5 : Valuation τ sig (Elt Ideal) := after opsC5 (run_R4 m c)
def run_R6 : Valuation τ sig (Elt Ideal) := after opsC6 (run_R5 m c)
def run_R7 : Valuation τ sig (Elt Ideal) := after opsC7 (run_R6 m c)
def run_R8 : Valuation τ sig (Elt Ideal) := after opsC8 (run_R7 m c)
def run_R9 : Valuation τ sig (Elt Ideal) := after opsC9 (run_R8 m c)
def run_R10 : Valuation τ sig (Elt Ideal) := after opsC10 (run_R9 m c)
def run_R11 : Valuation τ sig (Elt Ideal) := after opsC11 (run_R10 m c)

theorem run_after_all (b : Ref sig .tc) :
    after (run_opsAll (F := Ideal)) (launchContents m c) (Proc.devRef .tc b) = run_R11 m c (Proc.devRef .tc b) := by
  simp only [run_opsAll, StableHlo.after_append]
  rfl

theorem run_R0_apply (b : Ref sig .tc) : run_R0 m c (Proc.devRef .tc b) = m ((c.tc : Thread nD τ).loc b) := rfl

section Args

variable {r : Ref sig .tc} (hr : r.idx.val < 34)
include hr

theorem run_R1_arg : run_R1 m c (Proc.devRef .tc r) = run_R0 m c (Proc.devRef .tc r) := run_c1_keep (Or.inl hr) _
theorem run_R2_arg : run_R2 m c (Proc.devRef .tc r) = run_R0 m c (Proc.devRef .tc r) :=
  (run_c2_keep (Or.inl (by omega)) _).trans (run_R1_arg m c hr)
theorem run_R3_arg : run_R3 m c (Proc.devRef .tc r) = run_R0 m c (Proc.devRef .tc r) :=
  (run_c3_keep (Or.inl (by omega)) _).trans (run_R2_arg m c hr)
theorem run_R4_arg : run_R4 m c (Proc.devRef .tc r) = run_R0 m c (Proc.devRef .tc r) :=
  (run_c4_keep (Or.inl (by omega)) _).trans (run_R3_arg m c hr)
theorem run_R5_arg : run_R5 m c (Proc.devRef .tc r) = run_R0 m c (Proc.devRef .tc r) :=
  (run_c5_keep (Or.inl (by omega)) _).trans (run_R4_arg m c hr)
theorem run_R6_arg : run_R6 m c (Proc.devRef .tc r) = run_R0 m c (Proc.devRef .tc r) :=
  (run_c6_keep (Or.inl (by omega)) _).trans (run_R5_arg m c hr)
theorem run_R7_arg : run_R7 m c (Proc.devRef .tc r) = run_R0 m c (Proc.devRef .tc r) :=
  (run_c7_keep (Or.inl (by omega)) _).trans (run_R6_arg m c hr)
theorem run_R8_arg : run_R8 m c (Proc.devRef .tc r) = run_R0 m c (Proc.devRef .tc r) :=
  (run_c8_keep (Or.inl (by omega)) _).trans (run_R7_arg m c hr)
theorem run_R9_arg : run_R9 m c (Proc.devRef .tc r) = run_R0 m c (Proc.devRef .tc r) :=
  (run_c9_keep (Or.inl (by omega)) _).trans (run_R8_arg m c hr)
theorem run_R10_arg : run_R10 m c (Proc.devRef .tc r) = run_R0 m c (Proc.devRef .tc r) :=
  (run_c10_keep (Or.inl (by omega)) _).trans (run_R9_arg m c hr)
theorem run_R11_arg : run_R11 m c (Proc.devRef .tc r) = run_R0 m c (Proc.devRef .tc r) :=
  (run_c11_keep (Or.inl (by omega)) _).trans (run_R10_arg m c hr)

theorem run_arg_end : run_R11 m c (Proc.devRef .tc r) = m ((c.tc : Thread nD τ).loc r) :=
  (run_R11_arg m c hr).trans (run_R0_apply m c r)

end Args

theorem run_hu_at1 : run_R1 m c (Proc.devRef .tc main_v29) = Model.hu (argsR m c) := c1_val (run_R0 m c)
theorem run_hu_at2 : run_R2 m c (Proc.devRef .tc main_v29) = Model.hu (argsR m c) :=
  (run_c2_keep (r := main_v29) (Or.inl (by decide)) _).trans (run_hu_at1 m c)
theorem run_hu_at3 : run_R3 m c (Proc.devRef .tc main_v29) = Model.hu (argsR m c) :=
  (run_c3_keep (r := main_v29) (Or.inl (by decide)) _).trans (run_hu_at2 m c)

theorem run_hr_at2 : run_R2 m c (Proc.devRef .tc main_v59) = Model.hr (argsR m c) := by
  have h := c2_val (run_R1 m c)
  rw [run_R1_arg m c (r := main_arg1) (by decide),
    run_R1_arg m c (r := main_arg4) (by decide),
    run_R1_arg m c (r := main_arg5) (by decide),
    run_R1_arg m c (r := main_arg8) (by decide),
    run_R1_arg m c (r := main_arg9) (by decide)] at h
  exact h
theorem run_hr_at3 : run_R3 m c (Proc.devRef .tc main_v59) = Model.hr (argsR m c) :=
  (run_c3_keep (r := main_v59) (Or.inl (by decide)) _).trans (run_hr_at2 m c)

section InRange

variable (hin : Model.InRange (argsR m c))
include hin

theorem run_r1p_at3 : run_R3 m c (Proc.devRef .tc main_v83) = Model.r1p opsR (argsR m c) := by
  have h := c3_val (run_R2 m c) (by rw [run_R2_arg m c (r := main_arg30) (by decide)]; exact hin.eU)
  rw [run_hu_at2 m c, run_hr_at2 m c, run_R2_arg m c (r := main_arg30) (by decide),
    run_R2_arg m c (r := main_arg31) (by decide),
    run_R2_arg m c (r := main_arg10) (by decide),
    run_R2_arg m c (r := main_arg11) (by decide),
    run_R2_arg m c (r := main_arg12) (by decide)] at h
  exact h
theorem run_r1p_at4 : run_R4 m c (Proc.devRef .tc main_v83) = Model.r1p opsR (argsR m c) :=
  (run_c4_keep (r := main_v83) (Or.inl (by decide)) _).trans (run_r1p_at3 m c hin)
theorem run_r1p_at5 : run_R5 m c (Proc.devRef .tc main_v83) = Model.r1p opsR (argsR m c) :=
  (run_c5_keep (r := main_v83) (Or.inl (by decide)) _).trans (run_r1p_at4 m c hin)

theorem run_u1p_at4 : run_R4 m c (Proc.devRef .tc main_v107) = Model.u1p opsR (argsR m c) := by
  have h := c4_val (run_R3 m c) (by rw [run_R3_arg m c (r := main_arg31) (by decide)]; exact hin.eR)
  rw [run_hr_at3 m c, run_hu_at3 m c, run_R3_arg m c (r := main_arg30) (by decide),
    run_R3_arg m c (r := main_arg31) (by decide),
    run_R3_arg m c (r := main_arg13) (by decide),
    run_R3_arg m c (r := main_arg14) (by decide),
    run_R3_arg m c (r := main_arg15) (by decide)] at h
  exact h

theorem run_u1_at5 : run_R5 m c (Proc.devRef .tc main_v133) = Model.u1 opsR (argsR m c) := by
  have h := c5_val (run_R4 m c)
  rw [run_u1p_at4 m c hin, run_R4_arg m c (r := main_arg16) (by decide), run_R4_arg m c (r := main_arg17) (by decide)] at h
  exact h
theorem run_u1_at6 : run_R6 m c (Proc.devRef .tc main_v133) = Model.u1 opsR (argsR m c) :=
  (run_c6_keep (r := main_v133) (Or.inl (by decide)) _).trans (run_u1_at5 m c hin)
theorem run_u1_at7 : run_R7 m c (Proc.devRef .tc main_v133) = Model.u1 opsR (argsR m c) :=
  (run_c7_keep (r := main_v133) (Or.inl (by decide)) _).trans (run_u1_at6 m c hin)

theorem run_r1_at6 : run_R6 m c (Proc.devRef .tc main_v159) = Model.r1 opsR (argsR m c) := by
  have h := c6_val (run_R5 m c)
  rw [run_r1p_at5 m c hin, run_R5_arg m c (r := main_arg18) (by decide), run_R5_arg m c (r := main_arg19) (by decide)] at h
  exact h
theorem run_r1_at7 : run_R7 m c (Proc.devRef .tc main_v159) = Model.r1 opsR (argsR m c) :=
  (run_c7_keep (r := main_v159) (Or.inl (by decide)) _).trans (run_r1_at6 m c hin)

theorem run_zrp_at7 : run_R7 m c (Proc.devRef .tc main_v183) = Model.zrp opsR (argsR m c) := by
  have h := c7_val (run_R6 m c) (by rw [run_R6_arg m c (r := main_arg30) (by decide)]; exact hin.eU)
  rw [run_u1_at6 m c hin, run_r1_at6 m c hin, run_R6_arg m c (r := main_arg30) (by decide),
    run_R6_arg m c (r := main_arg31) (by decide),
    run_R6_arg m c (r := main_arg20) (by decide),
    run_R6_arg m c (r := main_arg21) (by decide),
    run_R6_arg m c (r := main_arg22) (by decide)] at h
  exact h
theorem run_zrp_at8 : run_R8 m c (Proc.devRef .tc main_v183) = Model.zrp opsR (argsR m c) :=
  (run_c8_keep (r := main_v183) (Or.inl (by decide)) _).trans (run_zrp_at7 m c hin)
theorem run_zrp_at9 : run_R9 m c (Proc.devRef .tc main_v183) = Model.zrp opsR (argsR m c) :=
  (run_c9_keep (r := main_v183) (Or.inl (by decide)) _).trans (run_zrp_at8 m c hin)

theorem run_zup_at8 : run_R8 m c (Proc.devRef .tc main_v207) = Model.zup opsR (argsR m c) := by
  have h := c8_val (run_R7 m c) (by rw [run_R7_arg m c (r := main_arg31) (by decide)]; exact hin.eR)
  rw [run_r1_at7 m c hin, run_u1_at7 m c hin, run_R7_arg m c (r := main_arg30) (by decide),
    run_R7_arg m c (r := main_arg31) (by decide),
    run_R7_arg m c (r := main_arg23) (by decide),
    run_R7_arg m c (r := main_arg24) (by decide),
    run_R7_arg m c (r := main_arg25) (by decide)] at h
  exact h

theorem run_zu_at9 : run_R9 m c (Proc.devRef .tc main_v232) = Model.zu opsR (argsR m c) := by
  have h := c9_val (run_R8 m c)
  rw [run_zup_at8 m c hin, run_R8_arg m c (r := main_arg26) (by decide), run_R8_arg m c (r := main_arg27) (by decide)] at h
  exact h
theorem run_zu_at10 : run_R10 m c (Proc.devRef .tc main_v232) = Model.zu opsR (argsR m c) :=
  (run_c10_keep (r := main_v232) (Or.inl (by decide)) _).trans (run_zu_at9 m c hin)

theorem run_zr_at10 : run_R10 m c (Proc.devRef .tc main_v257) = Model.zr opsR (argsR m c) := by
  have h := c10_val (run_R9 m c)
  rw [run_zrp_at9 m c hin, run_R9_arg m c (r := main_arg28) (by decide), run_R9_arg m c (r := main_arg29) (by decide)] at h
  exact h

theorem run_out_at11 : run_R11 m c (Proc.devRef .tc main_v283) = Model.out opsR (argsR m c) := by
  have h := c11_val (run_R10 m c) (by rw [run_R10_arg m c (r := main_arg32) (by decide)]; exact hin.lU) (by rw [run_R10_arg m c (r := main_arg33) (by decide)]; exact hin.lR)
  rw [run_zu_at10 m c hin, run_zr_at10 m c hin, run_R10_arg m c (r := main_arg32) (by decide), run_R10_arg m c (r := main_arg33) (by decide)] at h
  exact h

end InRange

end Reading

/-- With all indices in range the reference ends with the model's output in its result and its arguments unchanged. -/
theorem ref_value (m : (ℓ : Loc nD τ sig) → Buf (Elt Ideal) ℓ) (ρ : Dev nD → PrngReg)
    (hin : ∀ c : Dev nD, Model.InRange (argsR m c)) :
    θ_run defs (onTc (τ := τ) (main (F := Ideal))) ⟨m, fun _ => 0, ρ⟩ fun r => ∀ c : Dev nD,
      r.2.mem ((c.tc : Thread nD τ).loc main_v283) = Model.out opsR (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) :=
  (θ_run defs _ _).mono (fun _ h c => by
      have hv (b : Ref sig .tc) := (h c b).trans (run_after_all m c b)
      exact ⟨(hv main_v283).trans (run_out_at11 m c (hin c)),
        (hv main_arg0).trans (run_arg_end m c (r := main_arg0) (by decide)),
        (hv main_arg1).trans (run_arg_end m c (r := main_arg1) (by decide)),
        (hv main_arg2).trans (run_arg_end m c (r := main_arg2) (by decide)),
        (hv main_arg3).trans (run_arg_end m c (r := main_arg3) (by decide)),
        (hv main_arg4).trans (run_arg_end m c (r := main_arg4) (by decide)),
        (hv main_arg5).trans (run_arg_end m c (r := main_arg5) (by decide)),
        (hv main_arg6).trans (run_arg_end m c (r := main_arg6) (by decide)),
        (hv main_arg7).trans (run_arg_end m c (r := main_arg7) (by decide)),
        (hv main_arg8).trans (run_arg_end m c (r := main_arg8) (by decide)),
        (hv main_arg9).trans (run_arg_end m c (r := main_arg9) (by decide)),
        (hv main_arg10).trans (run_arg_end m c (r := main_arg10) (by decide)),
        (hv main_arg11).trans (run_arg_end m c (r := main_arg11) (by decide)),
        (hv main_arg12).trans (run_arg_end m c (r := main_arg12) (by decide)),
        (hv main_arg13).trans (run_arg_end m c (r := main_arg13) (by decide)),
        (hv main_arg14).trans (run_arg_end m c (r := main_arg14) (by decide)),
        (hv main_arg15).trans (run_arg_end m c (r := main_arg15) (by decide)),
        (hv main_arg16).trans (run_arg_end m c (r := main_arg16) (by decide)),
        (hv main_arg17).trans (run_arg_end m c (r := main_arg17) (by decide)),
        (hv main_arg18).trans (run_arg_end m c (r := main_arg18) (by decide)),
        (hv main_arg19).trans (run_arg_end m c (r := main_arg19) (by decide)),
        (hv main_arg20).trans (run_arg_end m c (r := main_arg20) (by decide)),
        (hv main_arg21).trans (run_arg_end m c (r := main_arg21) (by decide)),
        (hv main_arg22).trans (run_arg_end m c (r := main_arg22) (by decide)),
        (hv main_arg23).trans (run_arg_end m c (r := main_arg23) (by decide)),
        (hv main_arg24).trans (run_arg_end m c (r := main_arg24) (by decide)),
        (hv main_arg25).trans (run_arg_end m c (r := main_arg25) (by decide)),
        (hv main_arg26).trans (run_arg_end m c (r := main_arg26) (by decide)),
        (hv main_arg27).trans (run_arg_end m c (r := main_arg27) (by decide)),
        (hv main_arg28).trans (run_arg_end m c (r := main_arg28) (by decide)),
        (hv main_arg29).trans (run_arg_end m c (r := main_arg29) (by decide)),
        (hv main_arg30).trans (run_arg_end m c (r := main_arg30) (by decide)),
        (hv main_arg31).trans (run_arg_end m c (r := main_arg31) (by decide)),
        (hv main_arg32).trans (run_arg_end m c (r := main_arg32) (by decide)),
        (hv main_arg33).trans (run_arg_end m c (r := main_arg33) (by decide))⟩)
    (run_all (F := Ideal) m ρ)

end Cert.ReferenceIdeal.Hand

end
-- ==== Proof.Pre.lean ====
import proofs.«425228_j78254304133410_2_alg».proof.Defs
import proofs.«425228_j78254304133410_2_alg».proof.Proof.Gen.Pre_finite_inputs
import proofs.«425228_j78254304133410_2_alg».proof.Proof.KState
import proofs.«425228_j78254304133410_2_alg».proof.Proof.RState
import Idealize.ShloMosaic.Lib.ValueIdx
import Idealize.ShloMosaic.Lib.ReduceAll
import Idealize.ShloMosaic.Lib.StableHlo.Predicate

set_option maxRecDepth 16384

noncomputable section

namespace Cert.Bridge

open Idealize.ShloMosaic Idealize.ShloMosaic.TcCoe Idealize.ShloMosaic.ValueIdx Idealize.SL.Sem

section Decode

open Idealize.ShloMosaic Idealize.ShloMosaic.ValueIdx
open Cert.Pre_finite_inputs

local instance subsingleton_scalar_idx : Subsingleton S_.Idx := ⟨fun a b => funext fun d => d.elim0⟩

theorem below_of_all {s : Shape} {axes : List (Fin s.rank)} (N : Nat) (hN : N < 2 ^ 31) (a : IVec s 32)
    (hb : S_.BroadcastsInDim s (![] : Fin 0 → Fin s.rank)) (hr : s.ReducesTo axes S_) (h0 : 0 < S_.numel)
    (init : IVec S_ 1)
    (h : Host.reduce IntOp.andi
          (andi (cmpi .sge a (broadcastInDim s ![] hb (constantI S_ 32 0#32)))
                (cmpi .slt a (broadcastInDim s ![] hb (constantI S_ 32 (BitVec.ofNat 32 N))))) init hr h0 ix0 = 1#1)
    (i : s.Idx) : 0 ≤ (a i).toInt ∧ (a i).toInt < (N : Int) := by
  have hi := Host.reduce_andi_all _ init hr h0 ix0 h i
  have hi' : IntOp.andi (IntOp.cmpi .sge (a i) 0#32) (IntOp.cmpi .slt (a i) (BitVec.ofNat 32 N)) = 1#1 := hi
  obtain ⟨hge, hlt⟩ := IntOp.andi_eq_one.1 hi'
  rw [IntOp.cmpi_sge] at hge
  rw [IntOp.cmpi_slt, StableHlo.Predicate.toInt_ofNat_small N hN] at hlt
  exact ⟨by simpa using hge, hlt⟩

def Ranges (a30 a31 : IVec S1500000 32) (a32 a33 : IVec S500000 32) : Prop :=
  (∀ i, 0 ≤ (a30 i).toInt ∧ (a30 i).toInt < 100000) ∧ (∀ i, 0 ≤ (a31 i).toInt ∧ (a31 i).toInt < 250000) ∧
  (∀ i, 0 ≤ (a32 i).toInt ∧ (a32 i).toInt < 100000) ∧ (∀ i, 0 ≤ (a33 i).toInt ∧ (a33 i).toInt < 250000)

variable [Facts]

theorem part10_one (a33 : IVec S500000 32) (v169 : IVec S_ 1)
    (h : fn_part10 (F := Ideal) a33 v169 (constantI S_ 32 0#32) ix0 = 1#1) :
    v169 ix0 = 1#1 ∧ ∀ i, 0 ≤ (a33 i).toInt ∧ (a33 i).toInt < 250000 := by
  dsimp only [fn_part10] at h
  obtain ⟨h1, h2⟩ := IntOp.andi_eq_one.1 h
  exact ⟨h1, below_of_all 250000 (by decide) a33 _ _ _ _ h2⟩

theorem part9_one (a31 : IVec S1500000 32) (a32 a33 : IVec S500000 32) (v148 : IVec S_ 1) (v153 : IVec S1500000 1)
    (h : fn_part9 (F := Ideal) a31 a32 a33 v148 v153 ix0 = 1#1) :
    v148 ix0 = 1#1 ∧
    Host.reduce IntOp.andi v153 (constantI S_ 1 1#1) Facts.reducesTo_S1500000_S_d0 Facts.h_S_ ix0 = 1#1 ∧
    (∀ i, 0 ≤ (a31 i).toInt ∧ (a31 i).toInt < 250000) ∧ (∀ i, 0 ≤ (a32 i).toInt ∧ (a32 i).toInt < 100000) ∧
    (∀ i, 0 ≤ (a33 i).toInt ∧ (a33 i).toInt < 250000) := by
  dsimp only [fn_part9] at h
  obtain ⟨h169, h33⟩ := part10_one _ _ h
  obtain ⟨h162, h168⟩ := IntOp.andi_eq_one.1 h169
  obtain ⟨h155, h161⟩ := IntOp.andi_eq_one.1 h162
  obtain ⟨h148, h154⟩ := IntOp.andi_eq_one.1 h155
  exact ⟨h148, h154, below_of_all 250000 (by decide) a31 _ _ _ _ h161,
    below_of_all 100000 (by decide) a32 _ _ _ _ h168, h33⟩

theorem part8_ranges (a28 a29 : FVec Ideal S64 .f32) (a30 a31 : IVec S1500000 32) (a32 a33 : IVec S500000 32)
    (v133 : IVec S_ 1) (v136 : IVec S64 1)
    (h : fn_part8 (F := Ideal) a28 a29 a30 a31 a32 a33 v133 v136 ix0 = 1#1) : Ranges a30 a31 a32 a33 := by
  dsimp only [fn_part8] at h
  obtain ⟨-, h154, h31, h32, h33⟩ := part9_one _ _ _ _ _ h
  exact ⟨below_of_all 100000 (by decide) a30 _ _ _ _ h154, h31, h32, h33⟩

theorem ranges_of_fn
    (a0 : FVec Ideal S100000x64 .f32) (a1 : FVec Ideal S250000x128 .f32) (a2 : FVec Ideal S64x64 .f32)
    (a3 : FVec Ideal S64 .f32) (a4 : FVec Ideal S128x64 .f32) (a5 a6 a7 a8 a9 : FVec Ideal S64 .f32)
    (a10 : FVec Ideal S64x64 .f32) (a11 : FVec Ideal S64 .f32) (a12 a13 : FVec Ideal S64x64 .f32)
    (a14 : FVec Ideal S64 .f32) (a15 : FVec Ideal S64x64 .f32) (a16 a17 a18 a19 : FVec Ideal S64 .f32)
    (a20 : FVec Ideal S64x64 .f32) (a21 : FVec Ideal S64 .f32) (a22 a23 : FVec Ideal S64x64 .f32)
    (a24 : FVec Ideal S64 .f32) (a25 : FVec Ideal S64x64 .f32) (a26 a27 a28 a29 : FVec Ideal S64 .f32)
    (a30 a31 : IVec S1500000 32) (a32 a33 : IVec S500000 32)
    (h : fn (F := Ideal) a0 a1 a2 a3 a4 a5 a6 a7 a8 a9 a10 a11 a12 a13 a14 a15 a16 a17 a18 a19 a20 a21 a22 a23 a24 a25
          a26 a27 a28 a29 a30 a31 a32 a33 ix0 = 1#1) : Ranges a30 a31 a32 a33 := by
  dsimp only [fn, fn_part1, fn_part2, fn_part3, fn_part4, fn_part5, fn_part6, fn_part7] at h
  exact part8_ranges _ _ _ _ _ _ _ _ h

end Decode

/-- Under the precondition the four index arrays lie inside the tables they index. -/
theorem inRange_K [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Model.InRange (Cert.KernelIdeal.Chain.argsK m c) := by
  obtain ⟨h30, h31, h32, h33⟩ := ranges_of_fn _ _ _ _ _ _ _ _ _ _ _ _ _ _ _ _ _ _ _ _ _ _ _ _ _ _ _ _ _ _ _ _ _ _ (congrFun (h c) ix0)
  exact ⟨fun e => h30 (ix1 e), fun e => h31 (ix1 e), fun e => h32 (ix1 e), fun e => h33 (ix1 e)⟩

theorem inRange_R [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Model.InRange (Cert.ReferenceIdeal.Hand.argsR m c) := by
  obtain ⟨h30, h31, h32, h33⟩ := ranges_of_fn _ _ _ _ _ _ _ _ _ _ _ _ _ _ _ _ _ _ _ _ _ _ _ _ _ _ _ _ _ _ _ _ _ _ (congrFun (h c) ix0)
  exact ⟨fun e => h30 (ix1 e), fun e => h31 (ix1 e), fun e => h32 (ix1 e), fun e => h33 (ix1 e)⟩

end Cert.Bridge

end
-- ==== Proof.Bridge.lean ====
import proofs.«425228_j78254304133410_2_alg».proof.Proof.KState
import proofs.«425228_j78254304133410_2_alg».proof.Proof.RState

noncomputable section

namespace Cert.Bridge

open Idealize.ShloMosaic Idealize.ShloMosaic.TcCoe Idealize.SL.Sem

theorem ops_eq : Cert.ReferenceIdeal.Hand.opsR = Cert.KernelIdeal.Chain.opsK := rfl

/-- Memories that agree on the 34 arguments yield one argument record. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) :
    Cert.ReferenceIdeal.Hand.argsR m' c = Cert.KernelIdeal.Chain.argsK m c := by
  obtain ⟨h0, h1, h2, h3, h4, h5, h6, h7, h8, h9, h10, h11, h12, h13, h14, h15, h16, h17, h18, h19, h20, h21, h22, h23, h24, h25, h26, h27, h28, h29, h30, h31, h32, h33⟩ := h
  simp only [Cert.ReferenceIdeal.Hand.argsR, Cert.KernelIdeal.Chain.argsK, h0, h1, h2, h3, h4, h5, h6, h7, h8, h9, h10, h11, h12, h13, h14, h15, h16, h17, h18, h19, h20, h21, h22, h23, h24, h25, h26, h27, h28, h29, h30, h31, h32, h33]

end Cert.Bridge

end
-- ==== Proof.lean ====
import proofs.«425228_j78254304133410_2_alg».proof.Defs
import proofs.«425228_j78254304133410_2_alg».proof.Proof.Gen.Kernel
import proofs.«425228_j78254304133410_2_alg».proof.Proof.Gen.Kernel.Frame
import proofs.«425228_j78254304133410_2_alg».proof.Proof.Gen.KernelIdeal
import proofs.«425228_j78254304133410_2_alg».proof.Proof.Gen.KernelIdeal.Frame
import proofs.«425228_j78254304133410_2_alg».proof.Proof.Gen.ReferenceIdeal
import proofs.«425228_j78254304133410_2_alg».proof.Proof.Gen.Pre_finite_inputs
import proofs.«425228_j78254304133410_2_alg».proof.Proof.KChain
import proofs.«425228_j78254304133410_2_alg».proof.Proof.RRun
import proofs.«425228_j78254304133410_2_alg».proof.Proof.Pre
import proofs.«425228_j78254304133410_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ hpre =>
  (θ_run Cert.ReferenceIdeal.defs _ _).mono (fun _ h c => (h c).2)
    (Cert.ReferenceIdeal.Hand.ref_value m ρ (fun c => Cert.Bridge.inRange_R m hpre c))

/-- Both idealized programs end at the model's output of the shared arguments. -/
theorem algebraic : Cert.algebraic_KernelIdeal_ReferenceIdeal := by
  intro m g m' g' hpre hagree
  have hinK : ∀ c, Cert.Model.InRange (Cert.KernelIdeal.Chain.argsK m c) := fun c => Cert.Bridge.inRange_K m hpre c
  have hargs : ∀ c, Cert.ReferenceIdeal.Hand.argsR m' c = Cert.KernelIdeal.Chain.argsK m c :=
    fun c => Cert.Bridge.args_eq m m' c (hagree c)
  refine ⟨fun c => Cert.Model.out Cert.KernelIdeal.Chain.opsK (Cert.KernelIdeal.Chain.argsK m c),
    Cert.KernelIdeal.Chain.kernel_run m g hinK, ?_⟩
  refine (θ_run Cert.ReferenceIdeal.defs _ _).mono (fun _ h c => ⟨(h c).1.trans ?_, (h c).2⟩)
    (Cert.ReferenceIdeal.Hand.ref_value m' g' (fun c => by rw [hargs c]; exact hinK c))
  rw [hargs c, Cert.Bridge.ops_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
